-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg8 : FVec F S128 .f32) (main_arg9 : FVec F S128 .f32) (main_arg10 : FVec F S128 .f32) (main_arg11 : FVec F S128x40 .f32) (main_arg12 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg11
  let main_cst_18 : FVec F S_ .f32 := constant S_ .f32 0x7F800000#32
  let main_v50 : FVec F S128x40 .f32 := broadcastInDim S128x40 ![] bcast_S_S128x40 main_cst_18
  fn_part3 (F := F) main_arg12 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 120
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000, .i32⟩
  | .hbm, ⟨18, _⟩ => ⟨S850000, .i32⟩
  | .hbm, ⟨19, _⟩ => ⟨S850000, .i32⟩
  | .hbm, ⟨20, _⟩ => ⟨S_, .f32⟩
  | .hbm, ⟨21, _⟩ => ⟨S50000, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S50000x128, .f32⟩
  | .hbm, ⟨56, _⟩ => ⟨S850000x1, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S850000x1, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .f32⟩
  | .hbm, ⟨89, _⟩ => ⟨S850000x128, .f32⟩
  | .hbm, ⟨90, _⟩ => ⟨S850000x128, .f32⟩
  | .hbm, ⟨91, _⟩ => ⟨S_, .f32⟩
  | .hbm, ⟨92, _⟩ => ⟨S50000x128, .f32⟩
  | .hbm, ⟨93, _⟩ => ⟨S850000x1, .i32⟩
  | .hbm, ⟨94, _⟩ => ⟨S50000x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S50000x128, .f32⟩
  | .hbm, ⟨101, _⟩ => ⟨S50000x40, .f32⟩
  | .hbm, ⟨102, _⟩ => ⟨S850000x1, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x40, .f32⟩
  | .hbm, ⟨112, _⟩ => ⟨S850000x40, .f32⟩
  | .hbm, ⟨113, _⟩ => ⟨S850000x40, .f32⟩
  | .hbm, ⟨114, _⟩ => ⟨S_, .f32⟩
  | .hbm, ⟨115, _⟩ => ⟨S50000x40, .f32⟩
  | .hbm, ⟨116, _⟩ => ⟨S850000x1, .i32⟩
  | .hbm, ⟨117, _⟩ => ⟨S50000x40, .f32⟩
  | .hbm, ⟨118, _⟩ => ⟨S1x40, .f32⟩
  | .hbm, ⟨119, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x40, .f32⟩
  | .local _ .vmem, ⟨45, _⟩ => ⟨S2000x40, .f32⟩
  | .local _ .vmem, ⟨46, _⟩ => ⟨S2000x40, .f32⟩
  | .local _ .vmem, ⟨47, _⟩ => ⟨S2000x40, .f32⟩
  | .local _ .vmem, ⟨48, _⟩ => ⟨S2000x40, .f32⟩
  | .local _ .vmem, ⟨49, _⟩ => ⟨S1x40, .f32⟩
  | .local _ .vmem, ⟨50, _⟩ => ⟨S2000x40, .f32⟩
  | .local _ .vmem, ⟨51, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49_0 : Ref sig .tc := ⟨.hbm, 75, rfl⟩
abbrev main_v49_1 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68_0 : Ref sig .tc := ⟨.hbm, 98, rfl⟩
abbrev main_v68_1 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_scratch0 : Ref sig .tc := ⟨.vmem, 31, rfl⟩
abbrev cc4_scratch1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  reduces_S2000x128_S128 : S2000x128.Reduces [0] S128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x40.size a ≤ S50000x40.size a
  hwx6_2 : ∀ i : grid6.Coords, EltTy.bits .f32 = 32 ∨ (Rect.block (s := S50000x40) S2000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S50000x40.size a
  hwx7_0 : ∀ i : grid7.Coords, EltTy.bits .f32 = 32 ∨ (Rect.block (s := S50000x40) S2000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x40.size a ≤ S1x40.size a
  hwx7_1 : ∀ i : grid7.Coords, EltTy.bits .f32 = 32 ∨ (Rect.block (s := S1x40) S1x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x40.size a ≤ S50000x40.size a
  hwx7_2 : ∀ i : grid7.Coords, EltTy.bits .f32 = 32 ∨ (Rect.block (s := S50000x40) S2000x40.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49_0) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49_1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v64) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68_0) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68_1) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v66) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v67) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v69) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v69) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v70) S2000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v83) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S1x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S2000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 272
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x40, .f32⟩
  | 12 => ⟨S40, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S50000, .i32⟩
  | 19 => ⟨S850000, .i32⟩
  | 20 => ⟨S850000, .i32⟩
  | 21 => ⟨S_, .f32⟩
  | 22 => ⟨S50000, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000, .i32⟩
  | 110 => ⟨S850000, .i32⟩
  | 111 => ⟨S850000, .i32⟩
  | 112 => ⟨S_, .f32⟩
  | 113 => ⟨S50000, .f32⟩
  | 114 => ⟨S850000, .f32⟩
  | 115 => ⟨S_, .f32⟩
  | 116 => ⟨S50000, .f32⟩
  | 117 => ⟨S850000x1, .i32⟩
  | 118 => ⟨S50000, .f32⟩
  | 119 => ⟨S_, .f32⟩
  | 120 => ⟨S50000, .f32⟩
  | 121 => ⟨S50000, .i1⟩
  | 122 => ⟨S50000, .f32⟩
  | 123 => ⟨S_, .f32⟩
  | 124 => ⟨S_, .f32⟩
  | 125 => ⟨S50000, .f32⟩
  | 126 => ⟨S50000, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S850000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000, .f32⟩
  | 18 => ⟨S850000, .f32⟩
  | 19 => ⟨S850000x1, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x128, .f32⟩
  | 29 => ⟨S850000x128, .f32⟩
  | 30 => ⟨S850000x128, .f32⟩
  | 31 => ⟨S_, .f32⟩
  | 32 => ⟨S50000x128, .f32⟩
  | 33 => ⟨S850000x1, .i32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x40, .f32⟩
  | 72 => ⟨S50000, .i32⟩
  | 73 => ⟨S850000, .i32⟩
  | 74 => ⟨S850000, .i32⟩
  | 75 => ⟨S_, .f32⟩
  | 76 => ⟨S50000, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S850000x1, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x40, .f32⟩
  | 120 => ⟨S850000x40, .f32⟩
  | 121 => ⟨S850000x40, .f32⟩
  | 122 => ⟨S_, .f32⟩
  | 123 => ⟨S50000x40, .f32⟩
  | 124 => ⟨S850000x1, .i32⟩
  | 125 => ⟨S50000x40, .f32⟩
  | 126 => ⟨S1x40, .f32⟩
  | 127 => ⟨S50000x40, .f32⟩
  | _ => ⟨S50000x128, .f32⟩

abbrev hbmTy0_2 (i : Nat) : BufTy := match i % 128 with
  | 0 => ⟨S50000x40, .f32⟩
  | 1 => ⟨S_, .f32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x40, .f32⟩
  | 8 => ⟨S50000x40, .f32⟩
  | 9 => ⟨S50000x40, .f32⟩
  | 10 => ⟨S_, .f32⟩
  | 11 => ⟨S50000, .f32⟩
  | 12 => ⟨S50000x1, .f32⟩
  | 13 => ⟨S50000x1, .f32⟩
  | 14 => ⟨S50000x40, .f32⟩
  | 15 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_call2_v0 : Ref sig .tc := ⟨.hbm, 124, rfl⟩
abbrev main_call2_v1 : Ref sig .tc := ⟨.hbm, 125, rfl⟩
abbrev main_v87 : Ref sig .tc := ⟨.hbm, 126, rfl⟩
abbrev main_c_18 : Ref sig .tc := ⟨.hbm, 127, rfl⟩
abbrev main_v88 : Ref sig .tc := ⟨.hbm, 128, rfl⟩
abbrev main_v89 : Ref sig .tc := ⟨.hbm, 129, rfl⟩
abbrev main_c_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_20 : Ref sig .tc := ⟨.hbm, 137, rfl⟩
abbrev main_v96 : Ref sig .tc := ⟨.hbm, 138, rfl⟩
abbrev main_v97 : Ref sig .tc := ⟨.hbm, 139, rfl⟩
abbrev main_c_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_22 : Ref sig .tc := ⟨.hbm, 148, rfl⟩
abbrev main_v105 : Ref sig .tc := ⟨.hbm, 149, rfl⟩
abbrev main_v106 : Ref sig .tc := ⟨.hbm, 150, rfl⟩
abbrev main_c_23 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_24 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_25 : Ref sig .tc := ⟨.hbm, 166, rfl⟩
abbrev main_v120 : Ref sig .tc := ⟨.hbm, 167, rfl⟩
abbrev main_cst_26 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_27 : Ref sig .tc := ⟨.hbm, 175, rfl⟩
abbrev main_v127 : Ref sig .tc := ⟨.hbm, 176, rfl⟩
abbrev main_cst_28 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_29 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_call3_cst : Ref sig .tc := ⟨.hbm, 196, rfl⟩
abbrev main_call3_v0 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_30 : Ref sig .tc := ⟨.hbm, 203, rfl⟩
abbrev main_v150 : Ref sig .tc := ⟨.hbm, 204, rfl⟩
abbrev main_v151 : Ref sig .tc := ⟨.hbm, 205, rfl⟩
abbrev main_cst_31 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_32 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_cst_33 : Ref sig .tc := ⟨.hbm, 214, rfl⟩
abbrev main_call4_v0 : Ref sig .tc := ⟨.hbm, 215, rfl⟩
abbrev main_call4_v1 : Ref sig .tc := ⟨.hbm, 216, rfl⟩
abbrev main_v158 : Ref sig .tc := ⟨.hbm, 217, rfl⟩
abbrev main_c_34 : Ref sig .tc := ⟨.hbm, 218, rfl⟩
abbrev main_v159 : Ref sig .tc := ⟨.hbm, 219, rfl⟩
abbrev main_v160 : Ref sig .tc := ⟨.hbm, 220, rfl⟩
abbrev main_c_35 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_c_36 : Ref sig .tc := ⟨.hbm, 228, rfl⟩
abbrev main_v167 : Ref sig .tc := ⟨.hbm, 229, rfl⟩
abbrev main_v168 : Ref sig .tc := ⟨.hbm, 230, rfl⟩
abbrev main_c_37 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_c_38 : Ref sig .tc := ⟨.hbm, 239, rfl⟩
abbrev main_v176 : Ref sig .tc := ⟨.hbm, 240, rfl⟩
abbrev main_v177 : Ref sig .tc := ⟨.hbm, 241, rfl⟩
abbrev main_c_39 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_40 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_call5_cst : Ref sig .tc := ⟨.hbm, 257, rfl⟩
abbrev main_call5_v0 : Ref sig .tc := ⟨.hbm, 258, rfl⟩
abbrev main_call5_cst_0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_call5_v5 : Ref sig .tc := ⟨.hbm, 264, rfl⟩
abbrev main_call5_v6 : Ref sig .tc := ⟨.hbm, 265, rfl⟩
abbrev main_call5_cst_1 : Ref sig .tc := ⟨.hbm, 266, rfl⟩
abbrev main_call5_v7 : Ref sig .tc := ⟨.hbm, 267, rfl⟩
abbrev main_call5_v8 : Ref sig .tc := ⟨.hbm, 268, rfl⟩
abbrev main_call5_v9 : Ref sig .tc := ⟨.hbm, 269, rfl⟩
abbrev main_call5_v10 : Ref sig .tc := ⟨.hbm, 270, rfl⟩
abbrev main_v191 : Ref sig .tc := ⟨.hbm, 271, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Bits.Reg0Matmul.lean ====
/-
  The first matrix product of the network, x · W₁.
  A pipelined region over 25 grid points, 2000 rows at a time: at a point the body reads its block of the
  left operand and the whole of the right operand (fetched once and left in place) and overwrites its block
  of the result with one stored value, the product of the two (both factors narrowed to bf16 first).
  Stated here, at any contents V the region is entered from: the blocks, what the body leaves, the body's
  triple, the pipeline's proof data and the body obligation at every point.
-/
import proofs.«158427_j57105885167694_2_alg».proof.Proof.Gen.Kernel.Launch
import proofs.«158427_j57105885167694_2_alg».proof.Proof.Gen.Kernel.Skeleton
import proofs.«158427_j57105885167694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's block is in its staging buffer when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is in its staging buffer at every point: fetched at the first, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_o : Rect S2000x128 := Rect.unit (s := S2000x128) ![0, 0] S2000x128.size inb_S2000x128_S2000x128_0_0

/-- The result block after the body: the body's one stored value of the two blocks read, over the whole block. -/
def out0_2 (x0 : Vec F S2000x128 .f32) (x1 : Vec F S128x128 .f32) : Vec F S2000x128 .f32 :=
  View.canon [⟨r0_o, k0_pay1 (View.ld x0 r0_x) (View.ld x1 r0_w)⟩]

theorem cover0_2 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole staging buffers: both inputs are handed back as they were and the result's buffer
    holds that value. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region's pipeline on core c: the arrays as the region finds them; after the body
    each input's buffer at its block and the result's at the stored value of the blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region's pipeline, at every point. -/
theorem body_obligation0 (c : Dev nD) : BodyObligation (dat0 (F := F) V c) (defs₀ (F := F)) Variants.none () Set.univ := fun t => by
  rw [bigSep_W0, bigSep_W0]
  exact sound_body0 V c t

/-- Before the first point the region's invariant is the class's: the kernel has no scratch of its own to name. -/
theorem hin0 (c : Dev nD) : Pipeline.ΦA spec0 c ⊢ (dat0 (F := F) V c).Φ 0 := BI.Entails.refl _
/-- After the last point it is the class's still. -/
theorem hout0 (c : Dev nD) : (dat0 (F := F) V c).Φ (Fin.last cfg0.N) ⊢ Pipeline.ΦA spec0 c := BI.Entails.refl _

end Cert.Kernel.Reg

end
-- ==== Proof.Bits.Reg1Stats.lean ====
/-
  The batch-norm statistics of the first layer as a pipelined region: 25 blocks of 2000 rows of the aggregated
  features x (50000 × 128), with the bias row b (1 × 128) added to every row. Two rows are carried from block to
  block in buffers of the kernel's own: per column,
      S ← S + Σ_rows (x + b),      Q ← Q + Σ_rows (x + b)².
  The first block zeroes S and Q before it accumulates; the last block, after it has accumulated, turns the sums
  into the two results,
      mean = S / 50000,      variance = max(Q / 50000 − mean², 0),
  and stores them into the two result windows, which no other block stores into and which the pipeline writes
  back after the last block only. So a point is in one of three cases — first block, middle block, last block —,
  and the body is run once per case; what the carried rows and the result rows hold after each point is the
  accumulation of those runs over the points, and the region's invariant carries S and Q at that accumulation from
  one point to the next. Stated here at any contents V the region is entered from: the blocks, the three runs, the
  accumulation, the invariant, the pipeline's proof data and the body obligation at every point.
-/
import proofs.«158427_j57105885167694_2_alg».proof.Proof.Gen.Kernel.Launch
import proofs.«158427_j57105885167694_2_alg».proof.Proof.Gen.Kernel.Skeleton
import proofs.«158427_j57105885167694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditionals, in closed form over the 25 points -/

/-- The first conditional's test, from the grid coordinate: "this is block 0". -/
abbrev first1 (i : grid1.Coords) : Prop :=
  (Scalar.cmpi .ne (Scalar.extui (Scalar.cmpi .eq (BitVec.ofNat 32 (i 0).val) 0#32)) 0#32) = 1#1
/-- The second conditional's test: "this is block 24". -/
abbrev last1 (i : grid1.Coords) : Prop := k1_cond2 i = 1#1

theorem first1_iff : ∀ t : Fin cfg1.N, first1 (grid1.coords t) ↔ t.val = 0 :=
  (by decide +kernel : ∀ t : Fin grid1.N, first1 (grid1.coords t) ↔ t.val = 0)
theorem last1_iff : ∀ t : Fin cfg1.N, last1 (grid1.coords t) ↔ t.val = 24 :=
  (by decide +kernel : ∀ t : Fin grid1.N, last1 (grid1.coords t) ↔ t.val = 24)

/-- The two carried rows, as the body is passed them: whole buffers of the kernel's own. -/
abbrev scM1_0 : Memref sig .tc .vmem S1x128 .f32 := Memref.whole cc1_scratch0
abbrev scM1_1 : Memref sig .tc .vmem S1x128 .f32 := Memref.whole cc1_scratch1

set_option maxHeartbeats 1000000 in
/-- The body at the first block (first conditional taken, second not). The block of features and the bias row are
    handed back as they were, the two result rows (not stored into) too; the two carried rows, held at anything,
    end with the pieces the stores leave, which the run itself determines. -/
noncomputable def bodyRun1_A (c : Dev nD) (i : grid1.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : first1 i) (hl : ¬last1 i) (x : Vec F S2000x128 .f32) (b : Vec F S1x128 .f32) :
    Σ' (LS : List (View.Piece (Elt F) S1x128 .f32)), { LQ : List (View.Piece (Elt F) S1x128 .f32) //
      ∀ (m v : Vec F S1x128 .f32) (E : Set ℕ) (K : PUnit → sProp 𝕄),
        iprop(owns (c : Thread nD τ) a1 fullShare x ∗ owns (c : Thread nD τ) a2 fullShare b
            ∗ owns (c : Thread nD τ) a3 fullShare m ∗ owns (c : Thread nD τ) a4 fullShare v
            ∗ (∃ d, owns (c : Thread nD τ) a5 fullShare d) ∗ (∃ d, owns (c : Thread nD τ) a6 fullShare d)
            ∗ (iprop(owns (c : Thread nD τ) a1 fullShare x ∗ owns (c : Thread nD τ) a2 fullShare b
                ∗ owns (c : Thread nD τ) a3 fullShare m ∗ owns (c : Thread nD τ) a4 fullShare v
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc1__bn_stats_kernel i a1 h1 a2 h2 a3 h3 a4 h4 a5 h5 a6 h6) K } := by
  refine ⟨?_, ?_, fun m v E K => ?run⟩
  case run =>
    simp only [cc1__bn_stats_kernel_eq_skeleton]; unfold cc1__bn_stats_kernel_skel
    unfold owns
    iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
    obtain rfl := h1.eq_unread e1; obtain rfl := h2.eq_unread e2; obtain rfl := h3.eq_unread e3; obtain rfl := h4.eq_unread e4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in
/-- The body at a middle block (neither conditional taken). Inputs and the two result rows are handed back as they
    were; the carried rows, held at what the block before left, end with the pieces of this block's two stores. -/
noncomputable def bodyRun1_B (c : Dev nD) (i : grid1.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : ¬first1 i) (hl : ¬last1 i) (x : Vec F S2000x128 .f32) (b : Vec F S1x128 .f32) (s q : Vec F S1x128 .f32) :
    Σ' (LS : List (View.Piece (Elt F) S1x128 .f32)), { LQ : List (View.Piece (Elt F) S1x128 .f32) //
      ∀ (m v : Vec F S1x128 .f32) (E : Set ℕ) (K : PUnit → sProp 𝕄),
        iprop(owns (c : Thread nD τ) a1 fullShare x ∗ owns (c : Thread nD τ) a2 fullShare b
            ∗ owns (c : Thread nD τ) a3 fullShare m ∗ owns (c : Thread nD τ) a4 fullShare v
            ∗ owns (c : Thread nD τ) a5 fullShare s ∗ owns (c : Thread nD τ) a6 fullShare q
            ∗ (iprop(owns (c : Thread nD τ) a1 fullShare x ∗ owns (c : Thread nD τ) a2 fullShare b
                ∗ owns (c : Thread nD τ) a3 fullShare m ∗ owns (c : Thread nD τ) a4 fullShare v
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc1__bn_stats_kernel i a1 h1 a2 h2 a3 h3 a4 h4 a5 h5 a6 h6) K } := by
  refine ⟨?_, ?_, fun m v E K => ?run⟩
  case run =>
    simp only [cc1__bn_stats_kernel_eq_skeleton]; unfold cc1__bn_stats_kernel_skel
    unfold owns
    iintro ⟨⟨%f1, %e1, H1⟩, ⟨%f2, %e2, H2⟩, ⟨%f3, %e3, H3⟩, ⟨%f4, %e4, H4⟩, ⟨%f5, %e5, H5⟩, ⟨%f6, %e6, H6⟩, Hk⟩
    obtain rfl := h1.eq_unread e1; obtain rfl := h2.eq_unread e2; obtain rfl := h3.eq_unread e3; obtain rfl := h4.eq_unread e4
    obtain rfl := h5.eq_unread e5; obtain rfl := h6.eq_unread e6
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in
/-- The body at the last block (second conditional taken, first not). Inputs are handed back as they were; the
    carried rows, held at what the block before left, end with the pieces of this block's two stores; the two
    result rows, held at anything, end with the pieces of the stores of the mean and of the clamped variance. -/
noncomputable def bodyRun1_C (c : Dev nD) (i : grid1.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : ¬first1 i) (hl : last1 i) (x : Vec F S2000x128 .f32) (b : Vec F S1x128 .f32) (s q : Vec F S1x128 .f32) :
    Σ' (LM : List (View.Piece (Elt F) S1x128 .f32)) (LV : List (View.Piece (Elt F) S1x128 .f32))
       (LS : List (View.Piece (Elt F) S1x128 .f32)), { LQ : List (View.Piece (Elt F) S1x128 .f32) //
      ∀ (E : Set ℕ) (K : PUnit → sProp 𝕄),
        iprop(owns (c : Thread nD τ) a1 fullShare x ∗ owns (c : Thread nD τ) a2 fullShare b
            ∗ (∃ d, owns (c : Thread nD τ) a3 fullShare d) ∗ (∃ d, owns (c : Thread nD τ) a4 fullShare d)
            ∗ owns (c : Thread nD τ) a5 fullShare s ∗ owns (c : Thread nD τ) a6 fullShare q
            ∗ (iprop(owns (c : Thread nD τ) a1 fullShare x ∗ owns (c : Thread nD τ) a2 fullShare b
                ∗ (∃ f, a3.view.loc (c : Thread nD τ) ↦[a3.view.set]{fullShare} a3.view.writes (Elt F) f LM)
                ∗ (∃ f, a4.view.loc (c : Thread nD τ) ↦[a4.view.set]{fullShare} a4.view.writes (Elt F) f LV)
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc1__bn_stats_kernel i a1 h1 a2 h2 a3 h3 a4 h4 a5 h5 a6 h6) K } := by
  refine ⟨?_, ?_, ?_, ?_, fun E K => ?run⟩
  case run =>
    simp only [cc1__bn_stats_kernel_eq_skeleton]; unfold cc1__bn_stats_kernel_skel
    unfold owns
    iintro ⟨⟨%f1, %e1, H1⟩, ⟨%f2, %e2, H2⟩, ⟨%d3, %f3, -, H3⟩, ⟨%d4, %f4, -, H4⟩, ⟨%f5, %e5, H5⟩, ⟨%f6, %e6, H6⟩, Hk⟩
    obtain rfl := h1.eq_unread e1; obtain rfl := h2.eq_unread e2
    obtain rfl := h5.eq_unread e5; obtain rfl := h6.eq_unread e6
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    iexists _; iexact H6

/-! ## What each case leaves in the buffers it stores into

The contents a buffer ends with are a function of the pieces alone (the last store onto an index wins), whatever the
buffer held before: each list of pieces below tiles the 1 × 128 row, so it determines the whole row. -/

section pieces

variable (c : Dev nD) (i : grid1.Coords)
  (a1 : Memref sig .tc .vmem S2000x128 .f32) (h1 : a1.IsWhole) (a2 : Memref sig .tc .vmem S1x128 .f32) (h2 : a2.IsWhole)
  (a3 : Memref sig .tc .vmem S1x128 .f32) (h3 : a3.IsWhole) (a4 : Memref sig .tc .vmem S1x128 .f32) (h4 : a4.IsWhole)
  (a5 : Memref sig .tc .vmem S1x128 .f32) (h5 : a5.IsWhole) (a6 : Memref sig .tc .vmem S1x128 .f32) (h6 : a6.IsWhole)
  (x : Vec F S2000x128 .f32) (b s q : Vec F S1x128 .f32)

/-- First block: the pieces left in the row of sums tile it; -/
theorem tilesS1_A (hf : first1 i) (hl : ¬last1 i) :
    ∀ y : S1x128.Idx, ∃ p ∈ (bodyRun1_A c i a1 h1 a2 h2 a3 h3 a4 h4 a5 h5 a6 h6 hf hl x b).1, y ∈ p.1.set :=
  fun y => View.cover_of_tiledL (bodyRun1_A c i a1 h1 a2 h2 a3 h3 a4 h4 a5 h5 a6 h6 hf hl x b).1 S1x128.size (by sl_kernel_rfl) y
/-- and so do those left in the row of sums of squares. -/
theorem tilesQ1_A (hf : first1 i) (hl : ¬last1 i) :
    ∀ y : S1x128.Idx, ∃ p ∈ (bodyRun1_A c i a1 h1 a2 h2 a3 h3 a4 h4 a5 h5 a6 h6 hf hl x b).2.1, y ∈ p.1.set :=
  fun y => View.cover_of_tiledL (bodyRun1_A c i a1 h1 a2 h2 a3 h3 a4 h4 a5 h5 a6 h6 hf hl x b).2.1 S1x128.size (by sl_kernel_rfl) y

/-- Middle block: the same for its one store into each carried row. -/
theorem tilesS1_B (hf : ¬first1 i) (hl : ¬last1 i) :
    ∀ y : S1x128.Idx, ∃ p ∈ (bodyRun1_B c i a1 h1 a2 h2 a3 h3 a4 h4 a5 h5 a6 h6 hf hl x b s q).1, y ∈ p.1.set :=
  fun y => View.cover_of_tiledL (bodyRun1_B c i a1 h1 a2 h2 a3 h3 a4 h4 a5 h5 a6 h6 hf hl x b s q).1 S1x128.size (by sl_kernel_rfl) y
theorem tilesQ1_B (hf : ¬first1 i) (hl : ¬last1 i) :
    ∀ y : S1x128.Idx, ∃ p ∈ (bodyRun1_B c i a1 h1 a2 h2 a3 h3 a4 h4 a5 h5 a6 h6 hf hl x b s q).2.1, y ∈ p.1.set :=
  fun y => View.cover_of_tiledL (bodyRun1_B c i a1 h1 a2 h2 a3 h3 a4 h4 a5 h5 a6 h6 hf hl x b s q).2.1 S1x128.size (by sl_kernel_rfl) y

/-- Last block: the mean's row, the variance's row and the two carried rows are each tiled by what is stored. -/
theorem tilesM1_C (hf : ¬first1 i) (hl : last1 i) :
    ∀ y : S1x128.Idx, ∃ p ∈ (bodyRun1_C c i a1 h1 a2 h2 a3 h3 a4 h4 a5 h5 a6 h6 hf hl x b s q).1, y ∈ p.1.set :=
  fun y => View.cover_of_tiledL (bodyRun1_C c i a1 h1 a2 h2 a3 h3 a4 h4 a5 h5 a6 h6 hf hl x b s q).1 S1x128.size (by sl_kernel_rfl) y
theorem tilesV1_C (hf : ¬first1 i) (hl : last1 i) :
    ∀ y : S1x128.Idx, ∃ p ∈ (bodyRun1_C c i a1 h1 a2 h2 a3 h3 a4 h4 a5 h5 a6 h6 hf hl x b s q).2.1, y ∈ p.1.set :=
  fun y => View.cover_of_tiledL (bodyRun1_C c i a1 h1 a2 h2 a3 h3 a4 h4 a5 h5 a6 h6 hf hl x b s q).2.1 S1x128.size (by sl_kernel_rfl) y
theorem tilesS1_C (hf : ¬first1 i) (hl : last1 i) :
    ∀ y : S1x128.Idx, ∃ p ∈ (bodyRun1_C c i a1 h1 a2 h2 a3 h3 a4 h4 a5 h5 a6 h6 hf hl x b s q).2.2.1, y ∈ p.1.set :=
  fun y => View.cover_of_tiledL (bodyRun1_C c i a1 h1 a2 h2 a3 h3 a4 h4 a5 h5 a6 h6 hf hl x b s q).2.2.1 S1x128.size (by sl_kernel_rfl) y
theorem tilesQ1_C (hf : ¬first1 i) (hl : last1 i) :
    ∀ y : S1x128.Idx, ∃ p ∈ (bodyRun1_C c i a1 h1 a2 h2 a3 h3 a4 h4 a5 h5 a6 h6 hf hl x b s q).2.2.2.1, y ∈ p.1.set :=
  fun y => View.cover_of_tiledL (bodyRun1_C c i a1 h1 a2 h2 a3 h3 a4 h4 a5 h5 a6 h6 hf hl x b s q).2.2.2.1 S1x128.size (by sl_kernel_rfl) y

end pieces

/-! ## The buffers at a point, and what the body leaves there -/

/-- Each window's current staging buffer at point t, as the pipeline passes it to the body, and its wholeness. -/
abbrev sg1_0 (t : Fin cfg1.N) : Memref sig .tc .vmem S2000x128 .f32 := win1_0.stage (cfg1.slots t 0)
abbrev sg1_1 (t : Fin cfg1.N) : Memref sig .tc .vmem S1x128 .f32 := win1_1.stage (cfg1.slots t 1)
abbrev sg1_2 (t : Fin cfg1.N) : Memref sig .tc .vmem S1x128 .f32 := win1_2.stage (cfg1.slots t 2)
abbrev sg1_3 (t : Fin cfg1.N) : Memref sig .tc .vmem S1x128 .f32 := win1_3.stage (cfg1.slots t 3)
abbrev wh1_0 (t : Fin cfg1.N) : (sg1_0 t).IsWhole := hstage1_0 ((cfg1.slots t 0).cast nbuf1_0)
abbrev wh1_1 (t : Fin cfg1.N) : (sg1_1 t).IsWhole := hstage1_1 ((cfg1.slots t 1).cast nbuf1_1)
abbrev wh1_2 (t : Fin cfg1.N) : (sg1_2 t).IsWhole := hstage1_2 ((cfg1.slots t 2).cast nbuf1_2)
abbrev wh1_3 (t : Fin cfg1.N) : (sg1_3 t).IsWhole := hstage1_3 ((cfg1.slots t 3).cast nbuf1_3)

/-- After the first block, from its features x and the bias b: ((mean's buffer, variance's buffer), (sums, sums of
    squares)). The two result buffers are not stored into at this block; their components are placeholders (the zero
    row) that nothing reads, since the pipeline neither writes them back nor hands them on from such a point. -/
def atA1 (c : Dev nD) (t : Fin cfg1.N) (hf : first1 (grid1.coords t)) (hl : ¬last1 (grid1.coords t))
    (x : Vec F S2000x128 .f32) (b : Vec F S1x128 .f32) :
    (Vec F S1x128 .f32 × Vec F S1x128 .f32) × (Vec F S1x128 .f32 × Vec F S1x128 .f32) :=
  ((k1_pay1 (F := F), k1_pay2 (F := F)),
   (View.canon (bodyRun1_A c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b).1,
    View.canon (bodyRun1_A c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b).2.1))

/-- After a middle block, from x, b and the sums s, q the block before left: the same four; the result buffers'
    components placeholders again. -/
def atB1 (c : Dev nD) (t : Fin cfg1.N) (hf : ¬first1 (grid1.coords t)) (hl : ¬last1 (grid1.coords t))
    (x : Vec F S2000x128 .f32) (b s q : Vec F S1x128 .f32) :
    (Vec F S1x128 .f32 × Vec F S1x128 .f32) × (Vec F S1x128 .f32 × Vec F S1x128 .f32) :=
  ((k1_pay1 (F := F), k1_pay2 (F := F)),
   (View.canon (bodyRun1_B c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).1,
    View.canon (bodyRun1_B c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).2.1))

/-- After the last block: the mean and the clamped variance in the result buffers, the completed sums in the
    carried rows. -/
def atC1 (c : Dev nD) (t : Fin cfg1.N) (hf : ¬first1 (grid1.coords t)) (hl : last1 (grid1.coords t))
    (x : Vec F S2000x128 .f32) (b s q : Vec F S1x128 .f32) :
    (Vec F S1x128 .f32 × Vec F S1x128 .f32) × (Vec F S1x128 .f32 × Vec F S1x128 .f32) :=
  ((View.canon (bodyRun1_C c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).1,
    View.canon (bodyRun1_C c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).2.1),
   (View.canon (bodyRun1_C c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).2.2.1,
    View.canon (bodyRun1_C c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).2.2.2.1))

theorem not_last1_of_zero (t : Fin cfg1.N) (hz : t.val = 0) : ¬last1 (grid1.coords t) := fun h => by
  have := (last1_iff t).mp h; omega
theorem not_first1_of_ne (t : Fin cfg1.N) (hz : t.val ≠ 0) : ¬first1 (grid1.coords t) := fun h => hz ((first1_iff t).mp h)
theorem not_last1_of_ne (t : Fin cfg1.N) (hz : t.val ≠ 24) : ¬last1 (grid1.coords t) := fun h => hz ((last1_iff t).mp h)

/-- THE ACCUMULATION over the blocks. After the body at point n: ((the mean's buffer, the variance's buffer), (the row
    of sums, the row of sums of squares)) — at point 0 the first block's case from zeroed rows; at a later point that
    point's case over the sums the point before left. -/
def outsAt1 (c : Dev nD) : (n : ℕ) → n < cfg1.N →
    (Vec F S1x128 .f32 × Vec F S1x128 .f32) × (Vec F S1x128 .f32 × Vec F S1x128 .f32)
  | 0, hn => atA1 c ⟨0, hn⟩ ((first1_iff ⟨0, hn⟩).mpr rfl) (not_last1_of_zero ⟨0, hn⟩ rfl) (iblk1 V c 0 ⟨0, hn⟩) (iblk1 V c 1 ⟨0, hn⟩)
  | n + 1, hn =>
    if hL : n + 1 = 24 then
      atC1 c ⟨n + 1, hn⟩ (not_first1_of_ne ⟨n + 1, hn⟩ (Nat.succ_ne_zero n)) ((last1_iff ⟨n + 1, hn⟩).mpr hL) (iblk1 V c 0 ⟨n + 1, hn⟩) (iblk1 V c 1 ⟨n + 1, hn⟩)
        (outsAt1 c n (Nat.lt_of_succ_lt hn)).2.1 (outsAt1 c n (Nat.lt_of_succ_lt hn)).2.2
    else
      atB1 c ⟨n + 1, hn⟩ (not_first1_of_ne ⟨n + 1, hn⟩ (Nat.succ_ne_zero n)) (not_last1_of_ne ⟨n + 1, hn⟩ hL) (iblk1 V c 0 ⟨n + 1, hn⟩) (iblk1 V c 1 ⟨n + 1, hn⟩)
        (outsAt1 c n (Nat.lt_of_succ_lt hn)).2.1 (outsAt1 c n (Nat.lt_of_succ_lt hn)).2.2

/-- At the first point. -/
theorem outsAt1_A (c : Dev nD) (t : Fin cfg1.N) (hz : t.val = 0) :
    outsAt1 V c t.val t.isLt = atA1 c t ((first1_iff t).mpr hz) (not_last1_of_zero t hz) (iblk1 V c 0 t) (iblk1 V c 1 t) := by
  obtain ⟨n, hn⟩ := t
  cases n with
  | zero => rfl
  | succ n => exact absurd hz (Nat.succ_ne_zero n)

/-- At a middle point: over the sums of the point before. -/
theorem outsAt1_B (c : Dev nD) (t : Fin cfg1.N) (h0 : t.val ≠ 0) (hL : t.val ≠ 24) :
    outsAt1 V c t.val t.isLt = atB1 c t (not_first1_of_ne t h0) (not_last1_of_ne t hL) (iblk1 V c 0 t) (iblk1 V c 1 t)
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd rfl h0
  | succ n => exact (dif_neg hL).trans rfl

/-- At the last point: over the sums of the point before. -/
theorem outsAt1_C (c : Dev nD) (t : Fin cfg1.N) (h0 : t.val ≠ 0) (hL : t.val = 24) :
    outsAt1 V c t.val t.isLt = atC1 c t (not_first1_of_ne t h0) ((last1_iff t).mpr hL) (iblk1 V c 0 t) (iblk1 V c 1 t)
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd rfl h0
  | succ n => exact (dif_pos hL).trans rfl

/-! ## The region's invariant -/

/-- What the region is entered with, its two carried rows singled out: each whole at some contents, beside every
    other scoped buffer (unopened) and the generator's register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

/-- The invariant before position n: before the first point what the region is entered with (the carried rows at
    anything); before a later one the carried rows at the sums the point before left, the rest as it was. -/
def Phi1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2)
      ∗ Pipeline.scopedRestBut (Ix := Unit) (Name := ℕ) (U := UR sig nD τ) (Lvl := ℕ) (Val := Elt F) spec1 c [cc1_scratch0, cc1_scratch1])
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1_0 fullShare (outsAt1 V c n hn).2.1 ∗ owns (c : Thread nD τ) scM1_1 fullShare (outsAt1 V c n hn).2.2)
      ∗ Pipeline.scopedRestBut (Ix := Unit) (Name := ℕ) (U := UR sig nD τ) (Lvl := ℕ) (Val := Elt F) spec1 c [cc1_scratch0, cc1_scratch1])
      ∗ (∃ r, prngReg c r)) := rfl

theorem Phi1_pos (c : Dev nD) (n : ℕ) (h : n ≤ cfg1.N) (hz : n ≠ 0) :
    Phi1 V c n h = iprop(iprop(iprop(owns (c : Thread nD τ) scM1_0 fullShare (outsAt1 V c (n - 1) (by omega)).2.1 ∗ owns (c : Thread nD τ) scM1_1 fullShare (outsAt1 V c (n - 1) (by omega)).2.2)
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-! ## The pipeline's proof data -/

/-- The proof data of this region's pipeline on core c: the arrays as the region finds them; after the body at a point
    each input's buffer at its block, the two results' at the accumulation's first pair; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1.1
    | ⟨3, _⟩ => (outsAt1 V c t.val t.isLt).1.2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1.1 := by dsimp only [dat1]
theorem after1_3 (c : Dev nD) (t : Fin cfg1.N) : (dat1 V c).after 3 t = (outsAt1 V c t.val t.isLt).1.2 := by dsimp only [dat1]

/-- The block of features is in its staging buffer when the body starts (fetched at every point). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- The bias row is in its staging buffer at every point: fetched at the first, its block index never moves. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## Where the result windows are idle -/

theorem live1_0 : ∀ t : Fin cfg1.N, cfg1.idle 0 (grid1.coords t) = false := fun _ => rfl
theorem live1_1 : ∀ t : Fin cfg1.N, cfg1.idle 1 (grid1.coords t) = false := fun _ => rfl
/-- Off the last block nothing is stored into the mean's window, and the pipeline does not write it back; -/
theorem idle1_2 : ∀ t : Fin cfg1.N, ¬last1 (grid1.coords t) → cfg1.idle 2 (grid1.coords t) = true := by decide +kernel
theorem keep1_2 : ∀ t : Fin cfg1.N, ¬last1 (grid1.coords t) → (cfg1.win 2).flush t = false := by decide +kernel
/-- nor into the variance's. -/
theorem idle1_3 : ∀ t : Fin cfg1.N, ¬last1 (grid1.coords t) → cfg1.idle 3 (grid1.coords t) = true := by decide +kernel
theorem keep1_3 : ∀ t : Fin cfg1.N, ¬last1 (grid1.coords t) → (cfg1.win 3).flush t = false := by decide +kernel
/-- At the last block both are stored. -/
theorem live1_2 : ∀ t : Fin cfg1.N, last1 (grid1.coords t) → cfg1.idle 2 (grid1.coords t) = false := by decide +kernel
theorem live1_3 : ∀ t : Fin cfg1.N, last1 (grid1.coords t) → cfg1.idle 3 (grid1.coords t) = false := by decide +kernel

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (sg1_0 t) fullShare ((dat1 V c).before 0 t d))
    ∗ (∃ d, owns (c : Thread nD τ) (sg1_1 t) fullShare ((dat1 V c).before 1 t d))
    ∗ (∃ d, owns (c : Thread nD τ) (sg1_2 t) fullShare ((dat1 V c).before 2 t d))
    ∗ (∃ d, owns (c : Thread nD τ) (sg1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; which of the three cases the point is in is read
    off its number. At the first block the invariant hands over the carried rows at anything, later at the sums
    of the block before; the case's run applies, and the rows come back at this block's sums. Off the last block
    the two result buffers go through untouched; at the last they come back at the mean and the variance. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  have hN : t.val < 25 := lt_of_lt_of_eq t.isLt (show cfg1.N = 25 from N_1)
  rw [show (dat1 V c).leavesExact 0 t = owns (c : Thread nD τ) (sg1_0 t) fullShare ((dat1 V c).after 0 t) from by
    unfold Dat.leavesExact; rw [live1_0 t], after1_0]
  rw [show (dat1 V c).leavesExact 1 t = owns (c : Thread nD τ) (sg1_1 t) fullShare ((dat1 V c).after 1 t) from by
    unfold Dat.leavesExact; rw [live1_1 t], after1_1]
  rw [Phi1_castSucc V c t]
  by_cases hz : t.val = 0
  · -- the first block
    have hf : first1 (grid1.coords t) := (first1_iff t).mpr hz
    have hl : ¬last1 (grid1.coords t) := not_last1_of_zero t hz
    rw [Dat.leavesExact_idle (dat1 V c) 2 t (idle1_2 t hl) (keep1_2 t hl), Dat.leavesExact_idle (dat1 V c) 3 t (idle1_3 t hl) (keep1_3 t hl)]
    rw [outsAt1_A V c t hz]
    unfold atA1; (try dsimp only)
    rw [Phi1_zero V c _ _ hz, PhiA1_eq]
    iintro ⟨⟨⟨⟨HS, HQ⟩, Hr⟩, Hg⟩, Ho, ⟨%d0, H0⟩, ⟨%d1, H1⟩, ⟨%d2, H2⟩, ⟨%d3, H3⟩⟩
    iapply ((bodyRun1_A c (grid1.coords t) _ _ _ _ _ _ _ _ _ _ _ _ hf hl (iblk1 V c 0 t) (iblk1 V c 1 t)).2.2 _ _ Set.univ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, ⟨%eS, HS⟩, ⟨%eQ, HQ⟩⟩
    isplitl [HS HQ Hr Hg]
    · isplitl [HS HQ Hr]
      · isplitl [HS HQ]
        · isplitl [HS]
          · unfold owns; iexists _; isplitr
            swap; · iexact HS
            ipureintro; exact View.read_writes_eq_canon _ _ _ (tilesS1_A c _ _ _ _ _ _ _ _ _ _ _ _ _ _ _ _ _)
          · unfold owns; iexists _; isplitr
            swap; · iexact HQ
            ipureintro; exact View.read_writes_eq_canon _ _ _ (tilesQ1_A c _ _ _ _ _ _ _ _ _ _ _ _ _ _ _ _ _)
        iexact Hr
      iexact Hg
    isplitl [Ho]; · iexact Ho
    isplitl [H0]; · iexact H0
    isplitl [H1]; · iexact H1
    isplitl [H2]; · iexists _; iexact H2
    iexists _; iexact H3
  · have hf : ¬first1 (grid1.coords t) := not_first1_of_ne t hz
    rw [Phi1_pos V c _ _ hz]
    by_cases hL : t.val = 24
    · -- the last block
      have hl : last1 (grid1.coords t) := (last1_iff t).mpr hL
      rw [show (dat1 V c).leavesExact 2 t = owns (c : Thread nD τ) (sg1_2 t) fullShare ((dat1 V c).after 2 t) from by
        unfold Dat.leavesExact; rw [live1_2 t hl], after1_2]
      rw [show (dat1 V c).leavesExact 3 t = owns (c : Thread nD τ) (sg1_3 t) fullShare ((dat1 V c).after 3 t) from by
        unfold Dat.leavesExact; rw [live1_3 t hl], after1_3]
      rw [outsAt1_C V c t hz hL]
      unfold atC1; (try dsimp only)
      iintro ⟨⟨⟨⟨HS, HQ⟩, Hr⟩, Hg⟩, Ho, ⟨%d0, H0⟩, ⟨%d1, H1⟩, ⟨%d2, H2⟩, ⟨%d3, H3⟩⟩
      iapply ((bodyRun1_C c (grid1.coords t) _ _ _ _ _ _ _ _ _ _ _ _ hf hl (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS]; · iexact HS
      isplitl [HQ]; · iexact HQ
      iintro ⟨H0, H1, ⟨%e2, H2⟩, ⟨%e3, H3⟩, ⟨%eS, HS⟩, ⟨%eQ, HQ⟩⟩
      isplitl [HS HQ Hr Hg]
      · isplitl [HS HQ Hr]
        · isplitl [HS HQ]
          · isplitl [HS]
            · unfold owns; iexists _; isplitr
              swap; · iexact HS
              ipureintro; exact View.read_writes_eq_canon _ _ _ (tilesS1_C c _ _ _ _ _ _ _ _ _ _ _ _ _ _ _ _ _ _ _)
            · unfold owns; iexists _; isplitr
              swap; · iexact HQ
              ipureintro; exact View.read_writes_eq_canon _ _ _ (tilesQ1_C c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_eq_canon _ _ _ (tilesM1_C c _ _ _ _ _ _ _ _ _ _ _ _ _ _ _ _ _ _ _)
      · unfold owns; iexists _; isplitr
        swap; · iexact H3
        ipureintro; exact View.read_writes_eq_canon _ _ _ (tilesV1_C c _ _ _ _ _ _ _ _ _ _ _ _ _ _ _ _ _ _ _)
    · -- a middle block
      have hl : ¬last1 (grid1.coords t) := not_last1_of_ne t hL
      rw [Dat.leavesExact_idle (dat1 V c) 2 t (idle1_2 t hl) (keep1_2 t hl), Dat.leavesExact_idle (dat1 V c) 3 t (idle1_3 t hl) (keep1_3 t hl)]
      rw [outsAt1_B V c t hz hL]
      unfold atB1; (try dsimp only)
      iintro ⟨⟨⟨⟨HS, HQ⟩, Hr⟩, Hg⟩, Ho, ⟨%d0, H0⟩, ⟨%d1, H1⟩, ⟨%d2, H2⟩, ⟨%d3, H3⟩⟩
      iapply ((bodyRun1_B c (grid1.coords t) _ _ _ _ _ _ _ _ _ _ _ _ hf hl (iblk1 V c 0 t) (iblk1 V c 1 t) _ _).2.2 _ _ Set.univ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, ⟨%eS, HS⟩, ⟨%eQ, HQ⟩⟩
      isplitl [HS HQ Hr Hg]
      · isplitl [HS HQ Hr]
        · isplitl [HS HQ]
          · isplitl [HS]
            · unfold owns; iexists _; isplitr
              swap; · iexact HS
              ipureintro; exact View.read_writes_eq_canon _ _ _ (tilesS1_B c _ _ _ _ _ _ _ _ _ _ _ _ _ _ _ _ _ _ _)
            · unfold owns; iexists _; isplitr
              swap; · iexact HQ
              ipureintro; exact View.read_writes_eq_canon _ _ _ (tilesQ1_B c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

/-- The body obligation of this region's pipeline, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point the invariant gives the entry form back: what the carried rows hold is forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨⟨HS, HQ⟩, Hr⟩, Hg⟩
  isplitl [HS HQ Hr]
  · isplitl [HS HQ]
    · isplitl [HS]
      · iexists _; iexact HS
      · iexists _; iexact HQ
    iexact Hr
  iexact Hg

/-- In particular after the last. -/
theorem hout1 (c : Dev nD) : (dat1 V c).Φ (Fin.last cfg1.N) ⊢ Pipeline.ΦA spec1 c :=
  Phi1_out V c _ (by rw [Fin.val_last]; have : cfg1.N = 25 := N_1; omega)

end Cert.Kernel.Reg

end
-- ==== Proof.Bits.Reg2Norm.lean ====
/-
  The normalise-and-rectify step of the first layer as a pipelined region: 2000 rows at a time over 25 grid
  points. At a point the body reads its block x of the aggregated features (2000 × 128) and five rows of 128
  that are fetched once and left in place — the bias b, the column means μ, the column variances σ², the
  scale γ and the shift β — and overwrites its block of the result with

      max(γ · ((x + b) − μ) · rsqrt(σ² + ε) + β, 0),

  each row broadcast down the block's 2000 rows, ε the f32 constant nearest 10⁻⁵. Stated here, at any contents V the
  region is entered from: the blocks, what the body leaves, the body's triple, the pipeline's proof data and
  the body obligation at every point.
-/
import proofs.«158427_j57105885167694_2_alg».proof.Proof.Gen.Kernel.Launch
import proofs.«158427_j57105885167694_2_alg».proof.Proof.Gen.Kernel.Skeleton
import proofs.«158427_j57105885167694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of aggregated features is in its staging buffer when the body starts: it is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row is in its staging buffer at every point: fetched at the first, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The row of column means is in its staging buffer at every point: fetched at the first, its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The row of column variances is in its staging buffer at every point: fetched at the first, its block index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The scale row γ is in its staging buffer at every point: fetched at the first, its block index never moves. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The shift row β is in its staging buffer at every point: fetched at the first, its block index never moves. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S2000x128 := Rect.unit (s := S2000x128) ![0, 0] S2000x128.size inb_S2000x128_S2000x128_0_0
abbrev r2_r : Rect S1x128 := Rect.unit (s := S1x128) ![0, 0] S1x128.size inb_S1x128_S1x128_0_0

/-- The result block after the body, from the blocks in window order (x, b, μ, σ², γ, β): the normalised,
    scaled, shifted and rectified block, stored over the whole block. The body's stored value takes its
    rows in the order it reads them (b, σ², γ, μ, β). -/
def out2_6 (x0 : Vec F S2000x128 .f32) (x1 x2 x3 x4 x5 : Vec F S1x128 .f32) : Vec F S2000x128 .f32 :=
  View.canon [⟨r2_x, k2_pay1 (View.ld x0 r2_x) (View.ld x1 r2_r) (View.ld x3 r2_r) (View.ld x4 r2_r) (View.ld x2 r2_r) (View.ld x5 r2_r)⟩]

theorem cover2_6 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

set_option maxHeartbeats 1000000 in
/-- The body on whole staging buffers: the six inputs are handed back as they were and the result's buffer
    holds the normalised block, whatever it held before. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_norm_kernel i arg1 harg1 arg2 harg2 arg3 harg3 arg4 harg4 arg5 harg5 arg6 harg6 arg7 harg7) K := by
  simp only [cc2__bn_norm_kernel_eq_skeleton]; unfold cc2__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of this step's pipeline on core c: the arrays as the region finds them; after the body
    each input's buffer at its block and the result's at the normalised block; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of this region's pipeline, at every point. -/
theorem body_obligation2 (c : Dev nD) : BodyObligation (dat2 (F := F) V c) (defs₀ (F := F)) Variants.none () Set.univ := fun t => by
  rw [bigSep_W2, bigSep_W2]
  exact sound_body2 V c t

/-- Before the first point the region's invariant is the class's: the kernel has no scratch of its own to name. -/
theorem hin2 (c : Dev nD) : Pipeline.ΦA spec2 c ⊢ (dat2 (F := F) V c).Φ 0 := BI.Entails.refl _
/-- After the last point it is the class's still. -/
theorem hout2 (c : Dev nD) : (dat2 (F := F) V c).Φ (Fin.last cfg2.N) ⊢ Pipeline.ΦA spec2 c := BI.Entails.refl _

end Cert.Kernel.Reg

end
-- ==== Proof.Bits.Reg3Matmul.lean ====
/-
  The second matrix product of the network, h₁ · W₂.
  A pipelined region over 25 grid points, 2000 rows at a time: at a point the body reads its block of the
  left operand and the whole of the right operand (fetched once and left in place) and overwrites its block
  of the result with one stored value, the product of the two (both factors narrowed to bf16 first).
  Stated here, at any contents V the region is entered from: the blocks, what the body leaves, the body's
  triple, the pipeline's proof data and the body obligation at every point.
-/
import proofs.«158427_j57105885167694_2_alg».proof.Proof.Gen.Kernel.Launch
import proofs.«158427_j57105885167694_2_alg».proof.Proof.Gen.Kernel.Skeleton
import proofs.«158427_j57105885167694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's block is in its staging buffer when the body starts. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand is in its staging buffer at every point: fetched at the first, its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S2000x128 := Rect.unit (s := S2000x128) ![0, 0] S2000x128.size inb_S2000x128_S2000x128_0_0
abbrev r3_w : Rect S128x128 := Rect.unit (s := S128x128) ![0, 0] S128x128.size inb_S128x128_S128x128_0_0
abbrev r3_o : Rect S2000x128 := Rect.unit (s := S2000x128) ![0, 0] S2000x128.size inb_S2000x128_S2000x128_0_0

/-- The result block after the body: the body's one stored value of the two blocks read, over the whole block. -/
def out3_2 (x0 : Vec F S2000x128 .f32) (x1 : Vec F S128x128 .f32) : Vec F S2000x128 .f32 :=
  View.canon [⟨r3_o, k3_pay1 (View.ld x0 r3_x) (View.ld x1 r3_w)⟩]

theorem cover3_2 (p0 : Vec F S2000x128 .f32) (y : S2000x128.Idx) :
    ∃ pc ∈ ([⟨r3_o, p0⟩] : List (View.Piece (Elt F) S2000x128 .f32)), y ∈ pc.1.set :=
  View.cover_of_tiled [⟨r3_o, p0⟩] S2000x128.size (by rfl) y

set_option maxHeartbeats 1000000 in
/-- The body on whole staging buffers: both inputs are handed back as they were and the result's buffer
    holds that value. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this region's pipeline on core c: the arrays as the region finds them; after the body
    each input's buffer at its block and the result's at the stored value of the blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region's pipeline, at every point. -/
theorem body_obligation3 (c : Dev nD) : BodyObligation (dat3 (F := F) V c) (defs₀ (F := F)) Variants.none () Set.univ := fun t => by
  rw [bigSep_W3, bigSep_W3]
  exact sound_body3 V c t

/-- Before the first point the region's invariant is the class's: the kernel has no scratch of its own to name. -/
theorem hin3 (c : Dev nD) : Pipeline.ΦA spec3 c ⊢ (dat3 (F := F) V c).Φ 0 := BI.Entails.refl _
/-- After the last point it is the class's still. -/
theorem hout3 (c : Dev nD) : (dat3 (F := F) V c).Φ (Fin.last cfg3.N) ⊢ Pipeline.ΦA spec3 c := BI.Entails.refl _

end Cert.Kernel.Reg

end
-- ==== Proof.Bits.Reg4Stats.lean ====
/-
  The batch-norm statistics of the second layer as a pipelined region: 25 blocks of 2000 rows of the aggregated
  features x (50000 × 128), with the bias row b (1 × 128) added to every row. Two rows are carried from block to
  block in buffers of the kernel's own: per column,
      S ← S + Σ_rows (x + b),      Q ← Q + Σ_rows (x + b)².
  The first block zeroes S and Q before it accumulates; the last block, after it has accumulated, turns the sums
  into the two results,
      mean = S / 50000,      variance = max(Q / 50000 − mean², 0),
  and stores them into the two result windows, which no other block stores into and which the pipeline writes
  back after the last block only. So a point is in one of three cases — first block, middle block, last block —,
  and the body is run once per case; what the carried rows and the result rows hold after each point is the
  accumulation of those runs over the points, and the region's invariant carries S and Q at that accumulation from
  one point to the next. Stated here at any contents V the region is entered from: the blocks, the three runs, the
  accumulation, the invariant, the pipeline's proof data and the body obligation at every point.
-/
import proofs.«158427_j57105885167694_2_alg».proof.Proof.Gen.Kernel.Launch
import proofs.«158427_j57105885167694_2_alg».proof.Proof.Gen.Kernel.Skeleton
import proofs.«158427_j57105885167694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The two conditionals, in closed form over the 25 points -/

/-- The first conditional's test, from the grid coordinate: "this is block 0". -/
abbrev first4 (i : grid4.Coords) : Prop :=
  (Scalar.cmpi .ne (Scalar.extui (Scalar.cmpi .eq (BitVec.ofNat 32 (i 0).val) 0#32)) 0#32) = 1#1
/-- The second conditional's test: "this is block 24". -/
abbrev last4 (i : grid4.Coords) : Prop := k4_cond2 i = 1#1

theorem first4_iff : ∀ t : Fin cfg4.N, first4 (grid4.coords t) ↔ t.val = 0 :=
  (by decide +kernel : ∀ t : Fin grid4.N, first4 (grid4.coords t) ↔ t.val = 0)
theorem last4_iff : ∀ t : Fin cfg4.N, last4 (grid4.coords t) ↔ t.val = 24 :=
  (by decide +kernel : ∀ t : Fin grid4.N, last4 (grid4.coords t) ↔ t.val = 24)

/-- The two carried rows, as the body is passed them: whole buffers of the kernel's own. -/
abbrev scM4_0 : Memref sig .tc .vmem S1x128 .f32 := Memref.whole cc4_scratch0
abbrev scM4_1 : Memref sig .tc .vmem S1x128 .f32 := Memref.whole cc4_scratch1

set_option maxHeartbeats 1000000 in
/-- The body at the first block (first conditional taken, second not). The block of features and the bias row are
    handed back as they were, the two result rows (not stored into) too; the two carried rows, held at anything,
    end with the pieces the stores leave, which the run itself determines. -/
noncomputable def bodyRun4_A (c : Dev nD) (i : grid4.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : first4 i) (hl : ¬last4 i) (x : Vec F S2000x128 .f32) (b : Vec F S1x128 .f32) :
    Σ' (LS : List (View.Piece (Elt F) S1x128 .f32)), { LQ : List (View.Piece (Elt F) S1x128 .f32) //
      ∀ (m v : Vec F S1x128 .f32) (E : Set ℕ) (K : PUnit → sProp 𝕄),
        iprop(owns (c : Thread nD τ) a1 fullShare x ∗ owns (c : Thread nD τ) a2 fullShare b
            ∗ owns (c : Thread nD τ) a3 fullShare m ∗ owns (c : Thread nD τ) a4 fullShare v
            ∗ (∃ d, owns (c : Thread nD τ) a5 fullShare d) ∗ (∃ d, owns (c : Thread nD τ) a6 fullShare d)
            ∗ (iprop(owns (c : Thread nD τ) a1 fullShare x ∗ owns (c : Thread nD τ) a2 fullShare b
                ∗ owns (c : Thread nD τ) a3 fullShare m ∗ owns (c : Thread nD τ) a4 fullShare v
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc4__bn_stats_kernel i a1 h1 a2 h2 a3 h3 a4 h4 a5 h5 a6 h6) K } := by
  refine ⟨?_, ?_, fun m v E K => ?run⟩
  case run =>
    simp only [cc4__bn_stats_kernel_eq_skeleton]; unfold cc4__bn_stats_kernel_skel
    unfold owns
    iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
    obtain rfl := h1.eq_unread e1; obtain rfl := h2.eq_unread e2; obtain rfl := h3.eq_unread e3; obtain rfl := h4.eq_unread e4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in
/-- The body at a middle block (neither conditional taken). Inputs and the two result rows are handed back as they
    were; the carried rows, held at what the block before left, end with the pieces of this block's two stores. -/
noncomputable def bodyRun4_B (c : Dev nD) (i : grid4.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : ¬first4 i) (hl : ¬last4 i) (x : Vec F S2000x128 .f32) (b : Vec F S1x128 .f32) (s q : Vec F S1x128 .f32) :
    Σ' (LS : List (View.Piece (Elt F) S1x128 .f32)), { LQ : List (View.Piece (Elt F) S1x128 .f32) //
      ∀ (m v : Vec F S1x128 .f32) (E : Set ℕ) (K : PUnit → sProp 𝕄),
        iprop(owns (c : Thread nD τ) a1 fullShare x ∗ owns (c : Thread nD τ) a2 fullShare b
            ∗ owns (c : Thread nD τ) a3 fullShare m ∗ owns (c : Thread nD τ) a4 fullShare v
            ∗ owns (c : Thread nD τ) a5 fullShare s ∗ owns (c : Thread nD τ) a6 fullShare q
            ∗ (iprop(owns (c : Thread nD τ) a1 fullShare x ∗ owns (c : Thread nD τ) a2 fullShare b
                ∗ owns (c : Thread nD τ) a3 fullShare m ∗ owns (c : Thread nD τ) a4 fullShare v
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc4__bn_stats_kernel i a1 h1 a2 h2 a3 h3 a4 h4 a5 h5 a6 h6) K } := by
  refine ⟨?_, ?_, fun m v E K => ?run⟩
  case run =>
    simp only [cc4__bn_stats_kernel_eq_skeleton]; unfold cc4__bn_stats_kernel_skel
    unfold owns
    iintro ⟨⟨%f1, %e1, H1⟩, ⟨%f2, %e2, H2⟩, ⟨%f3, %e3, H3⟩, ⟨%f4, %e4, H4⟩, ⟨%f5, %e5, H5⟩, ⟨%f6, %e6, H6⟩, Hk⟩
    obtain rfl := h1.eq_unread e1; obtain rfl := h2.eq_unread e2; obtain rfl := h3.eq_unread e3; obtain rfl := h4.eq_unread e4
    obtain rfl := h5.eq_unread e5; obtain rfl := h6.eq_unread e6
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in
/-- The body at the last block (second conditional taken, first not). Inputs are handed back as they were; the
    carried rows, held at what the block before left, end with the pieces of this block's two stores; the two
    result rows, held at anything, end with the pieces of the stores of the mean and of the clamped variance. -/
noncomputable def bodyRun4_C (c : Dev nD) (i : grid4.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : ¬first4 i) (hl : last4 i) (x : Vec F S2000x128 .f32) (b : Vec F S1x128 .f32) (s q : Vec F S1x128 .f32) :
    Σ' (LM : List (View.Piece (Elt F) S1x128 .f32)) (LV : List (View.Piece (Elt F) S1x128 .f32))
       (LS : List (View.Piece (Elt F) S1x128 .f32)), { LQ : List (View.Piece (Elt F) S1x128 .f32) //
      ∀ (E : Set ℕ) (K : PUnit → sProp 𝕄),
        iprop(owns (c : Thread nD τ) a1 fullShare x ∗ owns (c : Thread nD τ) a2 fullShare b
            ∗ (∃ d, owns (c : Thread nD τ) a3 fullShare d) ∗ (∃ d, owns (c : Thread nD τ) a4 fullShare d)
            ∗ owns (c : Thread nD τ) a5 fullShare s ∗ owns (c : Thread nD τ) a6 fullShare q
            ∗ (iprop(owns (c : Thread nD τ) a1 fullShare x ∗ owns (c : Thread nD τ) a2 fullShare b
                ∗ (∃ f, a3.view.loc (c : Thread nD τ) ↦[a3.view.set]{fullShare} a3.view.writes (Elt F) f LM)
                ∗ (∃ f, a4.view.loc (c : Thread nD τ) ↦[a4.view.set]{fullShare} a4.view.writes (Elt F) f LV)
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc4__bn_stats_kernel i a1 h1 a2 h2 a3 h3 a4 h4 a5 h5 a6 h6) K } := by
  refine ⟨?_, ?_, ?_, ?_, fun E K => ?run⟩
  case run =>
    simp only [cc4__bn_stats_kernel_eq_skeleton]; unfold cc4__bn_stats_kernel_skel
    unfold owns
    iintro ⟨⟨%f1, %e1, H1⟩, ⟨%f2, %e2, H2⟩, ⟨%d3, %f3, -, H3⟩, ⟨%d4, %f4, -, H4⟩, ⟨%f5, %e5, H5⟩, ⟨%f6, %e6, H6⟩, Hk⟩
    obtain rfl := h1.eq_unread e1; obtain rfl := h2.eq_unread e2
    obtain rfl := h5.eq_unread e5; obtain rfl := h6.eq_unread e6
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    iexists _; iexact H6

/-! ## What each case leaves in the buffers it stores into

The contents a buffer ends with are a function of the pieces alone (the last store onto an index wins), whatever the
buffer held before: each list of pieces below tiles the 1 × 128 row, so it determines the whole row. -/

section pieces

variable (c : Dev nD) (i : grid4.Coords)
  (a1 : Memref sig .tc .vmem S2000x128 .f32) (h1 : a1.IsWhole) (a2 : Memref sig .tc .vmem S1x128 .f32) (h2 : a2.IsWhole)
  (a3 : Memref sig .tc .vmem S1x128 .f32) (h3 : a3.IsWhole) (a4 : Memref sig .tc .vmem S1x128 .f32) (h4 : a4.IsWhole)
  (a5 : Memref sig .tc .vmem S1x128 .f32) (h5 : a5.IsWhole) (a6 : Memref sig .tc .vmem S1x128 .f32) (h6 : a6.IsWhole)
  (x : Vec F S2000x128 .f32) (b s q : Vec F S1x128 .f32)

/-- First block: the pieces left in the row of sums tile it; -/
theorem tilesS4_A (hf : first4 i) (hl : ¬last4 i) :
    ∀ y : S1x128.Idx, ∃ p ∈ (bodyRun4_A c i a1 h1 a2 h2 a3 h3 a4 h4 a5 h5 a6 h6 hf hl x b).1, y ∈ p.1.set :=
  fun y => View.cover_of_tiledL (bodyRun4_A c i a1 h1 a2 h2 a3 h3 a4 h4 a5 h5 a6 h6 hf hl x b).1 S1x128.size (by sl_kernel_rfl) y
/-- and so do those left in the row of sums of squares. -/
theorem tilesQ4_A (hf : first4 i) (hl : ¬last4 i) :
    ∀ y : S1x128.Idx, ∃ p ∈ (bodyRun4_A c i a1 h1 a2 h2 a3 h3 a4 h4 a5 h5 a6 h6 hf hl x b).2.1, y ∈ p.1.set :=
  fun y => View.cover_of_tiledL (bodyRun4_A c i a1 h1 a2 h2 a3 h3 a4 h4 a5 h5 a6 h6 hf hl x b).2.1 S1x128.size (by sl_kernel_rfl) y

/-- Middle block: the same for its one store into each carried row. -/
theorem tilesS4_B (hf : ¬first4 i) (hl : ¬last4 i) :
    ∀ y : S1x128.Idx, ∃ p ∈ (bodyRun4_B c i a1 h1 a2 h2 a3 h3 a4 h4 a5 h5 a6 h6 hf hl x b s q).1, y ∈ p.1.set :=
  fun y => View.cover_of_tiledL (bodyRun4_B c i a1 h1 a2 h2 a3 h3 a4 h4 a5 h5 a6 h6 hf hl x b s q).1 S1x128.size (by sl_kernel_rfl) y
theorem tilesQ4_B (hf : ¬first4 i) (hl : ¬last4 i) :
    ∀ y : S1x128.Idx, ∃ p ∈ (bodyRun4_B c i a1 h1 a2 h2 a3 h3 a4 h4 a5 h5 a6 h6 hf hl x b s q).2.1, y ∈ p.1.set :=
  fun y => View.cover_of_tiledL (bodyRun4_B c i a1 h1 a2 h2 a3 h3 a4 h4 a5 h5 a6 h6 hf hl x b s q).2.1 S1x128.size (by sl_kernel_rfl) y

/-- Last block: the mean's row, the variance's row and the two carried rows are each tiled by what is stored. -/
theorem tilesM4_C (hf : ¬first4 i) (hl : last4 i) :
    ∀ y : S1x128.Idx, ∃ p ∈ (bodyRun4_C c i a1 h1 a2 h2 a3 h3 a4 h4 a5 h5 a6 h6 hf hl x b s q).1, y ∈ p.1.set :=
  fun y => View.cover_of_tiledL (bodyRun4_C c i a1 h1 a2 h2 a3 h3 a4 h4 a5 h5 a6 h6 hf hl x b s q).1 S1x128.size (by sl_kernel_rfl) y
theorem tilesV4_C (hf : ¬first4 i) (hl : last4 i) :
    ∀ y : S1x128.Idx, ∃ p ∈ (bodyRun4_C c i a1 h1 a2 h2 a3 h3 a4 h4 a5 h5 a6 h6 hf hl x b s q).2.1, y ∈ p.1.set :=
  fun y => View.cover_of_tiledL (bodyRun4_C c i a1 h1 a2 h2 a3 h3 a4 h4 a5 h5 a6 h6 hf hl x b s q).2.1 S1x128.size (by sl_kernel_rfl) y
theorem tilesS4_C (hf : ¬first4 i) (hl : last4 i) :
    ∀ y : S1x128.Idx, ∃ p ∈ (bodyRun4_C c i a1 h1 a2 h2 a3 h3 a4 h4 a5 h5 a6 h6 hf hl x b s q).2.2.1, y ∈ p.1.set :=
  fun y => View.cover_of_tiledL (bodyRun4_C c i a1 h1 a2 h2 a3 h3 a4 h4 a5 h5 a6 h6 hf hl x b s q).2.2.1 S1x128.size (by sl_kernel_rfl) y
theorem tilesQ4_C (hf : ¬first4 i) (hl : last4 i) :
    ∀ y : S1x128.Idx, ∃ p ∈ (bodyRun4_C c i a1 h1 a2 h2 a3 h3 a4 h4 a5 h5 a6 h6 hf hl x b s q).2.2.2.1, y ∈ p.1.set :=
  fun y => View.cover_of_tiledL (bodyRun4_C c i a1 h1 a2 h2 a3 h3 a4 h4 a5 h5 a6 h6 hf hl x b s q).2.2.2.1 S1x128.size (by sl_kernel_rfl) y

end pieces

/-! ## The buffers at a point, and what the body leaves there -/

/-- Each window's current staging buffer at point t, as the pipeline passes it to the body, and its wholeness. -/
abbrev sg4_0 (t : Fin cfg4.N) : Memref sig .tc .vmem S2000x128 .f32 := win4_0.stage (cfg4.slots t 0)
abbrev sg4_1 (t : Fin cfg4.N) : Memref sig .tc .vmem S1x128 .f32 := win4_1.stage (cfg4.slots t 1)
abbrev sg4_2 (t : Fin cfg4.N) : Memref sig .tc .vmem S1x128 .f32 := win4_2.stage (cfg4.slots t 2)
abbrev sg4_3 (t : Fin cfg4.N) : Memref sig .tc .vmem S1x128 .f32 := win4_3.stage (cfg4.slots t 3)
abbrev wh4_0 (t : Fin cfg4.N) : (sg4_0 t).IsWhole := hstage4_0 ((cfg4.slots t 0).cast nbuf4_0)
abbrev wh4_1 (t : Fin cfg4.N) : (sg4_1 t).IsWhole := hstage4_1 ((cfg4.slots t 1).cast nbuf4_1)
abbrev wh4_2 (t : Fin cfg4.N) : (sg4_2 t).IsWhole := hstage4_2 ((cfg4.slots t 2).cast nbuf4_2)
abbrev wh4_3 (t : Fin cfg4.N) : (sg4_3 t).IsWhole := hstage4_3 ((cfg4.slots t 3).cast nbuf4_3)

/-- After the first block, from its features x and the bias b: ((mean's buffer, variance's buffer), (sums, sums of
    squares)). The two result buffers are not stored into at this block; their components are placeholders (the zero
    row) that nothing reads, since the pipeline neither writes them back nor hands them on from such a point. -/
def atA4 (c : Dev nD) (t : Fin cfg4.N) (hf : first4 (grid4.coords t)) (hl : ¬last4 (grid4.coords t))
    (x : Vec F S2000x128 .f32) (b : Vec F S1x128 .f32) :
    (Vec F S1x128 .f32 × Vec F S1x128 .f32) × (Vec F S1x128 .f32 × Vec F S1x128 .f32) :=
  ((k4_pay1 (F := F), k4_pay2 (F := F)),
   (View.canon (bodyRun4_A c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b).1,
    View.canon (bodyRun4_A c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b).2.1))

/-- After a middle block, from x, b and the sums s, q the block before left: the same four; the result buffers'
    components placeholders again. -/
def atB4 (c : Dev nD) (t : Fin cfg4.N) (hf : ¬first4 (grid4.coords t)) (hl : ¬last4 (grid4.coords t))
    (x : Vec F S2000x128 .f32) (b s q : Vec F S1x128 .f32) :
    (Vec F S1x128 .f32 × Vec F S1x128 .f32) × (Vec F S1x128 .f32 × Vec F S1x128 .f32) :=
  ((k4_pay1 (F := F), k4_pay2 (F := F)),
   (View.canon (bodyRun4_B c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).1,
    View.canon (bodyRun4_B c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).2.1))

/-- After the last block: the mean and the clamped variance in the result buffers, the completed sums in the
    carried rows. -/
def atC4 (c : Dev nD) (t : Fin cfg4.N) (hf : ¬first4 (grid4.coords t)) (hl : last4 (grid4.coords t))
    (x : Vec F S2000x128 .f32) (b s q : Vec F S1x128 .f32) :
    (Vec F S1x128 .f32 × Vec F S1x128 .f32) × (Vec F S1x128 .f32 × Vec F S1x128 .f32) :=
  ((View.canon (bodyRun4_C c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).1,
    View.canon (bodyRun4_C c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).2.1),
   (View.canon (bodyRun4_C c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).2.2.1,
    View.canon (bodyRun4_C c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).2.2.2.1))

theorem not_last4_of_zero (t : Fin cfg4.N) (hz : t.val = 0) : ¬last4 (grid4.coords t) := fun h => by
  have := (last4_iff t).mp h; omega
theorem not_first4_of_ne (t : Fin cfg4.N) (hz : t.val ≠ 0) : ¬first4 (grid4.coords t) := fun h => hz ((first4_iff t).mp h)
theorem not_last4_of_ne (t : Fin cfg4.N) (hz : t.val ≠ 24) : ¬last4 (grid4.coords t) := fun h => hz ((last4_iff t).mp h)

/-- THE ACCUMULATION over the blocks. After the body at point n: ((the mean's buffer, the variance's buffer), (the row
    of sums, the row of sums of squares)) — at point 0 the first block's case from zeroed rows; at a later point that
    point's case over the sums the point before left. -/
def outsAt4 (c : Dev nD) : (n : ℕ) → n < cfg4.N →
    (Vec F S1x128 .f32 × Vec F S1x128 .f32) × (Vec F S1x128 .f32 × Vec F S1x128 .f32)
  | 0, hn => atA4 c ⟨0, hn⟩ ((first4_iff ⟨0, hn⟩).mpr rfl) (not_last4_of_zero ⟨0, hn⟩ rfl) (iblk4 V c 0 ⟨0, hn⟩) (iblk4 V c 1 ⟨0, hn⟩)
  | n + 1, hn =>
    if hL : n + 1 = 24 then
      atC4 c ⟨n + 1, hn⟩ (not_first4_of_ne ⟨n + 1, hn⟩ (Nat.succ_ne_zero n)) ((last4_iff ⟨n + 1, hn⟩).mpr hL) (iblk4 V c 0 ⟨n + 1, hn⟩) (iblk4 V c 1 ⟨n + 1, hn⟩)
        (outsAt4 c n (Nat.lt_of_succ_lt hn)).2.1 (outsAt4 c n (Nat.lt_of_succ_lt hn)).2.2
    else
      atB4 c ⟨n + 1, hn⟩ (not_first4_of_ne ⟨n + 1, hn⟩ (Nat.succ_ne_zero n)) (not_last4_of_ne ⟨n + 1, hn⟩ hL) (iblk4 V c 0 ⟨n + 1, hn⟩) (iblk4 V c 1 ⟨n + 1, hn⟩)
        (outsAt4 c n (Nat.lt_of_succ_lt hn)).2.1 (outsAt4 c n (Nat.lt_of_succ_lt hn)).2.2

/-- At the first point. -/
theorem outsAt4_A (c : Dev nD) (t : Fin cfg4.N) (hz : t.val = 0) :
    outsAt4 V c t.val t.isLt = atA4 c t ((first4_iff t).mpr hz) (not_last4_of_zero t hz) (iblk4 V c 0 t) (iblk4 V c 1 t) := by
  obtain ⟨n, hn⟩ := t
  cases n with
  | zero => rfl
  | succ n => exact absurd hz (Nat.succ_ne_zero n)

/-- At a middle point: over the sums of the point before. -/
theorem outsAt4_B (c : Dev nD) (t : Fin cfg4.N) (h0 : t.val ≠ 0) (hL : t.val ≠ 24) :
    outsAt4 V c t.val t.isLt = atB4 c t (not_first4_of_ne t h0) (not_last4_of_ne t hL) (iblk4 V c 0 t) (iblk4 V c 1 t)
      (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact absurd rfl h0
  | succ n => exact (dif_neg hL).trans rfl

/-- At the last point: over the sums of the point before. -/
theorem outsAt4_C (c : Dev nD) (t : Fin cfg4.N) (h0 : t.val ≠ 0) (hL : t.val = 24) :
    outsAt4 V c t.val t.isLt = atC4 c t (not_first4_of_ne t h0) ((last4_iff t).mpr hL) (iblk4 V c 0 t) (iblk4 V c 1 t)
      (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact absurd rfl h0
  | succ n => exact (dif_pos hL).trans rfl

/-! ## The region's invariant -/

/-- What the region is entered with, its two carried rows singled out: each whole at some contents, beside every
    other scoped buffer (unopened) and the generator's register. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-- The invariant before position n: before the first point what the region is entered with (the carried rows at
    anything); before a later one the carried rows at the sums the point before left, the rest as it was. -/
def Phi4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.1 ∗ owns (c : Thread nD τ) scM4_1 fullShare (outsAt4 V c n hn).2.2)
      ∗ Pipeline.scopedRestBut (Ix := Unit) (Name := ℕ) (U := UR sig nD τ) (Lvl := ℕ) (Val := Elt F) spec4 c [cc4_scratch0, cc4_scratch1])
      ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) scM4_0 fullShare (outsAt4 V c n hn).2.1 ∗ owns (c : Thread nD τ) scM4_1 fullShare (outsAt4 V c n hn).2.2)
      ∗ Pipeline.scopedRestBut (Ix := Unit) (Name := ℕ) (U := UR sig nD τ) (Lvl := ℕ) (Val := Elt F) spec4 c [cc4_scratch0, cc4_scratch1])
      ∗ (∃ r, prngReg c r)) := rfl

theorem Phi4_pos (c : Dev nD) (n : ℕ) (h : n ≤ cfg4.N) (hz : n ≠ 0) :
    Phi4 V c n h = iprop(iprop(iprop(owns (c : Thread nD τ) scM4_0 fullShare (outsAt4 V c (n - 1) (by omega)).2.1 ∗ owns (c : Thread nD τ) scM4_1 fullShare (outsAt4 V c (n - 1) (by omega)).2.2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-! ## The pipeline's proof data -/

/-- The proof data of this region's pipeline on core c: the arrays as the region finds them; after the body at a point
    each input's buffer at its block, the two results' at the accumulation's first pair; the invariant above; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1.1
    | ⟨3, _⟩ => (outsAt4 V c t.val t.isLt).1.2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1.1 := by dsimp only [dat4]
theorem after4_3 (c : Dev nD) (t : Fin cfg4.N) : (dat4 V c).after 3 t = (outsAt4 V c t.val t.isLt).1.2 := by dsimp only [dat4]

/-- The block of features is in its staging buffer when the body starts (fetched at every point). -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
/-- The bias row is in its staging buffer at every point: fetched at the first, its block index never moves. -/
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-! ## Where the result windows are idle -/

theorem live4_0 : ∀ t : Fin cfg4.N, cfg4.idle 0 (grid4.coords t) = false := fun _ => rfl
theorem live4_1 : ∀ t : Fin cfg4.N, cfg4.idle 1 (grid4.coords t) = false := fun _ => rfl
/-- Off the last block nothing is stored into the mean's window, and the pipeline does not write it back; -/
theorem idle4_2 : ∀ t : Fin cfg4.N, ¬last4 (grid4.coords t) → cfg4.idle 2 (grid4.coords t) = true := by decide +kernel
theorem keep4_2 : ∀ t : Fin cfg4.N, ¬last4 (grid4.coords t) → (cfg4.win 2).flush t = false := by decide +kernel
/-- nor into the variance's. -/
theorem idle4_3 : ∀ t : Fin cfg4.N, ¬last4 (grid4.coords t) → cfg4.idle 3 (grid4.coords t) = true := by decide +kernel
theorem keep4_3 : ∀ t : Fin cfg4.N, ¬last4 (grid4.coords t) → (cfg4.win 3).flush t = false := by decide +kernel
/-- At the last block both are stored. -/
theorem live4_2 : ∀ t : Fin cfg4.N, last4 (grid4.coords t) → cfg4.idle 2 (grid4.coords t) = false := by decide +kernel
theorem live4_3 : ∀ t : Fin cfg4.N, last4 (grid4.coords t) → cfg4.idle 3 (grid4.coords t) = false := by decide +kernel

/-! ## The body obligation -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (sg4_0 t) fullShare ((dat4 V c).before 0 t d))
    ∗ (∃ d, owns (c : Thread nD τ) (sg4_1 t) fullShare ((dat4 V c).before 1 t d))
    ∗ (∃ d, owns (c : Thread nD τ) (sg4_2 t) fullShare ((dat4 V c).before 2 t d))
    ∗ (∃ d, owns (c : Thread nD τ) (sg4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point. The inputs' buffers hold their blocks; which of the three cases the point is in is read
    off its number. At the first block the invariant hands over the carried rows at anything, later at the sums
    of the block before; the case's run applies, and the rows come back at this block's sums. Off the last block
    the two result buffers go through untouched; at the last they come back at the mean and the variance. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  have hN : t.val < 25 := lt_of_lt_of_eq t.isLt (show cfg4.N = 25 from N_4)
  rw [show (dat4 V c).leavesExact 0 t = owns (c : Thread nD τ) (sg4_0 t) fullShare ((dat4 V c).after 0 t) from by
    unfold Dat.leavesExact; rw [live4_0 t], after4_0]
  rw [show (dat4 V c).leavesExact 1 t = owns (c : Thread nD τ) (sg4_1 t) fullShare ((dat4 V c).after 1 t) from by
    unfold Dat.leavesExact; rw [live4_1 t], after4_1]
  rw [Phi4_castSucc V c t]
  by_cases hz : t.val = 0
  · -- the first block
    have hf : first4 (grid4.coords t) := (first4_iff t).mpr hz
    have hl : ¬last4 (grid4.coords t) := not_last4_of_zero t hz
    rw [Dat.leavesExact_idle (dat4 V c) 2 t (idle4_2 t hl) (keep4_2 t hl), Dat.leavesExact_idle (dat4 V c) 3 t (idle4_3 t hl) (keep4_3 t hl)]
    rw [outsAt4_A V c t hz]
    unfold atA4; (try dsimp only)
    rw [Phi4_zero V c _ _ hz, PhiA4_eq]
    iintro ⟨⟨⟨⟨HS, HQ⟩, Hr⟩, Hg⟩, Ho, ⟨%d0, H0⟩, ⟨%d1, H1⟩, ⟨%d2, H2⟩, ⟨%d3, H3⟩⟩
    iapply ((bodyRun4_A c (grid4.coords t) _ _ _ _ _ _ _ _ _ _ _ _ hf hl (iblk4 V c 0 t) (iblk4 V c 1 t)).2.2 _ _ Set.univ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, ⟨%eS, HS⟩, ⟨%eQ, HQ⟩⟩
    isplitl [HS HQ Hr Hg]
    · isplitl [HS HQ Hr]
      · isplitl [HS HQ]
        · isplitl [HS]
          · unfold owns; iexists _; isplitr
            swap; · iexact HS
            ipureintro; exact View.read_writes_eq_canon _ _ _ (tilesS4_A c _ _ _ _ _ _ _ _ _ _ _ _ _ _ _ _ _)
          · unfold owns; iexists _; isplitr
            swap; · iexact HQ
            ipureintro; exact View.read_writes_eq_canon _ _ _ (tilesQ4_A c _ _ _ _ _ _ _ _ _ _ _ _ _ _ _ _ _)
        iexact Hr
      iexact Hg
    isplitl [Ho]; · iexact Ho
    isplitl [H0]; · iexact H0
    isplitl [H1]; · iexact H1
    isplitl [H2]; · iexists _; iexact H2
    iexists _; iexact H3
  · have hf : ¬first4 (grid4.coords t) := not_first4_of_ne t hz
    rw [Phi4_pos V c _ _ hz]
    by_cases hL : t.val = 24
    · -- the last block
      have hl : last4 (grid4.coords t) := (last4_iff t).mpr hL
      rw [show (dat4 V c).leavesExact 2 t = owns (c : Thread nD τ) (sg4_2 t) fullShare ((dat4 V c).after 2 t) from by
        unfold Dat.leavesExact; rw [live4_2 t hl], after4_2]
      rw [show (dat4 V c).leavesExact 3 t = owns (c : Thread nD τ) (sg4_3 t) fullShare ((dat4 V c).after 3 t) from by
        unfold Dat.leavesExact; rw [live4_3 t hl], after4_3]
      rw [outsAt4_C V c t hz hL]
      unfold atC4; (try dsimp only)
      iintro ⟨⟨⟨⟨HS, HQ⟩, Hr⟩, Hg⟩, Ho, ⟨%d0, H0⟩, ⟨%d1, H1⟩, ⟨%d2, H2⟩, ⟨%d3, H3⟩⟩
      iapply ((bodyRun4_C c (grid4.coords t) _ _ _ _ _ _ _ _ _ _ _ _ hf hl (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS]; · iexact HS
      isplitl [HQ]; · iexact HQ
      iintro ⟨H0, H1, ⟨%e2, H2⟩, ⟨%e3, H3⟩, ⟨%eS, HS⟩, ⟨%eQ, HQ⟩⟩
      isplitl [HS HQ Hr Hg]
      · isplitl [HS HQ Hr]
        · isplitl [HS HQ]
          · isplitl [HS]
            · unfold owns; iexists _; isplitr
              swap; · iexact HS
              ipureintro; exact View.read_writes_eq_canon _ _ _ (tilesS4_C c _ _ _ _ _ _ _ _ _ _ _ _ _ _ _ _ _ _ _)
            · unfold owns; iexists _; isplitr
              swap; · iexact HQ
              ipureintro; exact View.read_writes_eq_canon _ _ _ (tilesQ4_C c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_eq_canon _ _ _ (tilesM4_C c _ _ _ _ _ _ _ _ _ _ _ _ _ _ _ _ _ _ _)
      · unfold owns; iexists _; isplitr
        swap; · iexact H3
        ipureintro; exact View.read_writes_eq_canon _ _ _ (tilesV4_C c _ _ _ _ _ _ _ _ _ _ _ _ _ _ _ _ _ _ _)
    · -- a middle block
      have hl : ¬last4 (grid4.coords t) := not_last4_of_ne t hL
      rw [Dat.leavesExact_idle (dat4 V c) 2 t (idle4_2 t hl) (keep4_2 t hl), Dat.leavesExact_idle (dat4 V c) 3 t (idle4_3 t hl) (keep4_3 t hl)]
      rw [outsAt4_B V c t hz hL]
      unfold atB4; (try dsimp only)
      iintro ⟨⟨⟨⟨HS, HQ⟩, Hr⟩, Hg⟩, Ho, ⟨%d0, H0⟩, ⟨%d1, H1⟩, ⟨%d2, H2⟩, ⟨%d3, H3⟩⟩
      iapply ((bodyRun4_B c (grid4.coords t) _ _ _ _ _ _ _ _ _ _ _ _ hf hl (iblk4 V c 0 t) (iblk4 V c 1 t) _ _).2.2 _ _ Set.univ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, ⟨%eS, HS⟩, ⟨%eQ, HQ⟩⟩
      isplitl [HS HQ Hr Hg]
      · isplitl [HS HQ Hr]
        · isplitl [HS HQ]
          · isplitl [HS]
            · unfold owns; iexists _; isplitr
              swap; · iexact HS
              ipureintro; exact View.read_writes_eq_canon _ _ _ (tilesS4_B c _ _ _ _ _ _ _ _ _ _ _ _ _ _ _ _ _ _ _)
            · unfold owns; iexists _; isplitr
              swap; · iexact HQ
              ipureintro; exact View.read_writes_eq_canon _ _ _ (tilesQ4_B c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

/-- The body obligation of this region's pipeline, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point the invariant gives the entry form back: what the carried rows hold is forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨⟨HS, HQ⟩, Hr⟩, Hg⟩
  isplitl [HS HQ Hr]
  · isplitl [HS HQ]
    · isplitl [HS]
      · iexists _; iexact HS
      · iexists _; iexact HQ
    iexact Hr
  iexact Hg

/-- In particular after the last. -/
theorem hout4 (c : Dev nD) : (dat4 V c).Φ (Fin.last cfg4.N) ⊢ Pipeline.ΦA spec4 c :=
  Phi4_out V c _ (by rw [Fin.val_last]; have : cfg4.N = 25 := N_4; omega)

end Cert.Kernel.Reg

end
-- ==== Proof.Bits.Reg5Norm.lean ====
/-
  The normalise-and-rectify step of the second layer as a pipelined region: 2000 rows at a time over 25 grid
  points. At a point the body reads its block x of the aggregated features (2000 × 128) and five rows of 128
  that are fetched once and left in place — the bias b, the column means μ, the column variances σ², the
  scale γ and the shift β — and overwrites its block of the result with

      max(γ · ((x + b) − μ) · rsqrt(σ² + ε) + β, 0),

  each row broadcast down the block's 2000 rows, ε the f32 constant nearest 10⁻⁵. Stated here, at any contents V the
  region is entered from: the blocks, what the body leaves, the body's triple, the pipeline's proof data and
  the body obligation at every point.
-/
import proofs.«158427_j57105885167694_2_alg».proof.Proof.Gen.Kernel.Launch
import proofs.«158427_j57105885167694_2_alg».proof.Proof.Gen.Kernel.Skeleton
import proofs.«158427_j57105885167694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The block of aggregated features is in its staging buffer when the body starts: it is fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row is in its staging buffer at every point: fetched at the first, its block index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The row of column means is in its staging buffer at every point: fetched at the first, its block index never moves. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The row of column variances is in its staging buffer at every point: fetched at the first, its block index never moves. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The scale row γ is in its staging buffer at every point: fetched at the first, its block index never moves. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The shift row β is in its staging buffer at every point: fetched at the first, its block index never moves. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev r5_x : Rect S2000x128 := Rect.unit (s := S2000x128) ![0, 0] S2000x128.size inb_S2000x128_S2000x128_0_0
abbrev r5_r : Rect S1x128 := Rect.unit (s := S1x128) ![0, 0] S1x128.size inb_S1x128_S1x128_0_0

/-- The result block after the body, from the blocks in window order (x, b, μ, σ², γ, β): the normalised,
    scaled, shifted and rectified block, stored over the whole block. The body's stored value takes its
    rows in the order it reads them (b, σ², γ, μ, β). -/
def out5_6 (x0 : Vec F S2000x128 .f32) (x1 x2 x3 x4 x5 : Vec F S1x128 .f32) : Vec F S2000x128 .f32 :=
  View.canon [⟨r5_x, k5_pay1 (View.ld x0 r5_x) (View.ld x1 r5_r) (View.ld x3 r5_r) (View.ld x4 r5_r) (View.ld x2 r5_r) (View.ld x5 r5_r)⟩]

theorem cover5_6 (p0 : Vec F S2000x128 .f32) (y : S2000x128.Idx) :
    ∃ pc ∈ ([⟨r5_x, p0⟩] : List (View.Piece (Elt F) S2000x128 .f32)), y ∈ pc.1.set :=
  View.cover_of_tiled [⟨r5_x, p0⟩] S2000x128.size (by rfl) y

set_option maxHeartbeats 1000000 in
/-- The body on whole staging buffers: the six inputs are handed back as they were and the result's buffer
    holds the normalised block, whatever it held before. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_norm_kernel i arg1 harg1 arg2 harg2 arg3 harg3 arg4 harg4 arg5 harg5 arg6 harg6 arg7 harg7) K := by
  simp only [cc5__bn_norm_kernel_eq_skeleton]; unfold cc5__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of this step's pipeline on core c: the arrays as the region finds them; after the body
    each input's buffer at its block and the result's at the normalised block; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of this region's pipeline, at every point. -/
theorem body_obligation5 (c : Dev nD) : BodyObligation (dat5 (F := F) V c) (defs₀ (F := F)) Variants.none () Set.univ := fun t => by
  rw [bigSep_W5, bigSep_W5]
  exact sound_body5 V c t

/-- Before the first point the region's invariant is the class's: the kernel has no scratch of its own to name. -/
theorem hin5 (c : Dev nD) : Pipeline.ΦA spec5 c ⊢ (dat5 (F := F) V c).Φ 0 := BI.Entails.refl _
/-- After the last point it is the class's still. -/
theorem hout5 (c : Dev nD) : (dat5 (F := F) V c).Φ (Fin.last cfg5.N) ⊢ Pipeline.ΦA spec5 c := BI.Entails.refl _

end Cert.Kernel.Reg

end
-- ==== Proof.Bits.Reg6Matmul.lean ====
/-
  The third matrix product of the network, h₂ · W₃, onto the 40 classes.
  A pipelined region over 25 grid points, 2000 rows at a time: at a point the body reads its block of the
  left operand and the whole of the right operand (fetched once and left in place) and overwrites its block
  of the result with one stored value, the product of the two (both factors narrowed to bf16 first).
  Stated here, at any contents V the region is entered from: the blocks, what the body leaves, the body's
  triple, the pipeline's proof data and the body obligation at every point.
-/
import proofs.«158427_j57105885167694_2_alg».proof.Proof.Gen.Kernel.Launch
import proofs.«158427_j57105885167694_2_alg».proof.Proof.Gen.Kernel.Skeleton
import proofs.«158427_j57105885167694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left operand's block is in its staging buffer when the body starts. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The right operand is in its staging buffer at every point: fetched at the first, its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_x : Rect S2000x128 := Rect.unit (s := S2000x128) ![0, 0] S2000x128.size inb_S2000x128_S2000x128_0_0
abbrev r6_w : Rect S128x40 := Rect.unit (s := S128x40) ![0, 0] S128x40.size inb_S128x40_S128x40_0_0
abbrev r6_o : Rect S2000x40 := Rect.unit (s := S2000x40) ![0, 0] S2000x40.size inb_S2000x40_S2000x40_0_0

/-- The result block after the body: the body's one stored value of the two blocks read, over the whole block. -/
def out6_2 (x0 : Vec F S2000x128 .f32) (x1 : Vec F S128x40 .f32) : Vec F S2000x40 .f32 :=
  View.canon [⟨r6_o, k6_pay1 (View.ld x0 r6_x) (View.ld x1 r6_w)⟩]

theorem cover6_2 (p0 : Vec F S2000x40 .f32) (y : S2000x40.Idx) :
    ∃ pc ∈ ([⟨r6_o, p0⟩] : List (View.Piece (Elt F) S2000x40 .f32)), y ∈ pc.1.set :=
  View.cover_of_tiled [⟨r6_o, p0⟩] S2000x40.size (by rfl) y

set_option maxHeartbeats 1000000 in
/-- The body on whole staging buffers: both inputs are handed back as they were and the result's buffer
    holds that value. -/
theorem sound_kernel6 (c : Dev nD) (E : Set ℕ) (i : grid6.Coords) (arg1 : Memref sig .tc .vmem S2000x128 .f32) (harg1 : arg1.IsWhole) (arg2 : Memref sig .tc .vmem S128x40 .f32) (harg2 : arg2.IsWhole)
    (arg3 : Memref sig .tc .vmem S2000x40 .f32) (harg3 : arg3.IsWhole)
    (x0 : Vec F S2000x128 .f32) (x1 : Vec F S128x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The proof data of this region's pipeline on core c: the arrays as the region finds them; after the body
    each input's buffer at its block and the result's at the stored value of the blocks; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region's pipeline, at every point. -/
theorem body_obligation6 (c : Dev nD) : BodyObligation (dat6 (F := F) V c) (defs₀ (F := F)) Variants.none () Set.univ := fun t => by
  rw [bigSep_W6, bigSep_W6]
  exact sound_body6 V c t

/-- Before the first point the region's invariant is the class's: the kernel has no scratch of its own to name. -/
theorem hin6 (c : Dev nD) : Pipeline.ΦA spec6 c ⊢ (dat6 (F := F) V c).Φ 0 := BI.Entails.refl _
/-- After the last point it is the class's still. -/
theorem hout6 (c : Dev nD) : (dat6 (F := F) V c).Φ (Fin.last cfg6.N) ⊢ Pipeline.ΦA spec6 c := BI.Entails.refl _

end Cert.Kernel.Reg

end
-- ==== Proof.Bits.Reg7Softmax.lean ====
/-
  The bias add and row-wise log-softmax that end the network.
  A pipelined region over 25 grid points, 2000 rows at a time: at a point the body reads its block of the
  features and the whole of the bias row (fetched once and left in place) and overwrites its block
  of the result with one stored value, the block plus the bias row, shifted by the maxima of its rows, minus the logarithm of the sums of exponentials of its rows.
  Stated here, at any contents V the region is entered from: the blocks, what the body leaves, the body's
  triple, the pipeline's proof data and the body obligation at every point.
-/
import proofs.«158427_j57105885167694_2_alg».proof.Proof.Gen.Kernel.Launch
import proofs.«158427_j57105885167694_2_alg».proof.Proof.Gen.Kernel.Skeleton
import proofs.«158427_j57105885167694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The features' block is in its staging buffer when the body starts. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row is in its staging buffer at every point: fetched at the first, its block index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_x : Rect S2000x40 := Rect.unit (s := S2000x40) ![0, 0] S2000x40.size inb_S2000x40_S2000x40_0_0
abbrev r7_w : Rect S1x40 := Rect.unit (s := S1x40) ![0, 0] S1x40.size inb_S1x40_S1x40_0_0
abbrev r7_o : Rect S2000x40 := Rect.unit (s := S2000x40) ![0, 0] S2000x40.size inb_S2000x40_S2000x40_0_0

/-- The result block after the body: the body's one stored value of the two blocks read, over the whole block. -/
def out7_2 (x0 : Vec F S2000x40 .f32) (x1 : Vec F S1x40 .f32) : Vec F S2000x40 .f32 :=
  View.canon [⟨r7_o, k7_pay1 (View.ld x0 r7_x) (View.ld x1 r7_w)⟩]

theorem cover7_2 (p0 : Vec F S2000x40 .f32) (y : S2000x40.Idx) :
    ∃ pc ∈ ([⟨r7_o, p0⟩] : List (View.Piece (Elt F) S2000x40 .f32)), y ∈ pc.1.set :=
  View.cover_of_tiled [⟨r7_o, p0⟩] S2000x40.size (by rfl) y

set_option maxHeartbeats 1000000 in
/-- The body on whole staging buffers: both inputs are handed back as they were and the result's buffer
    holds that value. -/
theorem sound_kernel7 (c : Dev nD) (E : Set ℕ) (i : grid7.Coords) (arg1 : Memref sig .tc .vmem S2000x40 .f32) (harg1 : arg1.IsWhole) (arg2 : Memref sig .tc .vmem S1x40 .f32) (harg2 : arg2.IsWhole)
    (arg3 : Memref sig .tc .vmem S2000x40 .f32) (harg3 : arg3.IsWhole)
    (x0 : Vec F S2000x40 .f32) (x1 : Vec F S1x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__log_softmax_kernel i arg1 harg1 arg2 harg2 arg3 harg3) K := by
  simp only [cc7__log_softmax_kernel_eq_skeleton]; unfold cc7__log_softmax_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The proof data of this region's pipeline on core c: the arrays as the region finds them; after the body
    each input's buffer at its block and the result's at the stored value of the blocks; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region's pipeline, at every point. -/
theorem body_obligation7 (c : Dev nD) : BodyObligation (dat7 (F := F) V c) (defs₀ (F := F)) Variants.none () Set.univ := fun t => by
  rw [bigSep_W7, bigSep_W7]
  exact sound_body7 V c t

/-- Before the first point the region's invariant is the class's: the kernel has no scratch of its own to name. -/
theorem hin7 (c : Dev nD) : Pipeline.ΦA spec7 c ⊢ (dat7 (F := F) V c).Φ 0 := BI.Entails.refl _
/-- After the last point it is the class's still. -/
theorem hout7 (c : Dev nD) : (dat7 (F := F) V c).Φ (Fin.last cfg7.N) ⊢ Pipeline.ΦA spec7 c := BI.Entails.refl _

end Cert.Kernel.Reg

end
-- ==== Proof.Bits.Data.lean ====
/-
  The network's buffers from the launch to the return, boundary by boundary. The program is eight
  pipelined regions among six stretches of host operations; between two of them every unscoped buffer of
  the core holds a definite array, a function of the launch memory: a host stretch applies its operations,
  a region leaves its input arrays as they were and each output array at what its write-backs fold to.
  W0 … W14 name those contents in order; each region's proof data is taken at the contents it is entered from.
-/
import proofs.«158427_j57105885167694_2_alg».proof.Proof.Bits.Reg0Matmul
import proofs.«158427_j57105885167694_2_alg».proof.Proof.Bits.Reg1Stats
import proofs.«158427_j57105885167694_2_alg».proof.Proof.Bits.Reg2Norm
import proofs.«158427_j57105885167694_2_alg».proof.Proof.Bits.Reg3Matmul
import proofs.«158427_j57105885167694_2_alg».proof.Proof.Bits.Reg4Stats
import proofs.«158427_j57105885167694_2_alg».proof.Proof.Bits.Reg5Norm
import proofs.«158427_j57105885167694_2_alg».proof.Proof.Bits.Reg6Matmul
import proofs.«158427_j57105885167694_2_alg».proof.Proof.Bits.Reg7Softmax
import proofs.«158427_j57105885167694_2_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the edge lists are split, the self loops appended and the degrees summed. -/
abbrev W1 : Dev nD → Valuation τ sig (Elt F) := fun c => StableHlo.after hostOps0 (W0 m c)
/-- After the inverse square roots of the positive degrees are selected. -/
abbrev W2 : Dev nD → Valuation τ sig (Elt F) := fun c => StableHlo.after hostOps0_1 (W1 m c)
/-- After the edge coefficients are formed: where the first product is entered. -/
abbrev W3 : Dev nD → Valuation τ sig (Elt F) := fun c => StableHlo.after hostOps0_2 (W2 m c)
/-- After the first product. -/
def W4 (c : Dev nD) : Valuation τ sig (Elt F) :=
  Pipeline.withArrays spec0 c (W3 m c) fun w => (dat0 (atTc (W3 m)) c).arrAt w cfg0.N
/-- After the first aggregation along the edges: where the first statistics are entered. -/
abbrev W5 : Dev nD → Valuation τ sig (Elt F) := fun c => StableHlo.after hostOps1 (W4 m c)
/-- After the first statistics. -/
def W6 (c : Dev nD) : Valuation τ sig (Elt F) :=
  Pipeline.withArrays spec1 c (W5 m c) fun w => (dat1 (atTc (W5 m)) c).arrAt w cfg1.N
/-- After the first normalisation. -/
def W7 (c : Dev nD) : Valuation τ sig (Elt F) :=
  Pipeline.withArrays spec2 c (W6 m c) fun w => (dat2 (atTc (W6 m)) c).arrAt w cfg2.N
/-- After the second product. -/
def W8 (c : Dev nD) : Valuation τ sig (Elt F) :=
  Pipeline.withArrays spec3 c (W7 m c) fun w => (dat3 (atTc (W7 m)) c).arrAt w cfg3.N
/-- After the second aggregation. -/
abbrev W9 : Dev nD → Valuation τ sig (Elt F) := fun c => StableHlo.after hostOps4 (W8 m c)
/-- After the second statistics. -/
def W10 (c : Dev nD) : Valuation τ sig (Elt F) :=
  Pipeline.withArrays spec4 c (W9 m c) fun w => (dat4 (atTc (W9 m)) c).arrAt w cfg4.N
/-- After the second normalisation. -/
def W11 (c : Dev nD) : Valuation τ sig (Elt F) :=
  Pipeline.withArrays spec5 c (W10 m c) fun w => (dat5 (atTc (W10 m)) c).arrAt w cfg5.N
/-- After the third product. -/
def W12 (c : Dev nD) : Valuation τ sig (Elt F) :=
  Pipeline.withArrays spec6 c (W11 m c) fun w => (dat6 (atTc (W11 m)) c).arrAt w cfg6.N
/-- After the third aggregation. -/
abbrev W13 : Dev nD → Valuation τ sig (Elt F) := fun c => StableHlo.after hostOps7 (W12 m c)
/-- After the log-softmax: at the return. -/
def W14 (c : Dev nD) : Valuation τ sig (Elt F) :=
  Pipeline.withArrays spec7 c (W13 m c) fun w => (dat7 (atTc (W13 m)) c).arrAt w cfg7.N

/-- Every pipeline's proof data, each at the contents its region is entered from. -/
def pdats : (p : Fin 8) → (c : Dev nD) → Dat τ (Elt F) Unit ℕ (UR sig nD τ) ℕ (cfgs p) c
  | ⟨0, _⟩ => fun c => dat0 (atTc (W3 m)) c
  | ⟨1, _⟩ => fun c => dat1 (atTc (W5 m)) c
  | ⟨2, _⟩ => fun c => dat2 (atTc (W6 m)) c
  | ⟨3, _⟩ => fun c => dat3 (atTc (W7 m)) c
  | ⟨4, _⟩ => fun c => dat4 (atTc (W9 m)) c
  | ⟨5, _⟩ => fun c => dat5 (atTc (W10 m)) c
  | ⟨6, _⟩ => fun c => dat6 (atTc (W11 m)) c
  | ⟨7, _⟩ => fun c => dat7 (atTc (W13 m)) c

/-- What rides beside the buffers through every segment: the core's generator register at some state and the
    core owing nothing. -/
abbrev Rest (c : Dev nD) : sProp 𝕄 := iprop((∃ r, prngReg c r) ∗ ∃ W, owes (c : Thread nD τ) (0 : CellTallies nD τ sig Unit) W)

abbrev 𝒱₀ : Variants := Variants.none
abbrev Lv0 : GSem nD τ sig → Finset Unit := fun _ => ∅
abbrev lv0 : GSem nD τ sig → Unit → ℕ := fun _ _ => 0

/-- A host stretch as a segment from the contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

end Cert.Kernel.Reg

end
-- ==== Proof.Bits.Seg.lean ====
import proofs.«158427_j57105885167694_2_alg».proof.Proof.Bits.Data

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (p : Fin 8)
  (launch : Pipeline.LaunchFacts (nD := nD) (τ := τ) cfgs p)
  (Win Wout : Dev nD → Valuation τ sig (Elt F))
  (hW : ∀ c, Wout c = Pipeline.withArrays (cfgs p).spec c (Win c) fun w => (pdats m p c).arrAt w (cfgs p).N)

include launch hW in
/-- Wout is Win with the region's own arrays replaced by their final contents. -/
theorem exit_arr (c : Dev nD) (w : Fin (cfgs p).W) :
    (pdats m p c).arrAt w (cfgs p).N = atTc Wout c (Pipeline.arrRef (cfgs p).spec w) := by
  show _ = Wout c (Proc.devRef .tc (Pipeline.arrRef (cfgs p).spec w))
  rw [hW]
  exact (Pipeline.withArrays_arr (cfgs p).spec launch.win.arr_inj c (Win c) (fun w => (pdats m p c).arrAt w (cfgs p).N) w).symm

include hW in
/-- Every other buffer holds at Wout what it held at Win. -/
theorem exit_rest (c : Dev nD) : ∀ b, b ∉ Finset.univ.image (Pipeline.arrRef (cfgs p).spec) → atTc Wout c b = atTc Win c b :=
  fun b hb => by
    show Wout c (Proc.devRef .tc b) = Win c (Proc.devRef .tc b)
    rw [hW]
    exact Pipeline.withArrays_of_ne (cfgs p).spec c _ _ b fun w e => hb (Finset.mem_image.mpr ⟨w, Finset.mem_univ _, e⟩)

include launch hW in
/-- A region changes only its result arrays: any other buffer, an input array included, ends as it began. -/
theorem keeps (hA : ∀ c w, (pdats m p c).A w = atTc Win c (Pipeline.arrRef (cfgs p).spec w)) (c : Dev nD) (r : Ref sig .tc)
    (h : ∀ w, Pipeline.arrRef (cfgs p).spec w = r → ((cfgs p).win w).isOut = false) :
    Wout c (Proc.devRef .tc r) = Win c (Proc.devRef .tc r) := by
  rw [hW]
  by_cases hr : ∃ w, Pipeline.arrRef (cfgs p).spec w = r
  · obtain ⟨w, rfl⟩ := hr
    exact (Pipeline.withArrays_arr _ launch.win.arr_inj c _ _ w).trans (((pdats m p c).arrAt_in w (h w rfl) _).trans (hA c w))
  · exact Pipeline.withArrays_of_ne _ c _ _ r fun w e => hr ⟨w, e⟩

set_option backward.isDefEq.respectTransparency.types false in
/-- One construction for all eight regions: the region as a step of the program from the buffer contents Win to Wout. -/
def regionSeg (hA : ∀ c w, (pdats m p c).A w = atTc Win c (Pipeline.arrRef (cfgs p).spec w))
    (hbody : ∀ c, BodyObligation (pdats m p c) (defs₀ (F := F)) Variants.none () Set.univ)
    (hin : ∀ c, Pipeline.ΦA (cfgs p).spec c ⊢ (pdats m p c).Φ 0)
    (hout : ∀ c, (pdats m p c).Φ (Fin.last _) ⊢ Pipeline.ΦA (cfgs p).spec c)
    (howed : ∀ c t, (pdats m p c).owed t = 0 := by exact fun _ _ => rfl)
    (hrec : ∀ c t, (pdats m p c).recorded t = Set.univ := by exact fun _ _ => rfl)
    (hq : ∀ c w, (pdats m p c).q w = fullShare := by exact fun _ _ => rfl) :
    Pipeline.RegionSeg (pcfgs (F := F)) adm (pdats m) () defs₀ 𝒱₀ Lv0 lv0 p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ Lv0 lv0 p howed
  pre c := iprop(StableHlo.held (c : Thread nD τ) (Pipeline.ucRefs τ sig) (Win c) ∗ Rest c)
  post c := iprop(StableHlo.held (c : Thread nD τ) (Pipeline.ucRefs τ sig) (Wout c) ∗ Rest c)
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    have split := Pipeline.arrays_of_unscopedBufs (p := p) (pcfgs (F := F)) adm (pdats m) launch.win launch.arr_whole c
      ((pdats m p c).share_full (hq c)) (atTc Win c) (hA c)
    rw [Pipeline.unscopedBufs_held, Pipeline.ownSems0_none] at *
    iintro ⟨⟨Hbufs, Hgen, ⟨%O, Howes⟩⟩, -, -⟩
    ihave Hsplit := split $$ Hbufs
    icases Hsplit with ⟨Harr, Hbypass⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      rw [howed c 0]
      iexists O
      isplitr; · ipureintro; exact fun x _ => Or.inl ((hrec c 0).symm ▸ Set.mem_univ x)
      iexact Howes
    isplitl [Hgen]; · iexact Hgen
    iexact Hbypass
  hin c := by
    refine (?_ : _ ⊢ Pipeline.ΦA (cfgs p).spec c).trans (hin c)
    unfold Pipeline.ΦA
    iintro ⟨Hgen, -, Hscratch⟩
    isplitl [Hscratch]; · iexact Hscratch
    iexact Hgen
  hout c := by
    rw [Pipeline.ownSems0_none]
    refine (hout c).trans ?_
    unfold Pipeline.ΦA
    iintro ⟨Hscratch, Hgen⟩
    isplitl [Hgen]; · iexact Hgen
    isplitr; · iempintro
    iexact Hscratch
  hexit c := by
    have join := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Win c) (atTc Wout c) ((pdats m p c).arrAt · (cfgs p).N) (exit_arr m p launch Win Wout hW c) (exit_rest m p Win Wout hW c)
    rw [Pipeline.unscopedBufs_held] at join
    iintro ⟨Harr, Howes, Hgen, Hbypass⟩
    imodintro
    isplitl [Harr Hbypass]
    · iapply join
      isplitl [Harr]; · iexact Harr
      iexact Hbypass
    isplitl [Hgen]; · iexact Hgen
    unfold Pipeline.Dat.owesAt Pipeline.owesWithin
    rw [howed c (Fin.last _)]
    icases Howes with ⟨%O, -, Howes⟩
    iexists O; iexact Howes

end Cert.Kernel.Reg

end
-- ==== Proof.Bits.Run.lean ====
import proofs.«158427_j57105885167694_2_alg».proof.Proof.Bits.Seg

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ) (ρ : Dev nD → PrngReg)

abbrev segs : List (Pipeline.Seg (pcfgs (F := F)) adm (pdats m) () defs₀ 𝒱₀ Lv0 lv0) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (regionSeg m 0 launch0 (W3 m) (W4 m) (fun _ => rfl) (A_eq0 (atTc (W3 m))) (body_obligation0 (atTc (W3 m))) (hin0 (atTc (W3 m))) (hout0 (atTc (W3 m)))),
    .host (hseg hostOps1 hostOps1_sub hostOps1_fresh (W4 m)),
    .region (regionSeg m 1 launch1 (W5 m) (W6 m) (fun _ => rfl) (A_eq1 (atTc (W5 m))) (body_obligation1 (atTc (W5 m))) (hin1 (atTc (W5 m))) (hout1 (atTc (W5 m)))),
    .region (regionSeg m 2 launch2 (W6 m) (W7 m) (fun _ => rfl) (A_eq2 (atTc (W6 m))) (body_obligation2 (atTc (W6 m))) (hin2 (atTc (W6 m))) (hout2 (atTc (W6 m)))),
    .region (regionSeg m 3 launch3 (W7 m) (W8 m) (fun _ => rfl) (A_eq3 (atTc (W7 m))) (body_obligation3 (atTc (W7 m))) (hin3 (atTc (W7 m))) (hout3 (atTc (W7 m)))),
    .host (hseg hostOps4 hostOps4_sub hostOps4_fresh (W8 m)),
    .region (regionSeg m 4 launch4 (W9 m) (W10 m) (fun _ => rfl) (A_eq4 (atTc (W9 m))) (body_obligation4 (atTc (W9 m))) (hin4 (atTc (W9 m))) (hout4 (atTc (W9 m)))),
    .region (regionSeg m 5 launch5 (W10 m) (W11 m) (fun _ => rfl) (A_eq5 (atTc (W10 m))) (body_obligation5 (atTc (W10 m))) (hin5 (atTc (W10 m))) (hout5 (atTc (W10 m)))),
    .region (regionSeg m 6 launch6 (W11 m) (W12 m) (fun _ => rfl) (A_eq6 (atTc (W11 m))) (body_obligation6 (atTc (W11 m))) (hin6 (atTc (W11 m))) (hout6 (atTc (W11 m)))),
    .host (hseg hostOps7 hostOps7_sub hostOps7_fresh (W12 m)),
    .region (regionSeg m 7 launch7 (W13 m) (W14 m) (fun _ => rfl) (A_eq7 (atTc (W13 m))) (body_obligation7 (atTc (W13 m))) (hin7 (atTc (W13 m))) (hout7 (atTc (W13 m)))) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W14 m c b) := by
  refine Pipeline.θ_run_regions_kit_dev (pcfgs (F := F)) adm (pdats m) () cellOf_inj emb₁ defs₀ 𝒱₀ Lv0 lv0 m ρ main
    (fun _ => segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => StableHlo.held (c : Thread nD τ) (Pipeline.ucRefs τ sig) (W14 m c))
    (hch := fun c => ⟨.rfl, .rfl, .rfl, .rfl, .rfl, .rfl, .rfl, .rfl, .rfl, .rfl, .rfl, .rfl, .rfl, .rfl,
      sep_mono .rfl (by iintro ⟨-, Howes⟩; iexact Howes)⟩)
    (hinit := ?_)
    (QY := fun c s => ∀ b ∈ Pipeline.ucRefs τ sig, s.mem (((c : Thread nD τ)).1, b) = W14 m c b)
    (hfin := fun c s' => ?_) (hQ := fun _ h => h)
  ·

    refine Pipeline.initEach Lv0 lv0 fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hbufs, -, Howes, -, Hgen, -⟩, -⟩
    imodintro
    isplitl [Hbufs]; · iexact Hbufs
    isplitl [Hgen]; · iexists _; iexact Hgen
    iexists ∅; iexact Howes
  ·
    iintro ⟨Hbufs, HSI⟩
    unfold StableHlo.held
    imodintro
    iapply (pointsTo_read_all (Pipeline.ucRefs τ sig) (fun b => (((c : Thread nD τ)).1, b)) (W14 m c) s')
    isplitl [Hbufs] <;> iassumption

end Cert.Kernel.Reg

end
-- ==== Proof.Bits.Kept.lean ====
import proofs.«158427_j57105885167694_2_alg».proof.Proof.Bits.Run

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem host0 (c : Dev nD) (r : Ref sig .tc) (h : r ∉ hostOps0_W) : W1 m c r = W0 m c r :=
  StableHlo.after_of_writes_sub hostOps0 _ hostOps0_writes h
theorem host0_1 (c : Dev nD) (r : Ref sig .tc) (h : r ∉ hostOps0_1_W) : W2 m c r = W1 m c r :=
  StableHlo.after_of_writes_sub hostOps0_1 _ hostOps0_1_writes h
theorem host0_2 (c : Dev nD) (r : Ref sig .tc) (h : r ∉ hostOps0_2_W) : W3 m c r = W2 m c r :=
  StableHlo.after_of_writes_sub hostOps0_2 _ hostOps0_2_writes h
theorem host1 (c : Dev nD) (r : Ref sig .tc) (h : r ∉ hostOps1_W) : W5 m c r = W4 m c r :=
  StableHlo.after_of_writes_sub hostOps1 _ hostOps1_writes h
theorem host4 (c : Dev nD) (r : Ref sig .tc) (h : r ∉ hostOps4_W) : W9 m c r = W8 m c r :=
  StableHlo.after_of_writes_sub hostOps4 _ hostOps4_writes h
theorem host7 (c : Dev nD) (r : Ref sig .tc) (h : r ∉ hostOps7_W) : W13 m c r = W12 m c r :=
  StableHlo.after_of_writes_sub hostOps7 _ hostOps7_writes h

theorem keep0 (c : Dev nD) (r : Ref sig .tc) (h : ∀ w, Pipeline.arrRef spec0 w ≠ r) : W4 m c (Proc.devRef .tc r) = W3 m c (Proc.devRef .tc r) := by
  unfold W4; exact Pipeline.withArrays_of_ne spec0 c _ _ r h
theorem keep1 (c : Dev nD) (r : Ref sig .tc) (h : ∀ w, Pipeline.arrRef spec1 w ≠ r) : W6 m c (Proc.devRef .tc r) = W5 m c (Proc.devRef .tc r) := by
  unfold W6; exact Pipeline.withArrays_of_ne spec1 c _ _ r h
theorem keep2 (c : Dev nD) (r : Ref sig .tc) (h : ∀ w, Pipeline.arrRef spec2 w ≠ r) : W7 m c (Proc.devRef .tc r) = W6 m c (Proc.devRef .tc r) := by
  unfold W7; exact Pipeline.withArrays_of_ne spec2 c _ _ r h
theorem keep3 (c : Dev nD) (r : Ref sig .tc) (h : ∀ w, Pipeline.arrRef spec3 w ≠ r) : W8 m c (Proc.devRef .tc r) = W7 m c (Proc.devRef .tc r) := by
  unfold W8; exact Pipeline.withArrays_of_ne spec3 c _ _ r h
theorem keep4 (c : Dev nD) (r : Ref sig .tc) (h : ∀ w, Pipeline.arrRef spec4 w ≠ r) : W10 m c (Proc.devRef .tc r) = W9 m c (Proc.devRef .tc r) := by
  unfold W10; exact Pipeline.withArrays_of_ne spec4 c _ _ r h
theorem keep5 (c : Dev nD) (r : Ref sig .tc) (h : ∀ w, Pipeline.arrRef spec5 w ≠ r) : W11 m c (Proc.devRef .tc r) = W10 m c (Proc.devRef .tc r) := by
  unfold W11; exact Pipeline.withArrays_of_ne spec5 c _ _ r h
theorem keep6 (c : Dev nD) (r : Ref sig .tc) (h : ∀ w, Pipeline.arrRef spec6 w ≠ r) : W12 m c (Proc.devRef .tc r) = W11 m c (Proc.devRef .tc r) := by
  unfold W12; exact Pipeline.withArrays_of_ne spec6 c _ _ r h
theorem kept (c : Dev nD) (r : Ref sig .tc) (h0 : r ∉ hostOps0_W) (h01 : r ∉ hostOps0_1_W) (h02 : r ∉ hostOps0_2_W)
    (k0 : W4 m c (Proc.devRef .tc r) = W3 m c (Proc.devRef .tc r)) (h1 : r ∉ hostOps1_W)
    (k1 : W6 m c (Proc.devRef .tc r) = W5 m c (Proc.devRef .tc r)) (k2 : W7 m c (Proc.devRef .tc r) = W6 m c (Proc.devRef .tc r))
    (k3 : W8 m c (Proc.devRef .tc r) = W7 m c (Proc.devRef .tc r)) (h4 : r ∉ hostOps4_W)
    (k4 : W10 m c (Proc.devRef .tc r) = W9 m c (Proc.devRef .tc r)) (k5 : W11 m c (Proc.devRef .tc r) = W10 m c (Proc.devRef .tc r))
    (k6 : W12 m c (Proc.devRef .tc r) = W11 m c (Proc.devRef .tc r)) (h7 : r ∉ hostOps7_W)
    (k7 : W14 m c (Proc.devRef .tc r) = W13 m c (Proc.devRef .tc r)) :
    W14 m c (Proc.devRef .tc r) = m ((c : Thread nD τ).loc r) :=
  k7.trans <| (host7 m c r h7).trans <| k6.trans <| k5.trans <| k4.trans <| (host4 m c r h4).trans <| k3.trans <| k2.trans <| k1.trans <|
    (host1 m c r h1).trans <| k0.trans <| (host0_2 m c r h02).trans <| (host0_1 m c r h01).trans <| (host0 m c r h0).trans rfl

end Cert.Kernel.Reg

end
-- ==== Proof.Bits.KeptArgs.lean ====
import proofs.«158427_j57105885167694_2_alg».proof.Proof.Bits.Kept

set_option maxRecDepth 16384

noncomputable section

namespace Cert.Kernel.Reg

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12]

/-- No host stretch writes an argument and no region has one among its result arrays, so each ends as launched. -/
theorem kept_arg (c : Dev nD) (r : Ref sig .tc) (h : r ∈ argRefs := by decide) : W14 m c (Proc.devRef .tc r) = m ((c : Thread nD τ).loc r) :=
  kept m c r (by revert r; decide) (by revert r; decide) (by revert r; decide) (keeps m 0 launch0 (W3 m) (W4 m) (fun _ => rfl) (A_eq0 (atTc (W3 m))) c r (by revert r; decide)) (by revert r; decide)
    (keeps m 1 launch1 (W5 m) (W6 m) (fun _ => rfl) (A_eq1 (atTc (W5 m))) c r (by revert r; decide)) (keeps m 2 launch2 (W6 m) (W7 m) (fun _ => rfl) (A_eq2 (atTc (W6 m))) c r (by revert r; decide))
    (keeps m 3 launch3 (W7 m) (W8 m) (fun _ => rfl) (A_eq3 (atTc (W7 m))) c r (by revert r; decide)) (by revert r; decide)
    (keeps m 4 launch4 (W9 m) (W10 m) (fun _ => rfl) (A_eq4 (atTc (W9 m))) c r (by revert r; decide)) (keeps m 5 launch5 (W10 m) (W11 m) (fun _ => rfl) (A_eq5 (atTc (W10 m))) c r (by revert r; decide))
    (keeps m 6 launch6 (W11 m) (W12 m) (fun _ => rfl) (A_eq6 (atTc (W11 m))) c r (by revert r; decide)) (by revert r; decide) (keeps m 7 launch7 (W13 m) (W14 m) (fun _ => rfl) (A_eq7 (atTc (W13 m))) c r (by revert r; decide))

def result (c : Dev nD) : Buf (Elt F) ((c.tc : Thread nD τ).loc main_v85) := W14 m c (Proc.devRef .tc main_v85)

theorem run_result : θ_run defs (onTc (τ := τ) (main (F := F))) ⟨m, fun _ => 0, ρ⟩ (fun r => ∀ c : Dev nD,
      r.2.mem ((c.tc : Thread nD τ).loc main_v85) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v85 (by decide)),
      (h c _ (mem_uc main_arg0 (by decide))).trans (kept_arg m c main_arg0),
      (h c _ (mem_uc main_arg1 (by decide))).trans (kept_arg m c main_arg1),
      (h c _ (mem_uc main_arg2 (by decide))).trans (kept_arg m c main_arg2),
      (h c _ (mem_uc main_arg3 (by decide))).trans (kept_arg m c main_arg3),
      (h c _ (mem_uc main_arg4 (by decide))).trans (kept_arg m c main_arg4),
      (h c _ (mem_uc main_arg5 (by decide))).trans (kept_arg m c main_arg5),
      (h c _ (mem_uc main_arg6 (by decide))).trans (kept_arg m c main_arg6),
      (h c _ (mem_uc main_arg7 (by decide))).trans (kept_arg m c main_arg7),
      (h c _ (mem_uc main_arg8 (by decide))).trans (kept_arg m c main_arg8),
      (h c _ (mem_uc main_arg9 (by decide))).trans (kept_arg m c main_arg9),
      (h c _ (mem_uc main_arg10 (by decide))).trans (kept_arg m c main_arg10),
      (h c _ (mem_uc main_arg11 (by decide))).trans (kept_arg m c main_arg11),
      (h c _ (mem_uc main_arg12 (by decide))).trans (kept_arg m c main_arg12)⟩) (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (run_result m ρ)

end Cert.Kernel.Reg

end
-- ==== Proof.Ideal.Reg0Matmul.lean ====
import proofs.«158427_j57105885167694_2_alg».proof.Proof.Gen.KernelIdeal.Launch
import proofs.«158427_j57105885167694_2_alg».proof.Proof.Gen.KernelIdeal.Skeleton
import proofs.«158427_j57105885167694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_o : Rect S2000x128 := Rect.unit (s := S2000x128) ![0, 0] S2000x128.size inb_S2000x128_S2000x128_0_0

def out0_2 (x0 : Vec F S2000x128 .f32) (x1 : Vec F S128x128 .f32) : Vec F S2000x128 .f32 :=
  View.canon [⟨r0_o, k0_pay1 (View.ld x0 r0_x) (View.ld x1 r0_w)⟩]

theorem cover0_2 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in

theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 (F := F) V c).Φ 0 := BI.Entails.refl _

theorem hout0 (c : Dev nD) : (dat0 (F := F) V c).Φ (Fin.last cfg0.N) ⊢ Pipeline.ΦA spec0 c := BI.Entails.refl _

end Cert.KernelIdeal.Reg

end
-- ==== Proof.Ideal.Reg1Stats.lean ====
import proofs.«158427_j57105885167694_2_alg».proof.Proof.Gen.KernelIdeal.Launch
import proofs.«158427_j57105885167694_2_alg».proof.Proof.Gen.KernelIdeal.Skeleton
import proofs.«158427_j57105885167694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev first1 (i : grid1.Coords) : Prop :=
  (Scalar.cmpi .ne (Scalar.extui (Scalar.cmpi .eq (BitVec.ofNat 32 (i 0).val) 0#32)) 0#32) = 1#1

abbrev last1 (i : grid1.Coords) : Prop := k1_cond2 i = 1#1

theorem first1_iff : ∀ t : Fin cfg1.N, first1 (grid1.coords t) ↔ t.val = 0 :=
  (by decide +kernel : ∀ t : Fin grid1.N, first1 (grid1.coords t) ↔ t.val = 0)
theorem last1_iff : ∀ t : Fin cfg1.N, last1 (grid1.coords t) ↔ t.val = 24 :=
  (by decide +kernel : ∀ t : Fin grid1.N, last1 (grid1.coords t) ↔ t.val = 24)

abbrev scM1_0 : Memref sig .tc .vmem S1x128 .f32 := Memref.whole cc1_scratch0
abbrev scM1_1 : Memref sig .tc .vmem S1x128 .f32 := Memref.whole cc1_scratch1

set_option maxHeartbeats 1000000 in

noncomputable def bodyRun1_A (c : Dev nD) (i : grid1.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : first1 i) (hl : ¬last1 i) (x : Vec F S2000x128 .f32) (b : Vec F S1x128 .f32) :
    Σ' (LS : List (View.Piece (Elt F) S1x128 .f32)), { LQ : List (View.Piece (Elt F) S1x128 .f32) //
      ∀ (m v : Vec F S1x128 .f32) (E : Set ℕ) (K : PUnit → sProp 𝕄),
        iprop(owns (c : Thread nD τ) a1 fullShare x ∗ owns (c : Thread nD τ) a2 fullShare b
            ∗ owns (c : Thread nD τ) a3 fullShare m ∗ owns (c : Thread nD τ) a4 fullShare v
            ∗ (∃ d, owns (c : Thread nD τ) a5 fullShare d) ∗ (∃ d, owns (c : Thread nD τ) a6 fullShare d)
            ∗ (iprop(owns (c : Thread nD τ) a1 fullShare x ∗ owns (c : Thread nD τ) a2 fullShare b
                ∗ owns (c : Thread nD τ) a3 fullShare m ∗ owns (c : Thread nD τ) a4 fullShare v
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc1__bn_stats_kernel i a1 h1 a2 h2 a3 h3 a4 h4 a5 h5 a6 h6) K } := by
  refine ⟨?_, ?_, fun m v E K => ?run⟩
  case run =>
    simp only [cc1__bn_stats_kernel_eq_skeleton]; unfold cc1__bn_stats_kernel_skel
    unfold owns
    iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
    obtain rfl := h1.eq_unread e1; obtain rfl := h2.eq_unread e2; obtain rfl := h3.eq_unread e3; obtain rfl := h4.eq_unread e4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in

noncomputable def bodyRun1_B (c : Dev nD) (i : grid1.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : ¬first1 i) (hl : ¬last1 i) (x : Vec F S2000x128 .f32) (b : Vec F S1x128 .f32) (s q : Vec F S1x128 .f32) :
    Σ' (LS : List (View.Piece (Elt F) S1x128 .f32)), { LQ : List (View.Piece (Elt F) S1x128 .f32) //
      ∀ (m v : Vec F S1x128 .f32) (E : Set ℕ) (K : PUnit → sProp 𝕄),
        iprop(owns (c : Thread nD τ) a1 fullShare x ∗ owns (c : Thread nD τ) a2 fullShare b
            ∗ owns (c : Thread nD τ) a3 fullShare m ∗ owns (c : Thread nD τ) a4 fullShare v
            ∗ owns (c : Thread nD τ) a5 fullShare s ∗ owns (c : Thread nD τ) a6 fullShare q
            ∗ (iprop(owns (c : Thread nD τ) a1 fullShare x ∗ owns (c : Thread nD τ) a2 fullShare b
                ∗ owns (c : Thread nD τ) a3 fullShare m ∗ owns (c : Thread nD τ) a4 fullShare v
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc1__bn_stats_kernel i a1 h1 a2 h2 a3 h3 a4 h4 a5 h5 a6 h6) K } := by
  refine ⟨?_, ?_, fun m v E K => ?run⟩
  case run =>
    simp only [cc1__bn_stats_kernel_eq_skeleton]; unfold cc1__bn_stats_kernel_skel
    unfold owns
    iintro ⟨⟨%f1, %e1, H1⟩, ⟨%f2, %e2, H2⟩, ⟨%f3, %e3, H3⟩, ⟨%f4, %e4, H4⟩, ⟨%f5, %e5, H5⟩, ⟨%f6, %e6, H6⟩, Hk⟩
    obtain rfl := h1.eq_unread e1; obtain rfl := h2.eq_unread e2; obtain rfl := h3.eq_unread e3; obtain rfl := h4.eq_unread e4
    obtain rfl := h5.eq_unread e5; obtain rfl := h6.eq_unread e6
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in

noncomputable def bodyRun1_C (c : Dev nD) (i : grid1.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : ¬first1 i) (hl : last1 i) (x : Vec F S2000x128 .f32) (b : Vec F S1x128 .f32) (s q : Vec F S1x128 .f32) :
    Σ' (LM : List (View.Piece (Elt F) S1x128 .f32)) (LV : List (View.Piece (Elt F) S1x128 .f32))
       (LS : List (View.Piece (Elt F) S1x128 .f32)), { LQ : List (View.Piece (Elt F) S1x128 .f32) //
      ∀ (E : Set ℕ) (K : PUnit → sProp 𝕄),
        iprop(owns (c : Thread nD τ) a1 fullShare x ∗ owns (c : Thread nD τ) a2 fullShare b
            ∗ (∃ d, owns (c : Thread nD τ) a3 fullShare d) ∗ (∃ d, owns (c : Thread nD τ) a4 fullShare d)
            ∗ owns (c : Thread nD τ) a5 fullShare s ∗ owns (c : Thread nD τ) a6 fullShare q
            ∗ (iprop(owns (c : Thread nD τ) a1 fullShare x ∗ owns (c : Thread nD τ) a2 fullShare b
                ∗ (∃ f, a3.view.loc (c : Thread nD τ) ↦[a3.view.set]{fullShare} a3.view.writes (Elt F) f LM)
                ∗ (∃ f, a4.view.loc (c : Thread nD τ) ↦[a4.view.set]{fullShare} a4.view.writes (Elt F) f LV)
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc1__bn_stats_kernel i a1 h1 a2 h2 a3 h3 a4 h4 a5 h5 a6 h6) K } := by
  refine ⟨?_, ?_, ?_, ?_, fun E K => ?run⟩
  case run =>
    simp only [cc1__bn_stats_kernel_eq_skeleton]; unfold cc1__bn_stats_kernel_skel
    unfold owns
    iintro ⟨⟨%f1, %e1, H1⟩, ⟨%f2, %e2, H2⟩, ⟨%d3, %f3, -, H3⟩, ⟨%d4, %f4, -, H4⟩, ⟨%f5, %e5, H5⟩, ⟨%f6, %e6, H6⟩, Hk⟩
    obtain rfl := h1.eq_unread e1; obtain rfl := h2.eq_unread e2
    obtain rfl := h5.eq_unread e5; obtain rfl := h6.eq_unread e6
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    iexists _; iexact H6

section pieces

variable (c : Dev nD) (i : grid1.Coords)
  (a1 : Memref sig .tc .vmem S2000x128 .f32) (h1 : a1.IsWhole) (a2 : Memref sig .tc .vmem S1x128 .f32) (h2 : a2.IsWhole)
  (a3 : Memref sig .tc .vmem S1x128 .f32) (h3 : a3.IsWhole) (a4 : Memref sig .tc .vmem S1x128 .f32) (h4 : a4.IsWhole)
  (a5 : Memref sig .tc .vmem S1x128 .f32) (h5 : a5.IsWhole) (a6 : Memref sig .tc .vmem S1x128 .f32) (h6 : a6.IsWhole)
  (x : Vec F S2000x128 .f32) (b s q : Vec F S1x128 .f32)

theorem tilesS1_A (hf : first1 i) (hl : ¬last1 i) :
    ∀ y : S1x128.Idx, ∃ p ∈ (bodyRun1_A c i a1 h1 a2 h2 a3 h3 a4 h4 a5 h5 a6 h6 hf hl x b).1, y ∈ p.1.set :=
  fun y => View.cover_of_tiledL (bodyRun1_A c i a1 h1 a2 h2 a3 h3 a4 h4 a5 h5 a6 h6 hf hl x b).1 S1x128.size (by sl_kernel_rfl) y

theorem tilesQ1_A (hf : first1 i) (hl : ¬last1 i) :
    ∀ y : S1x128.Idx, ∃ p ∈ (bodyRun1_A c i a1 h1 a2 h2 a3 h3 a4 h4 a5 h5 a6 h6 hf hl x b).2.1, y ∈ p.1.set :=
  fun y => View.cover_of_tiledL (bodyRun1_A c i a1 h1 a2 h2 a3 h3 a4 h4 a5 h5 a6 h6 hf hl x b).2.1 S1x128.size (by sl_kernel_rfl) y

theorem tilesS1_B (hf : ¬first1 i) (hl : ¬last1 i) :
    ∀ y : S1x128.Idx, ∃ p ∈ (bodyRun1_B c i a1 h1 a2 h2 a3 h3 a4 h4 a5 h5 a6 h6 hf hl x b s q).1, y ∈ p.1.set :=
  fun y => View.cover_of_tiledL (bodyRun1_B c i a1 h1 a2 h2 a3 h3 a4 h4 a5 h5 a6 h6 hf hl x b s q).1 S1x128.size (by sl_kernel_rfl) y
theorem tilesQ1_B (hf : ¬first1 i) (hl : ¬last1 i) :
    ∀ y : S1x128.Idx, ∃ p ∈ (bodyRun1_B c i a1 h1 a2 h2 a3 h3 a4 h4 a5 h5 a6 h6 hf hl x b s q).2.1, y ∈ p.1.set :=
  fun y => View.cover_of_tiledL (bodyRun1_B c i a1 h1 a2 h2 a3 h3 a4 h4 a5 h5 a6 h6 hf hl x b s q).2.1 S1x128.size (by sl_kernel_rfl) y

theorem tilesM1_C (hf : ¬first1 i) (hl : last1 i) :
    ∀ y : S1x128.Idx, ∃ p ∈ (bodyRun1_C c i a1 h1 a2 h2 a3 h3 a4 h4 a5 h5 a6 h6 hf hl x b s q).1, y ∈ p.1.set :=
  fun y => View.cover_of_tiledL (bodyRun1_C c i a1 h1 a2 h2 a3 h3 a4 h4 a5 h5 a6 h6 hf hl x b s q).1 S1x128.size (by sl_kernel_rfl) y
theorem tilesV1_C (hf : ¬first1 i) (hl : last1 i) :
    ∀ y : S1x128.Idx, ∃ p ∈ (bodyRun1_C c i a1 h1 a2 h2 a3 h3 a4 h4 a5 h5 a6 h6 hf hl x b s q).2.1, y ∈ p.1.set :=
  fun y => View.cover_of_tiledL (bodyRun1_C c i a1 h1 a2 h2 a3 h3 a4 h4 a5 h5 a6 h6 hf hl x b s q).2.1 S1x128.size (by sl_kernel_rfl) y
theorem tilesS1_C (hf : ¬first1 i) (hl : last1 i) :
    ∀ y : S1x128.Idx, ∃ p ∈ (bodyRun1_C c i a1 h1 a2 h2 a3 h3 a4 h4 a5 h5 a6 h6 hf hl x b s q).2.2.1, y ∈ p.1.set :=
  fun y => View.cover_of_tiledL (bodyRun1_C c i a1 h1 a2 h2 a3 h3 a4 h4 a5 h5 a6 h6 hf hl x b s q).2.2.1 S1x128.size (by sl_kernel_rfl) y
theorem tilesQ1_C (hf : ¬first1 i) (hl : last1 i) :
    ∀ y : S1x128.Idx, ∃ p ∈ (bodyRun1_C c i a1 h1 a2 h2 a3 h3 a4 h4 a5 h5 a6 h6 hf hl x b s q).2.2.2.1, y ∈ p.1.set :=
  fun y => View.cover_of_tiledL (bodyRun1_C c i a1 h1 a2 h2 a3 h3 a4 h4 a5 h5 a6 h6 hf hl x b s q).2.2.2.1 S1x128.size (by sl_kernel_rfl) y

end pieces

abbrev sg1_0 (t : Fin cfg1.N) : Memref sig .tc .vmem S2000x128 .f32 := win1_0.stage (cfg1.slots t 0)
abbrev sg1_1 (t : Fin cfg1.N) : Memref sig .tc .vmem S1x128 .f32 := win1_1.stage (cfg1.slots t 1)
abbrev sg1_2 (t : Fin cfg1.N) : Memref sig .tc .vmem S1x128 .f32 := win1_2.stage (cfg1.slots t 2)
abbrev sg1_3 (t : Fin cfg1.N) : Memref sig .tc .vmem S1x128 .f32 := win1_3.stage (cfg1.slots t 3)
abbrev wh1_0 (t : Fin cfg1.N) : (sg1_0 t).IsWhole := hstage1_0 ((cfg1.slots t 0).cast nbuf1_0)
abbrev wh1_1 (t : Fin cfg1.N) : (sg1_1 t).IsWhole := hstage1_1 ((cfg1.slots t 1).cast nbuf1_1)
abbrev wh1_2 (t : Fin cfg1.N) : (sg1_2 t).IsWhole := hstage1_2 ((cfg1.slots t 2).cast nbuf1_2)
abbrev wh1_3 (t : Fin cfg1.N) : (sg1_3 t).IsWhole := hstage1_3 ((cfg1.slots t 3).cast nbuf1_3)

def atA1 (c : Dev nD) (t : Fin cfg1.N) (hf : first1 (grid1.coords t)) (hl : ¬last1 (grid1.coords t))
    (x : Vec F S2000x128 .f32) (b : Vec F S1x128 .f32) :
    (Vec F S1x128 .f32 × Vec F S1x128 .f32) × (Vec F S1x128 .f32 × Vec F S1x128 .f32) :=
  ((k1_pay1 (F := F), k1_pay2 (F := F)),
   (View.canon (bodyRun1_A c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b).1,
    View.canon (bodyRun1_A c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b).2.1))

def atB1 (c : Dev nD) (t : Fin cfg1.N) (hf : ¬first1 (grid1.coords t)) (hl : ¬last1 (grid1.coords t))
    (x : Vec F S2000x128 .f32) (b s q : Vec F S1x128 .f32) :
    (Vec F S1x128 .f32 × Vec F S1x128 .f32) × (Vec F S1x128 .f32 × Vec F S1x128 .f32) :=
  ((k1_pay1 (F := F), k1_pay2 (F := F)),
   (View.canon (bodyRun1_B c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).1,
    View.canon (bodyRun1_B c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).2.1))

def atC1 (c : Dev nD) (t : Fin cfg1.N) (hf : ¬first1 (grid1.coords t)) (hl : last1 (grid1.coords t))
    (x : Vec F S2000x128 .f32) (b s q : Vec F S1x128 .f32) :
    (Vec F S1x128 .f32 × Vec F S1x128 .f32) × (Vec F S1x128 .f32 × Vec F S1x128 .f32) :=
  ((View.canon (bodyRun1_C c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).1,
    View.canon (bodyRun1_C c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).2.1),
   (View.canon (bodyRun1_C c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).2.2.1,
    View.canon (bodyRun1_C c (grid1.coords t) (sg1_0 t) (wh1_0 t) (sg1_1 t) (wh1_1 t) (sg1_2 t) (wh1_2 t) (sg1_3 t) (wh1_3 t) scM1_0 (Memref.isWhole_whole _) scM1_1 (Memref.isWhole_whole _) hf hl x b s q).2.2.2.1))

theorem not_last1_of_zero (t : Fin cfg1.N) (hz : t.val = 0) : ¬last1 (grid1.coords t) := fun h => by
  have := (last1_iff t).mp h; omega
theorem not_first1_of_ne (t : Fin cfg1.N) (hz : t.val ≠ 0) : ¬first1 (grid1.coords t) := fun h => hz ((first1_iff t).mp h)
theorem not_last1_of_ne (t : Fin cfg1.N) (hz : t.val ≠ 24) : ¬last1 (grid1.coords t) := fun h => hz ((last1_iff t).mp h)

def outsAt1 (c : Dev nD) : (n : ℕ) → n < cfg1.N →
    (Vec F S1x128 .f32 × Vec F S1x128 .f32) × (Vec F S1x128 .f32 × Vec F S1x128 .f32)
  | 0, hn => atA1 c ⟨0, hn⟩ ((first1_iff ⟨0, hn⟩).mpr rfl) (not_last1_of_zero ⟨0, hn⟩ rfl) (iblk1 V c 0 ⟨0, hn⟩) (iblk1 V c 1 ⟨0, hn⟩)
  | n + 1, hn =>
    if hL : n + 1 = 24 then
      atC1 c ⟨n + 1, hn⟩ (not_first1_of_ne ⟨n + 1, hn⟩ (Nat.succ_ne_zero n)) ((last1_iff ⟨n + 1, hn⟩).mpr hL) (iblk1 V c 0 ⟨n + 1, hn⟩) (iblk1 V c 1 ⟨n + 1, hn⟩)
        (outsAt1 c n (Nat.lt_of_succ_lt hn)).2.1 (outsAt1 c n (Nat.lt_of_succ_lt hn)).2.2
    else
      atB1 c ⟨n + 1, hn⟩ (not_first1_of_ne ⟨n + 1, hn⟩ (Nat.succ_ne_zero n)) (not_last1_of_ne ⟨n + 1, hn⟩ hL) (iblk1 V c 0 ⟨n + 1, hn⟩) (iblk1 V c 1 ⟨n + 1, hn⟩)
        (outsAt1 c n (Nat.lt_of_succ_lt hn)).2.1 (outsAt1 c n (Nat.lt_of_succ_lt hn)).2.2

theorem outsAt1_A (c : Dev nD) (t : Fin cfg1.N) (hz : t.val = 0) :
    outsAt1 V c t.val t.isLt = atA1 c t ((first1_iff t).mpr hz) (not_last1_of_zero t hz) (iblk1 V c 0 t) (iblk1 V c 1 t) := by
  obtain ⟨n, hn⟩ := t
  cases n with
  | zero => rfl
  | succ n => exact absurd hz (Nat.succ_ne_zero n)

theorem outsAt1_B (c : Dev nD) (t : Fin cfg1.N) (h0 : t.val ≠ 0) (hL : t.val ≠ 24) :
    outsAt1 V c t.val t.isLt = atB1 c t (not_first1_of_ne t h0) (not_last1_of_ne t hL) (iblk1 V c 0 t) (iblk1 V c 1 t)
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd rfl h0
  | succ n => exact (dif_neg hL).trans rfl

theorem outsAt1_C (c : Dev nD) (t : Fin cfg1.N) (h0 : t.val ≠ 0) (hL : t.val = 24) :
    outsAt1 V c t.val t.isLt = atC1 c t (not_first1_of_ne t h0) ((last1_iff t).mpr hL) (iblk1 V c 0 t) (iblk1 V c 1 t)
      (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact absurd rfl h0
  | succ n => exact (dif_pos hL).trans rfl

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

def Phi1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2)
      ∗ Pipeline.scopedRestBut (Ix := Unit) (Name := ℕ) (U := UR sig nD τ) (Lvl := ℕ) (Val := Elt F) spec1 c [cc1_scratch0, cc1_scratch1])
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1_0 fullShare (outsAt1 V c n hn).2.1 ∗ owns (c : Thread nD τ) scM1_1 fullShare (outsAt1 V c n hn).2.2)
      ∗ Pipeline.scopedRestBut (Ix := Unit) (Name := ℕ) (U := UR sig nD τ) (Lvl := ℕ) (Val := Elt F) spec1 c [cc1_scratch0, cc1_scratch1])
      ∗ (∃ r, prngReg c r)) := rfl

theorem Phi1_pos (c : Dev nD) (n : ℕ) (h : n ≤ cfg1.N) (hz : n ≠ 0) :
    Phi1 V c n h = iprop(iprop(iprop(owns (c : Thread nD τ) scM1_0 fullShare (outsAt1 V c (n - 1) (by omega)).2.1 ∗ owns (c : Thread nD τ) scM1_1 fullShare (outsAt1 V c (n - 1) (by omega)).2.2)
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1.1
    | ⟨3, _⟩ => (outsAt1 V c t.val t.isLt).1.2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1.1 := by dsimp only [dat1]
theorem after1_3 (c : Dev nD) (t : Fin cfg1.N) : (dat1 V c).after 3 t = (outsAt1 V c t.val t.isLt).1.2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem live1_0 : ∀ t : Fin cfg1.N, cfg1.idle 0 (grid1.coords t) = false := fun _ => rfl
theorem live1_1 : ∀ t : Fin cfg1.N, cfg1.idle 1 (grid1.coords t) = false := fun _ => rfl

theorem idle1_2 : ∀ t : Fin cfg1.N, ¬last1 (grid1.coords t) → cfg1.idle 2 (grid1.coords t) = true := by decide +kernel
theorem keep1_2 : ∀ t : Fin cfg1.N, ¬last1 (grid1.coords t) → (cfg1.win 2).flush t = false := by decide +kernel

theorem idle1_3 : ∀ t : Fin cfg1.N, ¬last1 (grid1.coords t) → cfg1.idle 3 (grid1.coords t) = true := by decide +kernel
theorem keep1_3 : ∀ t : Fin cfg1.N, ¬last1 (grid1.coords t) → (cfg1.win 3).flush t = false := by decide +kernel

theorem live1_2 : ∀ t : Fin cfg1.N, last1 (grid1.coords t) → cfg1.idle 2 (grid1.coords t) = false := by decide +kernel
theorem live1_3 : ∀ t : Fin cfg1.N, last1 (grid1.coords t) → cfg1.idle 3 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (sg1_0 t) fullShare ((dat1 V c).before 0 t d))
    ∗ (∃ d, owns (c : Thread nD τ) (sg1_1 t) fullShare ((dat1 V c).before 1 t d))
    ∗ (∃ d, owns (c : Thread nD τ) (sg1_2 t) fullShare ((dat1 V c).before 2 t d))
    ∗ (∃ d, owns (c : Thread nD τ) (sg1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  have hN : t.val < 25 := lt_of_lt_of_eq t.isLt (show cfg1.N = 25 from N_1)
  rw [show (dat1 V c).leavesExact 0 t = owns (c : Thread nD τ) (sg1_0 t) fullShare ((dat1 V c).after 0 t) from by
    unfold Dat.leavesExact; rw [live1_0 t], after1_0]
  rw [show (dat1 V c).leavesExact 1 t = owns (c : Thread nD τ) (sg1_1 t) fullShare ((dat1 V c).after 1 t) from by
    unfold Dat.leavesExact; rw [live1_1 t], after1_1]
  rw [Phi1_castSucc V c t]
  by_cases hz : t.val = 0
  ·
    have hf : first1 (grid1.coords t) := (first1_iff t).mpr hz
    have hl : ¬last1 (grid1.coords t) := not_last1_of_zero t hz
    rw [Dat.leavesExact_idle (dat1 V c) 2 t (idle1_2 t hl) (keep1_2 t hl), Dat.leavesExact_idle (dat1 V c) 3 t (idle1_3 t hl) (keep1_3 t hl)]
    rw [outsAt1_A V c t hz]
    unfold atA1; (try dsimp only)
    rw [Phi1_zero V c _ _ hz, PhiA1_eq]
    iintro ⟨⟨⟨⟨HS, HQ⟩, Hr⟩, Hg⟩, Ho, ⟨%d0, H0⟩, ⟨%d1, H1⟩, ⟨%d2, H2⟩, ⟨%d3, H3⟩⟩
    iapply ((bodyRun1_A c (grid1.coords t) _ _ _ _ _ _ _ _ _ _ _ _ hf hl (iblk1 V c 0 t) (iblk1 V c 1 t)).2.2 _ _ Set.univ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, ⟨%eS, HS⟩, ⟨%eQ, HQ⟩⟩
    isplitl [HS HQ Hr Hg]
    · isplitl [HS HQ Hr]
      · isplitl [HS HQ]
        · isplitl [HS]
          · unfold owns; iexists _; isplitr
            swap; · iexact HS
            ipureintro; exact View.read_writes_eq_canon _ _ _ (tilesS1_A c _ _ _ _ _ _ _ _ _ _ _ _ _ _ _ _ _)
          · unfold owns; iexists _; isplitr
            swap; · iexact HQ
            ipureintro; exact View.read_writes_eq_canon _ _ _ (tilesQ1_A c _ _ _ _ _ _ _ _ _ _ _ _ _ _ _ _ _)
        iexact Hr
      iexact Hg
    isplitl [Ho]; · iexact Ho
    isplitl [H0]; · iexact H0
    isplitl [H1]; · iexact H1
    isplitl [H2]; · iexists _; iexact H2
    iexists _; iexact H3
  · have hf : ¬first1 (grid1.coords t) := not_first1_of_ne t hz
    rw [Phi1_pos V c _ _ hz]
    by_cases hL : t.val = 24
    ·
      have hl : last1 (grid1.coords t) := (last1_iff t).mpr hL
      rw [show (dat1 V c).leavesExact 2 t = owns (c : Thread nD τ) (sg1_2 t) fullShare ((dat1 V c).after 2 t) from by
        unfold Dat.leavesExact; rw [live1_2 t hl], after1_2]
      rw [show (dat1 V c).leavesExact 3 t = owns (c : Thread nD τ) (sg1_3 t) fullShare ((dat1 V c).after 3 t) from by
        unfold Dat.leavesExact; rw [live1_3 t hl], after1_3]
      rw [outsAt1_C V c t hz hL]
      unfold atC1; (try dsimp only)
      iintro ⟨⟨⟨⟨HS, HQ⟩, Hr⟩, Hg⟩, Ho, ⟨%d0, H0⟩, ⟨%d1, H1⟩, ⟨%d2, H2⟩, ⟨%d3, H3⟩⟩
      iapply ((bodyRun1_C c (grid1.coords t) _ _ _ _ _ _ _ _ _ _ _ _ hf hl (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS]; · iexact HS
      isplitl [HQ]; · iexact HQ
      iintro ⟨H0, H1, ⟨%e2, H2⟩, ⟨%e3, H3⟩, ⟨%eS, HS⟩, ⟨%eQ, HQ⟩⟩
      isplitl [HS HQ Hr Hg]
      · isplitl [HS HQ Hr]
        · isplitl [HS HQ]
          · isplitl [HS]
            · unfold owns; iexists _; isplitr
              swap; · iexact HS
              ipureintro; exact View.read_writes_eq_canon _ _ _ (tilesS1_C c _ _ _ _ _ _ _ _ _ _ _ _ _ _ _ _ _ _ _)
            · unfold owns; iexists _; isplitr
              swap; · iexact HQ
              ipureintro; exact View.read_writes_eq_canon _ _ _ (tilesQ1_C c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_eq_canon _ _ _ (tilesM1_C c _ _ _ _ _ _ _ _ _ _ _ _ _ _ _ _ _ _ _)
      · unfold owns; iexists _; isplitr
        swap; · iexact H3
        ipureintro; exact View.read_writes_eq_canon _ _ _ (tilesV1_C c _ _ _ _ _ _ _ _ _ _ _ _ _ _ _ _ _ _ _)
    ·
      have hl : ¬last1 (grid1.coords t) := not_last1_of_ne t hL
      rw [Dat.leavesExact_idle (dat1 V c) 2 t (idle1_2 t hl) (keep1_2 t hl), Dat.leavesExact_idle (dat1 V c) 3 t (idle1_3 t hl) (keep1_3 t hl)]
      rw [outsAt1_B V c t hz hL]
      unfold atB1; (try dsimp only)
      iintro ⟨⟨⟨⟨HS, HQ⟩, Hr⟩, Hg⟩, Ho, ⟨%d0, H0⟩, ⟨%d1, H1⟩, ⟨%d2, H2⟩, ⟨%d3, H3⟩⟩
      iapply ((bodyRun1_B c (grid1.coords t) _ _ _ _ _ _ _ _ _ _ _ _ hf hl (iblk1 V c 0 t) (iblk1 V c 1 t) _ _).2.2 _ _ Set.univ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, ⟨%eS, HS⟩, ⟨%eQ, HQ⟩⟩
      isplitl [HS HQ Hr Hg]
      · isplitl [HS HQ Hr]
        · isplitl [HS HQ]
          · isplitl [HS]
            · unfold owns; iexists _; isplitr
              swap; · iexact HS
              ipureintro; exact View.read_writes_eq_canon _ _ _ (tilesS1_B c _ _ _ _ _ _ _ _ _ _ _ _ _ _ _ _ _ _ _)
            · unfold owns; iexists _; isplitr
              swap; · iexact HQ
              ipureintro; exact View.read_writes_eq_canon _ _ _ (tilesQ1_B c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨⟨HS, HQ⟩, Hr⟩, Hg⟩
  isplitl [HS HQ Hr]
  · isplitl [HS HQ]
    · isplitl [HS]
      · iexists _; iexact HS
      · iexists _; iexact HQ
    iexact Hr
  iexact Hg

theorem hout1 (c : Dev nD) : (dat1 V c).Φ (Fin.last cfg1.N) ⊢ Pipeline.ΦA spec1 c :=
  Phi1_out V c _ (by rw [Fin.val_last]; have : cfg1.N = 25 := N_1; omega)

end Cert.KernelIdeal.Reg

end
-- ==== Proof.Ideal.Reg2Norm.lean ====
import proofs.«158427_j57105885167694_2_alg».proof.Proof.Gen.KernelIdeal.Launch
import proofs.«158427_j57105885167694_2_alg».proof.Proof.Gen.KernelIdeal.Skeleton
import proofs.«158427_j57105885167694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S2000x128 := Rect.unit (s := S2000x128) ![0, 0] S2000x128.size inb_S2000x128_S2000x128_0_0
abbrev r2_r : Rect S1x128 := Rect.unit (s := S1x128) ![0, 0] S1x128.size inb_S1x128_S1x128_0_0

def out2_6 (x0 : Vec F S2000x128 .f32) (x1 x2 x3 x4 x5 : Vec F S1x128 .f32) : Vec F S2000x128 .f32 :=
  View.canon [⟨r2_x, k2_pay1 (View.ld x0 r2_x) (View.ld x1 r2_r) (View.ld x3 r2_r) (View.ld x4 r2_r) (View.ld x2 r2_r) (View.ld x5 r2_r)⟩]

theorem cover2_6 (p0 : Vec F S2000x128 .f32) (y : S2000x128.Idx) :
    ∃ pc ∈ ([⟨r2_x, p0⟩] : List (View.Piece (Elt F) S2000x128 .f32)), y ∈ pc.1.set :=
  View.cover_of_tiled [⟨r2_x, p0⟩] S2000x128.size (by rfl) y

set_option maxHeartbeats 1000000 in

theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_norm_kernel i arg1 harg1 arg2 harg2 arg3 harg3 arg4 harg4 arg5 harg5 arg6 harg6 arg7 harg7) K := by
  simp only [cc2__bn_norm_kernel_eq_skeleton]; unfold cc2__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 (F := F) V c).Φ 0 := BI.Entails.refl _

theorem hout2 (c : Dev nD) : (dat2 (F := F) V c).Φ (Fin.last cfg2.N) ⊢ Pipeline.ΦA spec2 c := BI.Entails.refl _

end Cert.KernelIdeal.Reg

end
-- ==== Proof.Ideal.Reg3Matmul.lean ====
/-
  The second matrix product of the network, h₁ · W₂.
  A pipelined region over 25 grid points, 2000 rows at a time: at a point the body reads its block of the
  left operand and the whole of the right operand (fetched once and left in place) and overwrites its block
  of the result with one stored value, the product of the two (both factors narrowed to bf16 first).
  Stated here, at any contents V the region is entered from: the blocks, what the body leaves, the body's
  triple, the pipeline's proof data and the body obligation at every point.
-/
import proofs.«158427_j57105885167694_2_alg».proof.Proof.Gen.KernelIdeal.Launch
import proofs.«158427_j57105885167694_2_alg».proof.Proof.Gen.KernelIdeal.Skeleton
import proofs.«158427_j57105885167694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's block is in its staging buffer when the body starts. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand is in its staging buffer at every point: fetched at the first, its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S2000x128 := Rect.unit (s := S2000x128) ![0, 0] S2000x128.size inb_S2000x128_S2000x128_0_0
abbrev r3_w : Rect S128x128 := Rect.unit (s := S128x128) ![0, 0] S128x128.size inb_S128x128_S128x128_0_0
abbrev r3_o : Rect S2000x128 := Rect.unit (s := S2000x128) ![0, 0] S2000x128.size inb_S2000x128_S2000x128_0_0

/-- The result block after the body: the body's one stored value of the two blocks read, over the whole block. -/
def out3_2 (x0 : Vec F S2000x128 .f32) (x1 : Vec F S128x128 .f32) : Vec F S2000x128 .f32 :=
  View.canon [⟨r3_o, k3_pay1 (View.ld x0 r3_x) (View.ld x1 r3_w)⟩]

theorem cover3_2 (p0 : Vec F S2000x128 .f32) (y : S2000x128.Idx) :
    ∃ pc ∈ ([⟨r3_o, p0⟩] : List (View.Piece (Elt F) S2000x128 .f32)), y ∈ pc.1.set :=
  View.cover_of_tiled [⟨r3_o, p0⟩] S2000x128.size (by rfl) y

set_option maxHeartbeats 1000000 in
/-- The body on whole staging buffers: both inputs are handed back as they were and the result's buffer
    holds that value. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this region's pipeline on core c: the arrays as the region finds them; after the body
    each input's buffer at its block and the result's at the stored value of the blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region's pipeline, at every point. -/
theorem body_obligation3 (c : Dev nD) : BodyObligation (dat3 (F := F) V c) (defs₀ (F := F)) Variants.none () Set.univ := fun t => by
  rw [bigSep_W3, bigSep_W3]
  exact sound_body3 V c t

/-- Before the first point the region's invariant is the class's: the kernel has no scratch of its own to name. -/
theorem hin3 (c : Dev nD) : Pipeline.ΦA spec3 c ⊢ (dat3 (F := F) V c).Φ 0 := BI.Entails.refl _
/-- After the last point it is the class's still. -/
theorem hout3 (c : Dev nD) : (dat3 (F := F) V c).Φ (Fin.last cfg3.N) ⊢ Pipeline.ΦA spec3 c := BI.Entails.refl _

end Cert.KernelIdeal.Reg

end
-- ==== Proof.Ideal.Reg4Stats.lean ====
/-
  The batch-norm statistics of the second layer as a pipelined region: 25 blocks of 2000 rows of the aggregated
  features x (50000 × 128), with the bias row b (1 × 128) added to every row. Two rows are carried from block to
  block in buffers of the kernel's own: per column,
      S ← S + Σ_rows (x + b),      Q ← Q + Σ_rows (x + b)².
  The first block zeroes S and Q before it accumulates; the last block, after it has accumulated, turns the sums
  into the two results,
      mean = S / 50000,      variance = max(Q / 50000 − mean², 0),
  and stores them into the two result windows, which no other block stores into and which the pipeline writes
  back after the last block only. So a point is in one of three cases — first block, middle block, last block —,
  and the body is run once per case; what the carried rows and the result rows hold after each point is the
  accumulation of those runs over the points, and the region's invariant carries S and Q at that accumulation from
  one point to the next. Stated here at any contents V the region is entered from: the blocks, the three runs, the
  accumulation, the invariant, the pipeline's proof data and the body obligation at every point.
-/
import proofs.«158427_j57105885167694_2_alg».proof.Proof.Gen.KernelIdeal.Launch
import proofs.«158427_j57105885167694_2_alg».proof.Proof.Gen.KernelIdeal.Skeleton
import proofs.«158427_j57105885167694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The two conditionals, in closed form over the 25 points -/

/-- The first conditional's test, from the grid coordinate: "this is block 0". -/
abbrev first4 (i : grid4.Coords) : Prop :=
  (Scalar.cmpi .ne (Scalar.extui (Scalar.cmpi .eq (BitVec.ofNat 32 (i 0).val) 0#32)) 0#32) = 1#1
/-- The second conditional's test: "this is block 24". -/
abbrev last4 (i : grid4.Coords) : Prop := k4_cond2 i = 1#1

theorem first4_iff : ∀ t : Fin cfg4.N, first4 (grid4.coords t) ↔ t.val = 0 :=
  (by decide +kernel : ∀ t : Fin grid4.N, first4 (grid4.coords t) ↔ t.val = 0)
theorem last4_iff : ∀ t : Fin cfg4.N, last4 (grid4.coords t) ↔ t.val = 24 :=
  (by decide +kernel : ∀ t : Fin grid4.N, last4 (grid4.coords t) ↔ t.val = 24)

/-- The two carried rows, as the body is passed them: whole buffers of the kernel's own. -/
abbrev scM4_0 : Memref sig .tc .vmem S1x128 .f32 := Memref.whole cc4_scratch0
abbrev scM4_1 : Memref sig .tc .vmem S1x128 .f32 := Memref.whole cc4_scratch1

set_option maxHeartbeats 1000000 in
/-- The body at the first block (first conditional taken, second not). The block of features and the bias row are
    handed back as they were, the two result rows (not stored into) too; the two carried rows, held at anything,
    end with the pieces the stores leave, which the run itself determines. -/
noncomputable def bodyRun4_A (c : Dev nD) (i : grid4.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : first4 i) (hl : ¬last4 i) (x : Vec F S2000x128 .f32) (b : Vec F S1x128 .f32) :
    Σ' (LS : List (View.Piece (Elt F) S1x128 .f32)), { LQ : List (View.Piece (Elt F) S1x128 .f32) //
      ∀ (m v : Vec F S1x128 .f32) (E : Set ℕ) (K : PUnit → sProp 𝕄),
        iprop(owns (c : Thread nD τ) a1 fullShare x ∗ owns (c : Thread nD τ) a2 fullShare b
            ∗ owns (c : Thread nD τ) a3 fullShare m ∗ owns (c : Thread nD τ) a4 fullShare v
            ∗ (∃ d, owns (c : Thread nD τ) a5 fullShare d) ∗ (∃ d, owns (c : Thread nD τ) a6 fullShare d)
            ∗ (iprop(owns (c : Thread nD τ) a1 fullShare x ∗ owns (c : Thread nD τ) a2 fullShare b
                ∗ owns (c : Thread nD τ) a3 fullShare m ∗ owns (c : Thread nD τ) a4 fullShare v
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc4__bn_stats_kernel i a1 h1 a2 h2 a3 h3 a4 h4 a5 h5 a6 h6) K } := by
  refine ⟨?_, ?_, fun m v E K => ?run⟩
  case run =>
    simp only [cc4__bn_stats_kernel_eq_skeleton]; unfold cc4__bn_stats_kernel_skel
    unfold owns
    iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
    obtain rfl := h1.eq_unread e1; obtain rfl := h2.eq_unread e2; obtain rfl := h3.eq_unread e3; obtain rfl := h4.eq_unread e4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in
/-- The body at a middle block (neither conditional taken). Inputs and the two result rows are handed back as they
    were; the carried rows, held at what the block before left, end with the pieces of this block's two stores. -/
noncomputable def bodyRun4_B (c : Dev nD) (i : grid4.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : ¬first4 i) (hl : ¬last4 i) (x : Vec F S2000x128 .f32) (b : Vec F S1x128 .f32) (s q : Vec F S1x128 .f32) :
    Σ' (LS : List (View.Piece (Elt F) S1x128 .f32)), { LQ : List (View.Piece (Elt F) S1x128 .f32) //
      ∀ (m v : Vec F S1x128 .f32) (E : Set ℕ) (K : PUnit → sProp 𝕄),
        iprop(owns (c : Thread nD τ) a1 fullShare x ∗ owns (c : Thread nD τ) a2 fullShare b
            ∗ owns (c : Thread nD τ) a3 fullShare m ∗ owns (c : Thread nD τ) a4 fullShare v
            ∗ owns (c : Thread nD τ) a5 fullShare s ∗ owns (c : Thread nD τ) a6 fullShare q
            ∗ (iprop(owns (c : Thread nD τ) a1 fullShare x ∗ owns (c : Thread nD τ) a2 fullShare b
                ∗ owns (c : Thread nD τ) a3 fullShare m ∗ owns (c : Thread nD τ) a4 fullShare v
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc4__bn_stats_kernel i a1 h1 a2 h2 a3 h3 a4 h4 a5 h5 a6 h6) K } := by
  refine ⟨?_, ?_, fun m v E K => ?run⟩
  case run =>
    simp only [cc4__bn_stats_kernel_eq_skeleton]; unfold cc4__bn_stats_kernel_skel
    unfold owns
    iintro ⟨⟨%f1, %e1, H1⟩, ⟨%f2, %e2, H2⟩, ⟨%f3, %e3, H3⟩, ⟨%f4, %e4, H4⟩, ⟨%f5, %e5, H5⟩, ⟨%f6, %e6, H6⟩, Hk⟩
    obtain rfl := h1.eq_unread e1; obtain rfl := h2.eq_unread e2; obtain rfl := h3.eq_unread e3; obtain rfl := h4.eq_unread e4
    obtain rfl := h5.eq_unread e5; obtain rfl := h6.eq_unread e6
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in
/-- The body at the last block (second conditional taken, first not). Inputs are handed back as they were; the
    carried rows, held at what the block before left, end with the pieces of this block's two stores; the two
    result rows, held at anything, end with the pieces of the stores of the mean and of the clamped variance. -/
noncomputable def bodyRun4_C (c : Dev nD) (i : grid4.Coords)
    (a1 : Memref sig .tc .vmem S2000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hf : ¬first4 i) (hl : last4 i) (x : Vec F S2000x128 .f32) (b : Vec F S1x128 .f32) (s q : Vec F S1x128 .f32) :
    Σ' (LM : List (View.Piece (Elt F) S1x128 .f32)) (LV : List (View.Piece (Elt F) S1x128 .f32))
       (LS : List (View.Piece (Elt F) S1x128 .f32)), { LQ : List (View.Piece (Elt F) S1x128 .f32) //
      ∀ (E : Set ℕ) (K : PUnit → sProp 𝕄),
        iprop(owns (c : Thread nD τ) a1 fullShare x ∗ owns (c : Thread nD τ) a2 fullShare b
            ∗ (∃ d, owns (c : Thread nD τ) a3 fullShare d) ∗ (∃ d, owns (c : Thread nD τ) a4 fullShare d)
            ∗ owns (c : Thread nD τ) a5 fullShare s ∗ owns (c : Thread nD τ) a6 fullShare q
            ∗ (iprop(owns (c : Thread nD τ) a1 fullShare x ∗ owns (c : Thread nD τ) a2 fullShare b
                ∗ (∃ f, a3.view.loc (c : Thread nD τ) ↦[a3.view.set]{fullShare} a3.view.writes (Elt F) f LM)
                ∗ (∃ f, a4.view.loc (c : Thread nD τ) ↦[a4.view.set]{fullShare} a4.view.writes (Elt F) f LV)
                ∗ (∃ f, a5.view.loc (c : Thread nD τ) ↦[a5.view.set]{fullShare} a5.view.writes (Elt F) f LS)
                ∗ (∃ f, a6.view.loc (c : Thread nD τ) ↦[a6.view.set]{fullShare} a6.view.writes (Elt F) f LQ)) -∗ K ⟨⟩))
          ⊢ wp frame (wpE (defs₀ (F := F)) Variants.none c none) E (cc4__bn_stats_kernel i a1 h1 a2 h2 a3 h3 a4 h4 a5 h5 a6 h6) K } := by
  refine ⟨?_, ?_, ?_, ?_, fun E K => ?run⟩
  case run =>
    simp only [cc4__bn_stats_kernel_eq_skeleton]; unfold cc4__bn_stats_kernel_skel
    unfold owns
    iintro ⟨⟨%f1, %e1, H1⟩, ⟨%f2, %e2, H2⟩, ⟨%d3, %f3, -, H3⟩, ⟨%d4, %f4, -, H4⟩, ⟨%f5, %e5, H5⟩, ⟨%f6, %e6, H6⟩, Hk⟩
    obtain rfl := h1.eq_unread e1; obtain rfl := h2.eq_unread e2
    obtain rfl := h5.eq_unread e5; obtain rfl := h6.eq_unread e6
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    iexists _; iexact H6

/-! ## What each case leaves in the buffers it stores into

The contents a buffer ends with are a function of the pieces alone (the last store onto an index wins), whatever the
buffer held before: each list of pieces below tiles the 1 × 128 row, so it determines the whole row. -/

section pieces

variable (c : Dev nD) (i : grid4.Coords)
  (a1 : Memref sig .tc .vmem S2000x128 .f32) (h1 : a1.IsWhole) (a2 : Memref sig .tc .vmem S1x128 .f32) (h2 : a2.IsWhole)
  (a3 : Memref sig .tc .vmem S1x128 .f32) (h3 : a3.IsWhole) (a4 : Memref sig .tc .vmem S1x128 .f32) (h4 : a4.IsWhole)
  (a5 : Memref sig .tc .vmem S1x128 .f32) (h5 : a5.IsWhole) (a6 : Memref sig .tc .vmem S1x128 .f32) (h6 : a6.IsWhole)
  (x : Vec F S2000x128 .f32) (b s q : Vec F S1x128 .f32)

/-- First block: the pieces left in the row of sums tile it; -/
theorem tilesS4_A (hf : first4 i) (hl : ¬last4 i) :
    ∀ y : S1x128.Idx, ∃ p ∈ (bodyRun4_A c i a1 h1 a2 h2 a3 h3 a4 h4 a5 h5 a6 h6 hf hl x b).1, y ∈ p.1.set :=
  fun y => View.cover_of_tiledL (bodyRun4_A c i a1 h1 a2 h2 a3 h3 a4 h4 a5 h5 a6 h6 hf hl x b).1 S1x128.size (by sl_kernel_rfl) y
/-- and so do those left in the row of sums of squares. -/
theorem tilesQ4_A (hf : first4 i) (hl : ¬last4 i) :
    ∀ y : S1x128.Idx, ∃ p ∈ (bodyRun4_A c i a1 h1 a2 h2 a3 h3 a4 h4 a5 h5 a6 h6 hf hl x b).2.1, y ∈ p.1.set :=
  fun y => View.cover_of_tiledL (bodyRun4_A c i a1 h1 a2 h2 a3 h3 a4 h4 a5 h5 a6 h6 hf hl x b).2.1 S1x128.size (by sl_kernel_rfl) y

/-- Middle block: the same for its one store into each carried row. -/
theorem tilesS4_B (hf : ¬first4 i) (hl : ¬last4 i) :
    ∀ y : S1x128.Idx, ∃ p ∈ (bodyRun4_B c i a1 h1 a2 h2 a3 h3 a4 h4 a5 h5 a6 h6 hf hl x b s q).1, y ∈ p.1.set :=
  fun y => View.cover_of_tiledL (bodyRun4_B c i a1 h1 a2 h2 a3 h3 a4 h4 a5 h5 a6 h6 hf hl x b s q).1 S1x128.size (by sl_kernel_rfl) y
theorem tilesQ4_B (hf : ¬first4 i) (hl : ¬last4 i) :
    ∀ y : S1x128.Idx, ∃ p ∈ (bodyRun4_B c i a1 h1 a2 h2 a3 h3 a4 h4 a5 h5 a6 h6 hf hl x b s q).2.1, y ∈ p.1.set :=
  fun y => View.cover_of_tiledL (bodyRun4_B c i a1 h1 a2 h2 a3 h3 a4 h4 a5 h5 a6 h6 hf hl x b s q).2.1 S1x128.size (by sl_kernel_rfl) y

/-- Last block: the mean's row, the variance's row and the two carried rows are each tiled by what is stored. -/
theorem tilesM4_C (hf : ¬first4 i) (hl : last4 i) :
    ∀ y : S1x128.Idx, ∃ p ∈ (bodyRun4_C c i a1 h1 a2 h2 a3 h3 a4 h4 a5 h5 a6 h6 hf hl x b s q).1, y ∈ p.1.set :=
  fun y => View.cover_of_tiledL (bodyRun4_C c i a1 h1 a2 h2 a3 h3 a4 h4 a5 h5 a6 h6 hf hl x b s q).1 S1x128.size (by sl_kernel_rfl) y
theorem tilesV4_C (hf : ¬first4 i) (hl : last4 i) :
    ∀ y : S1x128.Idx, ∃ p ∈ (bodyRun4_C c i a1 h1 a2 h2 a3 h3 a4 h4 a5 h5 a6 h6 hf hl x b s q).2.1, y ∈ p.1.set :=
  fun y => View.cover_of_tiledL (bodyRun4_C c i a1 h1 a2 h2 a3 h3 a4 h4 a5 h5 a6 h6 hf hl x b s q).2.1 S1x128.size (by sl_kernel_rfl) y
theorem tilesS4_C (hf : ¬first4 i) (hl : last4 i) :
    ∀ y : S1x128.Idx, ∃ p ∈ (bodyRun4_C c i a1 h1 a2 h2 a3 h3 a4 h4 a5 h5 a6 h6 hf hl x b s q).2.2.1, y ∈ p.1.set :=
  fun y => View.cover_of_tiledL (bodyRun4_C c i a1 h1 a2 h2 a3 h3 a4 h4 a5 h5 a6 h6 hf hl x b s q).2.2.1 S1x128.size (by sl_kernel_rfl) y
theorem tilesQ4_C (hf : ¬first4 i) (hl : last4 i) :
    ∀ y : S1x128.Idx, ∃ p ∈ (bodyRun4_C c i a1 h1 a2 h2 a3 h3 a4 h4 a5 h5 a6 h6 hf hl x b s q).2.2.2.1, y ∈ p.1.set :=
  fun y => View.cover_of_tiledL (bodyRun4_C c i a1 h1 a2 h2 a3 h3 a4 h4 a5 h5 a6 h6 hf hl x b s q).2.2.2.1 S1x128.size (by sl_kernel_rfl) y

end pieces

/-! ## The buffers at a point, and what the body leaves there -/

/-- Each window's current staging buffer at point t, as the pipeline passes it to the body, and its wholeness. -/
abbrev sg4_0 (t : Fin cfg4.N) : Memref sig .tc .vmem S2000x128 .f32 := win4_0.stage (cfg4.slots t 0)
abbrev sg4_1 (t : Fin cfg4.N) : Memref sig .tc .vmem S1x128 .f32 := win4_1.stage (cfg4.slots t 1)
abbrev sg4_2 (t : Fin cfg4.N) : Memref sig .tc .vmem S1x128 .f32 := win4_2.stage (cfg4.slots t 2)
abbrev sg4_3 (t : Fin cfg4.N) : Memref sig .tc .vmem S1x128 .f32 := win4_3.stage (cfg4.slots t 3)
abbrev wh4_0 (t : Fin cfg4.N) : (sg4_0 t).IsWhole := hstage4_0 ((cfg4.slots t 0).cast nbuf4_0)
abbrev wh4_1 (t : Fin cfg4.N) : (sg4_1 t).IsWhole := hstage4_1 ((cfg4.slots t 1).cast nbuf4_1)
abbrev wh4_2 (t : Fin cfg4.N) : (sg4_2 t).IsWhole := hstage4_2 ((cfg4.slots t 2).cast nbuf4_2)
abbrev wh4_3 (t : Fin cfg4.N) : (sg4_3 t).IsWhole := hstage4_3 ((cfg4.slots t 3).cast nbuf4_3)

/-- After the first block, from its features x and the bias b: ((mean's buffer, variance's buffer), (sums, sums of
    squares)). The two result buffers are not stored into at this block; their components are placeholders (the zero
    row) that nothing reads, since the pipeline neither writes them back nor hands them on from such a point. -/
def atA4 (c : Dev nD) (t : Fin cfg4.N) (hf : first4 (grid4.coords t)) (hl : ¬last4 (grid4.coords t))
    (x : Vec F S2000x128 .f32) (b : Vec F S1x128 .f32) :
    (Vec F S1x128 .f32 × Vec F S1x128 .f32) × (Vec F S1x128 .f32 × Vec F S1x128 .f32) :=
  ((k4_pay1 (F := F), k4_pay2 (F := F)),
   (View.canon (bodyRun4_A c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b).1,
    View.canon (bodyRun4_A c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b).2.1))

/-- After a middle block, from x, b and the sums s, q the block before left: the same four; the result buffers'
    components placeholders again. -/
def atB4 (c : Dev nD) (t : Fin cfg4.N) (hf : ¬first4 (grid4.coords t)) (hl : ¬last4 (grid4.coords t))
    (x : Vec F S2000x128 .f32) (b s q : Vec F S1x128 .f32) :
    (Vec F S1x128 .f32 × Vec F S1x128 .f32) × (Vec F S1x128 .f32 × Vec F S1x128 .f32) :=
  ((k4_pay1 (F := F), k4_pay2 (F := F)),
   (View.canon (bodyRun4_B c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).1,
    View.canon (bodyRun4_B c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).2.1))

/-- After the last block: the mean and the clamped variance in the result buffers, the completed sums in the
    carried rows. -/
def atC4 (c : Dev nD) (t : Fin cfg4.N) (hf : ¬first4 (grid4.coords t)) (hl : last4 (grid4.coords t))
    (x : Vec F S2000x128 .f32) (b s q : Vec F S1x128 .f32) :
    (Vec F S1x128 .f32 × Vec F S1x128 .f32) × (Vec F S1x128 .f32 × Vec F S1x128 .f32) :=
  ((View.canon (bodyRun4_C c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).1,
    View.canon (bodyRun4_C c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).2.1),
   (View.canon (bodyRun4_C c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).2.2.1,
    View.canon (bodyRun4_C c (grid4.coords t) (sg4_0 t) (wh4_0 t) (sg4_1 t) (wh4_1 t) (sg4_2 t) (wh4_2 t) (sg4_3 t) (wh4_3 t) scM4_0 (Memref.isWhole_whole _) scM4_1 (Memref.isWhole_whole _) hf hl x b s q).2.2.2.1))

theorem not_last4_of_zero (t : Fin cfg4.N) (hz : t.val = 0) : ¬last4 (grid4.coords t) := fun h => by
  have := (last4_iff t).mp h; omega
theorem not_first4_of_ne (t : Fin cfg4.N) (hz : t.val ≠ 0) : ¬first4 (grid4.coords t) := fun h => hz ((first4_iff t).mp h)
theorem not_last4_of_ne (t : Fin cfg4.N) (hz : t.val ≠ 24) : ¬last4 (grid4.coords t) := fun h => hz ((last4_iff t).mp h)

/-- THE ACCUMULATION over the blocks. After the body at point n: ((the mean's buffer, the variance's buffer), (the row
    of sums, the row of sums of squares)) — at point 0 the first block's case from zeroed rows; at a later point that
    point's case over the sums the point before left. -/
def outsAt4 (c : Dev nD) : (n : ℕ) → n < cfg4.N →
    (Vec F S1x128 .f32 × Vec F S1x128 .f32) × (Vec F S1x128 .f32 × Vec F S1x128 .f32)
  | 0, hn => atA4 c ⟨0, hn⟩ ((first4_iff ⟨0, hn⟩).mpr rfl) (not_last4_of_zero ⟨0, hn⟩ rfl) (iblk4 V c 0 ⟨0, hn⟩) (iblk4 V c 1 ⟨0, hn⟩)
  | n + 1, hn =>
    if hL : n + 1 = 24 then
      atC4 c ⟨n + 1, hn⟩ (not_first4_of_ne ⟨n + 1, hn⟩ (Nat.succ_ne_zero n)) ((last4_iff ⟨n + 1, hn⟩).mpr hL) (iblk4 V c 0 ⟨n + 1, hn⟩) (iblk4 V c 1 ⟨n + 1, hn⟩)
        (outsAt4 c n (Nat.lt_of_succ_lt hn)).2.1 (outsAt4 c n (Nat.lt_of_succ_lt hn)).2.2
    else
      atB4 c ⟨n + 1, hn⟩ (not_first4_of_ne ⟨n + 1, hn⟩ (Nat.succ_ne_zero n)) (not_last4_of_ne ⟨n + 1, hn⟩ hL) (iblk4 V c 0 ⟨n + 1, hn⟩) (iblk4 V c 1 ⟨n + 1, hn⟩)
        (outsAt4 c n (Nat.lt_of_succ_lt hn)).2.1 (outsAt4 c n (Nat.lt_of_succ_lt hn)).2.2

/-- At the first point. -/
theorem outsAt4_A (c : Dev nD) (t : Fin cfg4.N) (hz : t.val = 0) :
    outsAt4 V c t.val t.isLt = atA4 c t ((first4_iff t).mpr hz) (not_last4_of_zero t hz) (iblk4 V c 0 t) (iblk4 V c 1 t) := by
  obtain ⟨n, hn⟩ := t
  cases n with
  | zero => rfl
  | succ n => exact absurd hz (Nat.succ_ne_zero n)

/-- At a middle point: over the sums of the point before. -/
theorem outsAt4_B (c : Dev nD) (t : Fin cfg4.N) (h0 : t.val ≠ 0) (hL : t.val ≠ 24) :
    outsAt4 V c t.val t.isLt = atB4 c t (not_first4_of_ne t h0) (not_last4_of_ne t hL) (iblk4 V c 0 t) (iblk4 V c 1 t)
      (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact absurd rfl h0
  | succ n => exact (dif_neg hL).trans rfl

/-- At the last point: over the sums of the point before. -/
theorem outsAt4_C (c : Dev nD) (t : Fin cfg4.N) (h0 : t.val ≠ 0) (hL : t.val = 24) :
    outsAt4 V c t.val t.isLt = atC4 c t (not_first4_of_ne t h0) ((last4_iff t).mpr hL) (iblk4 V c 0 t) (iblk4 V c 1 t)
      (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact absurd rfl h0
  | succ n => exact (dif_pos hL).trans rfl

/-! ## The region's invariant -/

/-- What the region is entered with, its two carried rows singled out: each whole at some contents, beside every
    other scoped buffer (unopened) and the generator's register. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-- The invariant before position n: before the first point what the region is entered with (the carried rows at
    anything); before a later one the carried rows at the sums the point before left, the rest as it was. -/
def Phi4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.1 ∗ owns (c : Thread nD τ) scM4_1 fullShare (outsAt4 V c n hn).2.2)
      ∗ Pipeline.scopedRestBut (Ix := Unit) (Name := ℕ) (U := UR sig nD τ) (Lvl := ℕ) (Val := Elt F) spec4 c [cc4_scratch0, cc4_scratch1])
      ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) scM4_0 fullShare (outsAt4 V c n hn).2.1 ∗ owns (c : Thread nD τ) scM4_1 fullShare (outsAt4 V c n hn).2.2)
      ∗ Pipeline.scopedRestBut (Ix := Unit) (Name := ℕ) (U := UR sig nD τ) (Lvl := ℕ) (Val := Elt F) spec4 c [cc4_scratch0, cc4_scratch1])
      ∗ (∃ r, prngReg c r)) := rfl

theorem Phi4_pos (c : Dev nD) (n : ℕ) (h : n ≤ cfg4.N) (hz : n ≠ 0) :
    Phi4 V c n h = iprop(iprop(iprop(owns (c : Thread nD τ) scM4_0 fullShare (outsAt4 V c (n - 1) (by omega)).2.1 ∗ owns (c : Thread nD τ) scM4_1 fullShare (outsAt4 V c (n - 1) (by omega)).2.2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-! ## The pipeline's proof data -/

/-- The proof data of this region's pipeline on core c: the arrays as the region finds them; after the body at a point
    each input's buffer at its block, the two results' at the accumulation's first pair; the invariant above; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1.1
    | ⟨3, _⟩ => (outsAt4 V c t.val t.isLt).1.2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1.1 := by dsimp only [dat4]
theorem after4_3 (c : Dev nD) (t : Fin cfg4.N) : (dat4 V c).after 3 t = (outsAt4 V c t.val t.isLt).1.2 := by dsimp only [dat4]

/-- The block of features is in its staging buffer when the body starts (fetched at every point). -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
/-- The bias row is in its staging buffer at every point: fetched at the first, its block index never moves. -/
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-! ## Where the result windows are idle -/

theorem live4_0 : ∀ t : Fin cfg4.N, cfg4.idle 0 (grid4.coords t) = false := fun _ => rfl
theorem live4_1 : ∀ t : Fin cfg4.N, cfg4.idle 1 (grid4.coords t) = false := fun _ => rfl
/-- Off the last block nothing is stored into the mean's window, and the pipeline does not write it back; -/
theorem idle4_2 : ∀ t : Fin cfg4.N, ¬last4 (grid4.coords t) → cfg4.idle 2 (grid4.coords t) = true := by decide +kernel
theorem keep4_2 : ∀ t : Fin cfg4.N, ¬last4 (grid4.coords t) → (cfg4.win 2).flush t = false := by decide +kernel
/-- nor into the variance's. -/
theorem idle4_3 : ∀ t : Fin cfg4.N, ¬last4 (grid4.coords t) → cfg4.idle 3 (grid4.coords t) = true := by decide +kernel
theorem keep4_3 : ∀ t : Fin cfg4.N, ¬last4 (grid4.coords t) → (cfg4.win 3).flush t = false := by decide +kernel
/-- At the last block both are stored. -/
theorem live4_2 : ∀ t : Fin cfg4.N, last4 (grid4.coords t) → cfg4.idle 2 (grid4.coords t) = false := by decide +kernel
theorem live4_3 : ∀ t : Fin cfg4.N, last4 (grid4.coords t) → cfg4.idle 3 (grid4.coords t) = false := by decide +kernel

/-! ## The body obligation -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (sg4_0 t) fullShare ((dat4 V c).before 0 t d))
    ∗ (∃ d, owns (c : Thread nD τ) (sg4_1 t) fullShare ((dat4 V c).before 1 t d))
    ∗ (∃ d, owns (c : Thread nD τ) (sg4_2 t) fullShare ((dat4 V c).before 2 t d))
    ∗ (∃ d, owns (c : Thread nD τ) (sg4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point. The inputs' buffers hold their blocks; which of the three cases the point is in is read
    off its number. At the first block the invariant hands over the carried rows at anything, later at the sums
    of the block before; the case's run applies, and the rows come back at this block's sums. Off the last block
    the two result buffers go through untouched; at the last they come back at the mean and the variance. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  have hN : t.val < 25 := lt_of_lt_of_eq t.isLt (show cfg4.N = 25 from N_4)
  rw [show (dat4 V c).leavesExact 0 t = owns (c : Thread nD τ) (sg4_0 t) fullShare ((dat4 V c).after 0 t) from by
    unfold Dat.leavesExact; rw [live4_0 t], after4_0]
  rw [show (dat4 V c).leavesExact 1 t = owns (c : Thread nD τ) (sg4_1 t) fullShare ((dat4 V c).after 1 t) from by
    unfold Dat.leavesExact; rw [live4_1 t], after4_1]
  rw [Phi4_castSucc V c t]
  by_cases hz : t.val = 0
  · -- the first block
    have hf : first4 (grid4.coords t) := (first4_iff t).mpr hz
    have hl : ¬last4 (grid4.coords t) := not_last4_of_zero t hz
    rw [Dat.leavesExact_idle (dat4 V c) 2 t (idle4_2 t hl) (keep4_2 t hl), Dat.leavesExact_idle (dat4 V c) 3 t (idle4_3 t hl) (keep4_3 t hl)]
    rw [outsAt4_A V c t hz]
    unfold atA4; (try dsimp only)
    rw [Phi4_zero V c _ _ hz, PhiA4_eq]
    iintro ⟨⟨⟨⟨HS, HQ⟩, Hr⟩, Hg⟩, Ho, ⟨%d0, H0⟩, ⟨%d1, H1⟩, ⟨%d2, H2⟩, ⟨%d3, H3⟩⟩
    iapply ((bodyRun4_A c (grid4.coords t) _ _ _ _ _ _ _ _ _ _ _ _ hf hl (iblk4 V c 0 t) (iblk4 V c 1 t)).2.2 _ _ Set.univ _)
    isplitl [H0]; · iexact H0
    isplitl [H1]; · iexact H1
    isplitl [H2]; · iexact H2
    isplitl [H3]; · iexact H3
    isplitl [HS]; · iexact HS
    isplitl [HQ]; · iexact HQ
    iintro ⟨H0, H1, H2, H3, ⟨%eS, HS⟩, ⟨%eQ, HQ⟩⟩
    isplitl [HS HQ Hr Hg]
    · isplitl [HS HQ Hr]
      · isplitl [HS HQ]
        · isplitl [HS]
          · unfold owns; iexists _; isplitr
            swap; · iexact HS
            ipureintro; exact View.read_writes_eq_canon _ _ _ (tilesS4_A c _ _ _ _ _ _ _ _ _ _ _ _ _ _ _ _ _)
          · unfold owns; iexists _; isplitr
            swap; · iexact HQ
            ipureintro; exact View.read_writes_eq_canon _ _ _ (tilesQ4_A c _ _ _ _ _ _ _ _ _ _ _ _ _ _ _ _ _)
        iexact Hr
      iexact Hg
    isplitl [Ho]; · iexact Ho
    isplitl [H0]; · iexact H0
    isplitl [H1]; · iexact H1
    isplitl [H2]; · iexists _; iexact H2
    iexists _; iexact H3
  · have hf : ¬first4 (grid4.coords t) := not_first4_of_ne t hz
    rw [Phi4_pos V c _ _ hz]
    by_cases hL : t.val = 24
    · -- the last block
      have hl : last4 (grid4.coords t) := (last4_iff t).mpr hL
      rw [show (dat4 V c).leavesExact 2 t = owns (c : Thread nD τ) (sg4_2 t) fullShare ((dat4 V c).after 2 t) from by
        unfold Dat.leavesExact; rw [live4_2 t hl], after4_2]
      rw [show (dat4 V c).leavesExact 3 t = owns (c : Thread nD τ) (sg4_3 t) fullShare ((dat4 V c).after 3 t) from by
        unfold Dat.leavesExact; rw [live4_3 t hl], after4_3]
      rw [outsAt4_C V c t hz hL]
      unfold atC4; (try dsimp only)
      iintro ⟨⟨⟨⟨HS, HQ⟩, Hr⟩, Hg⟩, Ho, ⟨%d0, H0⟩, ⟨%d1, H1⟩, ⟨%d2, H2⟩, ⟨%d3, H3⟩⟩
      iapply ((bodyRun4_C c (grid4.coords t) _ _ _ _ _ _ _ _ _ _ _ _ hf hl (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS]; · iexact HS
      isplitl [HQ]; · iexact HQ
      iintro ⟨H0, H1, ⟨%e2, H2⟩, ⟨%e3, H3⟩, ⟨%eS, HS⟩, ⟨%eQ, HQ⟩⟩
      isplitl [HS HQ Hr Hg]
      · isplitl [HS HQ Hr]
        · isplitl [HS HQ]
          · isplitl [HS]
            · unfold owns; iexists _; isplitr
              swap; · iexact HS
              ipureintro; exact View.read_writes_eq_canon _ _ _ (tilesS4_C c _ _ _ _ _ _ _ _ _ _ _ _ _ _ _ _ _ _ _)
            · unfold owns; iexists _; isplitr
              swap; · iexact HQ
              ipureintro; exact View.read_writes_eq_canon _ _ _ (tilesQ4_C c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_eq_canon _ _ _ (tilesM4_C c _ _ _ _ _ _ _ _ _ _ _ _ _ _ _ _ _ _ _)
      · unfold owns; iexists _; isplitr
        swap; · iexact H3
        ipureintro; exact View.read_writes_eq_canon _ _ _ (tilesV4_C c _ _ _ _ _ _ _ _ _ _ _ _ _ _ _ _ _ _ _)
    · -- a middle block
      have hl : ¬last4 (grid4.coords t) := not_last4_of_ne t hL
      rw [Dat.leavesExact_idle (dat4 V c) 2 t (idle4_2 t hl) (keep4_2 t hl), Dat.leavesExact_idle (dat4 V c) 3 t (idle4_3 t hl) (keep4_3 t hl)]
      rw [outsAt4_B V c t hz hL]
      unfold atB4; (try dsimp only)
      iintro ⟨⟨⟨⟨HS, HQ⟩, Hr⟩, Hg⟩, Ho, ⟨%d0, H0⟩, ⟨%d1, H1⟩, ⟨%d2, H2⟩, ⟨%d3, H3⟩⟩
      iapply ((bodyRun4_B c (grid4.coords t) _ _ _ _ _ _ _ _ _ _ _ _ hf hl (iblk4 V c 0 t) (iblk4 V c 1 t) _ _).2.2 _ _ Set.univ _)
      isplitl [H0]; · iexact H0
      isplitl [H1]; · iexact H1
      isplitl [H2]; · iexact H2
      isplitl [H3]; · iexact H3
      isplitl [HS]; · iexact HS
      isplitl [HQ]; · iexact HQ
      iintro ⟨H0, H1, H2, H3, ⟨%eS, HS⟩, ⟨%eQ, HQ⟩⟩
      isplitl [HS HQ Hr Hg]
      · isplitl [HS HQ Hr]
        · isplitl [HS HQ]
          · isplitl [HS]
            · unfold owns; iexists _; isplitr
              swap; · iexact HS
              ipureintro; exact View.read_writes_eq_canon _ _ _ (tilesS4_B c _ _ _ _ _ _ _ _ _ _ _ _ _ _ _ _ _ _ _)
            · unfold owns; iexists _; isplitr
              swap; · iexact HQ
              ipureintro; exact View.read_writes_eq_canon _ _ _ (tilesQ4_B c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

/-- The body obligation of this region's pipeline, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point the invariant gives the entry form back: what the carried rows hold is forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨⟨HS, HQ⟩, Hr⟩, Hg⟩
  isplitl [HS HQ Hr]
  · isplitl [HS HQ]
    · isplitl [HS]
      · iexists _; iexact HS
      · iexists _; iexact HQ
    iexact Hr
  iexact Hg

/-- In particular after the last. -/
theorem hout4 (c : Dev nD) : (dat4 V c).Φ (Fin.last cfg4.N) ⊢ Pipeline.ΦA spec4 c :=
  Phi4_out V c _ (by rw [Fin.val_last]; have : cfg4.N = 25 := N_4; omega)

end Cert.KernelIdeal.Reg

end
-- ==== Proof.Ideal.Reg5Norm.lean ====
/-
  The normalise-and-rectify step of the second layer as a pipelined region: 2000 rows at a time over 25 grid
  points. At a point the body reads its block x of the aggregated features (2000 × 128) and five rows of 128
  that are fetched once and left in place — the bias b, the column means μ, the column variances σ², the
  scale γ and the shift β — and overwrites its block of the result with

      max(γ · ((x + b) − μ) · rsqrt(σ² + ε) + β, 0),

  each row broadcast down the block's 2000 rows, ε the f32 constant nearest 10⁻⁵. Stated here, at any contents V the
  region is entered from: the blocks, what the body leaves, the body's triple, the pipeline's proof data and
  the body obligation at every point.
-/
import proofs.«158427_j57105885167694_2_alg».proof.Proof.Gen.KernelIdeal.Launch
import proofs.«158427_j57105885167694_2_alg».proof.Proof.Gen.KernelIdeal.Skeleton
import proofs.«158427_j57105885167694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The block of aggregated features is in its staging buffer when the body starts: it is fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row is in its staging buffer at every point: fetched at the first, its block index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The row of column means is in its staging buffer at every point: fetched at the first, its block index never moves. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The row of column variances is in its staging buffer at every point: fetched at the first, its block index never moves. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The scale row γ is in its staging buffer at every point: fetched at the first, its block index never moves. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The shift row β is in its staging buffer at every point: fetched at the first, its block index never moves. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev r5_x : Rect S2000x128 := Rect.unit (s := S2000x128) ![0, 0] S2000x128.size inb_S2000x128_S2000x128_0_0
abbrev r5_r : Rect S1x128 := Rect.unit (s := S1x128) ![0, 0] S1x128.size inb_S1x128_S1x128_0_0

/-- The result block after the body, from the blocks in window order (x, b, μ, σ², γ, β): the normalised,
    scaled, shifted and rectified block, stored over the whole block. The body's stored value takes its
    rows in the order it reads them (b, σ², γ, μ, β). -/
def out5_6 (x0 : Vec F S2000x128 .f32) (x1 x2 x3 x4 x5 : Vec F S1x128 .f32) : Vec F S2000x128 .f32 :=
  View.canon [⟨r5_x, k5_pay1 (View.ld x0 r5_x) (View.ld x1 r5_r) (View.ld x3 r5_r) (View.ld x4 r5_r) (View.ld x2 r5_r) (View.ld x5 r5_r)⟩]

theorem cover5_6 (p0 : Vec F S2000x128 .f32) (y : S2000x128.Idx) :
    ∃ pc ∈ ([⟨r5_x, p0⟩] : List (View.Piece (Elt F) S2000x128 .f32)), y ∈ pc.1.set :=
  View.cover_of_tiled [⟨r5_x, p0⟩] S2000x128.size (by rfl) y

set_option maxHeartbeats 1000000 in
/-- The body on whole staging buffers: the six inputs are handed back as they were and the result's buffer
    holds the normalised block, whatever it held before. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_norm_kernel i arg1 harg1 arg2 harg2 arg3 harg3 arg4 harg4 arg5 harg5 arg6 harg6 arg7 harg7) K := by
  simp only [cc5__bn_norm_kernel_eq_skeleton]; unfold cc5__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of this step's pipeline on core c: the arrays as the region finds them; after the body
    each input's buffer at its block and the result's at the normalised block; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of this region's pipeline, at every point. -/
theorem body_obligation5 (c : Dev nD) : BodyObligation (dat5 (F := F) V c) (defs₀ (F := F)) Variants.none () Set.univ := fun t => by
  rw [bigSep_W5, bigSep_W5]
  exact sound_body5 V c t

/-- Before the first point the region's invariant is the class's: the kernel has no scratch of its own to name. -/
theorem hin5 (c : Dev nD) : Pipeline.ΦA spec5 c ⊢ (dat5 (F := F) V c).Φ 0 := BI.Entails.refl _
/-- After the last point it is the class's still. -/
theorem hout5 (c : Dev nD) : (dat5 (F := F) V c).Φ (Fin.last cfg5.N) ⊢ Pipeline.ΦA spec5 c := BI.Entails.refl _

end Cert.KernelIdeal.Reg

end
-- ==== Proof.Ideal.Reg6Matmul.lean ====
/-
  The third matrix product of the network, h₂ · W₃, onto the 40 classes.
  A pipelined region over 25 grid points, 2000 rows at a time: at a point the body reads its block of the
  left operand and the whole of the right operand (fetched once and left in place) and overwrites its block
  of the result with one stored value, the product of the two (both factors narrowed to bf16 first).
  Stated here, at any contents V the region is entered from: the blocks, what the body leaves, the body's
  triple, the pipeline's proof data and the body obligation at every point.
-/
import proofs.«158427_j57105885167694_2_alg».proof.Proof.Gen.KernelIdeal.Launch
import proofs.«158427_j57105885167694_2_alg».proof.Proof.Gen.KernelIdeal.Skeleton
import proofs.«158427_j57105885167694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left operand's block is in its staging buffer when the body starts. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The right operand is in its staging buffer at every point: fetched at the first, its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_x : Rect S2000x128 := Rect.unit (s := S2000x128) ![0, 0] S2000x128.size inb_S2000x128_S2000x128_0_0
abbrev r6_w : Rect S128x40 := Rect.unit (s := S128x40) ![0, 0] S128x40.size inb_S128x40_S128x40_0_0
abbrev r6_o : Rect S2000x40 := Rect.unit (s := S2000x40) ![0, 0] S2000x40.size inb_S2000x40_S2000x40_0_0

/-- The result block after the body: the body's one stored value of the two blocks read, over the whole block. -/
def out6_2 (x0 : Vec F S2000x128 .f32) (x1 : Vec F S128x40 .f32) : Vec F S2000x40 .f32 :=
  View.canon [⟨r6_o, k6_pay1 (View.ld x0 r6_x) (View.ld x1 r6_w)⟩]

theorem cover6_2 (p0 : Vec F S2000x40 .f32) (y : S2000x40.Idx) :
    ∃ pc ∈ ([⟨r6_o, p0⟩] : List (View.Piece (Elt F) S2000x40 .f32)), y ∈ pc.1.set :=
  View.cover_of_tiled [⟨r6_o, p0⟩] S2000x40.size (by rfl) y

set_option maxHeartbeats 1000000 in
/-- The body on whole staging buffers: both inputs are handed back as they were and the result's buffer
    holds that value. -/
theorem sound_kernel6 (c : Dev nD) (E : Set ℕ) (i : grid6.Coords) (arg1 : Memref sig .tc .vmem S2000x128 .f32) (harg1 : arg1.IsWhole) (arg2 : Memref sig .tc .vmem S128x40 .f32) (harg2 : arg2.IsWhole)
    (arg3 : Memref sig .tc .vmem S2000x40 .f32) (harg3 : arg3.IsWhole)
    (x0 : Vec F S2000x128 .f32) (x1 : Vec F S128x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The proof data of this region's pipeline on core c: the arrays as the region finds them; after the body
    each input's buffer at its block and the result's at the stored value of the blocks; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region's pipeline, at every point. -/
theorem body_obligation6 (c : Dev nD) : BodyObligation (dat6 (F := F) V c) (defs₀ (F := F)) Variants.none () Set.univ := fun t => by
  rw [bigSep_W6, bigSep_W6]
  exact sound_body6 V c t

/-- Before the first point the region's invariant is the class's: the kernel has no scratch of its own to name. -/
theorem hin6 (c : Dev nD) : Pipeline.ΦA spec6 c ⊢ (dat6 (F := F) V c).Φ 0 := BI.Entails.refl _
/-- After the last point it is the class's still. -/
theorem hout6 (c : Dev nD) : (dat6 (F := F) V c).Φ (Fin.last cfg6.N) ⊢ Pipeline.ΦA spec6 c := BI.Entails.refl _

end Cert.KernelIdeal.Reg

end
-- ==== Proof.Ideal.Reg7Softmax.lean ====
/-
  The bias add and row-wise log-softmax that end the network.
  A pipelined region over 25 grid points, 2000 rows at a time: at a point the body reads its block of the
  features and the whole of the bias row (fetched once and left in place) and overwrites its block
  of the result with one stored value, the block plus the bias row, shifted by the maxima of its rows, minus the logarithm of the sums of exponentials of its rows.
  Stated here, at any contents V the region is entered from: the blocks, what the body leaves, the body's
  triple, the pipeline's proof data and the body obligation at every point.
-/
import proofs.«158427_j57105885167694_2_alg».proof.Proof.Gen.KernelIdeal.Launch
import proofs.«158427_j57105885167694_2_alg».proof.Proof.Gen.KernelIdeal.Skeleton
import proofs.«158427_j57105885167694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The features' block is in its staging buffer when the body starts. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The bias row is in its staging buffer at every point: fetched at the first, its block index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_x : Rect S2000x40 := Rect.unit (s := S2000x40) ![0, 0] S2000x40.size inb_S2000x40_S2000x40_0_0
abbrev r7_w : Rect S1x40 := Rect.unit (s := S1x40) ![0, 0] S1x40.size inb_S1x40_S1x40_0_0
abbrev r7_o : Rect S2000x40 := Rect.unit (s := S2000x40) ![0, 0] S2000x40.size inb_S2000x40_S2000x40_0_0

/-- The result block after the body: the body's one stored value of the two blocks read, over the whole block. -/
def out7_2 (x0 : Vec F S2000x40 .f32) (x1 : Vec F S1x40 .f32) : Vec F S2000x40 .f32 :=
  View.canon [⟨r7_o, k7_pay1 (View.ld x0 r7_x) (View.ld x1 r7_w)⟩]

theorem cover7_2 (p0 : Vec F S2000x40 .f32) (y : S2000x40.Idx) :
    ∃ pc ∈ ([⟨r7_o, p0⟩] : List (View.Piece (Elt F) S2000x40 .f32)), y ∈ pc.1.set :=
  View.cover_of_tiled [⟨r7_o, p0⟩] S2000x40.size (by rfl) y

set_option maxHeartbeats 1000000 in
/-- The body on whole staging buffers: both inputs are handed back as they were and the result's buffer
    holds that value. -/
theorem sound_kernel7 (c : Dev nD) (E : Set ℕ) (i : grid7.Coords) (arg1 : Memref sig .tc .vmem S2000x40 .f32) (harg1 : arg1.IsWhole) (arg2 : Memref sig .tc .vmem S1x40 .f32) (harg2 : arg2.IsWhole)
    (arg3 : Memref sig .tc .vmem S2000x40 .f32) (harg3 : arg3.IsWhole)
    (x0 : Vec F S2000x40 .f32) (x1 : Vec F S1x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__log_softmax_kernel i arg1 harg1 arg2 harg2 arg3 harg3) K := by
  simp only [cc7__log_softmax_kernel_eq_skeleton]; unfold cc7__log_softmax_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The proof data of this region's pipeline on core c: the arrays as the region finds them; after the body
    each input's buffer at its block and the result's at the stored value of the blocks; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region's pipeline, at every point. -/
theorem body_obligation7 (c : Dev nD) : BodyObligation (dat7 (F := F) V c) (defs₀ (F := F)) Variants.none () Set.univ := fun t => by
  rw [bigSep_W7, bigSep_W7]
  exact sound_body7 V c t

/-- Before the first point the region's invariant is the class's: the kernel has no scratch of its own to name. -/
theorem hin7 (c : Dev nD) : Pipeline.ΦA spec7 c ⊢ (dat7 (F := F) V c).Φ 0 := BI.Entails.refl _
/-- After the last point it is the class's still. -/
theorem hout7 (c : Dev nD) : (dat7 (F := F) V c).Φ (Fin.last cfg7.N) ⊢ Pipeline.ΦA spec7 c := BI.Entails.refl _

end Cert.KernelIdeal.Reg

end
-- ==== Proof.Ideal.Data.lean ====
import proofs.«158427_j57105885167694_2_alg».proof.Proof.Ideal.Reg0Matmul
import proofs.«158427_j57105885167694_2_alg».proof.Proof.Ideal.Reg1Stats
import proofs.«158427_j57105885167694_2_alg».proof.Proof.Ideal.Reg2Norm
import proofs.«158427_j57105885167694_2_alg».proof.Proof.Ideal.Reg3Matmul
import proofs.«158427_j57105885167694_2_alg».proof.Proof.Ideal.Reg4Stats
import proofs.«158427_j57105885167694_2_alg».proof.Proof.Ideal.Reg5Norm
import proofs.«158427_j57105885167694_2_alg».proof.Proof.Ideal.Reg6Matmul
import proofs.«158427_j57105885167694_2_alg».proof.Proof.Ideal.Reg7Softmax
import proofs.«158427_j57105885167694_2_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

def W4 (c : Dev nD) : Valuation τ sig (Elt F) :=
  Pipeline.withArrays spec0 c (W3 m c) fun w => (dat0 (atTc (W3 m)) c).arrAt w cfg0.N

abbrev W5 : Dev nD → Valuation τ sig (Elt F) := fun c => StableHlo.after hostOps1 (W4 m c)

def W6 (c : Dev nD) : Valuation τ sig (Elt F) :=
  Pipeline.withArrays spec1 c (W5 m c) fun w => (dat1 (atTc (W5 m)) c).arrAt w cfg1.N

def W7 (c : Dev nD) : Valuation τ sig (Elt F) :=
  Pipeline.withArrays spec2 c (W6 m c) fun w => (dat2 (atTc (W6 m)) c).arrAt w cfg2.N

def W8 (c : Dev nD) : Valuation τ sig (Elt F) :=
  Pipeline.withArrays spec3 c (W7 m c) fun w => (dat3 (atTc (W7 m)) c).arrAt w cfg3.N

abbrev W9 : Dev nD → Valuation τ sig (Elt F) := fun c => StableHlo.after hostOps4 (W8 m c)

def W10 (c : Dev nD) : Valuation τ sig (Elt F) :=
  Pipeline.withArrays spec4 c (W9 m c) fun w => (dat4 (atTc (W9 m)) c).arrAt w cfg4.N

def W11 (c : Dev nD) : Valuation τ sig (Elt F) :=
  Pipeline.withArrays spec5 c (W10 m c) fun w => (dat5 (atTc (W10 m)) c).arrAt w cfg5.N

def W12 (c : Dev nD) : Valuation τ sig (Elt F) :=
  Pipeline.withArrays spec6 c (W11 m c) fun w => (dat6 (atTc (W11 m)) c).arrAt w cfg6.N

abbrev W13 : Dev nD → Valuation τ sig (Elt F) := fun c => StableHlo.after hostOps7 (W12 m c)

def W14 (c : Dev nD) : Valuation τ sig (Elt F) :=
  Pipeline.withArrays spec7 c (W13 m c) fun w => (dat7 (atTc (W13 m)) c).arrAt w cfg7.N

def pdats : (p : Fin 8) → (c : Dev nD) → Dat τ (Elt F) Unit ℕ (UR sig nD τ) ℕ (cfgs p) c
  | ⟨0, _⟩ => fun c => dat0 (atTc (W3 m)) c
  | ⟨1, _⟩ => fun c => dat1 (atTc (W5 m)) c
  | ⟨2, _⟩ => fun c => dat2 (atTc (W6 m)) c
  | ⟨3, _⟩ => fun c => dat3 (atTc (W7 m)) c
  | ⟨4, _⟩ => fun c => dat4 (atTc (W9 m)) c
  | ⟨5, _⟩ => fun c => dat5 (atTc (W10 m)) c
  | ⟨6, _⟩ => fun c => dat6 (atTc (W11 m)) c
  | ⟨7, _⟩ => fun c => dat7 (atTc (W13 m)) c

abbrev Rest (c : Dev nD) : sProp 𝕄 := iprop((∃ r, prngReg c r) ∗ ∃ W, owes (c : Thread nD τ) (0 : CellTallies nD τ sig Unit) W)

abbrev 𝒱₀ : Variants := Variants.none
abbrev Lv0 : GSem nD τ sig → Finset Unit := fun _ => ∅
abbrev lv0 : GSem nD τ sig → Unit → ℕ := fun _ _ => 0

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

end Cert.KernelIdeal.Reg

end
-- ==== Proof.Ideal.Seg.lean ====
import proofs.«158427_j57105885167694_2_alg».proof.Proof.Ideal.Data

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (p : Fin 8)
  (launch : Pipeline.LaunchFacts (nD := nD) (τ := τ) cfgs p)
  (Win Wout : Dev nD → Valuation τ sig (Elt F))
  (hW : ∀ c, Wout c = Pipeline.withArrays (cfgs p).spec c (Win c) fun w => (pdats m p c).arrAt w (cfgs p).N)

include launch hW in
/-- Wout is Win with the region's own arrays replaced by their final contents. -/
theorem exit_arr (c : Dev nD) (w : Fin (cfgs p).W) :
    (pdats m p c).arrAt w (cfgs p).N = atTc Wout c (Pipeline.arrRef (cfgs p).spec w) := by
  show _ = Wout c (Proc.devRef .tc (Pipeline.arrRef (cfgs p).spec w))
  rw [hW]
  exact (Pipeline.withArrays_arr (cfgs p).spec launch.win.arr_inj c (Win c) (fun w => (pdats m p c).arrAt w (cfgs p).N) w).symm

include hW in
/-- Every other buffer holds at Wout what it held at Win. -/
theorem exit_rest (c : Dev nD) : ∀ b, b ∉ Finset.univ.image (Pipeline.arrRef (cfgs p).spec) → atTc Wout c b = atTc Win c b :=
  fun b hb => by
    show Wout c (Proc.devRef .tc b) = Win c (Proc.devRef .tc b)
    rw [hW]
    exact Pipeline.withArrays_of_ne (cfgs p).spec c _ _ b fun w e => hb (Finset.mem_image.mpr ⟨w, Finset.mem_univ _, e⟩)

include launch hW in
/-- A region changes only its result arrays: any other buffer, an input array included, ends as it began. -/
theorem keeps (hA : ∀ c w, (pdats m p c).A w = atTc Win c (Pipeline.arrRef (cfgs p).spec w)) (c : Dev nD) (r : Ref sig .tc)
    (h : ∀ w, Pipeline.arrRef (cfgs p).spec w = r → ((cfgs p).win w).isOut = false) :
    Wout c (Proc.devRef .tc r) = Win c (Proc.devRef .tc r) := by
  rw [hW]
  by_cases hr : ∃ w, Pipeline.arrRef (cfgs p).spec w = r
  · obtain ⟨w, rfl⟩ := hr
    exact (Pipeline.withArrays_arr _ launch.win.arr_inj c _ _ w).trans (((pdats m p c).arrAt_in w (h w rfl) _).trans (hA c w))
  · exact Pipeline.withArrays_of_ne _ c _ _ r fun w e => hr ⟨w, e⟩

set_option backward.isDefEq.respectTransparency.types false in
/-- One construction for all eight regions: the region as a step of the program from the buffer contents Win to Wout. -/
def regionSeg (hA : ∀ c w, (pdats m p c).A w = atTc Win c (Pipeline.arrRef (cfgs p).spec w))
    (hbody : ∀ c, BodyObligation (pdats m p c) (defs₀ (F := F)) Variants.none () Set.univ)
    (hin : ∀ c, Pipeline.ΦA (cfgs p).spec c ⊢ (pdats m p c).Φ 0)
    (hout : ∀ c, (pdats m p c).Φ (Fin.last _) ⊢ Pipeline.ΦA (cfgs p).spec c)
    (howed : ∀ c t, (pdats m p c).owed t = 0 := by exact fun _ _ => rfl)
    (hrec : ∀ c t, (pdats m p c).recorded t = Set.univ := by exact fun _ _ => rfl)
    (hq : ∀ c w, (pdats m p c).q w = fullShare := by exact fun _ _ => rfl) :
    Pipeline.RegionSeg (pcfgs (F := F)) adm (pdats m) () defs₀ 𝒱₀ Lv0 lv0 p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ Lv0 lv0 p howed
  pre c := iprop(StableHlo.held (c : Thread nD τ) (Pipeline.ucRefs τ sig) (Win c) ∗ Rest c)
  post c := iprop(StableHlo.held (c : Thread nD τ) (Pipeline.ucRefs τ sig) (Wout c) ∗ Rest c)
  X c := iprop(∃ r, prngReg c r)
  Y c := iprop(∃ r, prngReg c r)
  Z c := Pipeline.unscopedRest (Ix := Unit) (Name := ℕ) (U := UR sig nD τ) (Lvl := ℕ) (cfgs p).spec c (atTc Win c)
  hentry c := by
    have split := Pipeline.arrays_of_unscopedBufs (p := p) (pcfgs (F := F)) adm (pdats m) launch.win launch.arr_whole c
      ((pdats m p c).share_full (hq c)) (atTc Win c) (hA c)
    rw [Pipeline.unscopedBufs_held, Pipeline.ownSems0_none] at *
    iintro ⟨⟨Hbufs, Hgen, ⟨%O, Howes⟩⟩, -, -⟩
    ihave Hsplit := split $$ Hbufs
    icases Hsplit with ⟨Harr, Hbypass⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      rw [howed c 0]
      iexists O
      isplitr; · ipureintro; exact fun x _ => Or.inl ((hrec c 0).symm ▸ Set.mem_univ x)
      iexact Howes
    isplitl [Hgen]; · iexact Hgen
    iexact Hbypass
  hin c := by
    refine (?_ : _ ⊢ Pipeline.ΦA (cfgs p).spec c).trans (hin c)
    unfold Pipeline.ΦA
    iintro ⟨Hgen, -, Hscratch⟩
    isplitl [Hscratch]; · iexact Hscratch
    iexact Hgen
  hout c := by
    rw [Pipeline.ownSems0_none]
    refine (hout c).trans ?_
    unfold Pipeline.ΦA
    iintro ⟨Hscratch, Hgen⟩
    isplitl [Hgen]; · iexact Hgen
    isplitr; · iempintro
    iexact Hscratch
  hexit c := by
    have join := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Win c) (atTc Wout c) ((pdats m p c).arrAt · (cfgs p).N) (exit_arr m p launch Win Wout hW c) (exit_rest m p Win Wout hW c)
    rw [Pipeline.unscopedBufs_held] at join
    iintro ⟨Harr, Howes, Hgen, Hbypass⟩
    imodintro
    isplitl [Harr Hbypass]
    · iapply join
      isplitl [Harr]; · iexact Harr
      iexact Hbypass
    isplitl [Hgen]; · iexact Hgen
    unfold Pipeline.Dat.owesAt Pipeline.owesWithin
    rw [howed c (Fin.last _)]
    icases Howes with ⟨%O, -, Howes⟩
    iexists O; iexact Howes

end Cert.KernelIdeal.Reg

end
-- ==== Proof.Ideal.Run.lean ====
import proofs.«158427_j57105885167694_2_alg».proof.Proof.Ideal.Seg

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ) (ρ : Dev nD → PrngReg)

abbrev segs : List (Pipeline.Seg (pcfgs (F := F)) adm (pdats m) () defs₀ 𝒱₀ Lv0 lv0) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (regionSeg m 0 launch0 (W3 m) (W4 m) (fun _ => rfl) (A_eq0 (atTc (W3 m))) (body_obligation0 (atTc (W3 m))) (hin0 (atTc (W3 m))) (hout0 (atTc (W3 m)))),
    .host (hseg hostOps1 hostOps1_sub hostOps1_fresh (W4 m)),
    .region (regionSeg m 1 launch1 (W5 m) (W6 m) (fun _ => rfl) (A_eq1 (atTc (W5 m))) (body_obligation1 (atTc (W5 m))) (hin1 (atTc (W5 m))) (hout1 (atTc (W5 m)))),
    .region (regionSeg m 2 launch2 (W6 m) (W7 m) (fun _ => rfl) (A_eq2 (atTc (W6 m))) (body_obligation2 (atTc (W6 m))) (hin2 (atTc (W6 m))) (hout2 (atTc (W6 m)))),
    .region (regionSeg m 3 launch3 (W7 m) (W8 m) (fun _ => rfl) (A_eq3 (atTc (W7 m))) (body_obligation3 (atTc (W7 m))) (hin3 (atTc (W7 m))) (hout3 (atTc (W7 m)))),
    .host (hseg hostOps4 hostOps4_sub hostOps4_fresh (W8 m)),
    .region (regionSeg m 4 launch4 (W9 m) (W10 m) (fun _ => rfl) (A_eq4 (atTc (W9 m))) (body_obligation4 (atTc (W9 m))) (hin4 (atTc (W9 m))) (hout4 (atTc (W9 m)))),
    .region (regionSeg m 5 launch5 (W10 m) (W11 m) (fun _ => rfl) (A_eq5 (atTc (W10 m))) (body_obligation5 (atTc (W10 m))) (hin5 (atTc (W10 m))) (hout5 (atTc (W10 m)))),
    .region (regionSeg m 6 launch6 (W11 m) (W12 m) (fun _ => rfl) (A_eq6 (atTc (W11 m))) (body_obligation6 (atTc (W11 m))) (hin6 (atTc (W11 m))) (hout6 (atTc (W11 m)))),
    .host (hseg hostOps7 hostOps7_sub hostOps7_fresh (W12 m)),
    .region (regionSeg m 7 launch7 (W13 m) (W14 m) (fun _ => rfl) (A_eq7 (atTc (W13 m))) (body_obligation7 (atTc (W13 m))) (hin7 (atTc (W13 m))) (hout7 (atTc (W13 m)))) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W14 m c b) := by
  refine Pipeline.θ_run_regions_kit_dev (pcfgs (F := F)) adm (pdats m) () cellOf_inj emb₁ defs₀ 𝒱₀ Lv0 lv0 m ρ main
    (fun _ => segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => StableHlo.held (c : Thread nD τ) (Pipeline.ucRefs τ sig) (W14 m c))
    (hch := fun c => ⟨.rfl, .rfl, .rfl, .rfl, .rfl, .rfl, .rfl, .rfl, .rfl, .rfl, .rfl, .rfl, .rfl, .rfl,
      sep_mono .rfl (by iintro ⟨-, Howes⟩; iexact Howes)⟩)
    (hinit := ?_)
    (QY := fun c s => ∀ b ∈ Pipeline.ucRefs τ sig, s.mem (((c : Thread nD τ)).1, b) = W14 m c b)
    (hfin := fun c s' => ?_) (hQ := fun _ h => h)
  ·

    refine Pipeline.initEach Lv0 lv0 fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hbufs, -, Howes, -, Hgen, -⟩, -⟩
    imodintro
    isplitl [Hbufs]; · iexact Hbufs
    isplitl [Hgen]; · iexists _; iexact Hgen
    iexists ∅; iexact Howes
  ·
    iintro ⟨Hbufs, HSI⟩
    unfold StableHlo.held
    imodintro
    iapply (pointsTo_read_all (Pipeline.ucRefs τ sig) (fun b => (((c : Thread nD τ)).1, b)) (W14 m c) s')
    isplitl [Hbufs] <;> iassumption

end Cert.KernelIdeal.Reg

end
-- ==== Proof.Ideal.Kept.lean ====
import proofs.«158427_j57105885167694_2_alg».proof.Proof.Ideal.Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem host0 (c : Dev nD) (r : Ref sig .tc) (h : r ∉ hostOps0_W) : W1 m c r = W0 m c r :=
  StableHlo.after_of_writes_sub hostOps0 _ hostOps0_writes h
theorem host0_1 (c : Dev nD) (r : Ref sig .tc) (h : r ∉ hostOps0_1_W) : W2 m c r = W1 m c r :=
  StableHlo.after_of_writes_sub hostOps0_1 _ hostOps0_1_writes h
theorem host0_2 (c : Dev nD) (r : Ref sig .tc) (h : r ∉ hostOps0_2_W) : W3 m c r = W2 m c r :=
  StableHlo.after_of_writes_sub hostOps0_2 _ hostOps0_2_writes h
theorem host1 (c : Dev nD) (r : Ref sig .tc) (h : r ∉ hostOps1_W) : W5 m c r = W4 m c r :=
  StableHlo.after_of_writes_sub hostOps1 _ hostOps1_writes h
theorem host4 (c : Dev nD) (r : Ref sig .tc) (h : r ∉ hostOps4_W) : W9 m c r = W8 m c r :=
  StableHlo.after_of_writes_sub hostOps4 _ hostOps4_writes h
theorem host7 (c : Dev nD) (r : Ref sig .tc) (h : r ∉ hostOps7_W) : W13 m c r = W12 m c r :=
  StableHlo.after_of_writes_sub hostOps7 _ hostOps7_writes h

theorem keep0 (c : Dev nD) (r : Ref sig .tc) (h : ∀ w, Pipeline.arrRef spec0 w ≠ r) : W4 m c (Proc.devRef .tc r) = W3 m c (Proc.devRef .tc r) := by
  unfold W4; exact Pipeline.withArrays_of_ne spec0 c _ _ r h
theorem keep1 (c : Dev nD) (r : Ref sig .tc) (h : ∀ w, Pipeline.arrRef spec1 w ≠ r) : W6 m c (Proc.devRef .tc r) = W5 m c (Proc.devRef .tc r) := by
  unfold W6; exact Pipeline.withArrays_of_ne spec1 c _ _ r h
theorem keep2 (c : Dev nD) (r : Ref sig .tc) (h : ∀ w, Pipeline.arrRef spec2 w ≠ r) : W7 m c (Proc.devRef .tc r) = W6 m c (Proc.devRef .tc r) := by
  unfold W7; exact Pipeline.withArrays_of_ne spec2 c _ _ r h
theorem keep3 (c : Dev nD) (r : Ref sig .tc) (h : ∀ w, Pipeline.arrRef spec3 w ≠ r) : W8 m c (Proc.devRef .tc r) = W7 m c (Proc.devRef .tc r) := by
  unfold W8; exact Pipeline.withArrays_of_ne spec3 c _ _ r h
theorem keep4 (c : Dev nD) (r : Ref sig .tc) (h : ∀ w, Pipeline.arrRef spec4 w ≠ r) : W10 m c (Proc.devRef .tc r) = W9 m c (Proc.devRef .tc r) := by
  unfold W10; exact Pipeline.withArrays_of_ne spec4 c _ _ r h
theorem keep5 (c : Dev nD) (r : Ref sig .tc) (h : ∀ w, Pipeline.arrRef spec5 w ≠ r) : W11 m c (Proc.devRef .tc r) = W10 m c (Proc.devRef .tc r) := by
  unfold W11; exact Pipeline.withArrays_of_ne spec5 c _ _ r h
theorem keep6 (c : Dev nD) (r : Ref sig .tc) (h : ∀ w, Pipeline.arrRef spec6 w ≠ r) : W12 m c (Proc.devRef .tc r) = W11 m c (Proc.devRef .tc r) := by
  unfold W12; exact Pipeline.withArrays_of_ne spec6 c _ _ r h
theorem kept (c : Dev nD) (r : Ref sig .tc) (h0 : r ∉ hostOps0_W) (h01 : r ∉ hostOps0_1_W) (h02 : r ∉ hostOps0_2_W)
    (k0 : W4 m c (Proc.devRef .tc r) = W3 m c (Proc.devRef .tc r)) (h1 : r ∉ hostOps1_W)
    (k1 : W6 m c (Proc.devRef .tc r) = W5 m c (Proc.devRef .tc r)) (k2 : W7 m c (Proc.devRef .tc r) = W6 m c (Proc.devRef .tc r))
    (k3 : W8 m c (Proc.devRef .tc r) = W7 m c (Proc.devRef .tc r)) (h4 : r ∉ hostOps4_W)
    (k4 : W10 m c (Proc.devRef .tc r) = W9 m c (Proc.devRef .tc r)) (k5 : W11 m c (Proc.devRef .tc r) = W10 m c (Proc.devRef .tc r))
    (k6 : W12 m c (Proc.devRef .tc r) = W11 m c (Proc.devRef .tc r)) (h7 : r ∉ hostOps7_W)
    (k7 : W14 m c (Proc.devRef .tc r) = W13 m c (Proc.devRef .tc r)) :
    W14 m c (Proc.devRef .tc r) = m ((c : Thread nD τ).loc r) :=
  k7.trans <| (host7 m c r h7).trans <| k6.trans <| k5.trans <| k4.trans <| (host4 m c r h4).trans <| k3.trans <| k2.trans <| k1.trans <|
    (host1 m c r h1).trans <| k0.trans <| (host0_2 m c r h02).trans <| (host0_1 m c r h01).trans <| (host0 m c r h0).trans rfl

end Cert.KernelIdeal.Reg

end
-- ==== Proof.Ideal.KeptArgs.lean ====
import proofs.«158427_j57105885167694_2_alg».proof.Proof.Ideal.Kept

set_option maxRecDepth 16384

noncomputable section

namespace Cert.KernelIdeal.Reg

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12]

/-- No host stretch writes an argument and no region has one among its result arrays, so each ends as launched. -/
theorem kept_arg (c : Dev nD) (r : Ref sig .tc) (h : r ∈ argRefs := by decide) : W14 m c (Proc.devRef .tc r) = m ((c : Thread nD τ).loc r) :=
  kept m c r (by revert r; decide) (by revert r; decide) (by revert r; decide) (keeps m 0 launch0 (W3 m) (W4 m) (fun _ => rfl) (A_eq0 (atTc (W3 m))) c r (by revert r; decide)) (by revert r; decide)
    (keeps m 1 launch1 (W5 m) (W6 m) (fun _ => rfl) (A_eq1 (atTc (W5 m))) c r (by revert r; decide)) (keeps m 2 launch2 (W6 m) (W7 m) (fun _ => rfl) (A_eq2 (atTc (W6 m))) c r (by revert r; decide))
    (keeps m 3 launch3 (W7 m) (W8 m) (fun _ => rfl) (A_eq3 (atTc (W7 m))) c r (by revert r; decide)) (by revert r; decide)
    (keeps m 4 launch4 (W9 m) (W10 m) (fun _ => rfl) (A_eq4 (atTc (W9 m))) c r (by revert r; decide)) (keeps m 5 launch5 (W10 m) (W11 m) (fun _ => rfl) (A_eq5 (atTc (W10 m))) c r (by revert r; decide))
    (keeps m 6 launch6 (W11 m) (W12 m) (fun _ => rfl) (A_eq6 (atTc (W11 m))) c r (by revert r; decide)) (by revert r; decide) (keeps m 7 launch7 (W13 m) (W14 m) (fun _ => rfl) (A_eq7 (atTc (W13 m))) c r (by revert r; decide))

def result (c : Dev nD) : Buf (Elt F) ((c.tc : Thread nD τ).loc main_v85) := W14 m c (Proc.devRef .tc main_v85)

theorem run_result : θ_run defs (onTc (τ := τ) (main (F := F))) ⟨m, fun _ => 0, ρ⟩ (fun r => ∀ c : Dev nD,
      r.2.mem ((c.tc : Thread nD τ).loc main_v85) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v85 (by decide)),
      (h c _ (mem_uc main_arg0 (by decide))).trans (kept_arg m c main_arg0),
      (h c _ (mem_uc main_arg1 (by decide))).trans (kept_arg m c main_arg1),
      (h c _ (mem_uc main_arg2 (by decide))).trans (kept_arg m c main_arg2),
      (h c _ (mem_uc main_arg3 (by decide))).trans (kept_arg m c main_arg3),
      (h c _ (mem_uc main_arg4 (by decide))).trans (kept_arg m c main_arg4),
      (h c _ (mem_uc main_arg5 (by decide))).trans (kept_arg m c main_arg5),
      (h c _ (mem_uc main_arg6 (by decide))).trans (kept_arg m c main_arg6),
      (h c _ (mem_uc main_arg7 (by decide))).trans (kept_arg m c main_arg7),
      (h c _ (mem_uc main_arg8 (by decide))).trans (kept_arg m c main_arg8),
      (h c _ (mem_uc main_arg9 (by decide))).trans (kept_arg m c main_arg9),
      (h c _ (mem_uc main_arg10 (by decide))).trans (kept_arg m c main_arg10),
      (h c _ (mem_uc main_arg11 (by decide))).trans (kept_arg m c main_arg11),
      (h c _ (mem_uc main_arg12 (by decide))).trans (kept_arg m c main_arg12)⟩) (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (run_result m ρ)

end Cert.KernelIdeal.Reg

end
-- ==== Proof.Ref.Ops.lean ====
import proofs.«158427_j57105885167694_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

abbrev opsA : List (HloOp τ sig (Elt F)) :=
  [ unary main_arg1 main_v0 ((extractStridedSlice S1x800000 ![0, 0] · slices_S2x800000_S1x800000_0_0)),
    reshape main_v0 main_v1 rfl shapeCasts_S1x800000_S800000,
    unary main_arg1 main_v2 ((extractStridedSlice S1x800000 ![1, 0] · slices_S2x800000_S1x800000_1_0)),
    reshape main_v2 main_v3 rfl shapeCasts_S1x800000_S800000,
    binary main_arg0 main_arg3 main_v4 ((fun l r => Host.dotGeneral dot_S50000x128_S128x128_S50000x128_1_0_0_1_n_n none l r)),
    nullary main_v5 (iotaInDim S50000 32 0),
    binary main_v1 main_v5 main_v6 ((fun a b => concatenate S850000 0 [⟨S800000, a⟩, ⟨S50000, b⟩] concatenates_S800000_S50000_S850000_d0)),
    binary main_v3 main_v5 main_v7 ((fun a b => concatenate S850000 0 [⟨S800000, a⟩, ⟨S50000, b⟩] concatenates_S800000_S50000_S850000_d0)),
    nullary main_cst (constant S_ .f32 0x3F800000#32),
    unary main_cst main_v8 (broadcastInDim S50000 ![] bcast_S_S50000),
    binary main_arg2 main_v8 main_v9 ((fun a b => concatenate S850000 0 [⟨S800000, a⟩, ⟨S50000, b⟩] concatenates_S800000_S50000_S850000_d0)),
    nullary main_cst_0 (constant S_ .f32 0x00000000#32),
    unary main_cst_0 main_v10 (broadcastInDim S50000 ![] bcast_S_S50000),
    unary main_v7 main_v11 (broadcastInDim S850000x1 ![0] bcast_S850000_S850000x1_0),
    ternary main_v10 main_v11 main_v9 main_v12 ((fun x i u => Host.scatterAdd scatter_S50000_S850000x1_S850000_n_0_0_1 x i u)),
    nullary main_cst_1 (constant S_ .f32 0x00000000#32),
    unary main_cst_1 main_v13 (broadcastInDim S50000 ![] bcast_S_S50000),
    binary main_v12 main_v13 main_v14 (cmpf .ogt),
    unary main_v12 main_v15 (Host.rsqrt),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v14) (TRef.of (T := ⟨S50000, .f32⟩) main_v15) (TRef.of (T := ⟨S50000, .f32⟩) main_call0_v1) (TRef.of (T := ⟨S50000, .f32⟩) main_v16) select ]

abbrev opsB : List (HloOp τ sig (Elt F)) :=
  [ nullary main_c (constantI S_ 32 0#32),
    unary main_c main_v17 (broadcastInDim S850000 ![] bcast_S_S850000),
    binary main_v6 main_v17 main_v18 (cmpi .slt),
    nullary main_c_3 (constantI S_ 32 50000#32),
    unary main_c_3 main_v19 (broadcastInDim S850000 ![] bcast_S_S850000),
    binary main_v6 main_v19 main_v20 (addi),
    ternary main_v18 main_v20 main_v6 main_v21 (select),
    unary main_v21 main_v22 (broadcastInDim S850000x1 ![0] bcast_S850000_S850000x1_0),
    binary main_v16 main_v22 main_v23 ((fun x i => Host.gather gather_S50000_S850000x1_S850000_n_0_n_n_0_1_1 x i)),
    binary main_v23 main_v9 main_v24 (mulf),
    nullary main_c_4 (constantI S_ 32 0#32),
    unary main_c_4 main_v25 (broadcastInDim S850000 ![] bcast_S_S850000),
    binary main_v7 main_v25 main_v26 (cmpi .slt),
    nullary main_c_5 (constantI S_ 32 50000#32),
    unary main_c_5 main_v27 (broadcastInDim S850000 ![] bcast_S_S850000),
    binary main_v7 main_v27 main_v28 (addi),
    ternary main_v26 main_v28 main_v7 main_v29 (select),
    unary main_v29 main_v30 (broadcastInDim S850000x1 ![0] bcast_S850000_S850000x1_0),
    binary main_v16 main_v30 main_v31 ((fun x i => Host.gather gather_S50000_S850000x1_S850000_n_0_n_n_0_1_1 x i)),
    binary main_v24 main_v31 main_v32 (mulf) ]

abbrev opsC : List (HloOp τ sig (Elt F)) :=
  [ unary main_v32 main_v33 (broadcastInDim S850000x1 ![0] bcast_S850000_S850000x1_0),
    nullary main_c_6 (constantI S_ 32 0#32),
    unary main_c_6 main_v34 (broadcastInDim S850000 ![] bcast_S_S850000),
    binary main_v6 main_v34 main_v35 (cmpi .slt),
    nullary main_c_7 (constantI S_ 32 50000#32),
    unary main_c_7 main_v36 (broadcastInDim S850000 ![] bcast_S_S850000),
    binary main_v6 main_v36 main_v37 (addi),
    ternary main_v35 main_v37 main_v6 main_v38 (select),
    unary main_v38 main_v39 (broadcastInDim S850000x1 ![0] bcast_S850000_S850000x1_0),
    binary main_v4 main_v39 main_v40 ((fun x i => Host.gather gather_S50000x128_S850000x1_S850000x128_1_0_n_n_0_1_1128 x i)),
    unary main_v33 main_v41 (broadcastInDim S850000x128 ![0, 1] bcast_S850000x1_S850000x128_0_1),
    binary main_v41 main_v40 main_v42 (mulf),
    nullary main_cst_8 (constant S_ .f32 0x00000000#32),
    unary main_cst_8 main_v43 (broadcastInDim S50000x128 ![] bcast_S_S50000x128),
    unary main_v7 main_v44 (broadcastInDim S850000x1 ![0] bcast_S850000_S850000x1_0),
    ternary main_v43 main_v44 main_v42 main_v45 ((fun x i u => Host.scatterAdd scatter_S50000x128_S850000x1_S850000x128_1_0_0_1 x i u)),
    unary main_arg4 main_v46 (broadcastInDim S1x128 ![1] bcast_S128_S1x128_1),
    unary main_v46 main_v47 (broadcastInDim S50000x128 ![0, 1] bcast_S1x128_S50000x128_0_1),
    binary main_v45 main_v47 main_v48 (addf) ]

abbrev opsD : List (HloOp τ sig (Elt F)) :=
  [ nullary main_cst_9 (constant S_ .f32 0x00000000#32),
    binary main_v48 main_cst_9 main_v49 ((fun x v => Host.reduceAdd x v reducesTo_S50000x128_S128_d0 h_S_)),
    nullary main_cst_10 (constant S_ .f32 0x47435000#32),
    unary main_cst_10 main_v50 (broadcastInDim S128 ![] bcast_S_S128),
    binary main_v49 main_v50 main_v51 (Host.divf),
    unary main_v51 main_v52 (broadcastInDim S1x128 ![1] bcast_S128_S1x128_1),
    unary main_v52 main_v53 (broadcastInDim S50000x128 ![0, 1] bcast_S1x128_S50000x128_0_1),
    binary main_v48 main_v53 main_v54 (subf),
    binary main_v54 main_v54 main_v55 (mulf),
    nullary main_cst_11 (constant S_ .f32 0x00000000#32),
    binary main_v55 main_cst_11 main_v56 ((fun x v => Host.reduceAdd x v reducesTo_S50000x128_S128_d0 h_S_)),
    nullary main_cst_12 (constant S_ .f32 0x47435000#32),
    unary main_cst_12 main_v57 (broadcastInDim S128 ![] bcast_S_S128),
    binary main_v56 main_v57 main_v58 (Host.divf),
    unary main_v51 main_v59 (broadcastInDim S1x128 ![1] bcast_S128_S1x128_1),
    unary main_v59 main_v60 (broadcastInDim S50000x128 ![0, 1] bcast_S1x128_S50000x128_0_1),
    binary main_v48 main_v60 main_v61 (subf),
    unary main_arg5 main_v62 (broadcastInDim S1x128 ![1] bcast_S128_S1x128_1),
    unary main_v62 main_v63 (broadcastInDim S50000x128 ![0, 1] bcast_S1x128_S50000x128_0_1),
    binary main_v63 main_v61 main_v64 (mulf),
    nullary main_cst_13 (constant S_ .f32 0x3727C5AC#32),
    unary main_cst_13 main_v65 (broadcastInDim S128 ![] bcast_S_S128),
    binary main_v58 main_v65 main_v66 (addf),
    unary main_v66 main_v67 (Host.rsqrt),
    unary main_v67 main_v68 (broadcastInDim S1x128 ![1] bcast_S128_S1x128_1),
    unary main_v68 main_v69 (broadcastInDim S50000x128 ![0, 1] bcast_S1x128_S50000x128_0_1),
    binary main_v64 main_v69 main_v70 (mulf),
    unary main_arg6 main_v71 (broadcastInDim S1x128 ![1] bcast_S128_S1x128_1),
    unary main_v71 main_v72 (broadcastInDim S50000x128 ![0, 1] bcast_S1x128_S50000x128_0_1),
    binary main_v70 main_v72 main_v73 (addf),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v73) (TRef.of (T := ⟨S50000x128, .f32⟩) main_call1_v0) (TRef.of (T := ⟨S50000x128, .f32⟩) main_v74) maximumf ]

abbrev opsE : List (HloOp τ sig (Elt F)) :=
  [ binary main_v74 main_arg7 main_v75 ((fun l r => Host.dotGeneral dot_S50000x128_S128x128_S50000x128_1_0_0_1_n_n none l r)),
    nullary main_v76 (iotaInDim S50000 32 0),
    binary main_v1 main_v76 main_v77 ((fun a b => concatenate S850000 0 [⟨S800000, a⟩, ⟨S50000, b⟩] concatenates_S800000_S50000_S850000_d0)),
    binary main_v3 main_v76 main_v78 ((fun a b => concatenate S850000 0 [⟨S800000, a⟩, ⟨S50000, b⟩] concatenates_S800000_S50000_S850000_d0)),
    nullary main_cst_14 (constant S_ .f32 0x3F800000#32),
    unary main_cst_14 main_v79 (broadcastInDim S50000 ![] bcast_S_S50000),
    binary main_arg2 main_v79 main_v80 ((fun a b => concatenate S850000 0 [⟨S800000, a⟩, ⟨S50000, b⟩] concatenates_S800000_S50000_S850000_d0)),
    nullary main_cst_15 (constant S_ .f32 0x00000000#32),
    unary main_cst_15 main_v81 (broadcastInDim S50000 ![] bcast_S_S50000),
    unary main_v78 main_v82 (broadcastInDim S850000x1 ![0] bcast_S850000_S850000x1_0),
    ternary main_v81 main_v82 main_v80 main_v83 ((fun x i u => Host.scatterAdd scatter_S50000_S850000x1_S850000_n_0_0_1 x i u)),
    nullary main_cst_16 (constant S_ .f32 0x00000000#32),
    unary main_cst_16 main_v84 (broadcastInDim S50000 ![] bcast_S_S50000),
    binary main_v83 main_v84 main_v85 (cmpf .ogt),
    unary main_v83 main_v86 (Host.rsqrt),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v85) (TRef.of (T := ⟨S50000, .f32⟩) main_v86) (TRef.of (T := ⟨S50000, .f32⟩) main_call2_v1) (TRef.of (T := ⟨S50000, .f32⟩) main_v87) select ]

abbrev opsF1 : List (HloOp τ sig (Elt F)) :=
  [ nullary main_c_18 (constantI S_ 32 0#32),
    unary main_c_18 main_v88 (broadcastInDim S850000 ![] bcast_S_S850000),
    binary main_v77 main_v88 main_v89 (cmpi .slt),
    nullary main_c_19 (constantI S_ 32 50000#32),
    unary main_c_19 main_v90 (broadcastInDim S850000 ![] bcast_S_S850000),
    binary main_v77 main_v90 main_v91 (addi),
    ternary main_v89 main_v91 main_v77 main_v92 (select),
    unary main_v92 main_v93 (broadcastInDim S850000x1 ![0] bcast_S850000_S850000x1_0),
    binary main_v87 main_v93 main_v94 ((fun x i => Host.gather gather_S50000_S850000x1_S850000_n_0_n_n_0_1_1 x i)),
    binary main_v94 main_v80 main_v95 (mulf),
    nullary main_c_20 (constantI S_ 32 0#32),
    unary main_c_20 main_v96 (broadcastInDim S850000 ![] bcast_S_S850000) ]

abbrev opsF2 : List (HloOp τ sig (Elt F)) :=
  [ binary main_v78 main_v96 main_v97 (cmpi .slt),
    nullary main_c_21 (constantI S_ 32 50000#32),
    unary main_c_21 main_v98 (broadcastInDim S850000 ![] bcast_S_S850000),
    binary main_v78 main_v98 main_v99 (addi),
    ternary main_v97 main_v99 main_v78 main_v100 (select),
    unary main_v100 main_v101 (broadcastInDim S850000x1 ![0] bcast_S850000_S850000x1_0),
    binary main_v87 main_v101 main_v102 ((fun x i => Host.gather gather_S50000_S850000x1_S850000_n_0_n_n_0_1_1 x i)),
    binary main_v95 main_v102 main_v103 (mulf) ]

abbrev opsG : List (HloOp τ sig (Elt F)) :=
  [ unary main_v103 main_v104 (broadcastInDim S850000x1 ![0] bcast_S850000_S850000x1_0),
    nullary main_c_22 (constantI S_ 32 0#32),
    unary main_c_22 main_v105 (broadcastInDim S850000 ![] bcast_S_S850000),
    binary main_v77 main_v105 main_v106 (cmpi .slt),
    nullary main_c_23 (constantI S_ 32 50000#32),
    unary main_c_23 main_v107 (broadcastInDim S850000 ![] bcast_S_S850000),
    binary main_v77 main_v107 main_v108 (addi),
    ternary main_v106 main_v108 main_v77 main_v109 (select),
    unary main_v109 main_v110 (broadcastInDim S850000x1 ![0] bcast_S850000_S850000x1_0),
    binary main_v75 main_v110 main_v111 ((fun x i => Host.gather gather_S50000x128_S850000x1_S850000x128_1_0_n_n_0_1_1128 x i)),
    unary main_v104 main_v112 (broadcastInDim S850000x128 ![0, 1] bcast_S850000x1_S850000x128_0_1),
    binary main_v112 main_v111 main_v113 (mulf),
    nullary main_cst_24 (constant S_ .f32 0x00000000#32),
    unary main_cst_24 main_v114 (broadcastInDim S50000x128 ![] bcast_S_S50000x128),
    unary main_v78 main_v115 (broadcastInDim S850000x1 ![0] bcast_S850000_S850000x1_0),
    ternary main_v114 main_v115 main_v113 main_v116 ((fun x i u => Host.scatterAdd scatter_S50000x128_S850000x1_S850000x128_1_0_0_1 x i u)),
    unary main_arg8 main_v117 (broadcastInDim S1x128 ![1] bcast_S128_S1x128_1),
    unary main_v117 main_v118 (broadcastInDim S50000x128 ![0, 1] bcast_S1x128_S50000x128_0_1),
    binary main_v116 main_v118 main_v119 (addf) ]

abbrev opsH : List (HloOp τ sig (Elt F)) :=
  [ nullary main_cst_25 (constant S_ .f32 0x00000000#32),
    binary main_v119 main_cst_25 main_v120 ((fun x v => Host.reduceAdd x v reducesTo_S50000x128_S128_d0 h_S_)),
    nullary main_cst_26 (constant S_ .f32 0x47435000#32),
    unary main_cst_26 main_v121 (broadcastInDim S128 ![] bcast_S_S128),
    binary main_v120 main_v121 main_v122 (Host.divf),
    unary main_v122 main_v123 (broadcastInDim S1x128 ![1] bcast_S128_S1x128_1),
    unary main_v123 main_v124 (broadcastInDim S50000x128 ![0, 1] bcast_S1x128_S50000x128_0_1),
    binary main_v119 main_v124 main_v125 (subf),
    binary main_v125 main_v125 main_v126 (mulf),
    nullary main_cst_27 (constant S_ .f32 0x00000000#32),
    binary main_v126 main_cst_27 main_v127 ((fun x v => Host.reduceAdd x v reducesTo_S50000x128_S128_d0 h_S_)),
    nullary main_cst_28 (constant S_ .f32 0x47435000#32),
    unary main_cst_28 main_v128 (broadcastInDim S128 ![] bcast_S_S128),
    binary main_v127 main_v128 main_v129 (Host.divf),
    unary main_v122 main_v130 (broadcastInDim S1x128 ![1] bcast_S128_S1x128_1),
    unary main_v130 main_v131 (broadcastInDim S50000x128 ![0, 1] bcast_S1x128_S50000x128_0_1),
    binary main_v119 main_v131 main_v132 (subf),
    unary main_arg9 main_v133 (broadcastInDim S1x128 ![1] bcast_S128_S1x128_1),
    unary main_v133 main_v134 (broadcastInDim S50000x128 ![0, 1] bcast_S1x128_S50000x128_0_1),
    binary main_v134 main_v132 main_v135 (mulf),
    nullary main_cst_29 (constant S_ .f32 0x3727C5AC#32),
    unary main_cst_29 main_v136 (broadcastInDim S128 ![] bcast_S_S128),
    binary main_v129 main_v136 main_v137 (addf),
    unary main_v137 main_v138 (Host.rsqrt),
    unary main_v138 main_v139 (broadcastInDim S1x128 ![1] bcast_S128_S1x128_1),
    unary main_v139 main_v140 (broadcastInDim S50000x128 ![0, 1] bcast_S1x128_S50000x128_0_1),
    binary main_v135 main_v140 main_v141 (mulf),
    unary main_arg10 main_v142 (broadcastInDim S1x128 ![1] bcast_S128_S1x128_1),
    unary main_v142 main_v143 (broadcastInDim S50000x128 ![0, 1] bcast_S1x128_S50000x128_0_1),
    binary main_v141 main_v143 main_v144 (addf),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v144) (TRef.of (T := ⟨S50000x128, .f32⟩) main_call3_v0) (TRef.of (T := ⟨S50000x128, .f32⟩) main_v145) maximumf ]

abbrev opsI1 : List (HloOp τ sig (Elt F)) :=
  [ binary main_v145 main_arg11 main_v146 ((fun l r => Host.dotGeneral dot_S50000x128_S128x40_S50000x40_1_0_0_1_n_n none l r)),
    nullary main_v147 (iotaInDim S50000 32 0) ]

abbrev opsI2 : List (HloOp τ sig (Elt F)) :=
  [ binary main_v1 main_v147 main_v148 ((fun a b => concatenate S850000 0 [⟨S800000, a⟩, ⟨S50000, b⟩] concatenates_S800000_S50000_S850000_d0)),
    binary main_v3 main_v147 main_v149 ((fun a b => concatenate S850000 0 [⟨S800000, a⟩, ⟨S50000, b⟩] concatenates_S800000_S50000_S850000_d0)),
    nullary main_cst_30 (constant S_ .f32 0x3F800000#32),
    unary main_cst_30 main_v150 (broadcastInDim S50000 ![] bcast_S_S50000),
    binary main_arg2 main_v150 main_v151 ((fun a b => concatenate S850000 0 [⟨S800000, a⟩, ⟨S50000, b⟩] concatenates_S800000_S50000_S850000_d0)),
    nullary main_cst_31 (constant S_ .f32 0x00000000#32),
    unary main_cst_31 main_v152 (broadcastInDim S50000 ![] bcast_S_S50000),
    unary main_v149 main_v153 (broadcastInDim S850000x1 ![0] bcast_S850000_S850000x1_0),
    ternary main_v152 main_v153 main_v151 main_v154 ((fun x i u => Host.scatterAdd scatter_S50000_S850000x1_S850000_n_0_0_1 x i u)),
    nullary main_cst_32 (constant S_ .f32 0x00000000#32),
    unary main_cst_32 main_v155 (broadcastInDim S50000 ![] bcast_S_S50000),
    binary main_v154 main_v155 main_v156 (cmpf .ogt),
    unary main_v154 main_v157 (Host.rsqrt),
    nullary main_cst_33 (constant S_ .f32 0x00000000#32),
    TRef.unary (TRef.of (T := ⟨S_, .f32⟩) main_cst_33) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v156) (TRef.of (T := ⟨S50000, .f32⟩) main_v157) (TRef.of (T := ⟨S50000, .f32⟩) main_call4_v1) (TRef.of (T := ⟨S50000, .f32⟩) main_v158) select ]

abbrev opsJ : List (HloOp τ sig (Elt F)) :=
  [ nullary main_c_34 (constantI S_ 32 0#32),
    unary main_c_34 main_v159 (broadcastInDim S850000 ![] bcast_S_S850000),
    binary main_v148 main_v159 main_v160 (cmpi .slt),
    nullary main_c_35 (constantI S_ 32 50000#32),
    unary main_c_35 main_v161 (broadcastInDim S850000 ![] bcast_S_S850000),
    binary main_v148 main_v161 main_v162 (addi),
    ternary main_v160 main_v162 main_v148 main_v163 (select),
    unary main_v163 main_v164 (broadcastInDim S850000x1 ![0] bcast_S850000_S850000x1_0),
    binary main_v158 main_v164 main_v165 ((fun x i => Host.gather gather_S50000_S850000x1_S850000_n_0_n_n_0_1_1 x i)),
    binary main_v165 main_v151 main_v166 (mulf),
    nullary main_c_36 (constantI S_ 32 0#32),
    unary main_c_36 main_v167 (broadcastInDim S850000 ![] bcast_S_S850000),
    binary main_v149 main_v167 main_v168 (cmpi .slt),
    nullary main_c_37 (constantI S_ 32 50000#32),
    unary main_c_37 main_v169 (broadcastInDim S850000 ![] bcast_S_S850000),
    binary main_v149 main_v169 main_v170 (addi),
    ternary main_v168 main_v170 main_v149 main_v171 (select),
    unary main_v171 main_v172 (broadcastInDim S850000x1 ![0] bcast_S850000_S850000x1_0),
    binary main_v158 main_v172 main_v173 ((fun x i => Host.gather gather_S50000_S850000x1_S850000_n_0_n_n_0_1_1 x i)),
    binary main_v166 main_v173 main_v174 (mulf) ]

abbrev opsK : List (HloOp τ sig (Elt F)) :=
  [ unary main_v174 main_v175 (broadcastInDim S850000x1 ![0] bcast_S850000_S850000x1_0),
    nullary main_c_38 (constantI S_ 32 0#32),
    unary main_c_38 main_v176 (broadcastInDim S850000 ![] bcast_S_S850000),
    binary main_v148 main_v176 main_v177 (cmpi .slt),
    nullary main_c_39 (constantI S_ 32 50000#32),
    unary main_c_39 main_v178 (broadcastInDim S850000 ![] bcast_S_S850000),
    binary main_v148 main_v178 main_v179 (addi),
    ternary main_v177 main_v179 main_v148 main_v180 (select),
    unary main_v180 main_v181 (broadcastInDim S850000x1 ![0] bcast_S850000_S850000x1_0),
    binary main_v146 main_v181 main_v182 ((fun x i => Host.gather gather_S50000x40_S850000x1_S850000x40_1_0_n_n_0_1_140 x i)),
    unary main_v175 main_v183 (broadcastInDim S850000x40 ![0, 1] bcast_S850000x1_S850000x40_0_1),
    binary main_v183 main_v182 main_v184 (mulf),
    nullary main_cst_40 (constant S_ .f32 0x00000000#32),
    unary main_cst_40 main_v185 (broadcastInDim S50000x40 ![] bcast_S_S50000x40),
    unary main_v149 main_v186 (broadcastInDim S850000x1 ![0] bcast_S850000_S850000x1_0),
    ternary main_v185 main_v186 main_v184 main_v187 ((fun x i u => Host.scatterAdd scatter_S50000x40_S850000x1_S850000x40_1_0_0_1 x i u)),
    unary main_arg12 main_v188 (broadcastInDim S1x40 ![1] bcast_S40_S1x40_1),
    unary main_v188 main_v189 (broadcastInDim S50000x40 ![0, 1] bcast_S1x40_S50000x40_0_1),
    binary main_v187 main_v189 main_v190 (addf) ]

abbrev opsL1 : List (HloOp τ sig (Elt F)) :=
  [ TRef.nullary (TRef.of (T := ⟨S_, .f32⟩) main_call5_cst) (constant S_ .f32 0xFF800000#32),
    TRef.binary (TRef.of (T := ⟨S50000x40, .f32⟩) main_v190) (TRef.of (T := ⟨S_, .f32⟩) main_call5_cst) (TRef.of (T := ⟨S50000, .f32⟩) main_call5_v0) (fun x v => Host.reduce FloatOps.maximumf x v reducesTo_S50000x40_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf ]

abbrev opsL2 : List (HloOp τ sig (Elt F)) :=
  [ TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x40, .f32⟩) main_call5_v4) (broadcastInDim S50000x40 ![0, 1] bcast_S50000x1_S50000x40_0_1),
    TRef.binary (TRef.of (T := ⟨S50000x40, .f32⟩) main_v190) (TRef.of (T := ⟨S50000x40, .f32⟩) main_call5_v4) (TRef.of (T := ⟨S50000x40, .f32⟩) main_call5_v5) subf ]

abbrev opsL3 : List (HloOp τ sig (Elt F)) :=
  [ TRef.unary (TRef.of (T := ⟨S50000x40, .f32⟩) main_call5_v5) (TRef.of (T := ⟨S50000x40, .f32⟩) main_call5_v6) Host.exp,
    TRef.nullary (TRef.of (T := ⟨S_, .f32⟩) main_call5_cst_1) (constant S_ .f32 0x00000000#32),
    TRef.binary (TRef.of (T := ⟨S50000x40, .f32⟩) main_call5_v6) (TRef.of (T := ⟨S_, .f32⟩) main_call5_cst_1) (TRef.of (T := ⟨S50000, .f32⟩) main_call5_v7) (fun x v => Host.reduceAdd x v reducesTo_S50000x40_S50000_d1 h_S_) ]

abbrev opsL4 : List (HloOp τ sig (Elt F)) :=
  [ TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x40, .f32⟩) main_call5_v10) (broadcastInDim S50000x40 ![0, 1] bcast_S50000x1_S50000x40_0_1),
    TRef.binary (TRef.of (T := ⟨S50000x40, .f32⟩) main_call5_v5) (TRef.of (T := ⟨S50000x40, .f32⟩) main_call5_v10) (TRef.of (T := ⟨S50000x40, .f32⟩) main_v191) subf ]

def win0 : List (HloOp τ sig (Elt F)) := opsA ++ (opsB ++ (opsC))

def win1 : List (HloOp τ sig (Elt F)) := opsD ++ (opsE ++ (opsF1))

def win2 : List (HloOp τ sig (Elt F)) := opsF2 ++ (opsG ++ (opsH ++ (opsI1)))

def win3 : List (HloOp τ sig (Elt F)) := opsI2 ++ (opsJ ++ (opsK ++ (opsL1 ++ (opsL2 ++ (opsL3 ++ (opsL4))))))

def ops : List (HloOp τ sig (Elt F)) := win0 ++ (win1 ++ (win2 ++ (win3)))

set_option maxRecDepth 8192 in
set_option maxHeartbeats 4000000 in
theorem main_part0_eq (c : Dev nD) : main_part0 (F := F) c = seq win0 := rfl

set_option maxRecDepth 8192 in
set_option maxHeartbeats 4000000 in
theorem main_part1_eq (c : Dev nD) : main_part1 (F := F) c = seq win1 := rfl

set_option maxRecDepth 8192 in
set_option maxHeartbeats 4000000 in
theorem main_part2_eq (c : Dev nD) : main_part2 (F := F) c = seq win2 := rfl

set_option maxRecDepth 8192 in
set_option maxHeartbeats 4000000 in
theorem main_part3_eq (c : Dev nD) : main_part3 (F := F) c = seq win3 := rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem mem_append_of {α : Type} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
set_option maxRecDepth 8192 in
theorem opsA_fresh : ∀ op ∈ (opsA : List (HloOp τ sig (Elt F))), op.fresh = ∅ := by
  intro _ h; (repeat (cases h with | head => rfl | tail _ h => ?_)); exact nomatch h

set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsB_fresh : ∀ op ∈ (opsB : List (HloOp τ sig (Elt F))), op.fresh = ∅ := by
  intro _ h; (repeat (cases h with | head => rfl | tail _ h => ?_)); exact nomatch h

set_option maxRecDepth 8192 in
theorem opsC_sub : (opsC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsC_fresh : ∀ op ∈ (opsC : List (HloOp τ sig (Elt F))), op.fresh = ∅ := by
  intro _ h; (repeat (cases h with | head => rfl | tail _ h => ?_)); exact nomatch h

set_option maxRecDepth 8192 in
theorem opsD_sub : (opsD : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsD_fresh : ∀ op ∈ (opsD : List (HloOp τ sig (Elt F))), op.fresh = ∅ := by
  intro _ h; (repeat (cases h with | head => rfl | tail _ h => ?_)); exact nomatch h

set_option maxRecDepth 8192 in
theorem opsE_sub : (opsE : List (HloOp τ sig (Elt F))).Forall fun op => op.bufs ⊆ tcRefs τ sig :=
  ⟨binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
set_option maxRecDepth 8192 in
theorem opsE_fresh : ∀ op ∈ (opsE : List (HloOp τ sig (Elt F))), op.fresh = ∅ := by
  intro _ h; (repeat (cases h with | head => rfl | tail _ h => ?_)); exact nomatch h

set_option maxRecDepth 8192 in
theorem opsF1_sub : (opsF1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub ..⟩
set_option maxRecDepth 8192 in
theorem opsF1_fresh : ∀ op ∈ (opsF1 : List (HloOp τ sig (Elt F))), op.fresh = ∅ := by
  intro _ h; (repeat (cases h with | head => rfl | tail _ h => ?_)); exact nomatch h

set_option maxRecDepth 8192 in
theorem opsF2_sub : (opsF2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub ..⟩
set_option maxRecDepth 8192 in
theorem opsF2_fresh : ∀ op ∈ (opsF2 : List (HloOp τ sig (Elt F))), op.fresh = ∅ := by
  intro _ h; (repeat (cases h with | head => rfl | tail _ h => ?_)); exact nomatch h

set_option maxRecDepth 8192 in
theorem opsG_sub : (opsG : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsG_fresh : ∀ op ∈ (opsG : List (HloOp τ sig (Elt F))), op.fresh = ∅ := by
  intro _ h; (repeat (cases h with | head => rfl | tail _ h => ?_)); exact nomatch h

set_option maxRecDepth 8192 in
theorem opsH_sub : (opsH : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsH_fresh : ∀ op ∈ (opsH : List (HloOp τ sig (Elt F))), op.fresh = ∅ := by
  intro _ h; (repeat (cases h with | head => rfl | tail _ h => ?_)); exact nomatch h

set_option maxRecDepth 8192 in
theorem opsI1_sub : (opsI1 : List (HloOp τ sig (Elt F))).Forall fun op => op.bufs ⊆ tcRefs τ sig :=
  ⟨binary_bufs_sub .., nullary_bufs_sub ..⟩
set_option maxRecDepth 8192 in
theorem opsI1_fresh : ∀ op ∈ (opsI1 : List (HloOp τ sig (Elt F))), op.fresh = ∅ := by
  intro _ h; (repeat (cases h with | head => rfl | tail _ h => ?_)); exact nomatch h

set_option maxRecDepth 8192 in
theorem opsI2_sub : (opsI2 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
set_option maxRecDepth 8192 in
theorem opsI2_fresh : ∀ op ∈ (opsI2 : List (HloOp τ sig (Elt F))), op.fresh = ∅ := by
  intro _ h; (repeat (cases h with | head => rfl | tail _ h => ?_)); exact nomatch h

set_option maxRecDepth 8192 in
theorem opsJ_sub : (opsJ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsJ_fresh : ∀ op ∈ (opsJ : List (HloOp τ sig (Elt F))), op.fresh = ∅ := by
  intro _ h; (repeat (cases h with | head => rfl | tail _ h => ?_)); exact nomatch h

set_option maxRecDepth 8192 in
theorem opsK_sub : (opsK : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsK_fresh : ∀ op ∈ (opsK : List (HloOp τ sig (Elt F))), op.fresh = ∅ := by
  intro _ h; (repeat (cases h with | head => rfl | tail _ h => ?_)); exact nomatch h

set_option maxRecDepth 8192 in
theorem opsL1_sub : (opsL1 : List (HloOp τ sig (Elt F))).Forall fun op => op.bufs ⊆ tcRefs τ sig :=
  ⟨nullary_bufs_sub .., binary_bufs_sub .., nullary_bufs_sub .., unary_bufs_sub .., binary_bufs_sub ..⟩
set_option maxRecDepth 8192 in
theorem opsL1_fresh : ∀ op ∈ (opsL1 : List (HloOp τ sig (Elt F))), op.fresh = ∅ := by
  intro _ h; (repeat (cases h with | head => rfl | tail _ h => ?_)); exact nomatch h

set_option maxRecDepth 8192 in
theorem opsL2_sub : (opsL2 : List (HloOp τ sig (Elt F))).Forall fun op => op.bufs ⊆ tcRefs τ sig :=
  ⟨unary_bufs_sub .., unary_bufs_sub .., binary_bufs_sub ..⟩
set_option maxRecDepth 8192 in
theorem opsL2_fresh : ∀ op ∈ (opsL2 : List (HloOp τ sig (Elt F))), op.fresh = ∅ := by
  intro _ h; (repeat (cases h with | head => rfl | tail _ h => ?_)); exact nomatch h

set_option maxRecDepth 8192 in
theorem opsL3_sub : (opsL3 : List (HloOp τ sig (Elt F))).Forall fun op => op.bufs ⊆ tcRefs τ sig :=
  ⟨unary_bufs_sub .., nullary_bufs_sub .., binary_bufs_sub ..⟩
set_option maxRecDepth 8192 in
theorem opsL3_fresh : ∀ op ∈ (opsL3 : List (HloOp τ sig (Elt F))), op.fresh = ∅ := by
  intro _ h; (repeat (cases h with | head => rfl | tail _ h => ?_)); exact nomatch h

set_option maxRecDepth 8192 in
theorem opsL4_sub : (opsL4 : List (HloOp τ sig (Elt F))).Forall fun op => op.bufs ⊆ tcRefs τ sig :=
  ⟨unary_bufs_sub .., unary_bufs_sub .., unary_bufs_sub .., binary_bufs_sub ..⟩
set_option maxRecDepth 8192 in
theorem opsL4_fresh : ∀ op ∈ (opsL4 : List (HloOp τ sig (Elt F))), op.fresh = ∅ := by
  intro _ h; (repeat (cases h with | head => rfl | tail _ h => ?_)); exact nomatch h

theorem win0_sub : (win0 : List (HloOp τ sig (Elt F))).Forall fun op => op.bufs ⊆ tcRefs τ sig := by
  unfold win0; exact forall_append opsA_sub (forall_append opsB_sub (opsC_sub))
theorem win0_fresh : ∀ op ∈ (win0 : List (HloOp τ sig (Elt F))), op.fresh = ∅ := by
  unfold win0; exact mem_append_of opsA_fresh (mem_append_of opsB_fresh (opsC_fresh))

theorem win1_sub : (win1 : List (HloOp τ sig (Elt F))).Forall fun op => op.bufs ⊆ tcRefs τ sig := by
  unfold win1; exact forall_append opsD_sub (forall_append opsE_sub (opsF1_sub))
theorem win1_fresh : ∀ op ∈ (win1 : List (HloOp τ sig (Elt F))), op.fresh = ∅ := by
  unfold win1; exact mem_append_of opsD_fresh (mem_append_of opsE_fresh (opsF1_fresh))

theorem win2_sub : (win2 : List (HloOp τ sig (Elt F))).Forall fun op => op.bufs ⊆ tcRefs τ sig := by
  unfold win2; exact forall_append opsF2_sub (forall_append opsG_sub (forall_append opsH_sub (opsI1_sub)))
theorem win2_fresh : ∀ op ∈ (win2 : List (HloOp τ sig (Elt F))), op.fresh = ∅ := by
  unfold win2; exact mem_append_of opsF2_fresh (mem_append_of opsG_fresh (mem_append_of opsH_fresh (opsI1_fresh)))

theorem win3_sub : (win3 : List (HloOp τ sig (Elt F))).Forall fun op => op.bufs ⊆ tcRefs τ sig := by
  unfold win3; exact forall_append opsI2_sub (forall_append opsJ_sub (forall_append opsK_sub (forall_append opsL1_sub (forall_append opsL2_sub (forall_append opsL3_sub (opsL4_sub))))))
theorem win3_fresh : ∀ op ∈ (win3 : List (HloOp τ sig (Elt F))), op.fresh = ∅ := by
  unfold win3; exact mem_append_of opsI2_fresh (mem_append_of opsJ_fresh (mem_append_of opsK_fresh (mem_append_of opsL1_fresh (mem_append_of opsL2_fresh (mem_append_of opsL3_fresh (opsL4_fresh))))))

theorem ops_sub : (ops : List (HloOp τ sig (Elt F))).Forall fun op => op.bufs ⊆ tcRefs τ sig := by
  unfold ops; exact forall_append win0_sub (forall_append win1_sub (forall_append win2_sub (win3_sub)))
theorem ops_fresh : ∀ op ∈ (ops : List (HloOp τ sig (Elt F))), op.fresh = ∅ := by
  unfold ops; exact mem_append_of win0_fresh (mem_append_of win1_fresh (mem_append_of win2_fresh (win3_fresh)))

abbrev opsA_W : List (Ref sig .tc) := [main_v0, main_v1, main_v2, main_v3, main_v4, main_v5, main_v6, main_v7, main_cst, main_v8, main_v9, main_cst_0, main_v10, main_v11, main_v12, main_cst_1, main_v13, main_v14, main_v15, main_cst_2, main_call0_v0, main_call0_v1, main_v16]
set_option maxRecDepth 8192 in
theorem opsA_writes : (opsA : List (HloOp τ sig (Elt F))).Forall fun op => op.writes ⊆ (opsA_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsB_W : List (Ref sig .tc) := [main_c, main_v17, main_v18, main_c_3, main_v19, main_v20, main_v21, main_v22, main_v23, main_v24, main_c_4, main_v25, main_v26, main_c_5, main_v27, main_v28, main_v29, main_v30, main_v31, main_v32]
set_option maxRecDepth 8192 in
theorem opsB_writes : (opsB : List (HloOp τ sig (Elt F))).Forall fun op => op.writes ⊆ (opsB_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsC_W : List (Ref sig .tc) := [main_v33, main_c_6, main_v34, main_v35, main_c_7, main_v36, main_v37, main_v38, main_v39, main_v40, main_v41, main_v42, main_cst_8, main_v43, main_v44, main_v45, main_v46, main_v47, main_v48]
set_option maxRecDepth 8192 in
theorem opsC_writes : (opsC : List (HloOp τ sig (Elt F))).Forall fun op => op.writes ⊆ (opsC_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsD_W : List (Ref sig .tc) := [main_cst_9, main_v49, main_cst_10, main_v50, main_v51, main_v52, main_v53, main_v54, main_v55, main_cst_11, main_v56, main_cst_12, main_v57, main_v58, main_v59, main_v60, main_v61, main_v62, main_v63, main_v64, main_cst_13, main_v65, main_v66, main_v67, main_v68, main_v69, main_v70, main_v71, main_v72, main_v73, main_call1_cst, main_call1_v0, main_v74]
set_option maxRecDepth 8192 in
theorem opsD_writes : (opsD : List (HloOp τ sig (Elt F))).Forall fun op => op.writes ⊆ (opsD_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsE_W : List (Ref sig .tc) := [main_v75, main_v76, main_v77, main_v78, main_cst_14, main_v79, main_v80, main_cst_15, main_v81, main_v82, main_v83, main_cst_16, main_v84, main_v85, main_v86, main_cst_17, main_call2_v0, main_call2_v1, main_v87]
set_option maxRecDepth 8192 in
theorem opsE_writes : (opsE : List (HloOp τ sig (Elt F))).Forall fun op => op.writes ⊆ (opsE_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsF1_W : List (Ref sig .tc) := [main_c_18, main_v88, main_v89, main_c_19, main_v90, main_v91, main_v92, main_v93, main_v94, main_v95, main_c_20, main_v96]
set_option maxRecDepth 8192 in
theorem opsF1_writes : (opsF1 : List (HloOp τ sig (Elt F))).Forall fun op => op.writes ⊆ (opsF1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsF2_W : List (Ref sig .tc) := [main_v97, main_c_21, main_v98, main_v99, main_v100, main_v101, main_v102, main_v103]
set_option maxRecDepth 8192 in
theorem opsF2_writes : (opsF2 : List (HloOp τ sig (Elt F))).Forall fun op => op.writes ⊆ (opsF2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsG_W : List (Ref sig .tc) := [main_v104, main_c_22, main_v105, main_v106, main_c_23, main_v107, main_v108, main_v109, main_v110, main_v111, main_v112, main_v113, main_cst_24, main_v114, main_v115, main_v116, main_v117, main_v118, main_v119]
set_option maxRecDepth 8192 in
theorem opsG_writes : (opsG : List (HloOp τ sig (Elt F))).Forall fun op => op.writes ⊆ (opsG_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsH_W : List (Ref sig .tc) := [main_cst_25, main_v120, main_cst_26, main_v121, main_v122, main_v123, main_v124, main_v125, main_v126, main_cst_27, main_v127, main_cst_28, main_v128, main_v129, main_v130, main_v131, main_v132, main_v133, main_v134, main_v135, main_cst_29, main_v136, main_v137, main_v138, main_v139, main_v140, main_v141, main_v142, main_v143, main_v144, main_call3_cst, main_call3_v0, main_v145]
set_option maxRecDepth 8192 in
theorem opsH_writes : (opsH : List (HloOp τ sig (Elt F))).Forall fun op => op.writes ⊆ (opsH_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsI1_W : List (Ref sig .tc) := [main_v146, main_v147]
set_option maxRecDepth 8192 in
theorem opsI1_writes : (opsI1 : List (HloOp τ sig (Elt F))).Forall fun op => op.writes ⊆ (opsI1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsI2_W : List (Ref sig .tc) := [main_v148, main_v149, main_cst_30, main_v150, main_v151, main_cst_31, main_v152, main_v153, main_v154, main_cst_32, main_v155, main_v156, main_v157, main_cst_33, main_call4_v0, main_call4_v1, main_v158]
set_option maxRecDepth 8192 in
theorem opsI2_writes : (opsI2 : List (HloOp τ sig (Elt F))).Forall fun op => op.writes ⊆ (opsI2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsJ_W : List (Ref sig .tc) := [main_c_34, main_v159, main_v160, main_c_35, main_v161, main_v162, main_v163, main_v164, main_v165, main_v166, main_c_36, main_v167, main_v168, main_c_37, main_v169, main_v170, main_v171, main_v172, main_v173, main_v174]
set_option maxRecDepth 8192 in
theorem opsJ_writes : (opsJ : List (HloOp τ sig (Elt F))).Forall fun op => op.writes ⊆ (opsJ_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsK_W : List (Ref sig .tc) := [main_v175, main_c_38, main_v176, main_v177, main_c_39, main_v178, main_v179, main_v180, main_v181, main_v182, main_v183, main_v184, main_cst_40, main_v185, main_v186, main_v187, main_v188, main_v189, main_v190]
set_option maxRecDepth 8192 in
theorem opsK_writes : (opsK : List (HloOp τ sig (Elt F))).Forall fun op => op.writes ⊆ (opsK_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsL1_W : List (Ref sig .tc) := [main_call5_cst, main_call5_v0, main_call5_cst_0, main_call5_v1, main_call5_v2]
set_option maxRecDepth 8192 in
theorem opsL1_writes : (opsL1 : List (HloOp τ sig (Elt F))).Forall fun op => op.writes ⊆ (opsL1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsL2_W : List (Ref sig .tc) := [main_call5_v3, main_call5_v4, main_call5_v5]
set_option maxRecDepth 8192 in
theorem opsL2_writes : (opsL2 : List (HloOp τ sig (Elt F))).Forall fun op => op.writes ⊆ (opsL2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsL3_W : List (Ref sig .tc) := [main_call5_v6, main_call5_cst_1, main_call5_v7]
set_option maxRecDepth 8192 in
theorem opsL3_writes : (opsL3 : List (HloOp τ sig (Elt F))).Forall fun op => op.writes ⊆ (opsL3_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

abbrev opsL4_W : List (Ref sig .tc) := [main_call5_v8, main_call5_v9, main_call5_v10, main_v191]
set_option maxRecDepth 8192 in
theorem opsL4_writes : (opsL4 : List (HloOp τ sig (Elt F))).Forall fun op => op.writes ⊆ (opsL4_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

end Cert.ReferenceIdeal.Hand

end
-- ==== Proof.Ref.Defs.lean ====
import proofs.«158427_j57105885167694_2_alg».proof.Proof.Gen.ReferenceIdeal

noncomputable section

namespace Cert.ReferenceIdeal.Hand

open Cert.ReferenceIdeal Cert.ReferenceIdeal.Facts₀ Cert.ReferenceIdeal.Facts Idealize.ShloMosaic

variable {F : FTy → Type} [FloatOps F]

def mmR (x : FVec F S50000x128 .f32) (w : FVec F S128x128 .f32) : FVec F S50000x128 .f32 :=
  Host.dotGeneral dot_S50000x128_S128x128_S50000x128_1_0_0_1_n_n none x w

def mmR40 (x : FVec F S50000x128 .f32) (w : FVec F S128x40 .f32) : FVec F S50000x40 .f32 :=
  Host.dotGeneral dot_S50000x128_S128x40_S50000x40_1_0_0_1_n_n none x w

def srcR (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

def dstR (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

def wtsR (ew : FVec F S800000 .f32) : FVec F S850000 .f32 :=
  concatenate S850000 0 [⟨S800000, ew⟩, ⟨S50000, broadcastInDim S50000 ![] bcast_S_S50000 (constant S_ .f32 0x3F800000#32)⟩] concatenates_S800000_S50000_S850000_d0

def degR (ei : IVec S2x800000 32) (ew : FVec F S800000 .f32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (dstR ei)) (wtsR ew)

def dinvR (ei : IVec S2x800000 32) (ew : FVec F S800000 .f32) : FVec F S50000 .f32 :=
  select (cmpf .ogt (degR ei ew) (broadcastInDim S50000 ![] bcast_S_S50000 (constant S_ .f32 0x00000000#32))) (Host.rsqrt (degR ei ew))
    (broadcastInDim S50000 ![] bcast_S_S50000 (id (constant S_ .f32 0x00000000#32)))

def wrapR (i : IVec S850000 32) : IVec S850000x1 32 :=
  broadcastInDim S850000x1 ![0] bcast_S850000_S850000x1_0
    (select (cmpi .slt i (broadcastInDim S850000 ![] bcast_S_S850000 (constantI S_ 32 0#32))) (addi i (broadcastInDim S850000 ![] bcast_S_S850000 (constantI S_ 32 50000#32))) i)

def coefR (ei : IVec S2x800000 32) (ew : FVec F S800000 .f32) : FVec F S850000 .f32 :=
  mulf (mulf (Host.gather gather_S50000_S850000x1_S850000_n_0_n_n_0_1_1 (dinvR ei ew) (wrapR (srcR ei))) (wtsR ew))
    (Host.gather gather_S50000_S850000x1_S850000_n_0_n_n_0_1_1 (dinvR ei ew) (wrapR (dstR ei)))

def aggR (ei : IVec S2x800000 32) (ew : FVec F S800000 .f32) (xw : FVec F S50000x128 .f32) : FVec F S50000x128 .f32 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 (dstR ei))
    (mulf (broadcastInDim S850000x128 ![0, 1] bcast_S850000x1_S850000x128_0_1 (broadcastInDim S850000x1 ![0] bcast_S850000_S850000x1_0 (coefR ei ew)))
      (Host.gather gather_S50000x128_S850000x1_S850000x128_1_0_n_n_0_1_1128 xw (wrapR (srcR ei))))

def aggR40 (ei : IVec S2x800000 32) (ew : FVec F S800000 .f32) (xw : FVec F S50000x40 .f32) : FVec F S50000x40 .f32 :=
  Host.scatterAdd scatter_S50000x40_S850000x1_S850000x40_1_0_0_1 (broadcastInDim S50000x40 ![] bcast_S_S50000x40 (constant S_ .f32 0x00000000#32))
    (broadcastInDim S850000x1 ![0] bcast_S850000_S850000x1_0 (dstR ei))
    (mulf (broadcastInDim S850000x40 ![0, 1] bcast_S850000x1_S850000x40_0_1 (broadcastInDim S850000x1 ![0] bcast_S850000_S850000x1_0 (coefR ei ew)))
      (Host.gather gather_S50000x40_S850000x1_S850000x40_1_0_n_n_0_1_140 xw (wrapR (srcR ei))))

def addRow (h : FVec F S50000x128 .f32) (b : FVec F S128 .f32) : FVec F S50000x128 .f32 :=
  addf h (broadcastInDim S50000x128 ![0, 1] bcast_S1x128_S50000x128_0_1 (broadcastInDim S1x128 ![1] bcast_S128_S1x128_1 b))

def addRow40 (h : FVec F S50000x40 .f32) (b : FVec F S40 .f32) : FVec F S50000x40 .f32 :=
  addf h (broadcastInDim S50000x40 ![0, 1] bcast_S1x40_S50000x40_0_1 (broadcastInDim S1x40 ![1] bcast_S40_S1x40_1 b))

def downR (v : FVec F S128 .f32) : FVec F S50000x128 .f32 :=
  broadcastInDim S50000x128 ![0, 1] bcast_S1x128_S50000x128_0_1 (broadcastInDim S1x128 ![1] bcast_S128_S1x128_1 v)

def meanR (h : FVec F S50000x128 .f32) : FVec F S128 .f32 :=
  Host.divf (Host.reduceAdd h (constant S_ .f32 0x00000000#32) reducesTo_S50000x128_S128_d0 h_S_) (broadcastInDim S128 ![] bcast_S_S128 (constant S_ .f32 0x47435000#32))

def varR (h : FVec F S50000x128 .f32) : FVec F S128 .f32 :=
  Host.divf (Host.reduceAdd (mulf (subf h (downR (meanR h))) (subf h (downR (meanR h)))) (constant S_ .f32 0x00000000#32) reducesTo_S50000x128_S128_d0 h_S_)
    (broadcastInDim S128 ![] bcast_S_S128 (constant S_ .f32 0x47435000#32))

def bnReluR (h : FVec F S50000x128 .f32) (g be : FVec F S128 .f32) : FVec F S50000x128 .f32 :=
  maximumf (addf (mulf (mulf (downR g) (subf h (downR (meanR h))))
      (downR (Host.rsqrt (addf (varR h) (broadcastInDim S128 ![] bcast_S_S128 (constant S_ .f32 0x3727C5AC#32)))))) (downR be))
    (broadcastInDim S50000x128 ![] bcast_S_S50000x128 (constant S_ .f32 0x00000000#32))

def rowMaxR (h : FVec F S50000x40 .f32) : FVec F S50000 .f32 :=
  maximumf (broadcastInDim S50000 ![] bcast_S_S50000 (constant S_ .f32 0xFF800000#32))
    (Host.reduce FloatOps.maximumf h (constant S_ .f32 0xFF800000#32) reducesTo_S50000x40_S50000_d1 h_S_)

def acrossR (v : FVec F S50000 .f32) : FVec F S50000x40 .f32 :=
  broadcastInDim S50000x40 ![0, 1] bcast_S50000x1_S50000x40_0_1 (broadcastInDim S50000x1 ![0] bcast_S50000_S50000x1_0 v)

def lsmR (h : FVec F S50000x40 .f32) : FVec F S50000x40 .f32 :=
  subf (subf h (acrossR (rowMaxR h)))
    (broadcastInDim S50000x40 ![0, 1] bcast_S50000x1_S50000x40_0_1
      (Host.log (broadcastInDim S50000x1 ![0] bcast_S50000_S50000x1_0
        (Host.reduceAdd (Host.exp (subf h (acrossR (rowMaxR h)))) (constant S_ .f32 0x00000000#32) reducesTo_S50000x40_S50000_d1 h_S_))))

def outR (x : FVec F S50000x128 .f32) (ei : IVec S2x800000 32) (ew : FVec F S800000 .f32)
    (w1 : FVec F S128x128 .f32) (b1 g1 be1 : FVec F S128 .f32) (w2 : FVec F S128x128 .f32) (b2 g2 be2 : FVec F S128 .f32)
    (w3 : FVec F S128x40 .f32) (b3 : FVec F S40 .f32) : FVec F S50000x40 .f32 :=
  lsmR (addRow40 (aggR40 ei ew (mmR40 (bnReluR (addRow (aggR ei ew (mmR (bnReluR (addRow (aggR ei ew (mmR x w1)) b1) g1 be1) w2)) b2) g2 be2) w3)) b3)

end Cert.ReferenceIdeal.Hand

end
-- ==== Proof.Ref.Lsm.lean ====
import proofs.«158427_j57105885167694_2_alg».proof.Proof.Ref.Ops
import proofs.«158427_j57105885167694_2_alg».proof.Proof.Ref.Defs

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

section
variable (V : Valuation τ sig (Elt F))

theorem ofBuf_toBuf {T : BufTy} (x : TRef sig T) (v : T.Contents (Elt F)) : x.ofBuf (x.toBuf v) = v := by
  simp [TRef.ofBuf, TRef.toBuf]

theorem ofBuf_v190 : ∀ p q s X, (TRef.of (sig := sig) (T := ⟨S50000x40, .f32⟩) main_v190 p q s).ofBuf (Val := Elt F) X = X := fun _ _ _ _ => rfl
theorem ofBuf_c5v2 : ∀ p q s X, (TRef.of (sig := sig) (T := ⟨S50000, .f32⟩) main_call5_v2 p q s).ofBuf (Val := Elt F) X = X := fun _ _ _ _ => rfl
theorem ofBuf_c5v5 : ∀ p q s X, (TRef.of (sig := sig) (T := ⟨S50000x40, .f32⟩) main_call5_v5 p q s).ofBuf (Val := Elt F) X = X := fun _ _ _ _ => rfl
theorem ofBuf_c5v7 : ∀ p q s X, (TRef.of (sig := sig) (T := ⟨S50000, .f32⟩) main_call5_v7 p q s).ofBuf (Val := Elt F) X = X := fun _ _ _ _ => rfl
theorem toBuf_c5v2 : ∀ p q s X, (TRef.of (sig := sig) (T := ⟨S50000, .f32⟩) main_call5_v2 p q s).toBuf (Val := Elt F) X = X := fun _ _ _ _ => rfl
theorem toBuf_c5v5 : ∀ p q s X, (TRef.of (sig := sig) (T := ⟨S50000x40, .f32⟩) main_call5_v5 p q s).toBuf (Val := Elt F) X = X := fun _ _ _ _ => rfl
theorem toBuf_c5v7 : ∀ p q s X, (TRef.of (sig := sig) (T := ⟨S50000, .f32⟩) main_call5_v7 p q s).toBuf (Val := Elt F) X = X := fun _ _ _ _ => rfl
theorem toBuf_v191 : ∀ p q s X, (TRef.of (sig := sig) (T := ⟨S50000x40, .f32⟩) main_v191 p q s).toBuf (Val := Elt F) X = X := fun _ _ _ _ => rfl

theorem rawL1 : after opsL1 V (Proc.devRef .tc main_call5_v2) = rowMaxR (V (Proc.devRef .tc main_v190)) := by
  after_results_simp
  repeat rw [ofBuf_toBuf]
  rw [ofBuf_v190]
  refine (toBuf_c5v2 _ _ _ _).trans ?_
  rfl
theorem rawL1_keep : after opsL1 V (Proc.devRef .tc main_v190) = V (Proc.devRef .tc main_v190) := by
  after_results_simp

theorem rawL2 : after opsL2 V (Proc.devRef .tc main_call5_v5)
    = subf (V (Proc.devRef .tc main_v190) : FVec F S50000x40 .f32) (acrossR (V (Proc.devRef .tc main_call5_v2))) := by
  after_results_simp
  repeat rw [ofBuf_toBuf]
  rw [ofBuf_v190, ofBuf_c5v2]
  refine (toBuf_c5v5 _ _ _ _).trans ?_
  rfl

theorem rawL3 : after opsL3 V (Proc.devRef .tc main_call5_v7)
    = Host.reduceAdd (Host.exp (V (Proc.devRef .tc main_call5_v5) : FVec F S50000x40 .f32)) (constant S_ .f32 0x00000000#32) reducesTo_S50000x40_S50000_d1 h_S_ := by
  after_results_simp
  repeat rw [ofBuf_toBuf]
  rw [ofBuf_c5v5]
  refine (toBuf_c5v7 _ _ _ _).trans ?_
  rfl
theorem rawL3_keep : after opsL3 V (Proc.devRef .tc main_call5_v5) = V (Proc.devRef .tc main_call5_v5) := by
  after_results_simp

theorem rawL4 : after opsL4 V (Proc.devRef .tc main_v191)
    = subf (V (Proc.devRef .tc main_call5_v5) : FVec F S50000x40 .f32)
        (broadcastInDim S50000x40 ![0, 1] bcast_S50000x1_S50000x40_0_1
          (Host.log (broadcastInDim S50000x1 ![0] bcast_S50000_S50000x1_0 (V (Proc.devRef .tc main_call5_v7) : FVec F S50000 .f32)))) := by
  after_results_simp
  repeat rw [ofBuf_toBuf]
  rw [ofBuf_c5v5, ofBuf_c5v7]
  refine (toBuf_v191 _ _ _ _).trans ?_
  rfl

theorem lsm_after : after opsL4 (after opsL3 (after opsL2 (after opsL1 V))) (Proc.devRef .tc main_v191)
    = lsmR (V (Proc.devRef .tc main_v190)) := by
  rw [rawL4, rawL3, rawL3_keep, rawL2, rawL1, rawL1_keep]
  rfl
end

end Cert.ReferenceIdeal.Hand

end
-- ==== Proof.Ref.Vals.lean ====
import proofs.«158427_j57105885167694_2_alg».proof.Proof.Ref.Ops
import proofs.«158427_j57105885167694_2_alg».proof.Proof.Ref.Defs
import proofs.«158427_j57105885167694_2_alg».proof.Proof.Ref.Lsm
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

def rowR0 (ei : IVec S2x800000 32) : IVec S800000 32 :=
  shapeCast S800000 (extractStridedSlice S1x800000 ![0, 0] ei slices_S2x800000_S1x800000_0_0) shapeCasts_S1x800000_S800000

def rowR1 (ei : IVec S2x800000 32) : IVec S800000 32 :=
  shapeCast S800000 (extractStridedSlice S1x800000 ![1, 0] ei slices_S2x800000_S1x800000_1_0) shapeCasts_S1x800000_S800000

def hid1 (V0 : Valuation τ sig (Elt F)) : FVec F S50000x128 .f32 := addRow (aggR (V0 (Proc.devRef .tc main_arg1)) (V0 (Proc.devRef .tc main_arg2)) (mmR (V0 (Proc.devRef .tc main_arg0)) (V0 (Proc.devRef .tc main_arg3)))) (V0 (Proc.devRef .tc main_arg4))

def act1 (V0 : Valuation τ sig (Elt F)) : FVec F S50000x128 .f32 := bnReluR (hid1 V0) (V0 (Proc.devRef .tc main_arg5)) (V0 (Proc.devRef .tc main_arg6))

def hid2 (V0 : Valuation τ sig (Elt F)) : FVec F S50000x128 .f32 := addRow (aggR (V0 (Proc.devRef .tc main_arg1)) (V0 (Proc.devRef .tc main_arg2)) (mmR (act1 V0) (V0 (Proc.devRef .tc main_arg7)))) (V0 (Proc.devRef .tc main_arg8))

def act2 (V0 : Valuation τ sig (Elt F)) : FVec F S50000x128 .f32 := bnReluR (hid2 V0) (V0 (Proc.devRef .tc main_arg9)) (V0 (Proc.devRef .tc main_arg10))

def hid3 (V0 : Valuation τ sig (Elt F)) : FVec F S50000x40 .f32 := addRow40 (aggR40 (V0 (Proc.devRef .tc main_arg1)) (V0 (Proc.devRef .tc main_arg2)) (mmR40 (act2 V0) (V0 (Proc.devRef .tc main_arg11)))) (V0 (Proc.devRef .tc main_arg12))

abbrev argRefs : List (Ref sig .tc) := [main_arg0, main_arg1, main_arg2, main_arg3, main_arg4, main_arg5, main_arg6, main_arg7, main_arg8, main_arg9, main_arg10, main_arg11, main_arg12]

def val0 (V0 : Valuation τ sig (Elt F)) : Valuation τ sig (Elt F) := V0
theorem val0_arg (V0 : Valuation τ sig (Elt F)) (r : Ref sig .tc) (h : r ∈ argRefs := by decide) : val0 V0 (no_index (Proc.devRef .tc r)) = V0 (Proc.devRef .tc r) :=
  rfl

def val1 (V0 : Valuation τ sig (Elt F)) : Valuation τ sig (Elt F) := after opsA (val0 V0)

theorem val1_keep (V0 : Valuation τ sig (Elt F)) (r : Ref sig .tc) (h0 : r ∉ opsA_W) :
    val1 V0 (Proc.devRef .tc r) = val0 V0 (Proc.devRef .tc r) :=
  after_of_writes_sub opsA _ opsA_writes h0
theorem val1_arg (V0 : Valuation τ sig (Elt F)) (r : Ref sig .tc) (h : r ∈ argRefs := by decide) : val1 V0 (no_index (Proc.devRef .tc r)) = V0 (Proc.devRef .tc r) :=
  (val1_keep V0 r (by revert r; decide)).trans (val0_arg V0 r h)
set_option maxRecDepth 8192 in
set_option maxHeartbeats 2000000 in
theorem val1_main_v1 (V0 : Valuation τ sig (Elt F)) : val1 V0 (no_index (Proc.devRef .tc main_v1)) = rowR0 (V0 (Proc.devRef .tc main_arg1)) := by
  unfold val1
  simp only [opsA]
  after_results_simp
  skip
  (try simp only [val0_arg _ main_arg1])
  rfl
set_option maxRecDepth 8192 in
set_option maxHeartbeats 2000000 in
theorem val1_main_v3 (V0 : Valuation τ sig (Elt F)) : val1 V0 (no_index (Proc.devRef .tc main_v3)) = rowR1 (V0 (Proc.devRef .tc main_arg1)) := by
  unfold val1
  simp only [opsA]
  after_results_simp
  skip
  (try simp only [val0_arg _ main_arg1])
  rfl
set_option maxRecDepth 8192 in
set_option maxHeartbeats 2000000 in
theorem val1_main_v4 (V0 : Valuation τ sig (Elt F)) : val1 V0 (no_index (Proc.devRef .tc main_v4)) = mmR (V0 (Proc.devRef .tc main_arg0)) (V0 (Proc.devRef .tc main_arg3)) := by
  unfold val1
  simp only [opsA]
  after_results_simp
  skip
  (try simp only [val0_arg _ main_arg3, val0_arg _ main_arg0])
  rfl
set_option maxRecDepth 8192 in
set_option maxHeartbeats 2000000 in
theorem val1_main_v6 (V0 : Valuation τ sig (Elt F)) : val1 V0 (no_index (Proc.devRef .tc main_v6)) = srcR (V0 (Proc.devRef .tc main_arg1)) := by
  unfold val1
  simp only [opsA]
  after_results_simp
  skip
  results_rw
  skip
  (try simp only [val0_arg _ main_arg1])
  (try rw [val0_arg _ main_arg1])
  rfl
set_option maxRecDepth 8192 in
set_option maxHeartbeats 2000000 in
theorem val1_main_v7 (V0 : Valuation τ sig (Elt F)) : val1 V0 (no_index (Proc.devRef .tc main_v7)) = dstR (V0 (Proc.devRef .tc main_arg1)) := by
  unfold val1
  simp only [opsA]
  after_results_simp
  skip
  results_rw
  skip
  (try simp only [val0_arg _ main_arg1])
  (try rw [val0_arg _ main_arg1])
  rfl
set_option maxRecDepth 8192 in
set_option maxHeartbeats 2000000 in
theorem val1_main_v9 (V0 : Valuation τ sig (Elt F)) : val1 V0 (no_index (Proc.devRef .tc main_v9)) = wtsR (V0 (Proc.devRef .tc main_arg2)) := by
  unfold val1
  simp only [opsA]
  after_results_simp
  skip
  results_rw
  skip
  (try simp only [val0_arg _ main_arg2])
  (try rw [val0_arg _ main_arg2])
  rfl
set_option maxRecDepth 8192 in
set_option maxHeartbeats 2000000 in
theorem val1_main_v16 (V0 : Valuation τ sig (Elt F)) : val1 V0 (no_index (Proc.devRef .tc main_v16)) = dinvR (V0 (Proc.devRef .tc main_arg1)) (V0 (Proc.devRef .tc main_arg2)) := by
  unfold val1
  simp only [opsA]
  after_results_simp
  skip
  results_rw
  skip
  (try simp only [val0_arg _ main_arg2, val0_arg _ main_arg1])
  (try rw [val0_arg _ main_arg2])
  (try rw [val0_arg _ main_arg1])
  rfl

def val2 (V0 : Valuation τ sig (Elt F)) : Valuation τ sig (Elt F) := after opsB (val1 V0)

theorem val2_keep (V0 : Valuation τ sig (Elt F)) (r : Ref sig .tc) (h0 : r ∉ opsB_W) :
    val2 V0 (Proc.devRef .tc r) = val1 V0 (Proc.devRef .tc r) :=
  after_of_writes_sub opsB _ opsB_writes h0
theorem val2_arg (V0 : Valuation τ sig (Elt F)) (r : Ref sig .tc) (h : r ∈ argRefs := by decide) : val2 V0 (no_index (Proc.devRef .tc r)) = V0 (Proc.devRef .tc r) :=
  (val2_keep V0 r (by revert r; decide)).trans (val1_arg V0 r h)
theorem val2_main_v1 (V0 : Valuation τ sig (Elt F)) : val2 V0 (no_index (Proc.devRef .tc main_v1)) = rowR0 (V0 (Proc.devRef .tc main_arg1)) :=
  (val2_keep V0 main_v1 (by decide)).trans (val1_main_v1 V0)
theorem val2_main_v3 (V0 : Valuation τ sig (Elt F)) : val2 V0 (no_index (Proc.devRef .tc main_v3)) = rowR1 (V0 (Proc.devRef .tc main_arg1)) :=
  (val2_keep V0 main_v3 (by decide)).trans (val1_main_v3 V0)
theorem val2_main_v4 (V0 : Valuation τ sig (Elt F)) : val2 V0 (no_index (Proc.devRef .tc main_v4)) = mmR (V0 (Proc.devRef .tc main_arg0)) (V0 (Proc.devRef .tc main_arg3)) :=
  (val2_keep V0 main_v4 (by decide)).trans (val1_main_v4 V0)
theorem val2_main_v6 (V0 : Valuation τ sig (Elt F)) : val2 V0 (no_index (Proc.devRef .tc main_v6)) = srcR (V0 (Proc.devRef .tc main_arg1)) :=
  (val2_keep V0 main_v6 (by decide)).trans (val1_main_v6 V0)
theorem val2_main_v7 (V0 : Valuation τ sig (Elt F)) : val2 V0 (no_index (Proc.devRef .tc main_v7)) = dstR (V0 (Proc.devRef .tc main_arg1)) :=
  (val2_keep V0 main_v7 (by decide)).trans (val1_main_v7 V0)
set_option maxRecDepth 8192 in
set_option maxHeartbeats 2000000 in
theorem val2_main_v32 (V0 : Valuation τ sig (Elt F)) : val2 V0 (no_index (Proc.devRef .tc main_v32)) = coefR (V0 (Proc.devRef .tc main_arg1)) (V0 (Proc.devRef .tc main_arg2)) := by
  unfold val2
  simp only [opsB]
  after_results_simp
  skip
  (try simp only [val1_main_v7, val1_main_v16, val1_main_v9, val1_main_v6])
  rfl

def val3 (V0 : Valuation τ sig (Elt F)) : Valuation τ sig (Elt F) := after opsC (val2 V0)

theorem val3_keep (V0 : Valuation τ sig (Elt F)) (r : Ref sig .tc) (h0 : r ∉ opsC_W) :
    val3 V0 (Proc.devRef .tc r) = val2 V0 (Proc.devRef .tc r) :=
  after_of_writes_sub opsC _ opsC_writes h0
theorem val3_arg (V0 : Valuation τ sig (Elt F)) (r : Ref sig .tc) (h : r ∈ argRefs := by decide) : val3 V0 (no_index (Proc.devRef .tc r)) = V0 (Proc.devRef .tc r) :=
  (val3_keep V0 r (by revert r; decide)).trans (val2_arg V0 r h)
theorem val3_main_v1 (V0 : Valuation τ sig (Elt F)) : val3 V0 (no_index (Proc.devRef .tc main_v1)) = rowR0 (V0 (Proc.devRef .tc main_arg1)) :=
  (val3_keep V0 main_v1 (by decide)).trans (val2_main_v1 V0)
theorem val3_main_v3 (V0 : Valuation τ sig (Elt F)) : val3 V0 (no_index (Proc.devRef .tc main_v3)) = rowR1 (V0 (Proc.devRef .tc main_arg1)) :=
  (val3_keep V0 main_v3 (by decide)).trans (val2_main_v3 V0)
set_option maxRecDepth 8192 in
set_option maxHeartbeats 2000000 in
theorem val3_main_v48 (V0 : Valuation τ sig (Elt F)) : val3 V0 (no_index (Proc.devRef .tc main_v48)) = hid1 V0 := by
  unfold val3
  simp only [opsC]
  after_results_simp
  skip
  (try simp only [val2_arg _ main_arg4, val2_main_v6, val2_main_v4, val2_main_v32, val2_main_v7])
  rfl

def val4 (V0 : Valuation τ sig (Elt F)) : Valuation τ sig (Elt F) := after opsD (val3 V0)

theorem val4_keep (V0 : Valuation τ sig (Elt F)) (r : Ref sig .tc) (h0 : r ∉ opsD_W) :
    val4 V0 (Proc.devRef .tc r) = val3 V0 (Proc.devRef .tc r) :=
  after_of_writes_sub opsD _ opsD_writes h0
theorem val4_arg (V0 : Valuation τ sig (Elt F)) (r : Ref sig .tc) (h : r ∈ argRefs := by decide) : val4 V0 (no_index (Proc.devRef .tc r)) = V0 (Proc.devRef .tc r) :=
  (val4_keep V0 r (by revert r; decide)).trans (val3_arg V0 r h)
theorem val4_main_v1 (V0 : Valuation τ sig (Elt F)) : val4 V0 (no_index (Proc.devRef .tc main_v1)) = rowR0 (V0 (Proc.devRef .tc main_arg1)) :=
  (val4_keep V0 main_v1 (by decide)).trans (val3_main_v1 V0)
theorem val4_main_v3 (V0 : Valuation τ sig (Elt F)) : val4 V0 (no_index (Proc.devRef .tc main_v3)) = rowR1 (V0 (Proc.devRef .tc main_arg1)) :=
  (val4_keep V0 main_v3 (by decide)).trans (val3_main_v3 V0)
set_option maxRecDepth 8192 in
set_option maxHeartbeats 2000000 in
theorem val4_main_v74 (V0 : Valuation τ sig (Elt F)) : val4 V0 (no_index (Proc.devRef .tc main_v74)) = act1 V0 := by
  unfold val4
  simp only [opsD]
  after_results_simp
  skip
  (try simp only [val3_arg _ main_arg6, val3_main_v48, val3_arg _ main_arg5])
  rfl

def val5 (V0 : Valuation τ sig (Elt F)) : Valuation τ sig (Elt F) := after opsE (val4 V0)

theorem val5_keep (V0 : Valuation τ sig (Elt F)) (r : Ref sig .tc) (h0 : r ∉ opsE_W) :
    val5 V0 (Proc.devRef .tc r) = val4 V0 (Proc.devRef .tc r) :=
  after_of_writes_sub opsE _ opsE_writes h0
theorem val5_arg (V0 : Valuation τ sig (Elt F)) (r : Ref sig .tc) (h : r ∈ argRefs := by decide) : val5 V0 (no_index (Proc.devRef .tc r)) = V0 (Proc.devRef .tc r) :=
  (val5_keep V0 r (by revert r; decide)).trans (val4_arg V0 r h)
theorem val5_main_v1 (V0 : Valuation τ sig (Elt F)) : val5 V0 (no_index (Proc.devRef .tc main_v1)) = rowR0 (V0 (Proc.devRef .tc main_arg1)) :=
  (val5_keep V0 main_v1 (by decide)).trans (val4_main_v1 V0)
theorem val5_main_v3 (V0 : Valuation τ sig (Elt F)) : val5 V0 (no_index (Proc.devRef .tc main_v3)) = rowR1 (V0 (Proc.devRef .tc main_arg1)) :=
  (val5_keep V0 main_v3 (by decide)).trans (val4_main_v3 V0)
set_option maxRecDepth 8192 in
set_option maxHeartbeats 2000000 in
theorem val5_main_v75 (V0 : Valuation τ sig (Elt F)) : val5 V0 (no_index (Proc.devRef .tc main_v75)) = mmR (act1 V0) (V0 (Proc.devRef .tc main_arg7)) := by
  unfold val5
  simp only [opsE]
  after_results_simp
  skip
  (try simp only [val4_arg _ main_arg7, val4_main_v74])
  rfl
set_option maxRecDepth 8192 in
set_option maxHeartbeats 2000000 in
theorem val5_main_v77 (V0 : Valuation τ sig (Elt F)) : val5 V0 (no_index (Proc.devRef .tc main_v77)) = srcR (V0 (Proc.devRef .tc main_arg1)) := by
  unfold val5
  simp only [opsE]
  after_results_simp
  skip
  results_rw
  skip
  (try simp only [val4_main_v1])
  (try rw [val4_main_v1])
  rfl
set_option maxRecDepth 8192 in
set_option maxHeartbeats 2000000 in
theorem val5_main_v78 (V0 : Valuation τ sig (Elt F)) : val5 V0 (no_index (Proc.devRef .tc main_v78)) = dstR (V0 (Proc.devRef .tc main_arg1)) := by
  unfold val5
  simp only [opsE]
  after_results_simp
  skip
  results_rw
  skip
  (try simp only [val4_main_v3])
  (try rw [val4_main_v3])
  rfl
set_option maxRecDepth 8192 in
set_option maxHeartbeats 2000000 in
theorem val5_main_v80 (V0 : Valuation τ sig (Elt F)) : val5 V0 (no_index (Proc.devRef .tc main_v80)) = wtsR (V0 (Proc.devRef .tc main_arg2)) := by
  unfold val5
  simp only [opsE]
  after_results_simp
  skip
  results_rw
  skip
  (try simp only [val4_arg _ main_arg2])
  (try rw [val4_arg _ main_arg2])
  rfl
set_option maxRecDepth 8192 in
set_option maxHeartbeats 2000000 in
theorem val5_main_v87 (V0 : Valuation τ sig (Elt F)) : val5 V0 (no_index (Proc.devRef .tc main_v87)) = dinvR (V0 (Proc.devRef .tc main_arg1)) (V0 (Proc.devRef .tc main_arg2)) := by
  unfold val5
  simp only [opsE]
  after_results_simp
  skip
  results_rw
  skip
  (try simp only [val4_arg _ main_arg2, val4_main_v3])
  (try rw [val4_arg _ main_arg2])
  (try rw [val4_main_v3])
  rfl

def val6 (V0 : Valuation τ sig (Elt F)) : Valuation τ sig (Elt F) := after opsF2 (after opsF1 (val5 V0))

theorem val6_keep (V0 : Valuation τ sig (Elt F)) (r : Ref sig .tc) (h0 : r ∉ opsF1_W) (h1 : r ∉ opsF2_W) :
    val6 V0 (Proc.devRef .tc r) = val5 V0 (Proc.devRef .tc r) :=
  (after_of_writes_sub opsF2 _ opsF2_writes h1).trans (after_of_writes_sub opsF1 _ opsF1_writes h0)
theorem val6_arg (V0 : Valuation τ sig (Elt F)) (r : Ref sig .tc) (h : r ∈ argRefs := by decide) : val6 V0 (no_index (Proc.devRef .tc r)) = V0 (Proc.devRef .tc r) :=
  (val6_keep V0 r (by revert r; decide) (by revert r; decide)).trans (val5_arg V0 r h)
theorem val6_main_v1 (V0 : Valuation τ sig (Elt F)) : val6 V0 (no_index (Proc.devRef .tc main_v1)) = rowR0 (V0 (Proc.devRef .tc main_arg1)) :=
  (val6_keep V0 main_v1 (by decide) (by decide)).trans (val5_main_v1 V0)
theorem val6_main_v3 (V0 : Valuation τ sig (Elt F)) : val6 V0 (no_index (Proc.devRef .tc main_v3)) = rowR1 (V0 (Proc.devRef .tc main_arg1)) :=
  (val6_keep V0 main_v3 (by decide) (by decide)).trans (val5_main_v3 V0)
theorem val6_main_v75 (V0 : Valuation τ sig (Elt F)) : val6 V0 (no_index (Proc.devRef .tc main_v75)) = mmR (act1 V0) (V0 (Proc.devRef .tc main_arg7)) :=
  (val6_keep V0 main_v75 (by decide) (by decide)).trans (val5_main_v75 V0)
theorem val6_main_v77 (V0 : Valuation τ sig (Elt F)) : val6 V0 (no_index (Proc.devRef .tc main_v77)) = srcR (V0 (Proc.devRef .tc main_arg1)) :=
  (val6_keep V0 main_v77 (by decide) (by decide)).trans (val5_main_v77 V0)
theorem val6_main_v78 (V0 : Valuation τ sig (Elt F)) : val6 V0 (no_index (Proc.devRef .tc main_v78)) = dstR (V0 (Proc.devRef .tc main_arg1)) :=
  (val6_keep V0 main_v78 (by decide) (by decide)).trans (val5_main_v78 V0)
set_option maxRecDepth 8192 in
set_option maxHeartbeats 2000000 in
theorem val6_main_v103 (V0 : Valuation τ sig (Elt F)) : val6 V0 (no_index (Proc.devRef .tc main_v103)) = coefR (V0 (Proc.devRef .tc main_arg1)) (V0 (Proc.devRef .tc main_arg2)) := by
  unfold val6
  simp only [opsF1, opsF2]
  after_results_simp
  skip
  (try simp only [val5_main_v78, val5_main_v87, val5_main_v80, val5_main_v77])
  rfl

def val7 (V0 : Valuation τ sig (Elt F)) : Valuation τ sig (Elt F) := after opsG (val6 V0)

theorem val7_keep (V0 : Valuation τ sig (Elt F)) (r : Ref sig .tc) (h0 : r ∉ opsG_W) :
    val7 V0 (Proc.devRef .tc r) = val6 V0 (Proc.devRef .tc r) :=
  after_of_writes_sub opsG _ opsG_writes h0
theorem val7_arg (V0 : Valuation τ sig (Elt F)) (r : Ref sig .tc) (h : r ∈ argRefs := by decide) : val7 V0 (no_index (Proc.devRef .tc r)) = V0 (Proc.devRef .tc r) :=
  (val7_keep V0 r (by revert r; decide)).trans (val6_arg V0 r h)
theorem val7_main_v1 (V0 : Valuation τ sig (Elt F)) : val7 V0 (no_index (Proc.devRef .tc main_v1)) = rowR0 (V0 (Proc.devRef .tc main_arg1)) :=
  (val7_keep V0 main_v1 (by decide)).trans (val6_main_v1 V0)
theorem val7_main_v3 (V0 : Valuation τ sig (Elt F)) : val7 V0 (no_index (Proc.devRef .tc main_v3)) = rowR1 (V0 (Proc.devRef .tc main_arg1)) :=
  (val7_keep V0 main_v3 (by decide)).trans (val6_main_v3 V0)
set_option maxRecDepth 8192 in
set_option maxHeartbeats 2000000 in
theorem val7_main_v119 (V0 : Valuation τ sig (Elt F)) : val7 V0 (no_index (Proc.devRef .tc main_v119)) = hid2 V0 := by
  unfold val7
  simp only [opsG]
  after_results_simp
  skip
  (try simp only [val6_arg _ main_arg8, val6_main_v77, val6_main_v75, val6_main_v103, val6_main_v78])
  rfl

def val8 (V0 : Valuation τ sig (Elt F)) : Valuation τ sig (Elt F) := after opsH (val7 V0)

theorem val8_keep (V0 : Valuation τ sig (Elt F)) (r : Ref sig .tc) (h0 : r ∉ opsH_W) :
    val8 V0 (Proc.devRef .tc r) = val7 V0 (Proc.devRef .tc r) :=
  after_of_writes_sub opsH _ opsH_writes h0
theorem val8_arg (V0 : Valuation τ sig (Elt F)) (r : Ref sig .tc) (h : r ∈ argRefs := by decide) : val8 V0 (no_index (Proc.devRef .tc r)) = V0 (Proc.devRef .tc r) :=
  (val8_keep V0 r (by revert r; decide)).trans (val7_arg V0 r h)
theorem val8_main_v1 (V0 : Valuation τ sig (Elt F)) : val8 V0 (no_index (Proc.devRef .tc main_v1)) = rowR0 (V0 (Proc.devRef .tc main_arg1)) :=
  (val8_keep V0 main_v1 (by decide)).trans (val7_main_v1 V0)
theorem val8_main_v3 (V0 : Valuation τ sig (Elt F)) : val8 V0 (no_index (Proc.devRef .tc main_v3)) = rowR1 (V0 (Proc.devRef .tc main_arg1)) :=
  (val8_keep V0 main_v3 (by decide)).trans (val7_main_v3 V0)
set_option maxRecDepth 8192 in
set_option maxHeartbeats 2000000 in
theorem val8_main_v145 (V0 : Valuation τ sig (Elt F)) : val8 V0 (no_index (Proc.devRef .tc main_v145)) = act2 V0 := by
  unfold val8
  simp only [opsH]
  after_results_simp
  skip
  (try simp only [val7_arg _ main_arg10, val7_main_v119, val7_arg _ main_arg9])
  rfl

def val9 (V0 : Valuation τ sig (Elt F)) : Valuation τ sig (Elt F) := after opsI2 (after opsI1 (val8 V0))

theorem val9_keep (V0 : Valuation τ sig (Elt F)) (r : Ref sig .tc) (h0 : r ∉ opsI1_W) (h1 : r ∉ opsI2_W) :
    val9 V0 (Proc.devRef .tc r) = val8 V0 (Proc.devRef .tc r) :=
  (after_of_writes_sub opsI2 _ opsI2_writes h1).trans (after_of_writes_sub opsI1 _ opsI1_writes h0)
theorem val9_arg (V0 : Valuation τ sig (Elt F)) (r : Ref sig .tc) (h : r ∈ argRefs := by decide) : val9 V0 (no_index (Proc.devRef .tc r)) = V0 (Proc.devRef .tc r) :=
  (val9_keep V0 r (by revert r; decide) (by revert r; decide)).trans (val8_arg V0 r h)
set_option maxRecDepth 8192 in
set_option maxHeartbeats 2000000 in
theorem val9_main_v146 (V0 : Valuation τ sig (Elt F)) : val9 V0 (no_index (Proc.devRef .tc main_v146)) = mmR40 (act2 V0) (V0 (Proc.devRef .tc main_arg11)) := by
  unfold val9
  simp only [opsI1, opsI2]
  after_results_simp
  skip
  (try simp only [val8_arg _ main_arg11, val8_main_v145])
  rfl
set_option maxRecDepth 8192 in
set_option maxHeartbeats 2000000 in
theorem val9_main_v148 (V0 : Valuation τ sig (Elt F)) : val9 V0 (no_index (Proc.devRef .tc main_v148)) = srcR (V0 (Proc.devRef .tc main_arg1)) := by
  unfold val9
  simp only [opsI1, opsI2]
  after_results_simp
  skip
  results_rw
  skip
  (try simp only [val8_main_v1])
  (try rw [val8_main_v1])
  rfl
set_option maxRecDepth 8192 in
set_option maxHeartbeats 2000000 in
theorem val9_main_v149 (V0 : Valuation τ sig (Elt F)) : val9 V0 (no_index (Proc.devRef .tc main_v149)) = dstR (V0 (Proc.devRef .tc main_arg1)) := by
  unfold val9
  simp only [opsI1, opsI2]
  after_results_simp
  skip
  results_rw
  skip
  (try simp only [val8_main_v3])
  (try rw [val8_main_v3])
  rfl
set_option maxRecDepth 8192 in
set_option maxHeartbeats 2000000 in
theorem val9_main_v151 (V0 : Valuation τ sig (Elt F)) : val9 V0 (no_index (Proc.devRef .tc main_v151)) = wtsR (V0 (Proc.devRef .tc main_arg2)) := by
  unfold val9
  simp only [opsI1, opsI2]
  after_results_simp
  skip
  results_rw
  skip
  (try simp only [val8_arg _ main_arg2])
  (try rw [val8_arg _ main_arg2])
  rfl
set_option maxRecDepth 8192 in
set_option maxHeartbeats 2000000 in
theorem val9_main_v158 (V0 : Valuation τ sig (Elt F)) : val9 V0 (no_index (Proc.devRef .tc main_v158)) = dinvR (V0 (Proc.devRef .tc main_arg1)) (V0 (Proc.devRef .tc main_arg2)) := by
  unfold val9
  simp only [opsI1, opsI2]
  after_results_simp
  skip
  results_rw
  skip
  (try simp only [val8_arg _ main_arg2, val8_main_v3])
  (try rw [val8_arg _ main_arg2])
  (try rw [val8_main_v3])
  rfl

def val10 (V0 : Valuation τ sig (Elt F)) : Valuation τ sig (Elt F) := after opsJ (val9 V0)

theorem val10_keep (V0 : Valuation τ sig (Elt F)) (r : Ref sig .tc) (h0 : r ∉ opsJ_W) :
    val10 V0 (Proc.devRef .tc r) = val9 V0 (Proc.devRef .tc r) :=
  after_of_writes_sub opsJ _ opsJ_writes h0
theorem val10_arg (V0 : Valuation τ sig (Elt F)) (r : Ref sig .tc) (h : r ∈ argRefs := by decide) : val10 V0 (no_index (Proc.devRef .tc r)) = V0 (Proc.devRef .tc r) :=
  (val10_keep V0 r (by revert r; decide)).trans (val9_arg V0 r h)
theorem val10_main_v146 (V0 : Valuation τ sig (Elt F)) : val10 V0 (no_index (Proc.devRef .tc main_v146)) = mmR40 (act2 V0) (V0 (Proc.devRef .tc main_arg11)) :=
  (val10_keep V0 main_v146 (by decide)).trans (val9_main_v146 V0)
theorem val10_main_v148 (V0 : Valuation τ sig (Elt F)) : val10 V0 (no_index (Proc.devRef .tc main_v148)) = srcR (V0 (Proc.devRef .tc main_arg1)) :=
  (val10_keep V0 main_v148 (by decide)).trans (val9_main_v148 V0)
theorem val10_main_v149 (V0 : Valuation τ sig (Elt F)) : val10 V0 (no_index (Proc.devRef .tc main_v149)) = dstR (V0 (Proc.devRef .tc main_arg1)) :=
  (val10_keep V0 main_v149 (by decide)).trans (val9_main_v149 V0)
set_option maxRecDepth 8192 in
set_option maxHeartbeats 2000000 in
theorem val10_main_v174 (V0 : Valuation τ sig (Elt F)) : val10 V0 (no_index (Proc.devRef .tc main_v174)) = coefR (V0 (Proc.devRef .tc main_arg1)) (V0 (Proc.devRef .tc main_arg2)) := by
  unfold val10
  simp only [opsJ]
  after_results_simp
  skip
  (try simp only [val9_main_v149, val9_main_v158, val9_main_v151, val9_main_v148])
  rfl

def val11 (V0 : Valuation τ sig (Elt F)) : Valuation τ sig (Elt F) := after opsK (val10 V0)

theorem val11_keep (V0 : Valuation τ sig (Elt F)) (r : Ref sig .tc) (h0 : r ∉ opsK_W) :
    val11 V0 (Proc.devRef .tc r) = val10 V0 (Proc.devRef .tc r) :=
  after_of_writes_sub opsK _ opsK_writes h0
theorem val11_arg (V0 : Valuation τ sig (Elt F)) (r : Ref sig .tc) (h : r ∈ argRefs := by decide) : val11 V0 (no_index (Proc.devRef .tc r)) = V0 (Proc.devRef .tc r) :=
  (val11_keep V0 r (by revert r; decide)).trans (val10_arg V0 r h)
set_option maxRecDepth 8192 in
set_option maxHeartbeats 2000000 in
theorem val11_main_v190 (V0 : Valuation τ sig (Elt F)) : val11 V0 (no_index (Proc.devRef .tc main_v190)) = hid3 V0 := by
  unfold val11
  simp only [opsK]
  after_results_simp
  skip
  (try simp only [val10_arg _ main_arg12, val10_main_v148, val10_main_v146, val10_main_v174, val10_main_v149])
  rfl

def val12 (V0 : Valuation τ sig (Elt F)) : Valuation τ sig (Elt F) := after opsL4 (after opsL3 (after opsL2 (after opsL1 (val11 V0))))

theorem val12_keep (V0 : Valuation τ sig (Elt F)) (r : Ref sig .tc) (h0 : r ∉ opsL1_W) (h1 : r ∉ opsL2_W) (h2 : r ∉ opsL3_W) (h3 : r ∉ opsL4_W) :
    val12 V0 (Proc.devRef .tc r) = val11 V0 (Proc.devRef .tc r) :=
  (after_of_writes_sub opsL4 _ opsL4_writes h3).trans ((after_of_writes_sub opsL3 _ opsL3_writes h2).trans ((after_of_writes_sub opsL2 _ opsL2_writes h1).trans (after_of_writes_sub opsL1 _ opsL1_writes h0)))
theorem val12_arg (V0 : Valuation τ sig (Elt F)) (r : Ref sig .tc) (h : r ∈ argRefs := by decide) : val12 V0 (no_index (Proc.devRef .tc r)) = V0 (Proc.devRef .tc r) :=
  (val12_keep V0 r (by revert r; decide) (by revert r; decide) (by revert r; decide) (by revert r; decide)).trans (val11_arg V0 r h)
theorem val12_main_v191 (V0 : Valuation τ sig (Elt F)) : val12 V0 (no_index (Proc.devRef .tc main_v191)) = lsmR (hid3 V0) :=
  (lsm_after (val11 V0)).trans (congrArg lsmR (val11_main_v190 V0))

theorem after_ops (V0 : Valuation τ sig (Elt F)) : after ops V0 = val12 V0 := by
  simp only [ops, win0, win1, win2, win3, StableHlo.after_append]
  rfl

theorem out_eq (V0 : Valuation τ sig (Elt F)) :
    after ops V0 (Proc.devRef .tc main_v191)
      = outR (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
  (congrFun (after_ops V0) _).trans (val12_main_v191 V0)
theorem keep_arg (V0 : Valuation τ sig (Elt F)) (r : Ref sig .tc) (h : r ∈ argRefs := by decide) : after ops V0 (Proc.devRef .tc r) = V0 (Proc.devRef .tc r) :=
  (congrFun (after_ops V0) _).trans (val12_arg V0 r h)

end Cert.ReferenceIdeal.Hand

end
-- ==== Proof.Ref.Run.lean ====
import proofs.«158427_j57105885167694_2_alg».proof.Proof.Ref.Vals

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v191) = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v191).trans (out_eq (launchContents m c)),
      (h c main_arg0).trans (keep_arg (launchContents m c) main_arg0),
      (h c main_arg1).trans (keep_arg (launchContents m c) main_arg1),
      (h c main_arg2).trans (keep_arg (launchContents m c) main_arg2),
      (h c main_arg3).trans (keep_arg (launchContents m c) main_arg3),
      (h c main_arg4).trans (keep_arg (launchContents m c) main_arg4),
      (h c main_arg5).trans (keep_arg (launchContents m c) main_arg5),
      (h c main_arg6).trans (keep_arg (launchContents m c) main_arg6),
      (h c main_arg7).trans (keep_arg (launchContents m c) main_arg7),
      (h c main_arg8).trans (keep_arg (launchContents m c) main_arg8),
      (h c main_arg9).trans (keep_arg (launchContents m c) main_arg9),
      (h c main_arg10).trans (keep_arg (launchContents m c) main_arg10),
      (h c main_arg11).trans (keep_arg (launchContents m c) main_arg11),
      (h c main_arg12).trans (keep_arg (launchContents m c) main_arg12)⟩)
    (run_seq scopedRefs_eq scopedSems_eq defs main (fun _ => ops) main_eq (fun _ => ops_sub) m ρ (fun _ => ops_fresh))

end Cert.ReferenceIdeal.Hand

end
-- ==== Proof.Ideal.KeptIn.lean ====
import proofs.«158427_j57105885167694_2_alg».proof.Proof.Ideal.Kept

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

theorem in1_0 (c : Dev nD) : W6 m c (Proc.devRef .tc main_v45) = W5 m c (Proc.devRef .tc main_v45) :=
  keeps m 1 launch1 (W5 m) (W6 m) (fun _ => rfl) (A_eq1 (atTc (W5 m))) c main_v45 (by decide)
theorem in1_1 (c : Dev nD) : W6 m c (Proc.devRef .tc main_v46) = W5 m c (Proc.devRef .tc main_v46) :=
  keeps m 1 launch1 (W5 m) (W6 m) (fun _ => rfl) (A_eq1 (atTc (W5 m))) c main_v46 (by decide)

theorem in4_0 (c : Dev nD) : W10 m c (Proc.devRef .tc main_v64) = W9 m c (Proc.devRef .tc main_v64) :=
  keeps m 4 launch4 (W9 m) (W10 m) (fun _ => rfl) (A_eq4 (atTc (W9 m))) c main_v64 (by decide)
theorem in4_1 (c : Dev nD) : W10 m c (Proc.devRef .tc main_v65) = W9 m c (Proc.devRef .tc main_v65) :=
  keeps m 4 launch4 (W9 m) (W10 m) (fun _ => rfl) (A_eq4 (atTc (W9 m))) c main_v65 (by decide)

theorem upto3 (c : Dev nD) (r : Ref sig .tc) (h0 : r ∉ hostOps0_W) (h01 : r ∉ hostOps0_1_W) (h02 : r ∉ hostOps0_2_W) :
    W3 m c (Proc.devRef .tc r) = m ((c : Thread nD τ).loc r) :=
  (host0_2 m c r h02).trans <| (host0_1 m c r h01).trans <| (host0 m c r h0).trans rfl

theorem from3to7 (c : Dev nD) (r : Ref sig .tc) (k0 : ∀ w, Pipeline.arrRef spec0 w ≠ r) (h1 : r ∉ hostOps1_W)
    (k1 : ∀ w, Pipeline.arrRef spec1 w ≠ r) (k2 : ∀ w, Pipeline.arrRef spec2 w ≠ r) :
    W7 m c (Proc.devRef .tc r) = W3 m c (Proc.devRef .tc r) :=
  (keep2 m c r k2).trans <| (keep1 m c r k1).trans <| (host1 m c r h1).trans <| keep0 m c r k0

theorem from3to8 (c : Dev nD) (r : Ref sig .tc) (k0 : ∀ w, Pipeline.arrRef spec0 w ≠ r) (h1 : r ∉ hostOps1_W)
    (k1 : ∀ w, Pipeline.arrRef spec1 w ≠ r) (k2 : ∀ w, Pipeline.arrRef spec2 w ≠ r) (k3 : ∀ w, Pipeline.arrRef spec3 w ≠ r) :
    W8 m c (Proc.devRef .tc r) = W3 m c (Proc.devRef .tc r) :=
  (keep3 m c r k3).trans (from3to7 m c r k0 h1 k1 k2)

theorem from8to11 (c : Dev nD) (r : Ref sig .tc) (h4 : r ∉ hostOps4_W)
    (k4 : ∀ w, Pipeline.arrRef spec4 w ≠ r) (k5 : ∀ w, Pipeline.arrRef spec5 w ≠ r) :
    W11 m c (Proc.devRef .tc r) = W8 m c (Proc.devRef .tc r) :=
  (keep5 m c r k5).trans <| (keep4 m c r k4).trans <| host4 m c r h4

theorem from8to12 (c : Dev nD) (r : Ref sig .tc) (h4 : r ∉ hostOps4_W)
    (k4 : ∀ w, Pipeline.arrRef spec4 w ≠ r) (k5 : ∀ w, Pipeline.arrRef spec5 w ≠ r) (k6 : ∀ w, Pipeline.arrRef spec6 w ≠ r) :
    W12 m c (Proc.devRef .tc r) = W8 m c (Proc.devRef .tc r) :=
  (keep6 m c r k6).trans (from8to11 m c r h4 k4 k5)

theorem src_at4 (c : Dev nD) : W4 m c (Proc.devRef .tc main_v5) = W3 m c (Proc.devRef .tc main_v5) := keep0 m c main_v5 (by decide)
theorem src_at8 (c : Dev nD) : W8 m c (Proc.devRef .tc main_v5) = W3 m c (Proc.devRef .tc main_v5) := from3to8 m c main_v5 (by decide) (by decide) (by decide) (by decide) (by decide)
theorem src_at12 (c : Dev nD) : W12 m c (Proc.devRef .tc main_v5) = W3 m c (Proc.devRef .tc main_v5) := (from8to12 m c main_v5 (by decide) (by decide) (by decide) (by decide)).trans (from3to8 m c main_v5 (by decide) (by decide) (by decide) (by decide) (by decide))

theorem dst_at4 (c : Dev nD) : W4 m c (Proc.devRef .tc main_v6) = W3 m c (Proc.devRef .tc main_v6) := keep0 m c main_v6 (by decide)
theorem dst_at8 (c : Dev nD) : W8 m c (Proc.devRef .tc main_v6) = W3 m c (Proc.devRef .tc main_v6) := from3to8 m c main_v6 (by decide) (by decide) (by decide) (by decide) (by decide)
theorem dst_at12 (c : Dev nD) : W12 m c (Proc.devRef .tc main_v6) = W3 m c (Proc.devRef .tc main_v6) := (from8to12 m c main_v6 (by decide) (by decide) (by decide) (by decide)).trans (from3to8 m c main_v6 (by decide) (by decide) (by decide) (by decide) (by decide))

theorem coef_at4 (c : Dev nD) : W4 m c (Proc.devRef .tc main_v31) = W3 m c (Proc.devRef .tc main_v31) := keep0 m c main_v31 (by decide)
theorem coef_at8 (c : Dev nD) : W8 m c (Proc.devRef .tc main_v31) = W3 m c (Proc.devRef .tc main_v31) := from3to8 m c main_v31 (by decide) (by decide) (by decide) (by decide) (by decide)
theorem coef_at12 (c : Dev nD) : W12 m c (Proc.devRef .tc main_v31) = W3 m c (Proc.devRef .tc main_v31) := (from8to12 m c main_v31 (by decide) (by decide) (by decide) (by decide)).trans (from3to8 m c main_v31 (by decide) (by decide) (by decide) (by decide) (by decide))

theorem arg0_at3 (c : Dev nD) : W3 m c (Proc.devRef .tc main_arg0) = m ((c : Thread nD τ).loc main_arg0) := upto3 m c main_arg0 (by decide) (by decide) (by decide)
theorem arg3_at3 (c : Dev nD) : W3 m c (Proc.devRef .tc main_arg3) = m ((c : Thread nD τ).loc main_arg3) := upto3 m c main_arg3 (by decide) (by decide) (by decide)

theorem arg4_at4 (c : Dev nD) : W4 m c (Proc.devRef .tc main_arg4) = m ((c : Thread nD τ).loc main_arg4) := (keep0 m c main_arg4 (by decide)).trans (upto3 m c main_arg4 (by decide) (by decide) (by decide))
theorem arg5_at4 (c : Dev nD) : W4 m c (Proc.devRef .tc main_arg5) = m ((c : Thread nD τ).loc main_arg5) := (keep0 m c main_arg5 (by decide)).trans (upto3 m c main_arg5 (by decide) (by decide) (by decide))
theorem arg6_at4 (c : Dev nD) : W4 m c (Proc.devRef .tc main_arg6) = m ((c : Thread nD τ).loc main_arg6) := (keep0 m c main_arg6 (by decide)).trans (upto3 m c main_arg6 (by decide) (by decide) (by decide))

theorem arg7_at7 (c : Dev nD) : W7 m c (Proc.devRef .tc main_arg7) = m ((c : Thread nD τ).loc main_arg7) := (from3to7 m c main_arg7 (by decide) (by decide) (by decide) (by decide)).trans (upto3 m c main_arg7 (by decide) (by decide) (by decide))

theorem arg8_at8 (c : Dev nD) : W8 m c (Proc.devRef .tc main_arg8) = m ((c : Thread nD τ).loc main_arg8) := (from3to8 m c main_arg8 (by decide) (by decide) (by decide) (by decide) (by decide)).trans (upto3 m c main_arg8 (by decide) (by decide) (by decide))
theorem arg9_at8 (c : Dev nD) : W8 m c (Proc.devRef .tc main_arg9) = m ((c : Thread nD τ).loc main_arg9) := (from3to8 m c main_arg9 (by decide) (by decide) (by decide) (by decide) (by decide)).trans (upto3 m c main_arg9 (by decide) (by decide) (by decide))
theorem arg10_at8 (c : Dev nD) : W8 m c (Proc.devRef .tc main_arg10) = m ((c : Thread nD τ).loc main_arg10) := (from3to8 m c main_arg10 (by decide) (by decide) (by decide) (by decide) (by decide)).trans (upto3 m c main_arg10 (by decide) (by decide) (by decide))

theorem arg11_at11 (c : Dev nD) : W11 m c (Proc.devRef .tc main_arg11) = m ((c : Thread nD τ).loc main_arg11) := (from8to11 m c main_arg11 (by decide) (by decide) (by decide)).trans ((from3to8 m c main_arg11 (by decide) (by decide) (by decide) (by decide) (by decide)).trans (upto3 m c main_arg11 (by decide) (by decide) (by decide)))

theorem arg12_at12 (c : Dev nD) : W12 m c (Proc.devRef .tc main_arg12) = m ((c : Thread nD τ).loc main_arg12) := (from8to12 m c main_arg12 (by decide) (by decide) (by decide) (by decide)).trans ((from3to8 m c main_arg12 (by decide) (by decide) (by decide) (by decide) (by decide)).trans (upto3 m c main_arg12 (by decide) (by decide) (by decide)))

end Cert.KernelIdeal.Reg

end
-- ==== Proof.Ideal.HostDefs.lean ====
import proofs.«158427_j57105885167694_2_alg».proof.Proof.Gen.KernelIdeal

noncomputable section

namespace Cert.KernelIdeal.Hand

open Cert.KernelIdeal Cert.KernelIdeal.Facts₀ Cert.KernelIdeal.Facts Idealize.ShloMosaic

variable {F : FTy → Type} [FloatOps F]

def srcK (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

def dstK (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

def wtsK (ew : FVec F S800000 .f32) : FVec F S850000 .f32 :=
  concatenate S850000 0 [⟨S800000, ew⟩, ⟨S50000, broadcastInDim S50000 ![] bcast_S_S50000 (constant S_ .f32 0x3F800000#32)⟩] concatenates_S800000_S50000_S850000_d0

def degK (ei : IVec S2x800000 32) (ew : FVec F S800000 .f32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (dstK ei)) (wtsK ew)

def dinvK (ei : IVec S2x800000 32) (ew : FVec F S800000 .f32) : FVec F S50000 .f32 :=
  select (cmpf .ogt (degK ei ew) (broadcastInDim S50000 ![] bcast_S_S50000 (constant S_ .f32 0x00000000#32))) (Host.rsqrt (degK ei ew))
    (broadcastInDim S50000 ![] bcast_S_S50000 (id (constant S_ .f32 0x00000000#32)))

def wrapK (i : IVec S850000 32) : IVec S850000x1 32 :=
  broadcastInDim S850000x1 ![0] bcast_S850000_S850000x1_0
    (select (cmpi .slt i (broadcastInDim S850000 ![] bcast_S_S850000 (constantI S_ 32 0#32))) (addi i (broadcastInDim S850000 ![] bcast_S_S850000 (constantI S_ 32 50000#32))) i)

def coefK (ei : IVec S2x800000 32) (ew : FVec F S800000 .f32) : FVec F S850000 .f32 :=
  mulf (mulf (Host.gather gather_S50000_S850000x1_S850000_n_0_n_n_0_1_1 (dinvK ei ew) (wrapK (srcK ei))) (wtsK ew))
    (Host.gather gather_S50000_S850000x1_S850000_n_0_n_n_0_1_1 (dinvK ei ew) (wrapK (dstK ei)))

def aggK (ei : IVec S2x800000 32) (ew : FVec F S800000 .f32) (xw : FVec F S50000x128 .f32) : FVec F S50000x128 .f32 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 (dstK ei))
    (mulf (broadcastInDim S850000x128 ![0, 1] bcast_S850000x1_S850000x128_0_1 (broadcastInDim S850000x1 ![0] bcast_S850000_S850000x1_0 (coefK ei ew)))
      (Host.gather gather_S50000x128_S850000x1_S850000x128_1_0_n_n_0_1_1128 xw (wrapK (srcK ei))))

def aggK40 (ei : IVec S2x800000 32) (ew : FVec F S800000 .f32) (xw : FVec F S50000x40 .f32) : FVec F S50000x40 .f32 :=
  Host.scatterAdd scatter_S50000x40_S850000x1_S850000x40_1_0_0_1 (broadcastInDim S50000x40 ![] bcast_S_S50000x40 (constant S_ .f32 0x00000000#32))
    (broadcastInDim S850000x1 ![0] bcast_S850000_S850000x1_0 (dstK ei))
    (mulf (broadcastInDim S850000x40 ![0, 1] bcast_S850000x1_S850000x40_0_1 (broadcastInDim S850000x1 ![0] bcast_S850000_S850000x1_0 (coefK ei ew)))
      (Host.gather gather_S50000x40_S850000x1_S850000x40_1_0_n_n_0_1_140 xw (wrapK (srcK ei))))

def rowK (b : FVec F S128 .f32) : FVec F S1x128 .f32 := shapeCast S1x128 b shapeCasts_S128_S1x128

def rowK40 (b : FVec F S40 .f32) : FVec F S1x40 .f32 := shapeCast S1x40 b shapeCasts_S40_S1x40

end Cert.KernelIdeal.Hand

end
-- ==== Proof.Ideal.HostK.lean ====
import proofs.«158427_j57105885167694_2_alg».proof.Proof.Ideal.HostDefs
import proofs.«158427_j57105885167694_2_alg».proof.Proof.Ideal.Data

set_option maxRecDepth 16384

noncomputable section

namespace Cert.KernelIdeal.Hand

open Cert.KernelIdeal Cert.KernelIdeal.Facts₀ Cert.KernelIdeal.Facts Idealize.ShloMosaic

variable {F : FTy → Type} [FloatOps F]

def aggOfK (dst : IVec S850000 32) (coef : FVec F S850000 .f32) (src : IVec S850000 32) (xw : FVec F S50000x128 .f32) :
    FVec F S50000x128 .f32 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 dst)
    (mulf (broadcastInDim S850000x128 ![0, 1] bcast_S850000x1_S850000x128_0_1 (broadcastInDim S850000x1 ![0] bcast_S850000_S850000x1_0 coef))
      (Host.gather gather_S50000x128_S850000x1_S850000x128_1_0_n_n_0_1_1128 xw (wrapK src)))

def aggOfK40 (dst : IVec S850000 32) (coef : FVec F S850000 .f32) (src : IVec S850000 32) (xw : FVec F S50000x40 .f32) :
    FVec F S50000x40 .f32 :=
  Host.scatterAdd scatter_S50000x40_S850000x1_S850000x40_1_0_0_1 (broadcastInDim S50000x40 ![] bcast_S_S50000x40 (constant S_ .f32 0x00000000#32))
    (broadcastInDim S850000x1 ![0] bcast_S850000_S850000x1_0 dst)
    (mulf (broadcastInDim S850000x40 ![0, 1] bcast_S850000x1_S850000x40_0_1 (broadcastInDim S850000x1 ![0] bcast_S850000_S850000x1_0 coef))
      (Host.gather gather_S50000x40_S850000x1_S850000x40_1_0_n_n_0_1_140 xw (wrapK src)))

theorem aggK_eq (ei : IVec S2x800000 32) (ew : FVec F S800000 .f32) (xw : FVec F S50000x128 .f32) :
    aggK ei ew xw = aggOfK (dstK ei) (coefK ei ew) (srcK ei) xw := rfl
theorem aggK40_eq (ei : IVec S2x800000 32) (ew : FVec F S800000 .f32) (xw : FVec F S50000x40 .f32) :
    aggK40 ei ew xw = aggOfK40 (dstK ei) (coefK ei ew) (srcK ei) xw := rfl

end Cert.KernelIdeal.Hand

namespace Cert.KernelIdeal.Reg

open Cert.KernelIdeal Cert.KernelIdeal.Facts₀ Cert.KernelIdeal.Facts Cert.KernelIdeal.Hand
open Idealize.ShloMosaic Idealize.ShloMosaic.TcCoe Idealize.SL.Sem

variable {F : FTy → Type} [FloatOps F]

macro "results_by_rw" : tactic =>
  `(tactic| (repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

section Stretch

variable (V : Valuation τ sig (Elt F))

theorem raw0_src : StableHlo.after Gen.hostOps0 V (Proc.devRef .tc main_v5) = srcK (V (Proc.devRef .tc main_arg1)) := by
  after_results_simp
  results_by_rw
  rfl
theorem raw0_dst : StableHlo.after Gen.hostOps0 V (Proc.devRef .tc main_v6) = dstK (V (Proc.devRef .tc main_arg1)) := by
  after_results_simp
  results_by_rw
  rfl
theorem raw0_wts : StableHlo.after Gen.hostOps0 V (Proc.devRef .tc main_v8) = wtsK (V (Proc.devRef .tc main_arg2)) := by
  after_results_simp
  results_by_rw
  rfl
theorem raw0_pos : StableHlo.after Gen.hostOps0 V (Proc.devRef .tc main_v13)
    = cmpf .ogt (degK (V (Proc.devRef .tc main_arg1)) (V (Proc.devRef .tc main_arg2)))
        (broadcastInDim S50000 ![] bcast_S_S50000 (constant S_ .f32 0x00000000#32)) := by
  after_results_simp
  results_by_rw
  rfl
theorem raw0_rs : StableHlo.after Gen.hostOps0 V (Proc.devRef .tc main_v14)
    = Host.rsqrt (degK (V (Proc.devRef .tc main_arg1)) (V (Proc.devRef .tc main_arg2))) := by
  after_results_simp
  results_by_rw
  rfl
theorem raw0_zero : StableHlo.after Gen.hostOps0 V (Proc.devRef .tc main_cst_2) = constant (F := F) S_ .f32 0x00000000#32 := by
  after_results_simp

theorem raw01_dinv : StableHlo.after Gen.hostOps0_1 V (Proc.devRef .tc main_v15)
    = select (V (Proc.devRef .tc main_v13) : IVec S50000 1) (V (Proc.devRef .tc main_v14) : FVec F S50000 .f32)
        (broadcastInDim S50000 ![] bcast_S_S50000 (id (V (Proc.devRef .tc main_cst_2) : FVec F S_ .f32))) := by
  after_results_simp
  simp only [StableHlo.TRef.ofBuf, StableHlo.TRef.toBuf, cast_eq]
theorem raw01_src : StableHlo.after Gen.hostOps0_1 V (Proc.devRef .tc main_v5) = V (Proc.devRef .tc main_v5) := by
  after_results_simp
theorem raw01_dst : StableHlo.after Gen.hostOps0_1 V (Proc.devRef .tc main_v6) = V (Proc.devRef .tc main_v6) := by
  after_results_simp
theorem raw01_wts : StableHlo.after Gen.hostOps0_1 V (Proc.devRef .tc main_v8) = V (Proc.devRef .tc main_v8) := by
  after_results_simp

theorem raw02_coef : StableHlo.after Gen.hostOps0_2 V (Proc.devRef .tc main_v31)
    = mulf (mulf (Host.gather gather_S50000_S850000x1_S850000_n_0_n_n_0_1_1 (V (Proc.devRef .tc main_v15) : FVec F S50000 .f32)
          (wrapK (V (Proc.devRef .tc main_v5)))) (V (Proc.devRef .tc main_v8) : FVec F S850000 .f32))
        (Host.gather gather_S50000_S850000x1_S850000_n_0_n_n_0_1_1 (V (Proc.devRef .tc main_v15) : FVec F S50000 .f32)
          (wrapK (V (Proc.devRef .tc main_v6)))) := by
  after_results_simp
  results_by_rw
  rfl
theorem raw02_src : StableHlo.after Gen.hostOps0_2 V (Proc.devRef .tc main_v5) = V (Proc.devRef .tc main_v5) := by
  after_results_simp
theorem raw02_dst : StableHlo.after Gen.hostOps0_2 V (Proc.devRef .tc main_v6) = V (Proc.devRef .tc main_v6) := by
  after_results_simp

theorem raw1_agg : StableHlo.after Gen.hostOps1 V (Proc.devRef .tc main_v45)
    = aggOfK (V (Proc.devRef .tc main_v6)) (V (Proc.devRef .tc main_v31)) (V (Proc.devRef .tc main_v5)) (V (Proc.devRef .tc main_v32)) := by
  after_results_simp
  results_by_rw
  rfl
theorem raw1_b : StableHlo.after Gen.hostOps1 V (Proc.devRef .tc main_v46) = rowK (V (Proc.devRef .tc main_arg4)) := by
  after_results_simp
  rfl
theorem raw1_g : StableHlo.after Gen.hostOps1 V (Proc.devRef .tc main_v47) = rowK (V (Proc.devRef .tc main_arg5)) := by
  after_results_simp
  rfl
theorem raw1_be : StableHlo.after Gen.hostOps1 V (Proc.devRef .tc main_v48) = rowK (V (Proc.devRef .tc main_arg6)) := by
  after_results_simp
  rfl

theorem raw4_agg : StableHlo.after Gen.hostOps4 V (Proc.devRef .tc main_v64)
    = aggOfK (V (Proc.devRef .tc main_v6)) (V (Proc.devRef .tc main_v31)) (V (Proc.devRef .tc main_v5)) (V (Proc.devRef .tc main_v51)) := by
  after_results_simp
  results_by_rw
  rfl
theorem raw4_b : StableHlo.after Gen.hostOps4 V (Proc.devRef .tc main_v65) = rowK (V (Proc.devRef .tc main_arg8)) := by
  after_results_simp
  rfl
theorem raw4_g : StableHlo.after Gen.hostOps4 V (Proc.devRef .tc main_v66) = rowK (V (Proc.devRef .tc main_arg9)) := by
  after_results_simp
  rfl
theorem raw4_be : StableHlo.after Gen.hostOps4 V (Proc.devRef .tc main_v67) = rowK (V (Proc.devRef .tc main_arg10)) := by
  after_results_simp
  rfl

theorem raw7_agg : StableHlo.after Gen.hostOps7 V (Proc.devRef .tc main_v83)
    = aggOfK40 (V (Proc.devRef .tc main_v6)) (V (Proc.devRef .tc main_v31)) (V (Proc.devRef .tc main_v5)) (V (Proc.devRef .tc main_v70)) := by
  after_results_simp
  results_by_rw
  rfl
theorem raw7_b : StableHlo.after Gen.hostOps7 V (Proc.devRef .tc main_v84) = rowK40 (V (Proc.devRef .tc main_arg12)) := by
  after_results_simp
  rfl

end Stretch

variable (m : (ℓ : Loc nD τ sig) → Buf (Elt F) ℓ)

theorem W1_src (c : Dev nD) : W1 m c (Proc.devRef .tc main_v5) = srcK (m ((c.tc : Thread nD τ).loc main_arg1)) :=
  raw0_src (W0 m c)
theorem W1_dst (c : Dev nD) : W1 m c (Proc.devRef .tc main_v6) = dstK (m ((c.tc : Thread nD τ).loc main_arg1)) :=
  raw0_dst (W0 m c)
theorem W1_wts (c : Dev nD) : W1 m c (Proc.devRef .tc main_v8) = wtsK (m ((c.tc : Thread nD τ).loc main_arg2)) :=
  raw0_wts (W0 m c)
theorem W1_pos (c : Dev nD) : W1 m c (Proc.devRef .tc main_v13)
    = cmpf .ogt (degK (m ((c.tc : Thread nD τ).loc main_arg1)) (m ((c.tc : Thread nD τ).loc main_arg2)))
        (broadcastInDim S50000 ![] bcast_S_S50000 (constant S_ .f32 0x00000000#32)) :=
  raw0_pos (W0 m c)
theorem W1_rs (c : Dev nD) : W1 m c (Proc.devRef .tc main_v14)
    = Host.rsqrt (degK (m ((c.tc : Thread nD τ).loc main_arg1)) (m ((c.tc : Thread nD τ).loc main_arg2))) :=
  raw0_rs (W0 m c)
theorem W1_zero (c : Dev nD) : W1 m c (Proc.devRef .tc main_cst_2) = constant (F := F) S_ .f32 0x00000000#32 :=
  raw0_zero (W0 m c)

theorem W2_dinv (c : Dev nD) : W2 m c (Proc.devRef .tc main_v15)
    = dinvK (m ((c.tc : Thread nD τ).loc main_arg1)) (m ((c.tc : Thread nD τ).loc main_arg2)) := by
  rw [show W2 m c (Proc.devRef .tc main_v15) = _ from raw01_dinv (W1 m c), W1_pos m c, W1_rs m c, W1_zero m c]
  rfl
theorem W2_src (c : Dev nD) : W2 m c (Proc.devRef .tc main_v5) = srcK (m ((c.tc : Thread nD τ).loc main_arg1)) :=
  (raw01_src (W1 m c)).trans (W1_src m c)
theorem W2_dst (c : Dev nD) : W2 m c (Proc.devRef .tc main_v6) = dstK (m ((c.tc : Thread nD τ).loc main_arg1)) :=
  (raw01_dst (W1 m c)).trans (W1_dst m c)
theorem W2_wts (c : Dev nD) : W2 m c (Proc.devRef .tc main_v8) = wtsK (m ((c.tc : Thread nD τ).loc main_arg2)) :=
  (raw01_wts (W1 m c)).trans (W1_wts m c)

theorem W3_src (c : Dev nD) : W3 m c (Proc.devRef .tc main_v5) = srcK (m ((c.tc : Thread nD τ).loc main_arg1)) :=
  (raw02_src (W2 m c)).trans (W2_src m c)
theorem W3_dst (c : Dev nD) : W3 m c (Proc.devRef .tc main_v6) = dstK (m ((c.tc : Thread nD τ).loc main_arg1)) :=
  (raw02_dst (W2 m c)).trans (W2_dst m c)
theorem W3_coef (c : Dev nD) : W3 m c (Proc.devRef .tc main_v31)
    = coefK (m ((c.tc : Thread nD τ).loc main_arg1)) (m ((c.tc : Thread nD τ).loc main_arg2)) := by
  rw [show W3 m c (Proc.devRef .tc main_v31) = _ from raw02_coef (W2 m c), W2_dinv m c, W2_src m c, W2_dst m c, W2_wts m c]
  rfl

theorem W5_agg (c : Dev nD) : W5 m c (Proc.devRef .tc main_v45)
    = aggOfK (W4 m c (Proc.devRef .tc main_v6)) (W4 m c (Proc.devRef .tc main_v31)) (W4 m c (Proc.devRef .tc main_v5))
        (W4 m c (Proc.devRef .tc main_v32)) :=
  raw1_agg (W4 m c)
theorem W5_agg' (c : Dev nD) (hs : W4 m c (Proc.devRef .tc main_v5) = srcK (m ((c.tc : Thread nD τ).loc main_arg1)))
    (hd : W4 m c (Proc.devRef .tc main_v6) = dstK (m ((c.tc : Thread nD τ).loc main_arg1)))
    (hc : W4 m c (Proc.devRef .tc main_v31) = coefK (m ((c.tc : Thread nD τ).loc main_arg1)) (m ((c.tc : Thread nD τ).loc main_arg2))) :
    W5 m c (Proc.devRef .tc main_v45)
      = aggK (m ((c.tc : Thread nD τ).loc main_arg1)) (m ((c.tc : Thread nD τ).loc main_arg2)) (W4 m c (Proc.devRef .tc main_v32)) := by
  rw [W5_agg, hs, hd, hc, aggK_eq]
theorem W5_b (c : Dev nD) : W5 m c (Proc.devRef .tc main_v46) = rowK (W4 m c (Proc.devRef .tc main_arg4)) := raw1_b (W4 m c)
theorem W5_g (c : Dev nD) : W5 m c (Proc.devRef .tc main_v47) = rowK (W4 m c (Proc.devRef .tc main_arg5)) := raw1_g (W4 m c)
theorem W5_be (c : Dev nD) : W5 m c (Proc.devRef .tc main_v48) = rowK (W4 m c (Proc.devRef .tc main_arg6)) := raw1_be (W4 m c)

theorem W9_agg (c : Dev nD) : W9 m c (Proc.devRef .tc main_v64)
    = aggOfK (W8 m c (Proc.devRef .tc main_v6)) (W8 m c (Proc.devRef .tc main_v31)) (W8 m c (Proc.devRef .tc main_v5))
        (W8 m c (Proc.devRef .tc main_v51)) :=
  raw4_agg (W8 m c)
theorem W9_agg' (c : Dev nD) (hs : W8 m c (Proc.devRef .tc main_v5) = srcK (m ((c.tc : Thread nD τ).loc main_arg1)))
    (hd : W8 m c (Proc.devRef .tc main_v6) = dstK (m ((c.tc : Thread nD τ).loc main_arg1)))
    (hc : W8 m c (Proc.devRef .tc main_v31) = coefK (m ((c.tc : Thread nD τ).loc main_arg1)) (m ((c.tc : Thread nD τ).loc main_arg2))) :
    W9 m c (Proc.devRef .tc main_v64)
      = aggK (m ((c.tc : Thread nD τ).loc main_arg1)) (m ((c.tc : Thread nD τ).loc main_arg2)) (W8 m c (Proc.devRef .tc main_v51)) := by
  rw [W9_agg, hs, hd, hc, aggK_eq]
theorem W9_b (c : Dev nD) : W9 m c (Proc.devRef .tc main_v65) = rowK (W8 m c (Proc.devRef .tc main_arg8)) := raw4_b (W8 m c)
theorem W9_g (c : Dev nD) : W9 m c (Proc.devRef .tc main_v66) = rowK (W8 m c (Proc.devRef .tc main_arg9)) := raw4_g (W8 m c)
theorem W9_be (c : Dev nD) : W9 m c (Proc.devRef .tc main_v67) = rowK (W8 m c (Proc.devRef .tc main_arg10)) := raw4_be (W8 m c)

theorem W13_agg (c : Dev nD) : W13 m c (Proc.devRef .tc main_v83)
    = aggOfK40 (W12 m c (Proc.devRef .tc main_v6)) (W12 m c (Proc.devRef .tc main_v31)) (W12 m c (Proc.devRef .tc main_v5))
        (W12 m c (Proc.devRef .tc main_v70)) :=
  raw7_agg (W12 m c)
theorem W13_agg' (c : Dev nD) (hs : W12 m c (Proc.devRef .tc main_v5) = srcK (m ((c.tc : Thread nD τ).loc main_arg1)))
    (hd : W12 m c (Proc.devRef .tc main_v6) = dstK (m ((c.tc : Thread nD τ).loc main_arg1)))
    (hc : W12 m c (Proc.devRef .tc main_v31) = coefK (m ((c.tc : Thread nD τ).loc main_arg1)) (m ((c.tc : Thread nD τ).loc main_arg2))) :
    W13 m c (Proc.devRef .tc main_v83)
      = aggK40 (m ((c.tc : Thread nD τ).loc main_arg1)) (m ((c.tc : Thread nD τ).loc main_arg2)) (W12 m c (Proc.devRef .tc main_v70)) := by
  rw [W13_agg, hs, hd, hc, aggK40_eq]
theorem W13_b (c : Dev nD) : W13 m c (Proc.devRef .tc main_v84) = rowK40 (W12 m c (Proc.devRef .tc main_arg12)) := raw7_b (W12 m c)

end Cert.KernelIdeal.Reg

end
-- ==== Proof.Spec.lean ====
import Idealize.ShloMosaic.PureOps.Ideal
import Idealize.ShloMosaic.Lib.ValueIdx

open scoped BigOperators

noncomputable section

namespace Cert.Spec

open Idealize.ShloMosaic Idealize.ShloMosaic.ValueIdx

abbrev Mat (n p : Nat) : Type := Fin n → Fin p → EReal

abbrev mat {n p : Nat} (a : (⟨2, ![n, p]⟩ : Shape).Idx → EReal) : Mat n p := fun i j => a (ix2 i j)

abbrev row {p : Nat} (a : (⟨2, ![1, p]⟩ : Shape).Idx → EReal) : Fin p → EReal := fun j => a (ix2 (0 : Fin 1) j)

abbrev vec {p : Nat} (a : (⟨1, ![p]⟩ : Shape).Idx → EReal) : Fin p → EReal := fun j => a (ix1 j)

variable {n k p : Nat}

def prod (x : Mat n k) (w : Mat k p) : Mat n p := fun i j => ∑ l, x i l * w l j

def rows : EReal := Ideal.ofBits .f32 0x47435000#32

def eps : EReal := Ideal.ofBits .f32 0x3727C5AC#32

def shift (h : Mat n p) (b : Fin p → EReal) : Mat n p := fun i j => h i j + b j

def mean (h : Mat n p) : Fin p → EReal := fun j => Ideal.div (∑ i, h i j) rows

def varTwoPass (h : Mat n p) : Fin p → EReal :=
  fun j => Ideal.div (∑ i, (h i j - mean h j) * (h i j - mean h j)) rows

def varOnePass (h : Mat n p) : Fin p → EReal :=
  fun j => max (Ideal.div (∑ i, h i j * h i j) rows - mean h j * mean h j) 0

def normRelu (h : Mat n p) (mu var g be : Fin p → EReal) : Mat n p :=
  fun i j => max (g j * (h i j - mu j) * Ideal.rsqrt (var j + eps) + be j) 0

def rowMax (h : Mat n p) (i : Fin n) : EReal := Finset.univ.sup fun j => h i j

def logSoftmax (h : Mat n p) : Mat n p :=
  fun i j => (h i j - rowMax h i) - Ideal.log (∑ j', Ideal.exp (h i j' - rowMax h i))

end Cert.Spec

end
-- ==== Proof.Ideal.Val0Matmul.lean ====
import proofs.«158427_j57105885167694_2_alg».proof.Proof.Ideal.Reg0Matmul
import proofs.«158427_j57105885167694_2_alg».proof.Proof.Spec
import Idealize.ShloMosaic.Lib.ValueIdx
import Idealize.ShloMosaic.Lib.Pipeline.Value
import Idealize.ShloMosaic.PureOps.Ideal.Laws

set_option maxRecDepth 16384

open scoped BigOperators

noncomputable section

namespace Cert.KernelIdeal.Reg

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

local notation "PBlk" => S2000x128
local notation "PArr" => S50000x128
local notation "pcols" => 128

theorem lhs0_row
    (i : Shape.Idx PBlk)
    (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs0_col
    (i : Shape.Idx PBlk)
    (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs0_row
    (i : Shape.Idx PBlk)
    (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs0_col
    (i : Shape.Idx PBlk)
    (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem pay0_apply
    (x0 : Vec Ideal S2000x128 .f32)
    (x1 : Vec Ideal S128x128 .f32)
    (p : Fin 2000) (q : Fin pcols) :
    k0_pay1 x0 x1 (ix2 p q) = ∑ k : Fin 128, x0 (ix2 p k) * x1 (ix2 k q) := by
  unfold k0_pay1
  simp only [matmul, shapeCast_self]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs0_row _ _
      | ⟨1, _⟩ => exact (lhs0_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs0_row _ _).trans hk
      | ⟨1, _⟩ => exact rhs0_col _ _)
  rw [el, er]
  rfl

theorem zero_off0 : (![0, 0] : Fin 2 → Nat) = fun _ => 0 := funext fun a => by fin_cases a <;> rfl

abbrev prodArr0
    (a : S50000x128.Idx → EReal)
    (b : S128x128.Idx → EReal) :
    Shape.Idx PArr → EReal :=
  fun i => ∑ k : Fin 128, a (ix2 (i 0) k) * b (ix2 k (i 1))

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt0 (t : Fin cfg0.N) : t.val < 25 := lt_of_lt_of_eq t.isLt N_0

theorem iblk0_0_apply (c : Dev nD) (t : Fin cfg0.N)
    (y : S2000x128.Idx)
    (i : S50000x128.Idx)
    (h0 : (i 0).val = 2000 * t.val + (y 0).val) (h1 : (i 1).val = (y 1).val) :
    (iblk0 V c 0 t : Vec Ideal S2000x128 .f32) y = (V c main_arg0 : S50000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

theorem iblk0_1_apply (c : Dev nD) (t : Fin cfg0.N)
    (y : S128x128.Idx) :
    (iblk0 V c 1 t : Vec Ideal S128x128 .f32) y = (V c main_arg3 : S128x128.Idx → EReal) y := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * pcols + 1 * (y 1).val = (y 1).val; rw [e3]; omega

theorem oblk0_emb (t : Fin cfg0.N)
    (p : Fin 2000) (q : Fin pcols) :
    ((cfg0.win 2).blk t).view.emb (ix2 p q)
      = (ix2 (⟨2000 * t.val + p.val, by have := point_lt0 t; omega⟩ : Fin 50000) q : Shape.Idx PArr) := by
  obtain ⟨-, -, -, -, e4, e5⟩ := idx_facts0 t
  funext a
  apply Fin.ext
  match a with
  | ⟨0, _⟩ => show win0_2.index t (0 : Fin 2) * 2000 + 1 * p.val = 2000 * t.val + p.val; rw [e4]; omega
  | ⟨1, _⟩ => show win0_2.index t (1 : Fin 2) * pcols + 1 * q.val = q.val; rw [e5]; omega

theorem pay0_of_rows
    (x0 : Vec Ideal S2000x128 .f32)
    (x1 : Vec Ideal S128x128 .f32)
    (A : S50000x128.Idx → EReal)
    (B : S128x128.Idx → EReal)
    (p : Fin 2000) (q : Fin pcols) (r : Fin 50000)
    (hx : ∀ k : Fin 128, x0 (ix2 p k) = A (ix2 r k))
    (hw : ∀ k : Fin 128, x1 (ix2 k q) = B (ix2 k q)) :
    k0_pay1 x0 x1 (ix2 p q) = prodArr0 A B (ix2 r q) := by
  rw [pay0_apply]
  exact Finset.sum_congr rfl fun k _ => by rw [hx k, hw k]

theorem flushed0_eq (c : Dev nD) (t : Fin cfg0.N) :
    (dat0 (F := Ideal) V c).flushed 2 t
      = ((cfg0.win 2).blk t).view.read (Elt Ideal) (prodArr0 (V c main_arg0) (V c main_arg3)) := by
  show (cfg0.win 2).cut (grid0.coords t) ((dat0 (F := Ideal) V c).after 2 t) = _
  rw [after0_2]
  unfold out0_2
  rw [View.canon_unit_zero zero_off0]
  simp only [View.ld_unit_zero (S := S2000x128) zero_off0, View.ld_unit_zero (S := S128x128) zero_off0]
  funext j
  obtain ⟨p, q, rfl⟩ : ∃ (p : Fin 2000) (q : Fin pcols), j = ix2 p q := ⟨j 0, j 1, eq_ix2 j⟩
  show k0_pay1 (iblk0 V c 0 t) (iblk0 V c 1 t) (ix2 p q)
    = prodArr0 (V c main_arg0) (V c main_arg3) (((cfg0.win 2).blk t).view.emb (ix2 p q))
  rw [oblk0_emb]
  exact pay0_of_rows _ _ _ _ p q _
    (fun k => iblk0_0_apply V c t (ix2 p k) (ix2 _ k) rfl rfl)
    (fun k => iblk0_1_apply V c t (ix2 k q))

theorem mem_oblk0 (t : Fin cfg0.N)
    (i : Shape.Idx PArr) :
    i ∈ ((cfg0.win 2).blk t).view.set
      ↔ ∀ a : Fin 2, win0_2.index t a * win0_2.size a ≤ (i a).val
          ∧ (i a).val < win0_2.index t a * win0_2.size a + win0_2.size a := by
  show i ∈ ((View.whole main_v32).slice (win0_2.rect t)).set ↔ _
  rw [View.set_slice_whole, Rect.mem_set_unit]
  exact Iff.rfl

theorem cover0
    (i : Shape.Idx PArr) :
    ∃ t : Fin cfg0.N, (cfg0.win 2).flush t = true ∧ i ∈ ((cfg0.win 2).blk t).view.set := by
  have hi0 : (i 0).val < 50000 := idx2_lt0 i
  have hi1 : (i 1).val < pcols := idx2_lt1 i
  obtain ⟨t, ht⟩ : ∃ t : Fin cfg0.N, t.val = (i 0).val / 2000 :=
    ⟨⟨(i 0).val / 2000, by rw [show cfg0.N = 25 from N_0]; omega⟩, rfl⟩
  obtain ⟨-, -, -, -, e4, e5⟩ := idx_facts0 t
  refine ⟨t, flush0_2 t, ?_⟩
  rw [mem_oblk0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * pcols ≤ (i 1).val ∧ (i 1).val < win0_2.index t (1 : Fin 2) * pcols + pcols
    rw [e5]; omega

theorem arr0_eq (c : Dev nD) :
    (dat0 (F := Ideal) V c).arrAt 2 cfg0.N = prodArr0 (V c main_arg0) (V c main_arg3) :=
  (dat0 (F := Ideal) V c).arrAt_eq_of_cover 2 (prodArr0 (V c main_arg0) (V c main_arg3))
    (fun t _ => flushed0_eq V c t) cover0

theorem val0 (c : Dev nD) :
    mat ((dat0 (F := Ideal) V c).arrAt 2 cfg0.N) = prod (mat (V c main_arg0)) (mat (V c main_arg3)) := by
  rw [arr0_eq V c]
  funext i j
  rfl

end Cert.KernelIdeal.Reg

end
-- ==== Proof.Ideal.Val1Stats.lean ====
import proofs.«158427_j57105885167694_2_alg».proof.Proof.Ideal.Reg1Stats
import proofs.«158427_j57105885167694_2_alg».proof.Proof.Spec
import Idealize.ShloMosaic.PureOps.Ideal.Laws
import Idealize.ShloMosaic.Lib.ValueLayout
import Idealize.ShloMosaic.Lib.Pipeline.Value
import Idealize.ShloMosaic.Lib.ValueIdx

set_option maxRecDepth 16384

open scoped BigOperators

noncomputable section

namespace Cert.KernelIdeal.Reg

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

section anyF
variable {F : FTy → Type} [FloatOps F]

theorem zeros2 : (![0, 0] : Fin 2 → Nat) = fun _ => 0 := funext fun a => by fin_cases a <;> rfl

section found

variable (c : Dev nD) (i : grid1.Coords)
  (a1 : Memref sig .tc .vmem S2000x128 .f32) (h1 : a1.IsWhole) (a2 : Memref sig .tc .vmem S1x128 .f32) (h2 : a2.IsWhole)
  (a3 : Memref sig .tc .vmem S1x128 .f32) (h3 : a3.IsWhole) (a4 : Memref sig .tc .vmem S1x128 .f32) (h4 : a4.IsWhole)
  (a5 : Memref sig .tc .vmem S1x128 .f32) (h5 : a5.IsWhole) (a6 : Memref sig .tc .vmem S1x128 .f32) (h6 : a6.IsWhole)
  (x : Vec F S2000x128 .f32) (b s q : Vec F S1x128 .f32)

theorem foundS_A (hf : first1 i) (hl : ¬last1 i) :
    View.canon (bodyRun1_A c i a1 h1 a2 h2 a3 h3 a4 h4 a5 h5 a6 h6 hf hl x b).1 = k1_pay4 x b (k1_pay1 (F := F)) := by
  unfold bodyRun1_A
  dsimp only
  sl_unfold_words
  rw [View.canon_cons_unit_zero (S := S1x128) zeros2, View.readCov_unit_zero (S := S1x128) _ zeros2]
  simp only [View.readAt_eq_ld, h1.read_unread, h2.read_unread, View.ld_unit_zero (S := S2000x128) zeros2, View.ld_unit_zero (S := S1x128) zeros2]
theorem foundQ_A (hf : first1 i) (hl : ¬last1 i) :
    View.canon (bodyRun1_A c i a1 h1 a2 h2 a3 h3 a4 h4 a5 h5 a6 h6 hf hl x b).2.1 = k1_pay5 x b (k1_pay2 (F := F)) := by
  unfold bodyRun1_A
  dsimp only
  sl_unfold_words
  rw [View.canon_cons_unit_zero (S := S1x128) zeros2, View.readCov_unit_zero (S := S1x128) _ zeros2]
  simp only [View.readAt_eq_ld, h1.read_unread, h2.read_unread, View.ld_unit_zero (S := S2000x128) zeros2, View.ld_unit_zero (S := S1x128) zeros2]

theorem foundS_B (hf : ¬first1 i) (hl : ¬last1 i) :
    View.canon (bodyRun1_B c i a1 h1 a2 h2 a3 h3 a4 h4 a5 h5 a6 h6 hf hl x b s q).1 = k1_pay4 x b s := by
  unfold bodyRun1_B
  dsimp only
  sl_unfold_words
  rw [View.canon_unit_zero (S := S1x128) zeros2]
  simp only [View.readAt_eq_ld, h1.read_unread, h2.read_unread, h5.read_unread, View.ld_unit_zero (S := S2000x128) zeros2, View.ld_unit_zero (S := S1x128) zeros2]
theorem foundQ_B (hf : ¬first1 i) (hl : ¬last1 i) :
    View.canon (bodyRun1_B c i a1 h1 a2 h2 a3 h3 a4 h4 a5 h5 a6 h6 hf hl x b s q).2.1 = k1_pay5 x b q := by
  unfold bodyRun1_B
  dsimp only
  sl_unfold_words
  rw [View.canon_unit_zero (S := S1x128) zeros2]
  simp only [View.readAt_eq_ld, h1.read_unread, h2.read_unread, h6.read_unread, View.ld_unit_zero (S := S2000x128) zeros2, View.ld_unit_zero (S := S1x128) zeros2]

theorem foundS_C (hf : ¬first1 i) (hl : last1 i) :
    View.canon (bodyRun1_C c i a1 h1 a2 h2 a3 h3 a4 h4 a5 h5 a6 h6 hf hl x b s q).2.2.1 = k1_pay4 x b s := by
  unfold bodyRun1_C
  dsimp only
  sl_unfold_words
  rw [View.canon_unit_zero (S := S1x128) zeros2]
  simp only [View.readAt_eq_ld, h1.read_unread, h2.read_unread, h5.read_unread, View.ld_unit_zero (S := S2000x128) zeros2, View.ld_unit_zero (S := S1x128) zeros2]
theorem foundQ_C (hf : ¬first1 i) (hl : last1 i) :
    View.canon (bodyRun1_C c i a1 h1 a2 h2 a3 h3 a4 h4 a5 h5 a6 h6 hf hl x b s q).2.2.2.1 = k1_pay5 x b q := by
  unfold bodyRun1_C
  dsimp only
  sl_unfold_words
  rw [View.canon_unit_zero (S := S1x128) zeros2]
  simp only [View.readAt_eq_ld, h1.read_unread, h2.read_unread, h6.read_unread, View.ld_unit_zero (S := S2000x128) zeros2, View.ld_unit_zero (S := S1x128) zeros2]
theorem foundM_C (hf : ¬first1 i) (hl : last1 i) :
    View.canon (bodyRun1_C c i a1 h1 a2 h2 a3 h3 a4 h4 a5 h5 a6 h6 hf hl x b s q).1 = k1_pay6 (k1_pay4 x b s) := by
  unfold bodyRun1_C
  dsimp only
  sl_unfold_words
  rw [View.canon_unit_zero (S := S1x128) zeros2, View.readCov_unit_zero (S := S1x128) _ zeros2]
  simp only [View.readAt_eq_ld, h1.read_unread, h2.read_unread, h5.read_unread, View.ld_unit_zero (S := S2000x128) zeros2, View.ld_unit_zero (S := S1x128) zeros2]
theorem foundV_C (hf : ¬first1 i) (hl : last1 i) :
    View.canon (bodyRun1_C c i a1 h1 a2 h2 a3 h3 a4 h4 a5 h5 a6 h6 hf hl x b s q).2.1 = k1_pay7 (k1_pay4 x b s) (k1_pay5 x b q) := by
  unfold bodyRun1_C
  dsimp only
  sl_unfold_words
  rw [View.canon_unit_zero (S := S1x128) zeros2, View.readCov_unit_zero (S := S1x128) _ zeros2, View.readCov_unit_zero (S := S1x128) _ zeros2]
  simp only [View.readAt_eq_ld, h1.read_unread, h2.read_unread, h5.read_unread, h6.read_unread, View.ld_unit_zero (S := S2000x128) zeros2, View.ld_unit_zero (S := S1x128) zeros2]

end found

theorem atA1_eq (c : Dev nD) (t : Fin cfg1.N) (hf : first1 (grid1.coords t)) (hl : ¬last1 (grid1.coords t))
    (x : Vec F S2000x128 .f32) (b : Vec F S1x128 .f32) :
    atA1 c t hf hl x b = ((k1_pay1 (F := F), k1_pay2 (F := F)), (k1_pay4 x b (k1_pay1 (F := F)), k1_pay5 x b (k1_pay2 (F := F)))) := by
  unfold atA1; rw [foundS_A, foundQ_A]
theorem atB1_eq (c : Dev nD) (t : Fin cfg1.N) (hf : ¬first1 (grid1.coords t)) (hl : ¬last1 (grid1.coords t))
    (x : Vec F S2000x128 .f32) (b s q : Vec F S1x128 .f32) :
    atB1 c t hf hl x b s q = ((k1_pay1 (F := F), k1_pay2 (F := F)), (k1_pay4 x b s, k1_pay5 x b q)) := by
  unfold atB1; rw [foundS_B, foundQ_B]
theorem atC1_eq (c : Dev nD) (t : Fin cfg1.N) (hf : ¬first1 (grid1.coords t)) (hl : last1 (grid1.coords t))
    (x : Vec F S2000x128 .f32) (b s q : Vec F S1x128 .f32) :
    atC1 c t hf hl x b s q = ((k1_pay6 (k1_pay4 x b s), k1_pay7 (k1_pay4 x b s) (k1_pay5 x b q)), (k1_pay4 x b s, k1_pay5 x b q)) := by
  unfold atC1; rw [foundM_C, foundV_C, foundS_C, foundQ_C]

end anyF

section payloads

open Idealize.ShloMosaic.ValueIdx Cert.Spec

theorem pay3_at (x : Vec Ideal S2000x128 .f32) (b : Vec Ideal S1x128 .f32) (r : Fin 2000) (j : Fin 128) :
    k1_pay3 x b (ix2 r j) = x (ix2 r j) + b (ix2 (0 : Fin 1) j) := by
  unfold k1_pay3
  (try dsimp only)
  refine (addf_apply _ _ _).trans ?_
  refine congrArg₂ (· + ·) (congrFun (shapeCast_self x _) _) ?_
  refine (broadcastTo_apply _ broadcasts_S1x128_S2000x128 (ix2 r j) (ix2 (0 : Fin 1) j) (fun a => by
    match a with
    | ⟨0, _⟩ => rfl
    | ⟨1, _⟩ => rfl)).trans ?_
  exact congrFun (shapeCast_self b _) _

theorem lift_col (j : Fin 128) (r : Fin 2000) :
    reduces_S2000x128_S128.lift (ix1 j) r = ix2 r j := by
  funext a
  apply Fin.ext
  match a with
  | ⟨0, _⟩ => rfl
  | ⟨1, _⟩ => rfl

theorem colsum_at (y : FVec Ideal S2000x128 .f32) (j : Fin 128) :
    shapeCast S1x128 (multiReduction .add [0] S128 y 0x00000000#32 reduces_S2000x128_S128 (.inl rfl) rfl) shapeCasts_S128_S1x128 (ix2 (0 : Fin 1) j)
      = ∑ r : Fin 2000, y (ix2 r j) := by
  refine (shapeCast_apply _ shapeCasts_S128_S1x128 (ix2 (0 : Fin 1) j) (ix1 j) ?_).trans ?_
  · rw [Shape.rowMajor_val_one, Shape.rowMajor_val_two]
    show j.val = 0 * 128 + j.val
    omega
  refine (Ideal.multiReduction_add_single y 0x00000000#32 reduces_S2000x128_S128 (.inl rfl) rfl (ix1 j)).trans ?_
  show ∑ r : Fin 2000, y (reduces_S2000x128_S128.lift (ix1 j) r) = _
  exact Finset.sum_congr rfl fun r _ => congrArg y (lift_col j r)

theorem pay4_at (x : Vec Ideal S2000x128 .f32) (b s : Vec Ideal S1x128 .f32) (j : Fin 128) :
    k1_pay4 x b s (ix2 (0 : Fin 1) j) = s (ix2 (0 : Fin 1) j) + ∑ r : Fin 2000, (x (ix2 r j) + b (ix2 (0 : Fin 1) j)) := by
  unfold k1_pay4
  (try dsimp only)
  refine (congrFun (shapeCast_self _ _) _).trans ?_
  refine (addf_apply _ _ _).trans ?_
  refine congrArg₂ (· + ·) rfl ?_
  refine (colsum_at _ j).trans ?_
  exact Finset.sum_congr rfl fun r _ => pay3_at x b r j

theorem pay5_at (x : Vec Ideal S2000x128 .f32) (b q : Vec Ideal S1x128 .f32) (j : Fin 128) :
    k1_pay5 x b q (ix2 (0 : Fin 1) j)
      = q (ix2 (0 : Fin 1) j) + ∑ r : Fin 2000, (x (ix2 r j) + b (ix2 (0 : Fin 1) j)) * (x (ix2 r j) + b (ix2 (0 : Fin 1) j)) := by
  unfold k1_pay5
  (try dsimp only)
  refine (congrFun (shapeCast_self _ _) _).trans ?_
  refine (addf_apply _ _ _).trans ?_
  refine congrArg₂ (· + ·) rfl ?_
  refine (colsum_at _ j).trans ?_
  refine Finset.sum_congr rfl fun r _ => ?_
  refine (mulf_apply _ _ _).trans ?_
  rw [pay3_at x b r j]

theorem pay1_at (j : Fin 128) : k1_pay1 (F := Ideal) (ix2 (0 : Fin 1) j) = 0 := by
  unfold k1_pay1
  (try dsimp only)
  refine (congrFun (shapeCast_self _ _) _).trans ?_
  exact Ideal.ofBits_zero_f32
theorem pay2_at (j : Fin 128) : k1_pay2 (F := Ideal) (ix2 (0 : Fin 1) j) = 0 := by
  unfold k1_pay2
  (try dsimp only)
  refine (congrFun (shapeCast_self _ _) _).trans ?_
  exact Ideal.ofBits_zero_f32

theorem pay6_at (s : Vec Ideal S1x128 .f32) (j : Fin 128) :
    k1_pay6 s (ix2 (0 : Fin 1) j) = Ideal.div (s (ix2 (0 : Fin 1) j)) rows := by
  unfold k1_pay6
  (try dsimp only)
  exact divf_apply _ _ _

theorem pay7_at (s q : Vec Ideal S1x128 .f32) (j : Fin 128) :
    k1_pay7 s q (ix2 (0 : Fin 1) j)
      = max (Ideal.div (q (ix2 (0 : Fin 1) j)) rows - Ideal.div (s (ix2 (0 : Fin 1) j)) rows * Ideal.div (s (ix2 (0 : Fin 1) j)) rows) 0 := by
  unfold k1_pay7
  (try dsimp only)
  refine (maximumf_apply _ _ _).trans ?_
  refine congrArg₂ max ?_ Ideal.ofBits_zero_f32
  refine (subf_apply _ _ _).trans ?_
  refine congrArg₂ (· - ·) (divf_apply _ _ _) ?_
  refine (mulf_apply _ _ _).trans ?_
  rw [pay6_at s j]

end payloads

section values

open Idealize.ShloMosaic.ValueIdx Cert.Spec

variable (V : (c : Dev nD) → (b : Ref sig .tc) → Buf (Elt Ideal) ((c : Thread nD τ).loc b))

abbrev xblk (c : Dev nD) (t : Fin cfg1.N) : Vec Ideal S2000x128 .f32 := iblk1 V c 0 t
abbrev bblk (c : Dev nD) (t : Fin cfg1.N) : Vec Ideal S1x128 .f32 := iblk1 V c 1 t
abbrev xarr (c : Dev nD) : Vec Ideal S50000x128 .f32 := V c main_v45
abbrev barr (c : Dev nD) : Vec Ideal S1x128 .f32 := V c main_v46

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

theorem xblk_at (c : Dev nD) (t : Fin cfg1.N) (r : Fin 2000) (j : Fin 128) (h : 2000 * t.val + r.val < 50000) :
    xblk V c t (ix2 r j) = xarr V c (ix2 (⟨2000 * t.val + r.val, h⟩ : Fin 50000) j) := by
  show iblk1 V c 0 t (ix2 r j) = _
  unfold iblk1
  rw [View.read_apply]
  show V c main_v45 _ = V c main_v45 _
  congr 1
  funext a
  apply Fin.ext
  match a with
  | ⟨0, _⟩ => show win1_0.index t 0 * 2000 + 1 * r.val = 2000 * t.val + r.val; rw [(idx1_0 t).1]; omega
  | ⟨1, _⟩ => show win1_0.index t 1 * 128 + 1 * j.val = j.val; rw [(idx1_0 t).2]; omega

theorem bblk_at (c : Dev nD) (t : Fin cfg1.N) (j : Fin 128) :
    bblk V c t (ix2 (0 : Fin 1) j) = barr V c (ix2 (0 : Fin 1) j) := by
  show iblk1 V c 1 t (ix2 (0 : Fin 1) j) = _
  unfold iblk1
  rw [View.read_apply]
  show V c main_v46 _ = V c main_v46 _
  congr 1
  funext a
  apply Fin.ext
  match a with
  | ⟨0, _⟩ => show win1_1.index t 0 * 1 + 1 * 0 = 0; rw [(idx1_1 t).1]
  | ⟨1, _⟩ => show win1_1.index t 1 * 128 + 1 * j.val = j.val; rw [(idx1_1 t).2]; omega

def hrow (c : Dev nD) (i : ℕ) (j : Fin 128) : EReal :=
  if h : i < 50000 then xarr V c (ix2 (⟨i, h⟩ : Fin 50000) j) + barr V c (ix2 (0 : Fin 1) j) else 0

theorem blockrow (c : Dev nD) (t : Fin cfg1.N) (r : Fin 2000) (j : Fin 128) :
    xblk V c t (ix2 r j) + bblk V c t (ix2 (0 : Fin 1) j) = hrow V c (2000 * t.val + r.val) j := by
  have hN : t.val < 25 := lt_of_lt_of_eq t.isLt (show cfg1.N = 25 from N_1)
  have h : 2000 * t.val + r.val < 50000 := by have := r.isLt; omega
  rw [xblk_at V c t r j h, bblk_at V c t j]
  unfold hrow
  rw [dif_pos h]

theorem blocksum (c : Dev nD) (t : Fin cfg1.N) (j : Fin 128) :
    ∑ r : Fin 2000, (xblk V c t (ix2 r j) + bblk V c t (ix2 (0 : Fin 1) j))
      = ∑ r ∈ Finset.range 2000, hrow V c (2000 * t.val + r) j := by
  rw [← Fin.sum_univ_eq_sum_range (fun r => hrow V c (2000 * t.val + r) j) 2000]
  exact Finset.sum_congr rfl fun r _ => blockrow V c t r j

theorem blocksumsq (c : Dev nD) (t : Fin cfg1.N) (j : Fin 128) :
    ∑ r : Fin 2000, (xblk V c t (ix2 r j) + bblk V c t (ix2 (0 : Fin 1) j)) * (xblk V c t (ix2 r j) + bblk V c t (ix2 (0 : Fin 1) j))
      = ∑ r ∈ Finset.range 2000, hrow V c (2000 * t.val + r) j * hrow V c (2000 * t.val + r) j := by
  rw [← Fin.sum_univ_eq_sum_range (fun r => hrow V c (2000 * t.val + r) j * hrow V c (2000 * t.val + r) j) 2000]
  exact Finset.sum_congr rfl fun r _ => by rw [blockrow V c t r j]

theorem step_sum (c : Dev nD) (t : Fin cfg1.N) (s : Vec Ideal S1x128 .f32) (j : Fin 128)
    (hs : s (ix2 (0 : Fin 1) j) = ∑ i ∈ Finset.range (2000 * t.val), hrow V c i j) :
    k1_pay4 (xblk V c t) (bblk V c t) s (ix2 (0 : Fin 1) j) = ∑ i ∈ Finset.range (2000 * (t.val + 1)), hrow V c i j := by
  refine (pay4_at _ _ _ j).trans ?_
  rw [hs, blocksum V c t j, Nat.mul_succ, Finset.sum_range_add]

theorem step_sq (c : Dev nD) (t : Fin cfg1.N) (q : Vec Ideal S1x128 .f32) (j : Fin 128)
    (hq : q (ix2 (0 : Fin 1) j) = ∑ i ∈ Finset.range (2000 * t.val), hrow V c i j * hrow V c i j) :
    k1_pay5 (xblk V c t) (bblk V c t) q (ix2 (0 : Fin 1) j) = ∑ i ∈ Finset.range (2000 * (t.val + 1)), hrow V c i j * hrow V c i j := by
  refine (pay5_at _ _ _ j).trans ?_
  rw [hq, blocksumsq V c t j, Nat.mul_succ, Finset.sum_range_add]

theorem sums_at (c : Dev nD) : ∀ (n : ℕ) (h : n < cfg1.N) (j : Fin 128),
    (outsAt1 V c n h).2.1 (ix2 (0 : Fin 1) j) = ∑ i ∈ Finset.range (2000 * (n + 1)), hrow V c i j
    ∧ (outsAt1 V c n h).2.2 (ix2 (0 : Fin 1) j) = ∑ i ∈ Finset.range (2000 * (n + 1)), hrow V c i j * hrow V c i j
  | 0, h, j => by
    rw [show outsAt1 V c 0 h = _ from outsAt1_A V c ⟨0, h⟩ rfl, atA1_eq]
    dsimp only
    exact ⟨step_sum V c ⟨0, h⟩ _ j (by rw [pay1_at]; simp), step_sq V c ⟨0, h⟩ _ j (by rw [pay2_at]; simp)⟩
  | n + 1, h, j => by
    have ih := sums_at c n (Nat.lt_of_succ_lt h) j
    by_cases hL : n + 1 = 24
    · rw [show outsAt1 V c (n + 1) h = _ from outsAt1_C V c ⟨n + 1, h⟩ (Nat.succ_ne_zero n) hL, atC1_eq]
      dsimp only
      exact ⟨step_sum V c ⟨n + 1, h⟩ _ j ih.1, step_sq V c ⟨n + 1, h⟩ _ j ih.2⟩
    · rw [show outsAt1 V c (n + 1) h = _ from outsAt1_B V c ⟨n + 1, h⟩ (Nat.succ_ne_zero n) hL, atB1_eq]
      dsimp only
      exact ⟨step_sum V c ⟨n + 1, h⟩ _ j ih.1, step_sq V c ⟨n + 1, h⟩ _ j ih.2⟩

abbrev tLast1 : Fin cfg1.N := ⟨24, by rw [show cfg1.N = 25 from N_1]; omega⟩

abbrev meanRow (c : Dev nD) : Buf (Elt Ideal) ((c : Thread nD τ).loc main_v49_0) := (outsAt1 V c tLast1.val tLast1.isLt).1.1
abbrev varRow (c : Dev nD) : Buf (Elt Ideal) ((c : Thread nD τ).loc main_v49_1) := (outsAt1 V c tLast1.val tLast1.isLt).1.2

theorem wrote1_2 (c : Dev nD) (t : Fin cfg1.N) (hf : (cfg1.win 2).flush t = true) :
    (dat1 V c).flushed 2 t = ((cfg1.win 2).blk t).view.read (Elt Ideal) (meanRow V c) := by
  have hN : cfg1.N = 25 := N_1
  have h24 : t.val = 24 := by have := (flush1_2 t).mp hf; have := t.isLt; omega
  obtain rfl : t = tLast1 := Fin.ext h24
  show (cfg1.win 2).cut (grid1.coords tLast1) ((dat1 V c).after 2 tLast1) = _
  rw [after1_2]
  have hz' : (fun a => win1_2.index tLast1 a * main_v49_0.ty.shape.size a) = fun _ => 0 := funext fun a => by fin_cases a <;> decide
  exact (Memref.read_access_unit_zero (Elt Ideal) main_v49_0 hz' (fun a => by rw [congrFun hz' a]; simp) (meanRow V c)).symm

theorem wrote1_3 (c : Dev nD) (t : Fin cfg1.N) (hf : (cfg1.win 3).flush t = true) :
    (dat1 V c).flushed 3 t = ((cfg1.win 3).blk t).view.read (Elt Ideal) (varRow V c) := by
  have hN : cfg1.N = 25 := N_1
  have h24 : t.val = 24 := by have := (flush1_3 t).mp hf; have := t.isLt; omega
  obtain rfl : t = tLast1 := Fin.ext h24
  show (cfg1.win 3).cut (grid1.coords tLast1) ((dat1 V c).after 3 tLast1) = _
  rw [after1_3]
  have hz' : (fun a => win1_3.index tLast1 a * main_v49_1.ty.shape.size a) = fun _ => 0 := funext fun a => by fin_cases a <;> decide
  exact (Memref.read_access_unit_zero (Elt Ideal) main_v49_1 hz' (fun a => by rw [congrFun hz' a]; simp) (varRow V c)).symm

theorem final1_2 (c : Dev nD) : (dat1 V c).arrAt 2 cfg1.N = meanRow V c :=
  (dat1 V c).arrAt_eq_of_cover 2 (meanRow V c) (wrote1_2 V c) fun i =>
    ⟨tLast1, (flush1_2 tLast1).mpr rfl, by
      show i ∈ ((View.whole main_v49_0).slice (win1_2.rect tLast1)).set
      rw [View.set_slice_whole, Rect.mem_set_unit]
      intro a
      have h0 : (i 0 : Nat) < 1 := (i 0).isLt
      have h1 : (i 1 : Nat) < 128 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [show win1_2.index tLast1 0 * win1_2.size 0 = 0 from by decide +kernel, show win1_2.xsize (grid1.coords tLast1) 0 = 1 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [show win1_2.index tLast1 1 * win1_2.size 1 = 0 from by decide +kernel, show win1_2.xsize (grid1.coords tLast1) 1 = 128 from by decide +kernel]; omega⟩

theorem final1_3 (c : Dev nD) : (dat1 V c).arrAt 3 cfg1.N = varRow V c :=
  (dat1 V c).arrAt_eq_of_cover 3 (varRow V c) (wrote1_3 V c) fun i =>
    ⟨tLast1, (flush1_3 tLast1).mpr rfl, by
      show i ∈ ((View.whole main_v49_1).slice (win1_3.rect tLast1)).set
      rw [View.set_slice_whole, Rect.mem_set_unit]
      intro a
      have h0 : (i 0 : Nat) < 1 := (i 0).isLt
      have h1 : (i 1 : Nat) < 128 := (i 1).isLt
      match a with
      | ⟨0, _⟩ => show win1_3.index tLast1 0 * win1_3.size 0 ≤ (i 0 : Nat) ∧ (i 0 : Nat) < win1_3.index tLast1 0 * win1_3.size 0 + win1_3.xsize (grid1.coords tLast1) 0
                  rw [show win1_3.index tLast1 0 * win1_3.size 0 = 0 from by decide +kernel, show win1_3.xsize (grid1.coords tLast1) 0 = 1 from by decide +kernel]; omega
      | ⟨1, _⟩ => show win1_3.index tLast1 1 * win1_3.size 1 ≤ (i 1 : Nat) ∧ (i 1 : Nat) < win1_3.index tLast1 1 * win1_3.size 1 + win1_3.xsize (grid1.coords tLast1) 1
                  rw [show win1_3.index tLast1 1 * win1_3.size 1 = 0 from by decide +kernel, show win1_3.xsize (grid1.coords tLast1) 1 = 128 from by decide +kernel]; omega⟩

theorem allrows (c : Dev nD) (j : Fin 128) :
    ∑ i ∈ Finset.range 50000, hrow V c i j = ∑ i : Fin 50000, shift (mat (V c main_v45)) (row (V c main_v46)) i j := by
  rw [← Fin.sum_univ_eq_sum_range (fun i => hrow V c i j) 50000]
  exact Finset.sum_congr rfl fun i _ => by unfold hrow; rw [dif_pos i.isLt]; rfl
theorem allrowssq (c : Dev nD) (j : Fin 128) :
    ∑ i ∈ Finset.range 50000, hrow V c i j * hrow V c i j
      = ∑ i : Fin 50000, shift (mat (V c main_v45)) (row (V c main_v46)) i j * shift (mat (V c main_v45)) (row (V c main_v46)) i j := by
  rw [← Fin.sum_univ_eq_sum_range (fun i => hrow V c i j * hrow V c i j) 50000]
  exact Finset.sum_congr rfl fun i _ => by unfold hrow; rw [dif_pos i.isLt]; rfl

theorem last_of_sums (c : Dev nD) :
    (outsAt1 V c tLast1.val tLast1.isLt).1
      = (k1_pay6 (outsAt1 V c tLast1.val tLast1.isLt).2.1,
         k1_pay7 (outsAt1 V c tLast1.val tLast1.isLt).2.1 (outsAt1 V c tLast1.val tLast1.isLt).2.2) := by
  rw [outsAt1_C V c tLast1 (by decide) rfl, atC1_eq]

theorem last_rows (c : Dev nD) (j : Fin 128) :
    meanRow V c (ix2 (0 : Fin 1) j) = Ideal.div (∑ i ∈ Finset.range 50000, hrow V c i j) rows
    ∧ varRow V c (ix2 (0 : Fin 1) j)
        = max (Ideal.div (∑ i ∈ Finset.range 50000, hrow V c i j * hrow V c i j) rows
            - Ideal.div (∑ i ∈ Finset.range 50000, hrow V c i j) rows * Ideal.div (∑ i ∈ Finset.range 50000, hrow V c i j) rows) 0 := by
  have hall := sums_at V c tLast1.val tLast1.isLt j
  have e : 2000 * (tLast1.val + 1) = 50000 := rfl
  rw [e] at hall
  constructor
  · show (outsAt1 V c tLast1.val tLast1.isLt).1.1 (ix2 (0 : Fin 1) j) = _
    rw [last_of_sums V c]
    refine (pay6_at _ j).trans ?_
    rw [hall.1]
  · show (outsAt1 V c tLast1.val tLast1.isLt).1.2 (ix2 (0 : Fin 1) j) = _
    rw [last_of_sums V c]
    refine (pay7_at _ _ j).trans ?_
    rw [hall.1, hall.2]

theorem val1_mean (c : Dev nD) :
    row ((dat1 (F := Ideal) V c).arrAt 2 cfg1.N) = mean (shift (mat (V c main_v45)) (row (V c main_v46))) := by
  funext j
  show (dat1 (F := Ideal) V c).arrAt 2 cfg1.N (ix2 (0 : Fin 1) j) = _
  rw [final1_2 V c]
  refine ((last_rows V c j).1).trans ?_
  unfold mean
  rw [allrows V c j]

theorem val1_var (c : Dev nD) :
    row ((dat1 (F := Ideal) V c).arrAt 3 cfg1.N) = varOnePass (shift (mat (V c main_v45)) (row (V c main_v46))) := by
  funext j
  show (dat1 (F := Ideal) V c).arrAt 3 cfg1.N (ix2 (0 : Fin 1) j) = _
  rw [final1_3 V c]
  refine ((last_rows V c j).2).trans ?_
  unfold varOnePass mean
  rw [allrows V c j, allrowssq V c j]

end values

end Cert.KernelIdeal.Reg

end
-- ==== Proof.Ideal.Val2Norm.lean ====
import proofs.«158427_j57105885167694_2_alg».proof.Proof.Ideal.Reg2Norm
import proofs.«158427_j57105885167694_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg

open Cert.KernelIdeal Cert.KernelIdeal.Gen Cert.Spec
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOffsets2 : (![0, 0] : Fin 2 → Nat) = fun _ => 0 := funext fun a => by fin_cases a <;> rfl

theorem rsqrt_at2 {s : Shape} {φ : FTy} (a : FVec Ideal s φ) (i : s.Idx) : rsqrt a i = Ideal.rsqrt (a i) := rfl

theorem out2_6_apply (x0 : Vec Ideal S2000x128 .f32) (x1 x2 x3 x4 x5 : Vec Ideal S1x128 .f32) (p : Fin 2000) (q : Fin 128) :
    out2_6 x0 x1 x2 x3 x4 x5 (ix2 p q)
      = max (x4 (ix2 (0 : Fin 1) q) * ((x0 (ix2 p q) + x1 (ix2 (0 : Fin 1) q)) - x2 (ix2 (0 : Fin 1) q))
          * Ideal.rsqrt (x3 (ix2 (0 : Fin 1) q) + eps) + x5 (ix2 (0 : Fin 1) q)) 0 := by
  unfold out2_6
  rw [View.canon_unit_zero zeroOffsets2]
  simp only [View.ld_unit_zero (S := S2000x128) zeroOffsets2, View.ld_unit_zero (S := S1x128) zeroOffsets2]
  unfold k2_pay1
  simp only [maximumf_apply, addf_apply, mulf_apply, subf_apply, rsqrt_at2, broadcast_apply, shapeCast_self,
    broadcastTo_1b_ab_apply, Scalar.ofBits, Ideal.ofBits_def, Ideal.ofBits_zero_f32]
  rfl

theorem blockIndex2 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem iblk2_0_apply (c : Dev nD) (t : Fin cfg2.N) (p : Fin 2000) (q : Fin 128) (r : Fin 50000)
    (hr : r.val = 2000 * t.val + p.val) :
    (iblk2 V c 0 t : Vec Ideal S2000x128 .f32) (ix2 p q) = mat (V c main_v45) r q := by
  obtain ⟨e0, e1, -⟩ := blockIndex2 t
  unfold iblk2
  rw [View.read_apply]
  show V c main_v45 _ = V c main_v45 (ix2 r q)
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * q.val = q.val; rw [e1]; omega

theorem iblk2_1_apply (c : Dev nD) (t : Fin cfg2.N) (q : Fin 128) :
    (iblk2 V c 1 t : Vec Ideal S1x128 .f32) (ix2 (0 : Fin 1) q) = row (V c main_v46) q := by
  obtain ⟨-, -, -, -, e0, e1, -, -, -, -, -, -, -, -⟩ := blockIndex2 t
  unfold iblk2
  rw [View.read_apply]
  show V c main_v46 _ = V c main_v46 (ix2 (0 : Fin 1) q)
  congr 1
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

theorem iblk2_2_apply (c : Dev nD) (t : Fin cfg2.N) (q : Fin 128) :
    (iblk2 V c 2 t : Vec Ideal S1x128 .f32) (ix2 (0 : Fin 1) q) = row (V c main_v49_0) q := by
  obtain ⟨-, -, -, -, -, -, e0, e1, -, -, -, -, -, -⟩ := blockIndex2 t
  unfold iblk2
  rw [View.read_apply]
  show V c main_v49_0 _ = V c main_v49_0 (ix2 (0 : Fin 1) q)
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

theorem iblk2_3_apply (c : Dev nD) (t : Fin cfg2.N) (q : Fin 128) :
    (iblk2 V c 3 t : Vec Ideal S1x128 .f32) (ix2 (0 : Fin 1) q) = row (V c main_v49_1) q := by
  obtain ⟨-, -, -, -, -, -, -, -, e0, e1, -, -, -, -⟩ := blockIndex2 t
  unfold iblk2
  rw [View.read_apply]
  show V c main_v49_1 _ = V c main_v49_1 (ix2 (0 : Fin 1) q)
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

theorem iblk2_4_apply (c : Dev nD) (t : Fin cfg2.N) (q : Fin 128) :
    (iblk2 V c 4 t : Vec Ideal S1x128 .f32) (ix2 (0 : Fin 1) q) = row (V c main_v47) q := by
  obtain ⟨-, -, -, -, -, -, -, -, -, -, e0, e1, -, -⟩ := blockIndex2 t
  unfold iblk2
  rw [View.read_apply]
  show V c main_v47 _ = V c main_v47 (ix2 (0 : Fin 1) q)
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

theorem iblk2_5_apply (c : Dev nD) (t : Fin cfg2.N) (q : Fin 128) :
    (iblk2 V c 5 t : Vec Ideal S1x128 .f32) (ix2 (0 : Fin 1) q) = row (V c main_v48) q := by
  obtain ⟨-, -, -, -, -, -, -, -, -, -, -, -, e0, e1⟩ := blockIndex2 t
  unfold iblk2
  rw [View.read_apply]
  show V c main_v48 _ = V c main_v48 (ix2 (0 : Fin 1) q)
  congr 1
  funext a
  apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega

def normArr2 (c : Dev nD) : S50000x128.Idx → EReal :=
  fun i => normRelu (shift (mat (V c main_v45)) (row (V c main_v46))) (row (V c main_v49_0)) (row (V c main_v49_1)) (row (V c main_v47)) (row (V c main_v48)) (i 0) (i 1)

theorem out2_6_at (c : Dev nD) (t : Fin cfg2.N) (p : Fin 2000) (q : Fin 128) (r : Fin 50000)
    (hr : r.val = 2000 * t.val + p.val) :
    out2_6 (iblk2 V c 0 t) (iblk2 V c 1 t) (iblk2 V c 2 t) (iblk2 V c 3 t) (iblk2 V c 4 t) (iblk2 V c 5 t) (ix2 p q) = normArr2 V c (ix2 r q) := by
  refine (out2_6_apply _ _ _ _ _ _ p q).trans ?_
  rw [iblk2_0_apply V c t p q r hr, iblk2_1_apply, iblk2_2_apply, iblk2_3_apply, iblk2_4_apply, iblk2_5_apply]
  rfl

theorem flushed2_6_eq (c : Dev nD) (t : Fin cfg2.N) :
    (dat2 V c).flushed 6 t = ((cfg2.win 6).blk t).view.read (Elt Ideal) (normArr2 V c) := by
  show (cfg2.win 6).cut (grid2.coords t) ((dat2 V c).after 6 t) = _
  rw [after2_6]
  funext j
  obtain ⟨p, q, rfl⟩ : ∃ (p : Fin 2000) (q : Fin 128), j = ix2 p q := ⟨j 0, j 1, eq_ix2 j⟩
  have hN : cfg2.N = 25 := N_2
  have ht : t.val < 25 := hN ▸ t.isLt
  obtain ⟨-, -, e0, e1, -⟩ := blockIndex2 t
  have he : ((cfg2.win 6).blk t).view.emb (ix2 p q) = ix2 (⟨2000 * t.val + p.val, by omega⟩ : Fin 50000) q := by
    funext a
    apply Fin.ext
    match a with
    | ⟨0, _⟩ => show win2_6.index t (0 : Fin 2) * 2000 + 1 * p.val = 2000 * t.val + p.val; rw [e0]; omega
    | ⟨1, _⟩ => show win2_6.index t (1 : Fin 2) * 128 + 1 * q.val = q.val; rw [e1]; omega
  show out2_6 (iblk2 V c 0 t) (iblk2 V c 1 t) (iblk2 V c 2 t) (iblk2 V c 3 t) (iblk2 V c 4 t) (iblk2 V c 5 t) (ix2 p q) = normArr2 V c (((cfg2.win 6).blk t).view.emb (ix2 p q))
  rw [he]
  exact out2_6_at V c t p q _ rfl

theorem mem_blk2_6 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v50).slice (win2_6.rect t)).set ↔ _
  rw [View.set_slice_whole, Rect.mem_set_unit]
  exact Iff.rfl

theorem rows_covered2 (i : S50000x128.Idx) :
    ∃ t : Fin cfg2.N, (cfg2.win 6).flush t = true ∧ i ∈ ((cfg2.win 6).blk t).view.set := by
  have hN : cfg2.N = 25 := N_2
  have hi0 : (i 0).val < 50000 := (i 0).isLt
  have hi1 : (i 1).val < 128 := (i 1).isLt
  have ht : (i 0).val / 2000 < cfg2.N := by rw [hN]; omega
  obtain ⟨-, -, e0, e1, -⟩ := blockIndex2 ⟨(i 0).val / 2000, ht⟩
  refine ⟨⟨(i 0).val / 2000, ht⟩, flush2_6 _, ?_⟩
  rw [mem_blk2_6]
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [e1]; omega

theorem final2_6 (c : Dev nD) : (dat2 V c).arrAt 6 cfg2.N = normArr2 V c :=
  (dat2 V c).arrAt_eq_of_cover 6 (normArr2 V c) (fun t _ => flushed2_6_eq V c t) rows_covered2

theorem val2 (c : Dev nD) : mat ((dat2 (F := Ideal) V c).arrAt 6 cfg2.N) = normRelu (shift (mat (V c main_v45)) (row (V c main_v46))) (row (V c main_v49_0)) (row (V c main_v49_1)) (row (V c main_v47)) (row (V c main_v48)) := by
  rw [final2_6]
  rfl

end Cert.KernelIdeal.Reg

end
-- ==== Proof.Ideal.Val3Matmul.lean ====
/-
  What the second matrix product leaves in its result array.
  At a grid point the body stores one value, the product of the block of 2000 rows of the left factor it
  read and of the whole right factor; over the extended reals narrowing a factor to bf16 changes nothing
  and the zero the product is accumulated onto drops, so entry (p, q) of that value is
  ∑ k, x (p, k) · w (k, q). Point t writes it back as rows 2000·t … 2000·t + 1999 of the result, and
  those are the same rows of the product of the two whole arrays; the 25 points' blocks cover all 50000
  rows (row r lies in the block of point r / 2000), so the result array ends holding that product.
-/
import proofs.«158427_j57105885167694_2_alg».proof.Proof.Ideal.Reg3Matmul
import proofs.«158427_j57105885167694_2_alg».proof.Proof.Spec
import Idealize.ShloMosaic.Lib.ValueIdx
import Idealize.ShloMosaic.Lib.Pipeline.Value
import Idealize.ShloMosaic.PureOps.Ideal.Laws

set_option maxRecDepth 16384

open scoped BigOperators

noncomputable section

namespace Cert.KernelIdeal.Reg

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The shape of a block of rows of the product, the shape of the whole product, and the number of the
    product's columns (which is the right factor's). -/
local notation "PBlk" => S2000x128
local notation "PArr" => S50000x128
local notation "pcols" => 128

/-! ## The product of two blocks at an entry -/

/-- The left factor is read at the output's row … -/
theorem lhs3_row
    (i : Shape.Idx PBlk)
    (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and the summation index's column; -/
theorem lhs3_col
    (i : Shape.Idx PBlk)
    (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right factor at the summation index's row … -/
theorem rhs3_row
    (i : Shape.Idx PBlk)
    (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem rhs3_col
    (i : Shape.Idx PBlk)
    (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (p, q) of the body's stored value: the sum over k of x (p, k) · w (k, q). (Narrowing to bf16 is the
    identity here, and so is a reshaping of a block to its own shape, where the body has one.) -/
theorem pay3_apply
    (x0 : Vec Ideal S2000x128 .f32)
    (x1 : Vec Ideal S128x128 .f32)
    (p : Fin 2000) (q : Fin pcols) :
    k3_pay1 x0 x1 (ix2 p q) = ∑ k : Fin 128, x0 (ix2 p k) * x1 (ix2 k q) := by
  unfold k3_pay1
  simp only [matmul, shapeCast_self]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs3_row _ _
      | ⟨1, _⟩ => exact (lhs3_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs3_row _ _).trans hk
      | ⟨1, _⟩ => exact rhs3_col _ _)
  rw [el, er]
  rfl

/-! ## From blocks to the array -/

theorem zero_off3 : (![0, 0] : Fin 2 → Nat) = fun _ => 0 := funext fun a => by fin_cases a <;> rfl

/-- The product of two whole arrays, entry by entry. -/
abbrev prodArr3
    (a : S50000x128.Idx → EReal)
    (b : S128x128.Idx → EReal) :
    Shape.Idx PArr → EReal :=
  fun i => ∑ k : Fin 128, a (ix2 (i 0) k) * b (ix2 k (i 1))

/-- Where each window's block sits at point t: the left factor's and the result's at block row t, the right
    factor's always at the origin. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem point_lt3 (t : Fin cfg3.N) : t.val < 25 := lt_of_lt_of_eq t.isLt N_3

/-- The left factor's block at point t is rows 2000·t … 2000·t + 1999 of the left array. -/
theorem iblk3_0_apply (c : Dev nD) (t : Fin cfg3.N)
    (y : S2000x128.Idx)
    (i : S50000x128.Idx)
    (h0 : (i 0).val = 2000 * t.val + (y 0).val) (h1 : (i 1).val = (y 1).val) :
    (iblk3 V c 0 t : Vec Ideal S2000x128 .f32) y = (V c main_v50 : S50000x128.Idx → EReal) i := by
  obtain ⟨e0, e1, -⟩ := idx_facts3 t
  unfold iblk3
  rw [View.read_apply]
  show V c main_v50 _ = V c main_v50 _
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 128 + 1 * (y 1).val = (i 1).val; rw [e1, h1]; omega

/-- The right factor's block at every point is the whole right array. -/
theorem iblk3_1_apply (c : Dev nD) (t : Fin cfg3.N)
    (y : S128x128.Idx) :
    (iblk3 V c 1 t : Vec Ideal S128x128 .f32) y = (V c main_arg7 : S128x128.Idx → EReal) y := by
  obtain ⟨-, -, e2, e3, -⟩ := idx_facts3 t
  unfold iblk3
  rw [View.read_apply]
  show V c main_arg7 _ = V c main_arg7 _
  congr 1
  funext a
  apply Fin.ext
  match a with
  | ⟨0, _⟩ => show win3_1.index t (0 : Fin 2) * 128 + 1 * (y 0).val = (y 0).val; rw [e2]; omega
  | ⟨1, _⟩ => show win3_1.index t (1 : Fin 2) * pcols + 1 * (y 1).val = (y 1).val; rw [e3]; omega

/-- Entry (p, q) of the result's block at point t sits at row 2000·t + p, column q of the result array. -/
theorem oblk3_emb (t : Fin cfg3.N)
    (p : Fin 2000) (q : Fin pcols) :
    ((cfg3.win 2).blk t).view.emb (ix2 p q)
      = (ix2 (⟨2000 * t.val + p.val, by have := point_lt3 t; omega⟩ : Fin 50000) q : Shape.Idx PArr) := by
  obtain ⟨-, -, -, -, e4, e5⟩ := idx_facts3 t
  funext a
  apply Fin.ext
  match a with
  | ⟨0, _⟩ => show win3_2.index t (0 : Fin 2) * 2000 + 1 * p.val = 2000 * t.val + p.val; rw [e4]; omega
  | ⟨1, _⟩ => show win3_2.index t (1 : Fin 2) * pcols + 1 * q.val = q.val; rw [e5]; omega

/-- The product of two blocks at an entry, when the left block's row p is row r of an array A and the right
    block is an array B: the entry (r, q) of the product of A and B. -/
theorem pay3_of_rows
    (x0 : Vec Ideal S2000x128 .f32)
    (x1 : Vec Ideal S128x128 .f32)
    (A : S50000x128.Idx → EReal)
    (B : S128x128.Idx → EReal)
    (p : Fin 2000) (q : Fin pcols) (r : Fin 50000)
    (hx : ∀ k : Fin 128, x0 (ix2 p k) = A (ix2 r k))
    (hw : ∀ k : Fin 128, x1 (ix2 k q) = B (ix2 k q)) :
    k3_pay1 x0 x1 (ix2 p q) = prodArr3 A B (ix2 r q) := by
  rw [pay3_apply]
  exact Finset.sum_congr rfl fun k _ => by rw [hx k, hw k]

/-- What point t writes back is block t of the product of the two arrays as the region finds them. -/
theorem flushed3_eq (c : Dev nD) (t : Fin cfg3.N) :
    (dat3 (F := Ideal) V c).flushed 2 t
      = ((cfg3.win 2).blk t).view.read (Elt Ideal) (prodArr3 (V c main_v50) (V c main_arg7)) := by
  show (cfg3.win 2).cut (grid3.coords t) ((dat3 (F := Ideal) V c).after 2 t) = _
  rw [after3_2]
  unfold out3_2
  rw [View.canon_unit_zero zero_off3]
  simp only [View.ld_unit_zero (S := S2000x128) zero_off3, View.ld_unit_zero (S := S128x128) zero_off3]
  funext j
  obtain ⟨p, q, rfl⟩ : ∃ (p : Fin 2000) (q : Fin pcols), j = ix2 p q := ⟨j 0, j 1, eq_ix2 j⟩
  show k3_pay1 (iblk3 V c 0 t) (iblk3 V c 1 t) (ix2 p q)
    = prodArr3 (V c main_v50) (V c main_arg7) (((cfg3.win 2).blk t).view.emb (ix2 p q))
  rw [oblk3_emb]
  exact pay3_of_rows _ _ _ _ p q _
    (fun k => iblk3_0_apply V c t (ix2 p k) (ix2 _ k) rfl rfl)
    (fun k => iblk3_1_apply V c t (ix2 k q))

/-- An index of the result array is in point t's block iff each coordinate is in the block's range. -/
theorem mem_oblk3 (t : Fin cfg3.N)
    (i : Shape.Idx PArr) :
    i ∈ ((cfg3.win 2).blk t).view.set
      ↔ ∀ a : Fin 2, win3_2.index t a * win3_2.size a ≤ (i a).val
          ∧ (i a).val < win3_2.index t a * win3_2.size a + win3_2.size a := by
  show i ∈ ((View.whole main_v51).slice (win3_2.rect t)).set ↔ _
  rw [View.set_slice_whole, Rect.mem_set_unit]
  exact Iff.rfl

/-- Every index of the result array is in some point's block: row r in that of point r / 2000. -/
theorem cover3
    (i : Shape.Idx PArr) :
    ∃ t : Fin cfg3.N, (cfg3.win 2).flush t = true ∧ i ∈ ((cfg3.win 2).blk t).view.set := by
  have hi0 : (i 0).val < 50000 := idx2_lt0 i
  have hi1 : (i 1).val < pcols := idx2_lt1 i
  obtain ⟨t, ht⟩ : ∃ t : Fin cfg3.N, t.val = (i 0).val / 2000 :=
    ⟨⟨(i 0).val / 2000, by rw [show cfg3.N = 25 from N_3]; omega⟩, rfl⟩
  obtain ⟨-, -, -, -, e4, e5⟩ := idx_facts3 t
  refine ⟨t, flush3_2 t, ?_⟩
  rw [mem_oblk3]
  intro a
  match a with
  | ⟨0, _⟩ =>
    show win3_2.index t (0 : Fin 2) * 2000 ≤ (i 0).val ∧ (i 0).val < win3_2.index t (0 : Fin 2) * 2000 + 2000
    rw [e4, ht]; omega
  | ⟨1, _⟩ =>
    show win3_2.index t (1 : Fin 2) * pcols ≤ (i 1).val ∧ (i 1).val < win3_2.index t (1 : Fin 2) * pcols + pcols
    rw [e5]; omega

/-- The result array after the region: the product of the two arrays, entry by entry. -/
theorem arr3_eq (c : Dev nD) :
    (dat3 (F := Ideal) V c).arrAt 2 cfg3.N = prodArr3 (V c main_v50) (V c main_arg7) :=
  (dat3 (F := Ideal) V c).arrAt_eq_of_cover 2 (prodArr3 (V c main_v50) (V c main_arg7))
    (fun t _ => flushed3_eq V c t) cover3

/-- The region's result, as matrices: the product of the left array and the right array. -/
theorem val3 (c : Dev nD) :
    mat ((dat3 (F := Ideal) V c).arrAt 2 cfg3.N) = prod (mat (V c main_v50)) (mat (V c main_arg7)) := by
  rw [arr3_eq V c]
  funext i j
  rfl

end Cert.KernelIdeal.Reg

end
-- ==== Proof.Ideal.Val4Stats.lean ====
/-
  The batch-norm statistics region, read as values over the extended reals. Each carried row after a block is one
  payload of the body: the row the block before left plus the block's column sums of x + b (resp. of (x + b)²), from
  the zero row at the first block. Row r of block t is row 2000·t + r of the 50000 × 128 array, so after block n the
  carried rows hold, per column, the sums over the first 2000·(n + 1) rows; after the last block those are the sums
  over all 50000 rows, and the two result rows, written back once and whole, are
      mean = S / 50000,      variance = max(Q / 50000 − mean², 0)
  of the matrix x with b added to every row.
-/
import proofs.«158427_j57105885167694_2_alg».proof.Proof.Ideal.Reg4Stats
import proofs.«158427_j57105885167694_2_alg».proof.Proof.Spec
import Idealize.ShloMosaic.PureOps.Ideal.Laws
import Idealize.ShloMosaic.Lib.ValueLayout
import Idealize.ShloMosaic.Lib.Pipeline.Value
import Idealize.ShloMosaic.Lib.ValueIdx

set_option maxRecDepth 16384

open scoped BigOperators

noncomputable section

namespace Cert.KernelIdeal.Reg

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

section anyF
variable {F : FTy → Type} [FloatOps F]

/-! ## What the three runs found, read back: each carried row and each result row after a block is ONE payload of the
    body, of the block's inputs and of the rows the block before left -/

theorem zeros2_r4 : (![0, 0] : Fin 2 → Nat) = fun _ => 0 := funext fun a => by fin_cases a <;> rfl

section found

variable (c : Dev nD) (i : grid4.Coords)
  (a1 : Memref sig .tc .vmem S2000x128 .f32) (h1 : a1.IsWhole) (a2 : Memref sig .tc .vmem S1x128 .f32) (h2 : a2.IsWhole)
  (a3 : Memref sig .tc .vmem S1x128 .f32) (h3 : a3.IsWhole) (a4 : Memref sig .tc .vmem S1x128 .f32) (h4 : a4.IsWhole)
  (a5 : Memref sig .tc .vmem S1x128 .f32) (h5 : a5.IsWhole) (a6 : Memref sig .tc .vmem S1x128 .f32) (h6 : a6.IsWhole)
  (x : Vec F S2000x128 .f32) (b s q : Vec F S1x128 .f32)

/-- First block: the sums start from the zero row. -/
theorem foundS4_A (hf : first4 i) (hl : ¬last4 i) :
    View.canon (bodyRun4_A c i a1 h1 a2 h2 a3 h3 a4 h4 a5 h5 a6 h6 hf hl x b).1 = k4_pay4 x b (k4_pay1 (F := F)) := by
  unfold bodyRun4_A
  dsimp only
  sl_unfold_words
  rw [View.canon_cons_unit_zero (S := S1x128) zeros2_r4, View.readCov_unit_zero (S := S1x128) _ zeros2_r4]
  simp only [View.readAt_eq_ld, h1.read_unread, h2.read_unread, View.ld_unit_zero (S := S2000x128) zeros2_r4, View.ld_unit_zero (S := S1x128) zeros2_r4]
theorem foundQ4_A (hf : first4 i) (hl : ¬last4 i) :
    View.canon (bodyRun4_A c i a1 h1 a2 h2 a3 h3 a4 h4 a5 h5 a6 h6 hf hl x b).2.1 = k4_pay5 x b (k4_pay2 (F := F)) := by
  unfold bodyRun4_A
  dsimp only
  sl_unfold_words
  rw [View.canon_cons_unit_zero (S := S1x128) zeros2_r4, View.readCov_unit_zero (S := S1x128) _ zeros2_r4]
  simp only [View.readAt_eq_ld, h1.read_unread, h2.read_unread, View.ld_unit_zero (S := S2000x128) zeros2_r4, View.ld_unit_zero (S := S1x128) zeros2_r4]

/-- Middle block: the sums of the block before, plus this block's. -/
theorem foundS4_B (hf : ¬first4 i) (hl : ¬last4 i) :
    View.canon (bodyRun4_B c i a1 h1 a2 h2 a3 h3 a4 h4 a5 h5 a6 h6 hf hl x b s q).1 = k4_pay4 x b s := by
  unfold bodyRun4_B
  dsimp only
  sl_unfold_words
  rw [View.canon_unit_zero (S := S1x128) zeros2_r4]
  simp only [View.readAt_eq_ld, h1.read_unread, h2.read_unread, h5.read_unread, View.ld_unit_zero (S := S2000x128) zeros2_r4, View.ld_unit_zero (S := S1x128) zeros2_r4]
theorem foundQ4_B (hf : ¬first4 i) (hl : ¬last4 i) :
    View.canon (bodyRun4_B c i a1 h1 a2 h2 a3 h3 a4 h4 a5 h5 a6 h6 hf hl x b s q).2.1 = k4_pay5 x b q := by
  unfold bodyRun4_B
  dsimp only
  sl_unfold_words
  rw [View.canon_unit_zero (S := S1x128) zeros2_r4]
  simp only [View.readAt_eq_ld, h1.read_unread, h2.read_unread, h6.read_unread, View.ld_unit_zero (S := S2000x128) zeros2_r4, View.ld_unit_zero (S := S1x128) zeros2_r4]

/-- Last block: the sums completed, and from them the mean and the clamped variance. -/
theorem foundS4_C (hf : ¬first4 i) (hl : last4 i) :
    View.canon (bodyRun4_C c i a1 h1 a2 h2 a3 h3 a4 h4 a5 h5 a6 h6 hf hl x b s q).2.2.1 = k4_pay4 x b s := by
  unfold bodyRun4_C
  dsimp only
  sl_unfold_words
  rw [View.canon_unit_zero (S := S1x128) zeros2_r4]
  simp only [View.readAt_eq_ld, h1.read_unread, h2.read_unread, h5.read_unread, View.ld_unit_zero (S := S2000x128) zeros2_r4, View.ld_unit_zero (S := S1x128) zeros2_r4]
theorem foundQ4_C (hf : ¬first4 i) (hl : last4 i) :
    View.canon (bodyRun4_C c i a1 h1 a2 h2 a3 h3 a4 h4 a5 h5 a6 h6 hf hl x b s q).2.2.2.1 = k4_pay5 x b q := by
  unfold bodyRun4_C
  dsimp only
  sl_unfold_words
  rw [View.canon_unit_zero (S := S1x128) zeros2_r4]
  simp only [View.readAt_eq_ld, h1.read_unread, h2.read_unread, h6.read_unread, View.ld_unit_zero (S := S2000x128) zeros2_r4, View.ld_unit_zero (S := S1x128) zeros2_r4]
theorem foundM4_C (hf : ¬first4 i) (hl : last4 i) :
    View.canon (bodyRun4_C c i a1 h1 a2 h2 a3 h3 a4 h4 a5 h5 a6 h6 hf hl x b s q).1 = k4_pay6 (k4_pay4 x b s) := by
  unfold bodyRun4_C
  dsimp only
  sl_unfold_words
  rw [View.canon_unit_zero (S := S1x128) zeros2_r4, View.readCov_unit_zero (S := S1x128) _ zeros2_r4]
  simp only [View.readAt_eq_ld, h1.read_unread, h2.read_unread, h5.read_unread, View.ld_unit_zero (S := S2000x128) zeros2_r4, View.ld_unit_zero (S := S1x128) zeros2_r4]
theorem foundV4_C (hf : ¬first4 i) (hl : last4 i) :
    View.canon (bodyRun4_C c i a1 h1 a2 h2 a3 h3 a4 h4 a5 h5 a6 h6 hf hl x b s q).2.1 = k4_pay7 (k4_pay4 x b s) (k4_pay5 x b q) := by
  unfold bodyRun4_C
  dsimp only
  sl_unfold_words
  rw [View.canon_unit_zero (S := S1x128) zeros2_r4, View.readCov_unit_zero (S := S1x128) _ zeros2_r4, View.readCov_unit_zero (S := S1x128) _ zeros2_r4]
  simp only [View.readAt_eq_ld, h1.read_unread, h2.read_unread, h5.read_unread, h6.read_unread, View.ld_unit_zero (S := S2000x128) zeros2_r4, View.ld_unit_zero (S := S1x128) zeros2_r4]

end found

/-- So the three cases, at a point. -/
theorem atA4_eq (c : Dev nD) (t : Fin cfg4.N) (hf : first4 (grid4.coords t)) (hl : ¬last4 (grid4.coords t))
    (x : Vec F S2000x128 .f32) (b : Vec F S1x128 .f32) :
    atA4 c t hf hl x b = ((k4_pay1 (F := F), k4_pay2 (F := F)), (k4_pay4 x b (k4_pay1 (F := F)), k4_pay5 x b (k4_pay2 (F := F)))) := by
  unfold atA4; rw [foundS4_A, foundQ4_A]
theorem atB4_eq (c : Dev nD) (t : Fin cfg4.N) (hf : ¬first4 (grid4.coords t)) (hl : ¬last4 (grid4.coords t))
    (x : Vec F S2000x128 .f32) (b s q : Vec F S1x128 .f32) :
    atB4 c t hf hl x b s q = ((k4_pay1 (F := F), k4_pay2 (F := F)), (k4_pay4 x b s, k4_pay5 x b q)) := by
  unfold atB4; rw [foundS4_B, foundQ4_B]
theorem atC4_eq (c : Dev nD) (t : Fin cfg4.N) (hf : ¬first4 (grid4.coords t)) (hl : last4 (grid4.coords t))
    (x : Vec F S2000x128 .f32) (b s q : Vec F S1x128 .f32) :
    atC4 c t hf hl x b s q = ((k4_pay6 (k4_pay4 x b s), k4_pay7 (k4_pay4 x b s) (k4_pay5 x b q)), (k4_pay4 x b s, k4_pay5 x b q)) := by
  unfold atC4; rw [foundM4_C, foundV4_C, foundS4_C, foundQ4_C]

end anyF

/-! ## The body's payloads at an index, over the extended reals -/

section payloads

open Idealize.ShloMosaic.ValueIdx Cert.Spec

/-- Row r, column j of the block with the bias row added. -/
theorem pay3_at4 (x : Vec Ideal S2000x128 .f32) (b : Vec Ideal S1x128 .f32) (r : Fin 2000) (j : Fin 128) :
    k4_pay3 x b (ix2 r j) = x (ix2 r j) + b (ix2 (0 : Fin 1) j) := by
  unfold k4_pay3
  (try dsimp only)
  refine (addf_apply _ _ _).trans ?_
  refine congrArg₂ (· + ·) (congrFun (shapeCast_self x _) _) ?_
  refine (broadcastTo_apply _ broadcasts_S1x128_S2000x128 (ix2 r j) (ix2 (0 : Fin 1) j) (fun a => by
    match a with
    | ⟨0, _⟩ => rfl
    | ⟨1, _⟩ => rfl)).trans ?_
  exact congrFun (shapeCast_self b _) _

/-- The row index a column's reduction inserts. -/
theorem lift_col4 (j : Fin 128) (r : Fin 2000) :
    reduces_S2000x128_S128.lift (ix1 j) r = ix2 r j := by
  funext a
  apply Fin.ext
  match a with
  | ⟨0, _⟩ => rfl
  | ⟨1, _⟩ => rfl

/-- A column sum of a 2000 × 128 block, reshaped to a row, at column j. -/
theorem colsum_at4 (y : FVec Ideal S2000x128 .f32) (j : Fin 128) :
    shapeCast S1x128 (multiReduction .add [0] S128 y 0x00000000#32 reduces_S2000x128_S128 (.inl rfl) rfl) shapeCasts_S128_S1x128 (ix2 (0 : Fin 1) j)
      = ∑ r : Fin 2000, y (ix2 r j) := by
  refine (shapeCast_apply _ shapeCasts_S128_S1x128 (ix2 (0 : Fin 1) j) (ix1 j) ?_).trans ?_
  · rw [Shape.rowMajor_val_one, Shape.rowMajor_val_two]
    show j.val = 0 * 128 + j.val
    omega
  refine (Ideal.multiReduction_add_single y 0x00000000#32 reduces_S2000x128_S128 (.inl rfl) rfl (ix1 j)).trans ?_
  show ∑ r : Fin 2000, y (reduces_S2000x128_S128.lift (ix1 j) r) = _
  exact Finset.sum_congr rfl fun r _ => congrArg y (lift_col4 j r)

/-- The updated sums: what was there plus the block's column sums of x + b. -/
theorem pay4_at4 (x : Vec Ideal S2000x128 .f32) (b s : Vec Ideal S1x128 .f32) (j : Fin 128) :
    k4_pay4 x b s (ix2 (0 : Fin 1) j) = s (ix2 (0 : Fin 1) j) + ∑ r : Fin 2000, (x (ix2 r j) + b (ix2 (0 : Fin 1) j)) := by
  unfold k4_pay4
  (try dsimp only)
  refine (congrFun (shapeCast_self _ _) _).trans ?_
  refine (addf_apply _ _ _).trans ?_
  refine congrArg₂ (· + ·) rfl ?_
  refine (colsum_at4 _ j).trans ?_
  exact Finset.sum_congr rfl fun r _ => pay3_at4 x b r j

/-- The updated sums of squares. -/
theorem pay5_at4 (x : Vec Ideal S2000x128 .f32) (b q : Vec Ideal S1x128 .f32) (j : Fin 128) :
    k4_pay5 x b q (ix2 (0 : Fin 1) j)
      = q (ix2 (0 : Fin 1) j) + ∑ r : Fin 2000, (x (ix2 r j) + b (ix2 (0 : Fin 1) j)) * (x (ix2 r j) + b (ix2 (0 : Fin 1) j)) := by
  unfold k4_pay5
  (try dsimp only)
  refine (congrFun (shapeCast_self _ _) _).trans ?_
  refine (addf_apply _ _ _).trans ?_
  refine congrArg₂ (· + ·) rfl ?_
  refine (colsum_at4 _ j).trans ?_
  refine Finset.sum_congr rfl fun r _ => ?_
  refine (mulf_apply _ _ _).trans ?_
  rw [pay3_at4 x b r j]

/-- The zero rows the first block starts from. -/
theorem pay1_at4 (j : Fin 128) : k4_pay1 (F := Ideal) (ix2 (0 : Fin 1) j) = 0 := by
  unfold k4_pay1
  (try dsimp only)
  refine (congrFun (shapeCast_self _ _) _).trans ?_
  exact Ideal.ofBits_zero_f32
theorem pay2_at4 (j : Fin 128) : k4_pay2 (F := Ideal) (ix2 (0 : Fin 1) j) = 0 := by
  unfold k4_pay2
  (try dsimp only)
  refine (congrFun (shapeCast_self _ _) _).trans ?_
  exact Ideal.ofBits_zero_f32

/-- The mean: the sum over the number of rows. -/
theorem pay6_at4 (s : Vec Ideal S1x128 .f32) (j : Fin 128) :
    k4_pay6 s (ix2 (0 : Fin 1) j) = Ideal.div (s (ix2 (0 : Fin 1) j)) rows := by
  unfold k4_pay6
  (try dsimp only)
  exact divf_apply _ _ _

/-- The variance: the mean of squares less the squared mean, clamped at 0. -/
theorem pay7_at4 (s q : Vec Ideal S1x128 .f32) (j : Fin 128) :
    k4_pay7 s q (ix2 (0 : Fin 1) j)
      = max (Ideal.div (q (ix2 (0 : Fin 1) j)) rows - Ideal.div (s (ix2 (0 : Fin 1) j)) rows * Ideal.div (s (ix2 (0 : Fin 1) j)) rows) 0 := by
  unfold k4_pay7
  (try dsimp only)
  refine (maximumf_apply _ _ _).trans ?_
  refine congrArg₂ max ?_ Ideal.ofBits_zero_f32
  refine (subf_apply _ _ _).trans ?_
  refine congrArg₂ (· - ·) (divf_apply _ _ _) ?_
  refine (mulf_apply _ _ _).trans ?_
  rw [pay6_at4 s j]

end payloads

/-! ## The accumulation over the blocks -/

section values

open Idealize.ShloMosaic.ValueIdx Cert.Spec

variable (V : (c : Dev nD) → (b : Ref sig .tc) → Buf (Elt Ideal) ((c : Thread nD τ).loc b))

/-- The block of features and the bias row at a point, and the two arrays they are read off. -/
abbrev xblk4 (c : Dev nD) (t : Fin cfg4.N) : Vec Ideal S2000x128 .f32 := iblk4 V c 0 t
abbrev bblk4 (c : Dev nD) (t : Fin cfg4.N) : Vec Ideal S1x128 .f32 := iblk4 V c 1 t
abbrev xarr4 (c : Dev nD) : Vec Ideal S50000x128 .f32 := V c main_v64
abbrev barr4 (c : Dev nD) : Vec Ideal S1x128 .f32 := V c main_v65

/-- Block t of the features starts at row 2000·t; the bias row's block is always the row itself. -/
theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)

theorem xblk4_at (c : Dev nD) (t : Fin cfg4.N) (r : Fin 2000) (j : Fin 128) (h : 2000 * t.val + r.val < 50000) :
    xblk4 V c t (ix2 r j) = xarr4 V c (ix2 (⟨2000 * t.val + r.val, h⟩ : Fin 50000) j) := by
  show iblk4 V c 0 t (ix2 r j) = _
  unfold iblk4
  rw [View.read_apply]
  show V c main_v64 _ = V c main_v64 _
  congr 1
  funext a
  apply Fin.ext
  match a with
  | ⟨0, _⟩ => show win4_0.index t 0 * 2000 + 1 * r.val = 2000 * t.val + r.val; rw [(idx4_0 t).1]; omega
  | ⟨1, _⟩ => show win4_0.index t 1 * 128 + 1 * j.val = j.val; rw [(idx4_0 t).2]; omega

theorem bblk4_at (c : Dev nD) (t : Fin cfg4.N) (j : Fin 128) :
    bblk4 V c t (ix2 (0 : Fin 1) j) = barr4 V c (ix2 (0 : Fin 1) j) := by
  show iblk4 V c 1 t (ix2 (0 : Fin 1) j) = _
  unfold iblk4
  rw [View.read_apply]
  show V c main_v65 _ = V c main_v65 _
  congr 1
  funext a
  apply Fin.ext
  match a with
  | ⟨0, _⟩ => show win4_1.index t 0 * 1 + 1 * 0 = 0; rw [(idx4_1 t).1]
  | ⟨1, _⟩ => show win4_1.index t 1 * 128 + 1 * j.val = j.val; rw [(idx4_1 t).2]; omega

/-- Row i, column j of x with b added to every row; 0 past the last row, so that every natural names an entry. -/
def hrow4 (c : Dev nD) (i : ℕ) (j : Fin 128) : EReal :=
  if h : i < 50000 then xarr4 V c (ix2 (⟨i, h⟩ : Fin 50000) j) + barr4 V c (ix2 (0 : Fin 1) j) else 0

/-- Row r of block t is row 2000·t + r. -/
theorem blockrow4 (c : Dev nD) (t : Fin cfg4.N) (r : Fin 2000) (j : Fin 128) :
    xblk4 V c t (ix2 r j) + bblk4 V c t (ix2 (0 : Fin 1) j) = hrow4 V c (2000 * t.val + r.val) j := by
  have hN : t.val < 25 := lt_of_lt_of_eq t.isLt (show cfg4.N = 25 from N_4)
  have h : 2000 * t.val + r.val < 50000 := by have := r.isLt; omega
  rw [xblk4_at V c t r j h, bblk4_at V c t j]
  unfold hrow4
  rw [dif_pos h]

/-- A block's column sum of x + b is the sum of 2000 consecutive rows' entries; -/
theorem blocksum4 (c : Dev nD) (t : Fin cfg4.N) (j : Fin 128) :
    ∑ r : Fin 2000, (xblk4 V c t (ix2 r j) + bblk4 V c t (ix2 (0 : Fin 1) j))
      = ∑ r ∈ Finset.range 2000, hrow4 V c (2000 * t.val + r) j := by
  rw [← Fin.sum_univ_eq_sum_range (fun r => hrow4 V c (2000 * t.val + r) j) 2000]
  exact Finset.sum_congr rfl fun r _ => blockrow4 V c t r j
/-- and likewise of its square. -/
theorem blocksumsq4 (c : Dev nD) (t : Fin cfg4.N) (j : Fin 128) :
    ∑ r : Fin 2000, (xblk4 V c t (ix2 r j) + bblk4 V c t (ix2 (0 : Fin 1) j)) * (xblk4 V c t (ix2 r j) + bblk4 V c t (ix2 (0 : Fin 1) j))
      = ∑ r ∈ Finset.range 2000, hrow4 V c (2000 * t.val + r) j * hrow4 V c (2000 * t.val + r) j := by
  rw [← Fin.sum_univ_eq_sum_range (fun r => hrow4 V c (2000 * t.val + r) j * hrow4 V c (2000 * t.val + r) j) 2000]
  exact Finset.sum_congr rfl fun r _ => by rw [blockrow4 V c t r j]

/-- One block's step on the row of sums: from the sum over the rows before the block to the sum through it. -/
theorem step_sum4 (c : Dev nD) (t : Fin cfg4.N) (s : Vec Ideal S1x128 .f32) (j : Fin 128)
    (hs : s (ix2 (0 : Fin 1) j) = ∑ i ∈ Finset.range (2000 * t.val), hrow4 V c i j) :
    k4_pay4 (xblk4 V c t) (bblk4 V c t) s (ix2 (0 : Fin 1) j) = ∑ i ∈ Finset.range (2000 * (t.val + 1)), hrow4 V c i j := by
  refine (pay4_at4 _ _ _ j).trans ?_
  rw [hs, blocksum4 V c t j, Nat.mul_succ, Finset.sum_range_add]
/-- The same on the row of sums of squares. -/
theorem step_sq4 (c : Dev nD) (t : Fin cfg4.N) (q : Vec Ideal S1x128 .f32) (j : Fin 128)
    (hq : q (ix2 (0 : Fin 1) j) = ∑ i ∈ Finset.range (2000 * t.val), hrow4 V c i j * hrow4 V c i j) :
    k4_pay5 (xblk4 V c t) (bblk4 V c t) q (ix2 (0 : Fin 1) j) = ∑ i ∈ Finset.range (2000 * (t.val + 1)), hrow4 V c i j * hrow4 V c i j := by
  refine (pay5_at4 _ _ _ j).trans ?_
  rw [hq, blocksumsq4 V c t j, Nat.mul_succ, Finset.sum_range_add]

/-- After block n the carried rows hold, per column, the sums over the first 2000·(n + 1) rows. -/
theorem sums_at4 (c : Dev nD) : ∀ (n : ℕ) (h : n < cfg4.N) (j : Fin 128),
    (outsAt4 V c n h).2.1 (ix2 (0 : Fin 1) j) = ∑ i ∈ Finset.range (2000 * (n + 1)), hrow4 V c i j
    ∧ (outsAt4 V c n h).2.2 (ix2 (0 : Fin 1) j) = ∑ i ∈ Finset.range (2000 * (n + 1)), hrow4 V c i j * hrow4 V c i j
  | 0, h, j => by
    rw [show outsAt4 V c 0 h = _ from outsAt4_A V c ⟨0, h⟩ rfl, atA4_eq]
    dsimp only
    exact ⟨step_sum4 V c ⟨0, h⟩ _ j (by rw [pay1_at4]; simp), step_sq4 V c ⟨0, h⟩ _ j (by rw [pay2_at4]; simp)⟩
  | n + 1, h, j => by
    have ih := sums_at4 c n (Nat.lt_of_succ_lt h) j
    by_cases hL : n + 1 = 24
    · rw [show outsAt4 V c (n + 1) h = _ from outsAt4_C V c ⟨n + 1, h⟩ (Nat.succ_ne_zero n) hL, atC4_eq]
      dsimp only
      exact ⟨step_sum4 V c ⟨n + 1, h⟩ _ j ih.1, step_sq4 V c ⟨n + 1, h⟩ _ j ih.2⟩
    · rw [show outsAt4 V c (n + 1) h = _ from outsAt4_B V c ⟨n + 1, h⟩ (Nat.succ_ne_zero n) hL, atB4_eq]
      dsimp only
      exact ⟨step_sum4 V c ⟨n + 1, h⟩ _ j ih.1, step_sq4 V c ⟨n + 1, h⟩ _ j ih.2⟩

/-! ## The two results -/

/-- The last point. -/
abbrev tLast4 : Fin cfg4.N := ⟨24, by rw [show cfg4.N = 25 from N_4]; omega⟩

/-- What the two result buffers hold after the last block, as contents of their arrays. -/
abbrev meanRow4 (c : Dev nD) : Buf (Elt Ideal) ((c : Thread nD τ).loc main_v68_0) := (outsAt4 V c tLast4.val tLast4.isLt).1.1
abbrev varRow4 (c : Dev nD) : Buf (Elt Ideal) ((c : Thread nD τ).loc main_v68_1) := (outsAt4 V c tLast4.val tLast4.isLt).1.2

/-- The one write-back of the mean's window, after the last block, writes that buffer: its block is the whole row. -/
theorem wrote4_2 (c : Dev nD) (t : Fin cfg4.N) (hf : (cfg4.win 2).flush t = true) :
    (dat4 V c).flushed 2 t = ((cfg4.win 2).blk t).view.read (Elt Ideal) (meanRow4 V c) := by
  have hN : cfg4.N = 25 := N_4
  have h24 : t.val = 24 := by have := (flush4_2 t).mp hf; have := t.isLt; omega
  obtain rfl : t = tLast4 := Fin.ext h24
  show (cfg4.win 2).cut (grid4.coords tLast4) ((dat4 V c).after 2 tLast4) = _
  rw [after4_2]
  have hz' : (fun a => win4_2.index tLast4 a * main_v68_0.ty.shape.size a) = fun _ => 0 := funext fun a => by fin_cases a <;> decide
  exact (Memref.read_access_unit_zero (Elt Ideal) main_v68_0 hz' (fun a => by rw [congrFun hz' a]; simp) (meanRow4 V c)).symm
/-- The same for the variance's window. -/
theorem wrote4_3 (c : Dev nD) (t : Fin cfg4.N) (hf : (cfg4.win 3).flush t = true) :
    (dat4 V c).flushed 3 t = ((cfg4.win 3).blk t).view.read (Elt Ideal) (varRow4 V c) := by
  have hN : cfg4.N = 25 := N_4
  have h24 : t.val = 24 := by have := (flush4_3 t).mp hf; have := t.isLt; omega
  obtain rfl : t = tLast4 := Fin.ext h24
  show (cfg4.win 3).cut (grid4.coords tLast4) ((dat4 V c).after 3 tLast4) = _
  rw [after4_3]
  have hz' : (fun a => win4_3.index tLast4 a * main_v68_1.ty.shape.size a) = fun _ => 0 := funext fun a => by fin_cases a <;> decide
  exact (Memref.read_access_unit_zero (Elt Ideal) main_v68_1 hz' (fun a => by rw [congrFun hz' a]; simp) (varRow4 V c)).symm

/-- So the mean's array ends at that buffer (the last point's block covers it); -/
theorem final4_2 (c : Dev nD) : (dat4 V c).arrAt 2 cfg4.N = meanRow4 V c :=
  (dat4 V c).arrAt_eq_of_cover 2 (meanRow4 V c) (wrote4_2 V c) fun i =>
    ⟨tLast4, (flush4_2 tLast4).mpr rfl, by
      show i ∈ ((View.whole main_v68_0).slice (win4_2.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_2.index tLast4 0 * win4_2.size 0 ≤ (i 0 : Nat) ∧ (i 0 : Nat) < win4_2.index tLast4 0 * win4_2.size 0 + win4_2.xsize (grid4.coords tLast4) 0
                  rw [show win4_2.index tLast4 0 * win4_2.size 0 = 0 from by decide +kernel, show win4_2.xsize (grid4.coords tLast4) 0 = 1 from by decide +kernel]; omega
      | ⟨1, _⟩ => show win4_2.index tLast4 1 * win4_2.size 1 ≤ (i 1 : Nat) ∧ (i 1 : Nat) < win4_2.index tLast4 1 * win4_2.size 1 + win4_2.xsize (grid4.coords tLast4) 1
                  rw [show win4_2.index tLast4 1 * win4_2.size 1 = 0 from by decide +kernel, show win4_2.xsize (grid4.coords tLast4) 1 = 128 from by decide +kernel]; omega⟩
/-- and the variance's at its. -/
theorem final4_3 (c : Dev nD) : (dat4 V c).arrAt 3 cfg4.N = varRow4 V c :=
  (dat4 V c).arrAt_eq_of_cover 3 (varRow4 V c) (wrote4_3 V c) fun i =>
    ⟨tLast4, (flush4_3 tLast4).mpr rfl, by
      show i ∈ ((View.whole main_v68_1).slice (win4_3.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_3.index tLast4 0 * win4_3.size 0 ≤ (i 0 : Nat) ∧ (i 0 : Nat) < win4_3.index tLast4 0 * win4_3.size 0 + win4_3.xsize (grid4.coords tLast4) 0
                  rw [show win4_3.index tLast4 0 * win4_3.size 0 = 0 from by decide +kernel, show win4_3.xsize (grid4.coords tLast4) 0 = 1 from by decide +kernel]; omega
      | ⟨1, _⟩ => show win4_3.index tLast4 1 * win4_3.size 1 ≤ (i 1 : Nat) ∧ (i 1 : Nat) < win4_3.index tLast4 1 * win4_3.size 1 + win4_3.xsize (grid4.coords tLast4) 1
                  rw [show win4_3.index tLast4 1 * win4_3.size 1 = 0 from by decide +kernel, show win4_3.xsize (grid4.coords tLast4) 1 = 128 from by decide +kernel]; omega⟩

/-- The sums over all 2000·25 rows are the sums over the matrix's rows. -/
theorem allrows4 (c : Dev nD) (j : Fin 128) :
    ∑ i ∈ Finset.range 50000, hrow4 V c i j = ∑ i : Fin 50000, shift (mat (V c main_v64)) (row (V c main_v65)) i j := by
  rw [← Fin.sum_univ_eq_sum_range (fun i => hrow4 V c i j) 50000]
  exact Finset.sum_congr rfl fun i _ => by unfold hrow4; rw [dif_pos i.isLt]; rfl
theorem allrowssq4 (c : Dev nD) (j : Fin 128) :
    ∑ i ∈ Finset.range 50000, hrow4 V c i j * hrow4 V c i j
      = ∑ i : Fin 50000, shift (mat (V c main_v64)) (row (V c main_v65)) i j * shift (mat (V c main_v64)) (row (V c main_v65)) i j := by
  rw [← Fin.sum_univ_eq_sum_range (fun i => hrow4 V c i j * hrow4 V c i j) 50000]
  exact Finset.sum_congr rfl fun i _ => by unfold hrow4; rw [dif_pos i.isLt]; rfl

/-- At the last block the two result rows are the mean and the variance payloads of the carried rows the same block
    leaves. -/
theorem last_of_sums4 (c : Dev nD) :
    (outsAt4 V c tLast4.val tLast4.isLt).1
      = (k4_pay6 (outsAt4 V c tLast4.val tLast4.isLt).2.1,
         k4_pay7 (outsAt4 V c tLast4.val tLast4.isLt).2.1 (outsAt4 V c tLast4.val tLast4.isLt).2.2) := by
  rw [outsAt4_C V c tLast4 (by decide) rfl, atC4_eq]

/-- After the last block: the mean's buffer at S / 50000, the variance's at max(Q / 50000 − (S / 50000)², 0), S and Q
    the sums over all rows. -/
theorem last_rows4 (c : Dev nD) (j : Fin 128) :
    meanRow4 V c (ix2 (0 : Fin 1) j) = Ideal.div (∑ i ∈ Finset.range 50000, hrow4 V c i j) rows
    ∧ varRow4 V c (ix2 (0 : Fin 1) j)
        = max (Ideal.div (∑ i ∈ Finset.range 50000, hrow4 V c i j * hrow4 V c i j) rows
            - Ideal.div (∑ i ∈ Finset.range 50000, hrow4 V c i j) rows * Ideal.div (∑ i ∈ Finset.range 50000, hrow4 V c i j) rows) 0 := by
  have hall := sums_at4 V c tLast4.val tLast4.isLt j
  have e : 2000 * (tLast4.val + 1) = 50000 := rfl
  rw [e] at hall
  constructor
  · show (outsAt4 V c tLast4.val tLast4.isLt).1.1 (ix2 (0 : Fin 1) j) = _
    rw [last_of_sums4 V c]
    refine (pay6_at4 _ j).trans ?_
    rw [hall.1]
  · show (outsAt4 V c tLast4.val tLast4.isLt).1.2 (ix2 (0 : Fin 1) j) = _
    rw [last_of_sums4 V c]
    refine (pay7_at4 _ _ j).trans ?_
    rw [hall.1, hall.2]

/-- THE MEAN the region leaves in its first result array: the column means of x with b added to every row. -/
theorem val4_mean (c : Dev nD) :
    row ((dat4 (F := Ideal) V c).arrAt 2 cfg4.N) = mean (shift (mat (V c main_v64)) (row (V c main_v65))) := by
  funext j
  show (dat4 (F := Ideal) V c).arrAt 2 cfg4.N (ix2 (0 : Fin 1) j) = _
  rw [final4_2 V c]
  refine ((last_rows4 V c j).1).trans ?_
  unfold mean
  rw [allrows4 V c j]

/-- THE VARIANCE it leaves in its second: the mean of squares less the squared mean, clamped at 0. -/
theorem val4_var (c : Dev nD) :
    row ((dat4 (F := Ideal) V c).arrAt 3 cfg4.N) = varOnePass (shift (mat (V c main_v64)) (row (V c main_v65))) := by
  funext j
  show (dat4 (F := Ideal) V c).arrAt 3 cfg4.N (ix2 (0 : Fin 1) j) = _
  rw [final4_3 V c]
  refine ((last_rows4 V c j).2).trans ?_
  unfold varOnePass mean
  rw [allrows4 V c j, allrowssq4 V c j]

end values

end Cert.KernelIdeal.Reg

end
-- ==== Proof.Ideal.Val5Norm.lean ====
/-
  What the normalise-and-rectify region leaves in its result array, over the extended reals: entry (i, j) is

      max(γ j · ((x i j + b j) − μ j) · rsqrt(σ² j + ε) + β j, 0),

  x the aggregated features, b the bias row, μ and σ² the rows of column means and variances, γ and β the
  scale and shift rows, ε the f32 word nearest 10⁻⁵. The steps: the body's stored value read at one entry of
  a block; a block's entry as an entry of its array (the feature and result blocks at point t are rows
  2000·t … 2000·t + 1999, the five rows are whole at every point); what point t writes back is block t of
  that one matrix; row r lies in the block of point r / 2000, so the 25 blocks cover the array.
-/
import proofs.«158427_j57105885167694_2_alg».proof.Proof.Ideal.Reg5Norm
import proofs.«158427_j57105885167694_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg

open Cert.KernelIdeal Cert.KernelIdeal.Gen Cert.Spec
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOffsets5 : (![0, 0] : Fin 2 → Nat) = fun _ => 0 := funext fun a => by fin_cases a <;> rfl

/-- An inverse square root taken entry by entry. -/
theorem rsqrt_at5 {s : Shape} {φ : FTy} (a : FVec Ideal s φ) (i : s.Idx) : rsqrt a i = Ideal.rsqrt (a i) := rfl

/-- The result block at one entry: the entry of the feature block and the five rows' entries of its column
    (rows in window order: b, μ, σ², γ, β), normalised, scaled, shifted and rectified. -/
theorem out5_6_apply (x0 : Vec Ideal S2000x128 .f32) (x1 x2 x3 x4 x5 : Vec Ideal S1x128 .f32) (p : Fin 2000) (q : Fin 128) :
    out5_6 x0 x1 x2 x3 x4 x5 (ix2 p q)
      = max (x4 (ix2 (0 : Fin 1) q) * ((x0 (ix2 p q) + x1 (ix2 (0 : Fin 1) q)) - x2 (ix2 (0 : Fin 1) q))
          * Ideal.rsqrt (x3 (ix2 (0 : Fin 1) q) + eps) + x5 (ix2 (0 : Fin 1) q)) 0 := by
  unfold out5_6
  rw [View.canon_unit_zero zeroOffsets5]
  simp only [View.ld_unit_zero (S := S2000x128) zeroOffsets5, View.ld_unit_zero (S := S1x128) zeroOffsets5]
  unfold k5_pay1
  simp only [maximumf_apply, addf_apply, mulf_apply, subf_apply, rsqrt_at5, broadcast_apply, shapeCast_self,
    broadcastTo_1b_ab_apply, Scalar.ofBits, Ideal.ofBits_def, Ideal.ofBits_zero_f32]
  rfl

/-- Where each window's block sits at point t: the feature block and the result block at block row t, the
    five rows at block 0. Decided over the 25 points. -/
theorem blockIndex5 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The feature block at point t is rows 2000·t … 2000·t + 1999 of the feature array. -/
theorem iblk5_0_apply (c : Dev nD) (t : Fin cfg5.N) (p : Fin 2000) (q : Fin 128) (r : Fin 50000)
    (hr : r.val = 2000 * t.val + p.val) :
    (iblk5 V c 0 t : Vec Ideal S2000x128 .f32) (ix2 p q) = mat (V c main_v64) r q := by
  obtain ⟨e0, e1, -⟩ := blockIndex5 t
  unfold iblk5
  rw [View.read_apply]
  show V c main_v64 _ = V c main_v64 (ix2 r q)
  congr 1
  funext a
  apply Fin.ext
  match a with
  | ⟨0, _⟩ => show win5_0.index t (0 : Fin 2) * 2000 + 1 * p.val = r.val; rw [e0, hr]; omega
  | ⟨1, _⟩ => show win5_0.index t (1 : Fin 2) * 128 + 1 * q.val = q.val; rw [e1]; omega

/-- The one-row block of the bias is the row itself, at every point. -/
theorem iblk5_1_apply (c : Dev nD) (t : Fin cfg5.N) (q : Fin 128) :
    (iblk5 V c 1 t : Vec Ideal S1x128 .f32) (ix2 (0 : Fin 1) q) = row (V c main_v65) q := by
  obtain ⟨-, -, -, -, e0, e1, -, -, -, -, -, -, -, -⟩ := blockIndex5 t
  unfold iblk5
  rw [View.read_apply]
  show V c main_v65 _ = V c main_v65 (ix2 (0 : Fin 1) q)
  congr 1
  funext a
  apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

/-- The one-row block of the column means is the row itself, at every point. -/
theorem iblk5_2_apply (c : Dev nD) (t : Fin cfg5.N) (q : Fin 128) :
    (iblk5 V c 2 t : Vec Ideal S1x128 .f32) (ix2 (0 : Fin 1) q) = row (V c main_v68_0) q := by
  obtain ⟨-, -, -, -, -, -, e0, e1, -, -, -, -, -, -⟩ := blockIndex5 t
  unfold iblk5
  rw [View.read_apply]
  show V c main_v68_0 _ = V c main_v68_0 (ix2 (0 : Fin 1) q)
  congr 1
  funext a
  apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega

/-- The one-row block of the column variances is the row itself, at every point. -/
theorem iblk5_3_apply (c : Dev nD) (t : Fin cfg5.N) (q : Fin 128) :
    (iblk5 V c 3 t : Vec Ideal S1x128 .f32) (ix2 (0 : Fin 1) q) = row (V c main_v68_1) q := by
  obtain ⟨-, -, -, -, -, -, -, -, e0, e1, -, -, -, -⟩ := blockIndex5 t
  unfold iblk5
  rw [View.read_apply]
  show V c main_v68_1 _ = V c main_v68_1 (ix2 (0 : Fin 1) q)
  congr 1
  funext a
  apply Fin.ext
  match a with
  | ⟨0, _⟩ => show win5_3.index t (0 : Fin 2) * 1 + 1 * 0 = 0; rw [e0]
  | ⟨1, _⟩ => show win5_3.index t (1 : Fin 2) * 128 + 1 * q.val = q.val; rw [e1]; omega

/-- The one-row block of the scale is the row itself, at every point. -/
theorem iblk5_4_apply (c : Dev nD) (t : Fin cfg5.N) (q : Fin 128) :
    (iblk5 V c 4 t : Vec Ideal S1x128 .f32) (ix2 (0 : Fin 1) q) = row (V c main_v66) q := by
  obtain ⟨-, -, -, -, -, -, -, -, -, -, e0, e1, -, -⟩ := blockIndex5 t
  unfold iblk5
  rw [View.read_apply]
  show V c main_v66 _ = V c main_v66 (ix2 (0 : Fin 1) q)
  congr 1
  funext a
  apply Fin.ext
  match a with
  | ⟨0, _⟩ => show win5_4.index t (0 : Fin 2) * 1 + 1 * 0 = 0; rw [e0]
  | ⟨1, _⟩ => show win5_4.index t (1 : Fin 2) * 128 + 1 * q.val = q.val; rw [e1]; omega

/-- The one-row block of the shift is the row itself, at every point. -/
theorem iblk5_5_apply (c : Dev nD) (t : Fin cfg5.N) (q : Fin 128) :
    (iblk5 V c 5 t : Vec Ideal S1x128 .f32) (ix2 (0 : Fin 1) q) = row (V c main_v67) q := by
  obtain ⟨-, -, -, -, -, -, -, -, -, -, -, -, e0, e1⟩ := blockIndex5 t
  unfold iblk5
  rw [View.read_apply]
  show V c main_v67 _ = V c main_v67 (ix2 (0 : Fin 1) q)
  congr 1
  funext a
  apply Fin.ext
  match a with
  | ⟨0, _⟩ => show win5_5.index t (0 : Fin 2) * 1 + 1 * 0 = 0; rw [e0]
  | ⟨1, _⟩ => show win5_5.index t (1 : Fin 2) * 128 + 1 * q.val = q.val; rw [e1]; omega

/-- The result array the region leaves, as one matrix of the arrays it is entered with. -/
def normArr5 (c : Dev nD) : S50000x128.Idx → EReal :=
  fun i => normRelu (shift (mat (V c main_v64)) (row (V c main_v65))) (row (V c main_v68_0)) (row (V c main_v68_1)) (row (V c main_v66)) (row (V c main_v67)) (i 0) (i 1)

/-- Point t's result block at (p, q) is entry (2000·t + p, q) of that matrix. -/
theorem out5_6_at (c : Dev nD) (t : Fin cfg5.N) (p : Fin 2000) (q : Fin 128) (r : Fin 50000)
    (hr : r.val = 2000 * t.val + p.val) :
    out5_6 (iblk5 V c 0 t) (iblk5 V c 1 t) (iblk5 V c 2 t) (iblk5 V c 3 t) (iblk5 V c 4 t) (iblk5 V c 5 t) (ix2 p q) = normArr5 V c (ix2 r q) := by
  refine (out5_6_apply _ _ _ _ _ _ p q).trans ?_
  rw [iblk5_0_apply V c t p q r hr, iblk5_1_apply, iblk5_2_apply, iblk5_3_apply, iblk5_4_apply, iblk5_5_apply]
  rfl

/-- What point t writes back is block t of that matrix. -/
theorem flushed5_6_eq (c : Dev nD) (t : Fin cfg5.N) :
    (dat5 V c).flushed 6 t = ((cfg5.win 6).blk t).view.read (Elt Ideal) (normArr5 V c) := by
  show (cfg5.win 6).cut (grid5.coords t) ((dat5 V c).after 6 t) = _
  rw [after5_6]
  funext j
  obtain ⟨p, q, rfl⟩ : ∃ (p : Fin 2000) (q : Fin 128), j = ix2 p q := ⟨j 0, j 1, eq_ix2 j⟩
  have hN : cfg5.N = 25 := N_5
  have ht : t.val < 25 := hN ▸ t.isLt
  obtain ⟨-, -, e0, e1, -⟩ := blockIndex5 t
  have he : ((cfg5.win 6).blk t).view.emb (ix2 p q) = ix2 (⟨2000 * t.val + p.val, by omega⟩ : Fin 50000) q := by
    funext a
    apply Fin.ext
    match a with
    | ⟨0, _⟩ => show win5_6.index t (0 : Fin 2) * 2000 + 1 * p.val = 2000 * t.val + p.val; rw [e0]; omega
    | ⟨1, _⟩ => show win5_6.index t (1 : Fin 2) * 128 + 1 * q.val = q.val; rw [e1]; omega
  show out5_6 (iblk5 V c 0 t) (iblk5 V c 1 t) (iblk5 V c 2 t) (iblk5 V c 3 t) (iblk5 V c 4 t) (iblk5 V c 5 t) (ix2 p q) = normArr5 V c (((cfg5.win 6).blk t).view.emb (ix2 p q))
  rw [he]
  exact out5_6_at V c t p q _ rfl

/-- An index of the result array is in point t's block iff each coordinate is in the block's range. -/
theorem mem_blk5_6 (t : Fin cfg5.N) (i : S50000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v69).slice (win5_6.rect t)).set ↔ _
  rw [View.set_slice_whole, Rect.mem_set_unit]
  exact Iff.rfl

/-- Every index of the result array is in some point's block: row r in that of point r / 2000. -/
theorem rows_covered5 (i : S50000x128.Idx) :
    ∃ t : Fin cfg5.N, (cfg5.win 6).flush t = true ∧ i ∈ ((cfg5.win 6).blk t).view.set := by
  have hN : cfg5.N = 25 := N_5
  have hi0 : (i 0).val < 50000 := (i 0).isLt
  have hi1 : (i 1).val < 128 := (i 1).isLt
  have ht : (i 0).val / 2000 < cfg5.N := by rw [hN]; omega
  obtain ⟨-, -, e0, e1, -⟩ := blockIndex5 ⟨(i 0).val / 2000, ht⟩
  refine ⟨⟨(i 0).val / 2000, ht⟩, flush5_6 _, ?_⟩
  rw [mem_blk5_6]
  intro a
  match a with
  | ⟨0, _⟩ =>
    show win5_6.index ⟨(i 0).val / 2000, ht⟩ (0 : Fin 2) * 2000 ≤ (i 0).val ∧ (i 0).val < win5_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_6.index ⟨(i 0).val / 2000, ht⟩ (1 : Fin 2) * 128 ≤ (i 1).val ∧ (i 1).val < win5_6.index ⟨(i 0).val / 2000, ht⟩ (1 : Fin 2) * 128 + 128
    rw [e1]; omega

/-- The result array after the region is that matrix. -/
theorem final5_6 (c : Dev nD) : (dat5 V c).arrAt 6 cfg5.N = normArr5 V c :=
  (dat5 V c).arrAt_eq_of_cover 6 (normArr5 V c) (fun t _ => flushed5_6_eq V c t) rows_covered5

/-- The region's result, read as a matrix: the shifted features normalised by the given column means and
    variances, scaled, shifted and rectified. -/
theorem val5 (c : Dev nD) : mat ((dat5 (F := Ideal) V c).arrAt 6 cfg5.N) = normRelu (shift (mat (V c main_v64)) (row (V c main_v65))) (row (V c main_v68_0)) (row (V c main_v68_1)) (row (V c main_v66)) (row (V c main_v67)) := by
  rw [final5_6]
  rfl

end Cert.KernelIdeal.Reg

end
-- ==== Proof.Ideal.Val6Matmul.lean ====
/-
  What the third matrix product leaves in its result array.
  At a grid point the body stores one value, the product of the block of 2000 rows of the left factor it
  read and of the whole right factor; over the extended reals narrowing a factor to bf16 changes nothing
  and the zero the product is accumulated onto drops, so entry (p, q) of that value is
  ∑ k, x (p, k) · w (k, q). Point t writes it back as rows 2000·t … 2000·t + 1999 of the result, and
  those are the same rows of the product of the two whole arrays; the 25 points' blocks cover all 50000
  rows (row r lies in the block of point r / 2000), so the result array ends holding that product.
-/
import proofs.«158427_j57105885167694_2_alg».proof.Proof.Ideal.Reg6Matmul
import proofs.«158427_j57105885167694_2_alg».proof.Proof.Spec
import Idealize.ShloMosaic.Lib.ValueIdx
import Idealize.ShloMosaic.Lib.Pipeline.Value
import Idealize.ShloMosaic.PureOps.Ideal.Laws

set_option maxRecDepth 16384

open scoped BigOperators

noncomputable section

namespace Cert.KernelIdeal.Reg

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The shape of a block of rows of the product, the shape of the whole product, and the number of the
    product's columns (which is the right factor's). -/
local notation "PBlk" => S2000x40
local notation "PArr" => S50000x40
local notation "pcols" => 40

/-! ## The product of two blocks at an entry -/

/-- The left factor is read at the output's row … -/
theorem lhs6_row
    (i : Shape.Idx PBlk)
    (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide),
    dif_pos (show (0 : Fin S2000x128.rank) ∈ dot_S2000x128_S128x40_S2000x40_1_0_0_1_n_n.lhsNonContracting by decide)]
  rfl
/-- … and the summation index's column; -/
theorem lhs6_col
    (i : Shape.Idx PBlk)
    (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
/-- the right factor at the summation index's row … -/
theorem rhs6_row
    (i : Shape.Idx PBlk)
    (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
/-- … and the output's column. -/
theorem rhs6_col
    (i : Shape.Idx PBlk)
    (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide),
    dif_pos (show (1 : Fin S128x40.rank) ∈ dot_S2000x128_S128x40_S2000x40_1_0_0_1_n_n.rhsNonContracting by decide)]
  rfl

/-- Entry (p, q) of the body's stored value: the sum over k of x (p, k) · w (k, q). (Narrowing to bf16 is the
    identity here, and so is a reshaping of a block to its own shape, where the body has one.) -/
theorem pay6_apply
    (x0 : Vec Ideal S2000x128 .f32)
    (x1 : Vec Ideal S128x40 .f32)
    (p : Fin 2000) (q : Fin pcols) :
    k6_pay1 x0 x1 (ix2 p q) = ∑ k : Fin 128, x0 (ix2 p k) * x1 (ix2 k q) := by
  unfold k6_pay1
  simp only [matmul, shapeCast_self]
  rw [Ideal.matmul_constant_zero_apply,
    ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q)
      ((contrEquiv1 dot_S2000x128_S128x40_S2000x40_1_0_0_1_n_n 128 rfl rfl).symm k) = ix2 p k :=
    funext fun a => Fin.ext (by
      match a with
      | ⟨0, _⟩ => exact lhs6_row _ _
      | ⟨1, _⟩ => exact (lhs6_col _ _).trans hk)
  have er : dot_S2000x128_S128x40_S2000x40_1_0_0_1_n_n.rhsIdx (ix2 p q)
      ((contrEquiv1 dot_S2000x128_S128x40_S2000x40_1_0_0_1_n_n 128 rfl rfl).symm k) = ix2 k q :=
    funext fun a => Fin.ext (by
      match a with
      | ⟨0, _⟩ => exact (rhs6_row _ _).trans hk
      | ⟨1, _⟩ => exact rhs6_col _ _)
  rw [el, er]
  rfl

/-! ## From blocks to the array -/

theorem zero_off6 : (![0, 0] : Fin 2 → Nat) = fun _ => 0 := funext fun a => by fin_cases a <;> rfl

/-- The product of two whole arrays, entry by entry. -/
abbrev prodArr6
    (a : S50000x128.Idx → EReal)
    (b : S128x40.Idx → EReal) :
    Shape.Idx PArr → EReal :=
  fun i => ∑ k : Fin 128, a (ix2 (i 0) k) * b (ix2 k (i 1))

/-- Where each window's block sits at point t: the left factor's and the result's at block row t, the right
    factor's always at the origin. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem point_lt6 (t : Fin cfg6.N) : t.val < 25 := lt_of_lt_of_eq t.isLt N_6

/-- The left factor's block at point t is rows 2000·t … 2000·t + 1999 of the left array. -/
theorem iblk6_0_apply (c : Dev nD) (t : Fin cfg6.N)
    (y : S2000x128.Idx)
    (i : S50000x128.Idx)
    (h0 : (i 0).val = 2000 * t.val + (y 0).val) (h1 : (i 1).val = (y 1).val) :
    (iblk6 V c 0 t : Vec Ideal S2000x128 .f32) y = (V c main_v69 : S50000x128.Idx → EReal) i := by
  obtain ⟨e0, e1, -⟩ := idx_facts6 t
  unfold iblk6
  rw [View.read_apply]
  show V c main_v69 _ = V c main_v69 _
  congr 1
  funext a
  apply Fin.ext
  match a with
  | ⟨0, _⟩ => show win6_0.index t (0 : Fin 2) * 2000 + 1 * (y 0).val = (i 0).val; rw [e0, h0]; omega
  | ⟨1, _⟩ => show win6_0.index t (1 : Fin 2) * 128 + 1 * (y 1).val = (i 1).val; rw [e1, h1]; omega

/-- The right factor's block at every point is the whole right array. -/
theorem iblk6_1_apply (c : Dev nD) (t : Fin cfg6.N)
    (y : S128x40.Idx) :
    (iblk6 V c 1 t : Vec Ideal S128x40 .f32) y = (V c main_arg11 : S128x40.Idx → EReal) y := by
  obtain ⟨-, -, e2, e3, -⟩ := idx_facts6 t
  unfold iblk6
  rw [View.read_apply]
  show V c main_arg11 _ = V c main_arg11 _
  congr 1
  funext a
  apply Fin.ext
  match a with
  | ⟨0, _⟩ => show win6_1.index t (0 : Fin 2) * 128 + 1 * (y 0).val = (y 0).val; rw [e2]; omega
  | ⟨1, _⟩ => show win6_1.index t (1 : Fin 2) * pcols + 1 * (y 1).val = (y 1).val; rw [e3]; omega

/-- Entry (p, q) of the result's block at point t sits at row 2000·t + p, column q of the result array. -/
theorem oblk6_emb (t : Fin cfg6.N)
    (p : Fin 2000) (q : Fin pcols) :
    ((cfg6.win 2).blk t).view.emb (ix2 p q)
      = (ix2 (⟨2000 * t.val + p.val, by have := point_lt6 t; omega⟩ : Fin 50000) q : Shape.Idx PArr) := by
  obtain ⟨-, -, -, -, e4, e5⟩ := idx_facts6 t
  funext a
  apply Fin.ext
  match a with
  | ⟨0, _⟩ => show win6_2.index t (0 : Fin 2) * 2000 + 1 * p.val = 2000 * t.val + p.val; rw [e4]; omega
  | ⟨1, _⟩ => show win6_2.index t (1 : Fin 2) * pcols + 1 * q.val = q.val; rw [e5]; omega

/-- The product of two blocks at an entry, when the left block's row p is row r of an array A and the right
    block is an array B: the entry (r, q) of the product of A and B. -/
theorem pay6_of_rows
    (x0 : Vec Ideal S2000x128 .f32)
    (x1 : Vec Ideal S128x40 .f32)
    (A : S50000x128.Idx → EReal)
    (B : S128x40.Idx → EReal)
    (p : Fin 2000) (q : Fin pcols) (r : Fin 50000)
    (hx : ∀ k : Fin 128, x0 (ix2 p k) = A (ix2 r k))
    (hw : ∀ k : Fin 128, x1 (ix2 k q) = B (ix2 k q)) :
    k6_pay1 x0 x1 (ix2 p q) = prodArr6 A B (ix2 r q) := by
  rw [pay6_apply]
  exact Finset.sum_congr rfl fun k _ => by rw [hx k, hw k]

/-- What point t writes back is block t of the product of the two arrays as the region finds them. -/
theorem flushed6_eq (c : Dev nD) (t : Fin cfg6.N) :
    (dat6 (F := Ideal) V c).flushed 2 t
      = ((cfg6.win 2).blk t).view.read (Elt Ideal) (prodArr6 (V c main_v69) (V c main_arg11)) := by
  show (cfg6.win 2).cut (grid6.coords t) ((dat6 (F := Ideal) V c).after 2 t) = _
  rw [after6_2]
  unfold out6_2
  rw [View.canon_unit_zero zero_off6]
  simp only [View.ld_unit_zero (S := S2000x128) zero_off6, View.ld_unit_zero (S := S128x40) zero_off6]
  funext j
  obtain ⟨p, q, rfl⟩ : ∃ (p : Fin 2000) (q : Fin pcols), j = ix2 p q := ⟨j 0, j 1, eq_ix2 j⟩
  show k6_pay1 (iblk6 V c 0 t) (iblk6 V c 1 t) (ix2 p q)
    = prodArr6 (V c main_v69) (V c main_arg11) (((cfg6.win 2).blk t).view.emb (ix2 p q))
  rw [oblk6_emb]
  exact pay6_of_rows _ _ _ _ p q _
    (fun k => iblk6_0_apply V c t (ix2 p k) (ix2 _ k) rfl rfl)
    (fun k => iblk6_1_apply V c t (ix2 k q))

/-- An index of the result array is in point t's block iff each coordinate is in the block's range. -/
theorem mem_oblk6 (t : Fin cfg6.N)
    (i : Shape.Idx PArr) :
    i ∈ ((cfg6.win 2).blk t).view.set
      ↔ ∀ a : Fin 2, win6_2.index t a * win6_2.size a ≤ (i a).val
          ∧ (i a).val < win6_2.index t a * win6_2.size a + win6_2.size a := by
  show i ∈ ((View.whole main_v70).slice (win6_2.rect t)).set ↔ _
  rw [View.set_slice_whole, Rect.mem_set_unit]
  exact Iff.rfl

/-- Every index of the result array is in some point's block: row r in that of point r / 2000. -/
theorem cover6
    (i : Shape.Idx PArr) :
    ∃ t : Fin cfg6.N, (cfg6.win 2).flush t = true ∧ i ∈ ((cfg6.win 2).blk t).view.set := by
  have hi0 : (i 0).val < 50000 := idx2_lt0 i
  have hi1 : (i 1).val < pcols := idx2_lt1 i
  obtain ⟨t, ht⟩ : ∃ t : Fin cfg6.N, t.val = (i 0).val / 2000 :=
    ⟨⟨(i 0).val / 2000, by rw [show cfg6.N = 25 from N_6]; omega⟩, rfl⟩
  obtain ⟨-, -, -, -, e4, e5⟩ := idx_facts6 t
  refine ⟨t, flush6_2 t, ?_⟩
  rw [mem_oblk6]
  intro a
  match a with
  | ⟨0, _⟩ =>
    show win6_2.index t (0 : Fin 2) * 2000 ≤ (i 0).val ∧ (i 0).val < win6_2.index t (0 : Fin 2) * 2000 + 2000
    rw [e4, ht]; omega
  | ⟨1, _⟩ =>
    show win6_2.index t (1 : Fin 2) * pcols ≤ (i 1).val ∧ (i 1).val < win6_2.index t (1 : Fin 2) * pcols + pcols
    rw [e5]; omega

/-- The result array after the region: the product of the two arrays, entry by entry. -/
theorem arr6_eq (c : Dev nD) :
    (dat6 (F := Ideal) V c).arrAt 2 cfg6.N = prodArr6 (V c main_v69) (V c main_arg11) :=
  (dat6 (F := Ideal) V c).arrAt_eq_of_cover 2 (prodArr6 (V c main_v69) (V c main_arg11))
    (fun t _ => flushed6_eq V c t) cover6

/-- The region's result, as matrices: the product of the left array and the right array. -/
theorem val6 (c : Dev nD) :
    mat ((dat6 (F := Ideal) V c).arrAt 2 cfg6.N) = prod (mat (V c main_v69)) (mat (V c main_arg11)) := by
  rw [arr6_eq V c]
  funext i j
  rfl

end Cert.KernelIdeal.Reg

end
-- ==== Proof.Ideal.Val7Softmax.lean ====
import proofs.«158427_j57105885167694_2_alg».proof.Proof.Ideal.Reg7Softmax
import proofs.«158427_j57105885167694_2_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Data.Finset.Fold
import Mathlib.Data.Finset.Lattice.Fold

open scoped BigOperators

noncomputable section

namespace Cert.KernelIdeal.Reg

open Cert.KernelIdeal Cert.KernelIdeal.Gen Cert.Spec
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOffsets7 : (![0, 0] : Fin 2 → Nat) = fun _ => 0 := funext fun a => by fin_cases a <;> rfl

theorem exp_at7 {s : Shape} {φ : FTy} (a : FVec Ideal s φ) (i : s.Idx) : exp a i = Ideal.exp (a i) := rfl

theorem log_at7 {s : Shape} {φ : FTy} (a : FVec Ideal s φ) (i : s.Idx) : log a i = Ideal.log (a i) := rfl

theorem shapeCast_a_a1_apply7 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply7 {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

theorem negInf7 : Ideal.ofBits .f32 0xFF800000#32 = ⊥ := by simp [Ideal.ofBits, Ideal.ieee]

theorem fold_max_bot7 {ι : Type} (s : Finset ι) (f : ι → EReal) : s.fold max ⊥ f = s.sup f := by
  apply le_antisymm
  · rw [Finset.fold_max_le]
    exact ⟨bot_le, fun x hx => Finset.le_sup hx⟩
  · apply Finset.sup_le
    intro x hx
    rw [Finset.le_fold_max]
    exact Or.inr ⟨x, hx, le_rfl⟩

theorem lift7 (p : Fin 2000) (k : Fin 40) : reduces_S2000x40_S2000.lift (ix1 p) k = ix2 p k := by
  funext a
  apply Fin.ext
  match a with
  | ⟨0, _⟩ => rfl
  | ⟨1, _⟩ => rfl

theorem rowMax_at7 (v : FVec Ideal S2000x40 .f32) (hφ : FTy.f32 = FTy.f32 ∨ FTy.f32 = FTy.bf16)
    (hacc : (0xFF800000#32 : BitVec FTy.f32.bits) = 0xFF800000#32) (p : Fin 2000) :
    multiReduction (F := Ideal) .maximumf [1] S2000 v 0xFF800000#32 reduces_S2000x40_S2000 hφ hacc (ix1 p)
      = Finset.univ.sup fun k : Fin 40 => v (ix2 p k) := by
  refine (Ideal.multiReduction_maximumf_single v 0xFF800000#32 reduces_S2000x40_S2000 hφ hacc (ix1 p)).trans ?_
  rw [Ideal.ofBits_def, negInf7]
  refine (fold_max_bot7 _ _).trans ?_
  refine congrArg (Finset.sup Finset.univ) (funext fun k => ?_)
  exact congrArg v (lift7 p k)

theorem rowSum_at7 (v : FVec Ideal S2000x40 .f32) (hφ : FTy.f32 = FTy.f32 ∨ FTy.f32 = FTy.bf16)
    (hacc : (0x00000000#32 : BitVec FTy.f32.bits) = 0x00000000#32) (p : Fin 2000) :
    multiReduction (F := Ideal) .add [1] S2000 v 0x00000000#32 reduces_S2000x40_S2000 hφ hacc (ix1 p)
      = ∑ k : Fin 40, v (ix2 p k) := by
  refine (Ideal.multiReduction_add_single v 0x00000000#32 reduces_S2000x40_S2000 hφ hacc (ix1 p)).trans ?_
  refine Finset.sum_congr rfl fun k _ => ?_
  exact congrArg v (lift7 p k)

theorem out7_2_apply (x0 : Vec Ideal S2000x40 .f32) (x1 : Vec Ideal S1x40 .f32) (p : Fin 2000) (q : Fin 40) :
    out7_2 x0 x1 (ix2 p q)
      = ((x0 (ix2 p q) + x1 (ix2 (0 : Fin 1) q)) - Finset.univ.sup fun k : Fin 40 => x0 (ix2 p k) + x1 (ix2 (0 : Fin 1) k))
        - Ideal.log (∑ k : Fin 40, Ideal.exp ((x0 (ix2 p k) + x1 (ix2 (0 : Fin 1) k))
            - Finset.univ.sup fun k' : Fin 40 => x0 (ix2 p k') + x1 (ix2 (0 : Fin 1) k'))) := by
  unfold out7_2
  rw [View.canon_unit_zero zeroOffsets7]
  simp only [View.ld_unit_zero (S := S2000x40) zeroOffsets7, View.ld_unit_zero (S := S1x40) zeroOffsets7]
  unfold k7_pay1
  simp only [subf_apply, log_at7, broadcastTo_a1_ab_apply7, shapeCast_a_a1_apply7, addf_apply, shapeCast_self,
    broadcastTo_1b_ab_apply]
  rw [rowSum_at7]
  simp only [exp_at7, subf_apply, addf_apply, broadcastTo_a1_ab_apply7, shapeCast_a_a1_apply7, broadcastTo_1b_ab_apply]
  rw [rowMax_at7]
  simp only [addf_apply, broadcastTo_1b_ab_apply]

theorem blockIndex7 : ∀ t : Fin cfg7.N,
    win7_0.index t (0 : Fin 2) = t.val ∧ win7_0.index t (1 : Fin 2) = 0
    ∧ win7_2.index t (0 : Fin 2) = t.val ∧ win7_2.index t (1 : Fin 2) = 0
    ∧ win7_1.index t (0 : Fin 2) = 0 ∧ win7_1.index t (1 : Fin 2) = 0 :=
  (by decide +kernel : ∀ t : Fin grid7.N, _)

theorem iblk7_0_apply (c : Dev nD) (t : Fin cfg7.N) (p : Fin 2000) (q : Fin 40) (r : Fin 50000)
    (hr : r.val = 2000 * t.val + p.val) :
    (iblk7 V c 0 t : Vec Ideal S2000x40 .f32) (ix2 p q) = mat (V c main_v83) r q := by
  obtain ⟨e0, e1, -⟩ := blockIndex7 t
  unfold iblk7
  rw [View.read_apply]
  show V c main_v83 _ = V c main_v83 (ix2 r q)
  congr 1
  funext a
  apply Fin.ext
  match a with
  | ⟨0, _⟩ => show win7_0.index t (0 : Fin 2) * 2000 + 1 * p.val = r.val; rw [e0, hr]; omega
  | ⟨1, _⟩ => show win7_0.index t (1 : Fin 2) * 40 + 1 * q.val = q.val; rw [e1]; omega

theorem iblk7_1_apply (c : Dev nD) (t : Fin cfg7.N) (q : Fin 40) :
    (iblk7 V c 1 t : Vec Ideal S1x40 .f32) (ix2 (0 : Fin 1) q) = row (V c main_v84) q := by
  obtain ⟨-, -, -, -, e0, e1⟩ := blockIndex7 t
  unfold iblk7
  rw [View.read_apply]
  show V c main_v84 _ = V c main_v84 (ix2 (0 : Fin 1) q)
  congr 1
  funext a
  apply Fin.ext
  match a with
  | ⟨0, _⟩ => show win7_1.index t (0 : Fin 2) * 1 + 1 * 0 = 0; rw [e0]
  | ⟨1, _⟩ => show win7_1.index t (1 : Fin 2) * 40 + 1 * q.val = q.val; rw [e1]; omega

def lsmArr7 (c : Dev nD) : S50000x40.Idx → EReal :=
  fun i => logSoftmax (shift (mat (V c main_v83)) (row (V c main_v84))) (i 0) (i 1)

theorem out7_2_at (c : Dev nD) (t : Fin cfg7.N) (p : Fin 2000) (q : Fin 40) (r : Fin 50000)
    (hr : r.val = 2000 * t.val + p.val) :
    out7_2 (iblk7 V c 0 t) (iblk7 V c 1 t) (ix2 p q) = lsmArr7 V c (ix2 r q) := by
  refine (out7_2_apply _ _ p q).trans ?_
  simp only [fun k => iblk7_0_apply V c t p k r hr, iblk7_1_apply]
  rfl

theorem flushed7_2_eq (c : Dev nD) (t : Fin cfg7.N) :
    (dat7 V c).flushed 2 t = ((cfg7.win 2).blk t).view.read (Elt Ideal) (lsmArr7 V c) := by
  show (cfg7.win 2).cut (grid7.coords t) ((dat7 V c).after 2 t) = _
  rw [after7_2]
  funext j
  obtain ⟨p, q, rfl⟩ : ∃ (p : Fin 2000) (q : Fin 40), j = ix2 p q := ⟨j 0, j 1, eq_ix2 j⟩
  have hN : cfg7.N = 25 := N_7
  have ht : t.val < 25 := hN ▸ t.isLt
  obtain ⟨-, -, e0, e1, -⟩ := blockIndex7 t
  have he : ((cfg7.win 2).blk t).view.emb (ix2 p q) = ix2 (⟨2000 * t.val + p.val, by omega⟩ : Fin 50000) q := by
    funext a
    apply Fin.ext
    match a with
    | ⟨0, _⟩ => show win7_2.index t (0 : Fin 2) * 2000 + 1 * p.val = 2000 * t.val + p.val; rw [e0]; omega
    | ⟨1, _⟩ => show win7_2.index t (1 : Fin 2) * 40 + 1 * q.val = q.val; rw [e1]; omega
  show out7_2 (iblk7 V c 0 t) (iblk7 V c 1 t) (ix2 p q) = lsmArr7 V c (((cfg7.win 2).blk t).view.emb (ix2 p q))
  rw [he]
  exact out7_2_at V c t p q _ rfl

theorem mem_blk7_2 (t : Fin cfg7.N) (i : S50000x40.Idx) :
    i ∈ ((cfg7.win 2).blk t).view.set ↔ ∀ a : Fin 2, win7_2.index t a * S2000x40.size a ≤ (i a).val ∧ (i a).val < win7_2.index t a * S2000x40.size a + S2000x40.size a := by
  show i ∈ ((View.whole main_v85).slice (win7_2.rect t)).set ↔ _
  rw [View.set_slice_whole, Rect.mem_set_unit]
  exact Iff.rfl

theorem rows_covered7 (i : S50000x40.Idx) :
    ∃ t : Fin cfg7.N, (cfg7.win 2).flush t = true ∧ i ∈ ((cfg7.win 2).blk t).view.set := by
  have hN : cfg7.N = 25 := N_7
  have hi0 : (i 0).val < 50000 := (i 0).isLt
  have hi1 : (i 1).val < 40 := (i 1).isLt
  have ht : (i 0).val / 2000 < cfg7.N := by rw [hN]; omega
  obtain ⟨-, -, e0, e1, -⟩ := blockIndex7 ⟨(i 0).val / 2000, ht⟩
  refine ⟨⟨(i 0).val / 2000, ht⟩, flush7_2 _, ?_⟩
  rw [mem_blk7_2]
  intro a
  match a with
  | ⟨0, _⟩ =>
    show win7_2.index ⟨(i 0).val / 2000, ht⟩ (0 : Fin 2) * 2000 ≤ (i 0).val ∧ (i 0).val < win7_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win7_2.index ⟨(i 0).val / 2000, ht⟩ (1 : Fin 2) * 40 ≤ (i 1).val ∧ (i 1).val < win7_2.index ⟨(i 0).val / 2000, ht⟩ (1 : Fin 2) * 40 + 40
    rw [e1]; omega

theorem final7_2 (c : Dev nD) : (dat7 V c).arrAt 2 cfg7.N = lsmArr7 V c :=
  (dat7 V c).arrAt_eq_of_cover 2 (lsmArr7 V c) (fun t _ => flushed7_2_eq V c t) rows_covered7

theorem val7 (c : Dev nD) : mat ((dat7 (F := Ideal) V c).arrAt 2 cfg7.N) = logSoftmax (shift (mat (V c main_v83)) (row (V c main_v84))) := by
  rw [final7_2]
  rfl

end Cert.KernelIdeal.Reg

end
-- ==== Proof.Math.lean ====
import proofs.«158427_j57105885167694_2_alg».proof.Proof.Spec
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Ring.Finset
import Mathlib.Algebra.Order.BigOperators.Group.Finset
import Mathlib.Tactic.Ring
import Mathlib.Tactic.FieldSimp
import Mathlib.Tactic.Linarith
import Mathlib.Tactic.NormNum
import Mathlib.Tactic.Positivity

open scoped BigOperators

noncomputable section

namespace Cert.Spec

open Idealize.ShloMosaic

def IsReal (x : EReal) : Prop := ∃ r : ℝ, x = (r : EReal)

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (Max.max x y) := by
  rcases le_total x y with h | h
  · rw [max_eq_right h]; exact hy
  · rw [max_eq_left h]; exact hx

theorem IsReal.sum {ι : Type} (s : Finset ι) (f : ι → EReal) (h : ∀ i ∈ s, IsReal (f i)) :
    IsReal (∑ i ∈ s, f i) :=
  Finset.sum_induction f IsReal (fun _ _ ha hb => ha.add hb) isReal_zero h

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem rows_eq : rows = ((50000 : ℝ) : EReal) := by
  simp [rows, Ideal.ofBits, Ideal.ieee, -EReal.coe_mul]; norm_num

theorem eps_pos : ∃ e : ℝ, 0 < e ∧ eps = (e : EReal) := by
  refine ⟨((2 ^ 23 + 2606508 : ℕ) : ℝ) * (2 : ℝ) ^ ((110 : ℤ) - 127 - 23), by positivity, ?_⟩
  simp [eps, Ideal.ofBits, Ideal.ieee, -EReal.coe_mul]

theorem div_rows_coe (a : ℝ) : Ideal.div (a : EReal) rows = ((a / 50000 : ℝ) : EReal) := by
  rw [rows_eq, Ideal.div_coe (by norm_num) , ← EReal.coe_mul]
  congr 1; ring

theorem IsReal.div_rows {x : EReal} (hx : IsReal x) : IsReal (Ideal.div x rows) := by
  obtain ⟨a, rfl⟩ := hx
  exact ⟨_, div_rows_coe a⟩

theorem isReal_rsqrt_add_eps {v : EReal} (hv : IsReal v) (h0 : 0 ≤ v) : IsReal (Ideal.rsqrt (v + eps)) := by
  obtain ⟨a, rfl⟩ := hv
  obtain ⟨e, he, hE⟩ := eps_pos
  have ha : 0 ≤ a := EReal.coe_nonneg.mp h0
  rw [hE, ← EReal.coe_add, Ideal.rsqrt_coe, if_neg (not_lt.mpr (by linarith)), if_neg (ne_of_gt (by linarith))]
  exact isReal_coe _

theorem prod_isReal {n k p : Nat} (x : Mat n k) (w : Mat k p) (hx : ∀ i l, IsReal (x i l))
    (hw : ∀ l j, IsReal (w l j)) : ∀ i j, IsReal (prod x w i j) :=
  fun i j => IsReal.sum _ _ fun l _ => (hx i l).mul (hw l j)

theorem shift_isReal {n p : Nat} (h : Mat n p) (b : Fin p → EReal) (hh : ∀ i j, IsReal (h i j))
    (hb : ∀ j, IsReal (b j)) : ∀ i j, IsReal (shift h b i j) :=
  fun i j => (hh i j).add (hb j)

theorem mean_isReal {n p : Nat} (h : Mat n p) (hh : ∀ i j, IsReal (h i j)) : ∀ j, IsReal (mean h j) :=
  fun j => (IsReal.sum _ _ fun i _ => hh i j).div_rows

theorem real_var_identity {n : ℕ} (N : ℝ) (hN : N ≠ 0) (hn : (n : ℝ) = N) (r : Fin n → ℝ) :
    (∑ i, r i * r i) / N - (∑ i, r i) / N * ((∑ i, r i) / N)
      = (∑ i, (r i - (∑ i, r i) / N) * (r i - (∑ i, r i) / N)) / N := by
  have hS : ∑ i, r i = N * ((∑ i, r i) / N) := by field_simp
  generalize (∑ i, r i) / N = m at hS ⊢
  have h1 : ∑ i, (r i - m) * (r i - m) = ∑ i, r i * r i - 2 * m * ∑ i, r i + N * (m * m) := by
    have h2 : ∀ i, (r i - m) * (r i - m) = r i * r i - 2 * m * r i + m * m := fun i => by ring
    simp_rw [h2]
    rw [Finset.sum_add_distrib, Finset.sum_sub_distrib, ← Finset.mul_sum, Finset.sum_const,
      Finset.card_univ, Fintype.card_fin, nsmul_eq_mul, hn]
  rw [h1, hS]
  field_simp
  ring

theorem mean_coe {n p : Nat} (h : Mat n p) (r : Fin n → Fin p → ℝ) (hr : ∀ i j, h i j = (r i j : EReal))
    (j : Fin p) : mean h j = (((∑ i, r i j) / 50000 : ℝ) : EReal) := by
  unfold mean
  simp_rw [hr]
  rw [coe_sum, div_rows_coe]

theorem varTwoPass_coe {n p : Nat} (h : Mat n p) (r : Fin n → Fin p → ℝ) (hr : ∀ i j, h i j = (r i j : EReal))
    (j : Fin p) :
    varTwoPass h j
      = (((∑ i, (r i j - (∑ i, r i j) / 50000) * (r i j - (∑ i, r i j) / 50000)) / 50000 : ℝ) : EReal) := by
  unfold varTwoPass
  rw [mean_coe h r hr j]
  simp_rw [hr, ← EReal.coe_sub, ← EReal.coe_mul]
  rw [coe_sum, div_rows_coe]

theorem varTwoPass_isReal_nonneg {n p : Nat} (h : Mat n p) (hh : ∀ i j, IsReal (h i j)) :
    ∀ j, IsReal (varTwoPass h j) ∧ 0 ≤ varTwoPass h j := by
  choose r hr using hh
  intro j
  rw [varTwoPass_coe h r hr j]
  exact ⟨isReal_coe _, EReal.coe_nonneg.mpr
    (div_nonneg (Finset.sum_nonneg fun i _ => mul_self_nonneg _) (by norm_num))⟩

/-- Over real entries Σ(x−μ)²/N = Σx²/N − μ², which is ≥ 0, so the clamp at 0 changes nothing. -/
theorem varOnePass_eq_varTwoPass {p : Nat} (h : Mat 50000 p) (hh : ∀ i j, IsReal (h i j)) :
    varOnePass h = varTwoPass h := by
  choose r hr using hh
  funext j
  rw [varTwoPass_coe h r hr j]
  unfold varOnePass
  rw [mean_coe h r hr j]
  simp_rw [hr, ← EReal.coe_mul]
  have key := real_var_identity (50000 : ℝ) (by norm_num) (by norm_num) (fun i => r i j)
  beta_reduce at key
  rw [coe_sum, div_rows_coe, ← EReal.coe_sub, key]
  refine max_eq_left (EReal.coe_nonneg.mpr ?_)
  exact div_nonneg (Finset.sum_nonneg fun i _ => mul_self_nonneg _) (by norm_num)

theorem normRelu_isReal {n p : Nat} (h : Mat n p) (mu var g be : Fin p → EReal) (hh : ∀ i j, IsReal (h i j))
    (hmu : ∀ j, IsReal (mu j)) (hvar : ∀ j, IsReal (var j) ∧ 0 ≤ var j) (hg : ∀ j, IsReal (g j))
    (hbe : ∀ j, IsReal (be j)) : ∀ i j, IsReal (normRelu h mu var g be i j) :=
  fun i j => IsReal.max
    ((((hg j).mul ((hh i j).sub (hmu j))).mul (isReal_rsqrt_add_eps (hvar j).1 (hvar j).2)).add (hbe j))
    isReal_zero

theorem max_bot_left' (x : EReal) : max ⊥ x = x := max_eq_right bot_le

end Cert.Spec

end
-- ==== Proof.Net.lean ====
import proofs.«158427_j57105885167694_2_alg».proof.Proof.Math

open scoped BigOperators

noncomputable section

namespace Cert.Spec

open Idealize.ShloMosaic Idealize.ShloMosaic.ValueIdx

abbrev Arr (n p : Nat) : Type := (⟨2, ![n, p]⟩ : Shape).Idx → EReal

def ofMat {n p : Nat} (M : Mat n p) : Arr n p := fun i => M (i 0) (i 1)

theorem ofMat_mat {n p : Nat} (a : Arr n p) : ofMat (mat a) = a :=
  funext fun i => congrArg a (eq_ix2 i).symm

def AllReal {n p : Nat} (a : Arr n p) : Prop := ∀ i, IsReal (a i)

theorem allReal_ofMat {n p : Nat} (M : Mat n p) (h : ∀ i j, IsReal (M i j)) : AllReal (ofMat M) := fun i => h (i 0) (i 1)

theorem isReal_mat {n p : Nat} (a : Arr n p) (h : AllReal a) : ∀ i j, IsReal (mat a i j) := fun i j => h (ix2 i j)

variable (agg : Arr 50000 128 → Arr 50000 128) (agg40 : Arr 50000 40 → Arr 50000 40)
  (var : Mat 50000 128 → Fin 128 → EReal)

def pre (h : Mat 50000 128) (w : Mat 128 128) (b : Fin 128 → EReal) : Mat 50000 128 :=
  shift (mat (agg (ofMat (prod h w)))) b

def layer (h : Mat 50000 128) (w : Mat 128 128) (b g be : Fin 128 → EReal) : Mat 50000 128 :=
  normRelu (pre agg h w b) (mean (pre agg h w b)) (var (pre agg h w b)) g be

def net (x : Mat 50000 128) (w1 : Mat 128 128) (b1 g1 be1 : Fin 128 → EReal) (w2 : Mat 128 128) (b2 g2 be2 : Fin 128 → EReal)
    (w3 : Mat 128 40) (b3 : Fin 40 → EReal) : Mat 50000 40 :=
  logSoftmax (shift (mat (agg40 (ofMat (prod (layer agg var (layer agg var x w1 b1 g1 be1) w2 b2 g2 be2) w3)))) b3)

variable {agg}

theorem pre_isReal (hagg : ∀ a, AllReal a → AllReal (agg a)) (h : Mat 50000 128) (w : Mat 128 128) (b : Fin 128 → EReal)
    (hh : ∀ i j, IsReal (h i j)) (hw : ∀ i j, IsReal (w i j)) (hb : ∀ j, IsReal (b j)) : ∀ i j, IsReal (pre agg h w b i j) :=
  shift_isReal _ _ (isReal_mat _ (hagg _ (allReal_ofMat _ (prod_isReal h w hh hw)))) hb

theorem layer_onePass_eq (hagg : ∀ a, AllReal a → AllReal (agg a)) (h : Mat 50000 128) (w : Mat 128 128) (b g be : Fin 128 → EReal)
    (hh : ∀ i j, IsReal (h i j)) (hw : ∀ i j, IsReal (w i j)) (hb : ∀ j, IsReal (b j)) :
    layer agg varOnePass h w b g be = layer agg varTwoPass h w b g be := by
  unfold layer
  rw [varOnePass_eq_varTwoPass _ (pre_isReal hagg h w b hh hw hb)]

theorem layer_isReal (hagg : ∀ a, AllReal a → AllReal (agg a)) (h : Mat 50000 128) (w : Mat 128 128) (b g be : Fin 128 → EReal)
    (hh : ∀ i j, IsReal (h i j)) (hw : ∀ i j, IsReal (w i j)) (hb : ∀ j, IsReal (b j)) (hg : ∀ j, IsReal (g j)) (hbe : ∀ j, IsReal (be j)) :
    ∀ i j, IsReal (layer agg varTwoPass h w b g be i j) :=
  normRelu_isReal _ _ _ _ _ (pre_isReal hagg h w b hh hw hb) (mean_isReal _ (pre_isReal hagg h w b hh hw hb))
    (varTwoPass_isReal_nonneg _ (pre_isReal hagg h w b hh hw hb)) hg hbe

/-- Layer by layer the entries stay real, so the one-pass variance may be replaced by the two-pass one throughout. -/
theorem net_onePass_eq (hagg : ∀ a, AllReal a → AllReal (agg a))
    (x : Mat 50000 128) (w1 : Mat 128 128) (b1 g1 be1 : Fin 128 → EReal) (w2 : Mat 128 128) (b2 g2 be2 : Fin 128 → EReal)
    (w3 : Mat 128 40) (b3 : Fin 40 → EReal)
    (hx : ∀ i j, IsReal (x i j)) (hw1 : ∀ i j, IsReal (w1 i j)) (hb1 : ∀ j, IsReal (b1 j)) (hg1 : ∀ j, IsReal (g1 j)) (hbe1 : ∀ j, IsReal (be1 j))
    (hw2 : ∀ i j, IsReal (w2 i j)) (hb2 : ∀ j, IsReal (b2 j)) :
    net agg agg40 varOnePass x w1 b1 g1 be1 w2 b2 g2 be2 w3 b3 = net agg agg40 varTwoPass x w1 b1 g1 be1 w2 b2 g2 be2 w3 b3 := by
  unfold net
  rw [layer_onePass_eq hagg x w1 b1 g1 be1 hx hw1 hb1,
    layer_onePass_eq hagg _ w2 b2 g2 be2 (layer_isReal hagg x w1 b1 g1 be1 hx hw1 hb1 hg1 hbe1) hw2 hb2]

end Cert.Spec

end
-- ==== Proof.Ideal.KNet0.lean ====
import proofs.«158427_j57105885167694_2_alg».proof.Proof.Ideal.KeptArgs
import proofs.«158427_j57105885167694_2_alg».proof.Proof.Ideal.KeptIn
import proofs.«158427_j57105885167694_2_alg».proof.Proof.Ideal.HostDefs
import proofs.«158427_j57105885167694_2_alg».proof.Proof.Ideal.HostK
import proofs.«158427_j57105885167694_2_alg».proof.Proof.Ideal.Val0Matmul
import proofs.«158427_j57105885167694_2_alg».proof.Proof.Ideal.Val1Stats
import proofs.«158427_j57105885167694_2_alg».proof.Proof.Ideal.Val2Norm
import proofs.«158427_j57105885167694_2_alg».proof.Proof.Ideal.Val3Matmul
import proofs.«158427_j57105885167694_2_alg».proof.Proof.Ideal.Val4Stats
import proofs.«158427_j57105885167694_2_alg».proof.Proof.Ideal.Val5Norm
import proofs.«158427_j57105885167694_2_alg».proof.Proof.Ideal.Val6Matmul
import proofs.«158427_j57105885167694_2_alg».proof.Proof.Ideal.Val7Softmax
import proofs.«158427_j57105885167694_2_alg».proof.Proof.Net
import Idealize.ShloMosaic.Lib.Pipeline.Value
import Idealize.ShloMosaic.Lib.ValueIdx

set_option maxRecDepth 16384

open scoped BigOperators

noncomputable section

namespace Cert.KernelIdeal.Reg

open Cert.KernelIdeal Cert.KernelIdeal.Gen Cert.KernelIdeal.Hand Cert.Spec
open Idealize.ShloMosaic Idealize.ShloMosaic.TcCoe Idealize.ShloMosaic.ValueIdx
open Idealize.SL.Sem

theorem row_rowK (b : FVec Ideal S128 .f32) : row (rowK b) = vec b := by
  funext j
  show rowK b (ix2 (0 : Fin 1) j) = b (ix1 j)
  unfold rowK
  refine shapeCast_apply b _ (ix2 (0 : Fin 1) j) (ix1 j) ?_
  rw [Shape.rowMajor_val_one, Shape.rowMajor_val_two]
  show j.val = 0 * 128 + j.val
  omega

theorem row_rowK40 (b : FVec Ideal S40 .f32) : row (rowK40 b) = vec b := by
  funext j
  show rowK40 b (ix2 (0 : Fin 1) j) = b (ix1 j)
  unfold rowK40
  refine shapeCast_apply b _ (ix2 (0 : Fin 1) j) (ix1 j) ?_
  rw [Shape.rowMajor_val_one, Shape.rowMajor_val_two]
  show j.val = 0 * 40 + j.val
  omega

section
variable (m : (ℓ : Loc nD τ sig) → Buf (Elt Ideal) ℓ) (c : Dev nD)
theorem exit0_arr (w : Fin cfg0.W) : (dat0 (atTc (W3 m)) c).arrAt w cfg0.N = atTc (W4 m) c (Pipeline.arrRef spec0 w) := exit_arr m 0 launch0 (W3 m) (W4 m) (fun _ => rfl) c w
theorem exit1_arr (w : Fin cfg1.W) : (dat1 (atTc (W5 m)) c).arrAt w cfg1.N = atTc (W6 m) c (Pipeline.arrRef spec1 w) := exit_arr m 1 launch1 (W5 m) (W6 m) (fun _ => rfl) c w
theorem exit2_arr (w : Fin cfg2.W) : (dat2 (atTc (W6 m)) c).arrAt w cfg2.N = atTc (W7 m) c (Pipeline.arrRef spec2 w) := exit_arr m 2 launch2 (W6 m) (W7 m) (fun _ => rfl) c w
theorem exit3_arr (w : Fin cfg3.W) : (dat3 (atTc (W7 m)) c).arrAt w cfg3.N = atTc (W8 m) c (Pipeline.arrRef spec3 w) := exit_arr m 3 launch3 (W7 m) (W8 m) (fun _ => rfl) c w
theorem exit4_arr (w : Fin cfg4.W) : (dat4 (atTc (W9 m)) c).arrAt w cfg4.N = atTc (W10 m) c (Pipeline.arrRef spec4 w) := exit_arr m 4 launch4 (W9 m) (W10 m) (fun _ => rfl) c w
theorem exit5_arr (w : Fin cfg5.W) : (dat5 (atTc (W10 m)) c).arrAt w cfg5.N = atTc (W11 m) c (Pipeline.arrRef spec5 w) := exit_arr m 5 launch5 (W10 m) (W11 m) (fun _ => rfl) c w
theorem exit6_arr (w : Fin cfg6.W) : (dat6 (atTc (W11 m)) c).arrAt w cfg6.N = atTc (W12 m) c (Pipeline.arrRef spec6 w) := exit_arr m 6 launch6 (W11 m) (W12 m) (fun _ => rfl) c w
theorem exit7_arr (w : Fin cfg7.W) : (dat7 (atTc (W13 m)) c).arrAt w cfg7.N = atTc (W14 m) c (Pipeline.arrRef spec7 w) := exit_arr m 7 launch7 (W13 m) (W14 m) (fun _ => rfl) c w
end

end Cert.KernelIdeal.Reg

end
-- ==== Proof.Ideal.KNet1.lean ====
import proofs.«158427_j57105885167694_2_alg».proof.Proof.Ideal.KNet0

set_option maxRecDepth 16384

open scoped BigOperators

noncomputable section

namespace Cert.KernelIdeal.Reg

open Cert.KernelIdeal Cert.KernelIdeal.Gen Cert.KernelIdeal.Hand Cert.Spec
open Idealize.ShloMosaic Idealize.ShloMosaic.TcCoe Idealize.ShloMosaic.ValueIdx
open Idealize.SL.Sem

variable (m : (ℓ : Loc nD τ sig) → Buf (Elt Ideal) ℓ) (c : Dev nD)

theorem prod1_mat : mat (W4 m c (Proc.devRef .tc main_v32)) = prod (mat (m ((c.tc : Thread nD τ).loc main_arg0))) (mat (m ((c.tc : Thread nD τ).loc main_arg3))) := by
  have v := val0 (atTc (W3 m)) c
  rw [exit0_arr m c 2] at v
  refine v.trans ?_
  show prod (mat (W3 m c (Proc.devRef .tc main_arg0))) (mat (W3 m c (Proc.devRef .tc main_arg3))) = _
  rw [arg0_at3 m c, arg3_at3 m c]

theorem agg1_eq : W5 m c (Proc.devRef .tc main_v45) = (aggK (F := Ideal) (m ((c.tc : Thread nD τ).loc main_arg1)) (m ((c.tc : Thread nD τ).loc main_arg2))) (ofMat (prod (mat (m ((c.tc : Thread nD τ).loc main_arg0))) (mat (m ((c.tc : Thread nD τ).loc main_arg3))))) := by
  refine (W5_agg' m c ((src_at4 m c).trans (W3_src m c)) ((dst_at4 m c).trans (W3_dst m c))
    ((coef_at4 m c).trans (W3_coef m c))).trans ?_
  exact congrArg (aggK (F := Ideal) (m ((c.tc : Thread nD τ).loc main_arg1)) (m ((c.tc : Thread nD τ).loc main_arg2))) ((ofMat_mat _).symm.trans (congrArg ofMat (prod1_mat m c)))

theorem bias1_row : row (W5 m c (Proc.devRef .tc main_v46)) = vec (m ((c.tc : Thread nD τ).loc main_arg4)) := by
  have h : W5 m c (Proc.devRef .tc main_v46) = rowK (F := Ideal) (m ((c.tc : Thread nD τ).loc main_arg4)) :=
    (W5_b m c).trans (congrArg (rowK (F := Ideal)) (arg4_at4 m c))
  rw [h]
  exact row_rowK _

theorem pre1_eq : shift (mat (W5 m c (Proc.devRef .tc main_v45))) (row (W5 m c (Proc.devRef .tc main_v46))) = (pre (aggK (F := Ideal) (m ((c.tc : Thread nD τ).loc main_arg1)) (m ((c.tc : Thread nD τ).loc main_arg2))) (mat (m ((c.tc : Thread nD τ).loc main_arg0))) (mat (m ((c.tc : Thread nD τ).loc main_arg3))) (vec (m ((c.tc : Thread nD τ).loc main_arg4)))) := by
  rw [agg1_eq, bias1_row]
  rfl

theorem mean1_row : row (W6 m c (Proc.devRef .tc main_v49_0)) = mean (pre (aggK (F := Ideal) (m ((c.tc : Thread nD τ).loc main_arg1)) (m ((c.tc : Thread nD τ).loc main_arg2))) (mat (m ((c.tc : Thread nD τ).loc main_arg0))) (mat (m ((c.tc : Thread nD τ).loc main_arg3))) (vec (m ((c.tc : Thread nD τ).loc main_arg4)))) := by
  have v := val1_mean (atTc (W5 m)) c
  rw [exit1_arr m c 2] at v
  exact v.trans (congrArg mean (pre1_eq m c))

theorem var1_row : row (W6 m c (Proc.devRef .tc main_v49_1)) = varOnePass (pre (aggK (F := Ideal) (m ((c.tc : Thread nD τ).loc main_arg1)) (m ((c.tc : Thread nD τ).loc main_arg2))) (mat (m ((c.tc : Thread nD τ).loc main_arg0))) (mat (m ((c.tc : Thread nD τ).loc main_arg3))) (vec (m ((c.tc : Thread nD τ).loc main_arg4)))) := by
  have v := val1_var (atTc (W5 m)) c
  rw [exit1_arr m c 3] at v
  exact v.trans (congrArg varOnePass (pre1_eq m c))

theorem scale1_row : row (W6 m c (Proc.devRef .tc main_v47)) = vec (m ((c.tc : Thread nD τ).loc main_arg5)) := by
  have k : W6 m c (Proc.devRef .tc main_v47) = W5 m c (Proc.devRef .tc main_v47) := keep1 m c main_v47 (by decide)
  have h : W5 m c (Proc.devRef .tc main_v47) = rowK (F := Ideal) (m ((c.tc : Thread nD τ).loc main_arg5)) :=
    (W5_g m c).trans (congrArg (rowK (F := Ideal)) (arg5_at4 m c))
  rw [k, h]
  exact row_rowK _

theorem shift1_row : row (W6 m c (Proc.devRef .tc main_v48)) = vec (m ((c.tc : Thread nD τ).loc main_arg6)) := by
  have k : W6 m c (Proc.devRef .tc main_v48) = W5 m c (Proc.devRef .tc main_v48) := keep1 m c main_v48 (by decide)
  have h : W5 m c (Proc.devRef .tc main_v48) = rowK (F := Ideal) (m ((c.tc : Thread nD τ).loc main_arg6)) :=
    (W5_be m c).trans (congrArg (rowK (F := Ideal)) (arg6_at4 m c))
  rw [k, h]
  exact row_rowK _

theorem layer1_mat : mat (W7 m c (Proc.devRef .tc main_v50))
    = layer (aggK (F := Ideal) (m ((c.tc : Thread nD τ).loc main_arg1)) (m ((c.tc : Thread nD τ).loc main_arg2))) varOnePass (mat (m ((c.tc : Thread nD τ).loc main_arg0))) (mat (m ((c.tc : Thread nD τ).loc main_arg3))) (vec (m ((c.tc : Thread nD τ).loc main_arg4))) (vec (m ((c.tc : Thread nD τ).loc main_arg5))) (vec (m ((c.tc : Thread nD τ).loc main_arg6))) := by
  have v := val2 (atTc (W6 m)) c
  rw [exit2_arr m c 6] at v
  refine v.trans ?_
  show normRelu (shift (mat (W6 m c (Proc.devRef .tc main_v45))) (row (W6 m c (Proc.devRef .tc main_v46)))) (row (W6 m c (Proc.devRef .tc main_v49_0)))
      (row (W6 m c (Proc.devRef .tc main_v49_1))) (row (W6 m c (Proc.devRef .tc main_v47))) (row (W6 m c (Proc.devRef .tc main_v48))) = _
  rw [in1_0 m c, in1_1 m c, pre1_eq, mean1_row, var1_row, scale1_row, shift1_row]
  rfl

end Cert.KernelIdeal.Reg

end
-- ==== Proof.Ideal.KNet2.lean ====
/-
  The second hidden layer of the kernel program as the network's layer.

  Three pipelined regions and one stretch of host operations make a hidden layer. The product region leaves
  the matrix product of its input array and the weights. The host stretch aggregates that product along the
  graph's edges, with the edge lists and coefficients that were computed once from the launch arguments and
  are kept by everything after, and lays the bias, scale and shift rows out as one-row matrices. The statistics
  region leaves the column means and the clamped one-pass column variances of the aggregated product plus the
  bias row. The normalisation region, which reads the same arrays again beside the two statistics rows and the
  scale and shift rows, leaves the normalised, scaled and shifted matrix under max(·, 0). An array is its own
  matrix laid out again, so the region's result is the network's layer of the input matrix, the weights and
  the three rows. Here the input array is the first layer's result.
-/
import proofs.«158427_j57105885167694_2_alg».proof.Proof.Ideal.KNet1

set_option maxRecDepth 16384

open scoped BigOperators

noncomputable section

namespace Cert.KernelIdeal.Reg

open Cert.KernelIdeal Cert.KernelIdeal.Gen Cert.KernelIdeal.Hand Cert.Spec
open Idealize.ShloMosaic Idealize.ShloMosaic.TcCoe Idealize.ShloMosaic.ValueIdx
open Idealize.SL.Sem

variable (m : (ℓ : Loc nD τ sig) → Buf (Elt Ideal) ℓ) (c : Dev nD)

/-- The product's result array. -/
theorem prod2_mat : mat (W8 m c (Proc.devRef .tc main_v51)) = prod (mat (W7 m c (Proc.devRef .tc main_v50))) (mat (m ((c.tc : Thread nD τ).loc main_arg7))) := by
  have v := val3 (atTc (W7 m)) c
  rw [exit3_arr m c 2] at v
  refine v.trans ?_
  show prod (mat (W7 m c (Proc.devRef .tc main_v50))) (mat (W7 m c (Proc.devRef .tc main_arg7))) = _
  rw [arg7_at7 m c]

/-- The aggregated product. -/
theorem agg2_eq : W9 m c (Proc.devRef .tc main_v64) = (aggK (F := Ideal) (m ((c.tc : Thread nD τ).loc main_arg1)) (m ((c.tc : Thread nD τ).loc main_arg2))) (ofMat (prod (mat (W7 m c (Proc.devRef .tc main_v50))) (mat (m ((c.tc : Thread nD τ).loc main_arg7))))) := by
  refine (W9_agg' m c ((src_at8 m c).trans (W3_src m c)) ((dst_at8 m c).trans (W3_dst m c))
    ((coef_at8 m c).trans (W3_coef m c))).trans ?_
  exact congrArg (aggK (F := Ideal) (m ((c.tc : Thread nD τ).loc main_arg1)) (m ((c.tc : Thread nD τ).loc main_arg2))) ((ofMat_mat _).symm.trans (congrArg ofMat (prod2_mat m c)))

/-- The bias row as the statistics and the normalisation read it. -/
theorem bias2_row : row (W9 m c (Proc.devRef .tc main_v65)) = vec (m ((c.tc : Thread nD τ).loc main_arg8)) := by
  have h : W9 m c (Proc.devRef .tc main_v65) = rowK (F := Ideal) (m ((c.tc : Thread nD τ).loc main_arg8)) :=
    (W9_b m c).trans (congrArg (rowK (F := Ideal)) (arg8_at8 m c))
  rw [h]
  exact row_rowK _

/-- What the layer normalises. -/
theorem pre2_eq : shift (mat (W9 m c (Proc.devRef .tc main_v64))) (row (W9 m c (Proc.devRef .tc main_v65))) = (pre (aggK (F := Ideal) (m ((c.tc : Thread nD τ).loc main_arg1)) (m ((c.tc : Thread nD τ).loc main_arg2))) (mat (W7 m c (Proc.devRef .tc main_v50))) (mat (m ((c.tc : Thread nD τ).loc main_arg7))) (vec (m ((c.tc : Thread nD τ).loc main_arg8)))) := by
  rw [agg2_eq, bias2_row]
  rfl

/-- The column means the statistics region leaves. -/
theorem mean2_row : row (W10 m c (Proc.devRef .tc main_v68_0)) = mean (pre (aggK (F := Ideal) (m ((c.tc : Thread nD τ).loc main_arg1)) (m ((c.tc : Thread nD τ).loc main_arg2))) (mat (W7 m c (Proc.devRef .tc main_v50))) (mat (m ((c.tc : Thread nD τ).loc main_arg7))) (vec (m ((c.tc : Thread nD τ).loc main_arg8)))) := by
  have v := val4_mean (atTc (W9 m)) c
  rw [exit4_arr m c 2] at v
  exact v.trans (congrArg mean (pre2_eq m c))

/-- The column variances the statistics region leaves. -/
theorem var2_row : row (W10 m c (Proc.devRef .tc main_v68_1)) = varOnePass (pre (aggK (F := Ideal) (m ((c.tc : Thread nD τ).loc main_arg1)) (m ((c.tc : Thread nD τ).loc main_arg2))) (mat (W7 m c (Proc.devRef .tc main_v50))) (mat (m ((c.tc : Thread nD τ).loc main_arg7))) (vec (m ((c.tc : Thread nD τ).loc main_arg8)))) := by
  have v := val4_var (atTc (W9 m)) c
  rw [exit4_arr m c 3] at v
  exact v.trans (congrArg varOnePass (pre2_eq m c))

/-- The scale row. -/
theorem scale2_row : row (W10 m c (Proc.devRef .tc main_v66)) = vec (m ((c.tc : Thread nD τ).loc main_arg9)) := by
  have k : W10 m c (Proc.devRef .tc main_v66) = W9 m c (Proc.devRef .tc main_v66) := keep4 m c main_v66 (by decide)
  have h : W9 m c (Proc.devRef .tc main_v66) = rowK (F := Ideal) (m ((c.tc : Thread nD τ).loc main_arg9)) :=
    (W9_g m c).trans (congrArg (rowK (F := Ideal)) (arg9_at8 m c))
  rw [k, h]
  exact row_rowK _

/-- The shift row. -/
theorem shift2_row : row (W10 m c (Proc.devRef .tc main_v67)) = vec (m ((c.tc : Thread nD τ).loc main_arg10)) := by
  have k : W10 m c (Proc.devRef .tc main_v67) = W9 m c (Proc.devRef .tc main_v67) := keep4 m c main_v67 (by decide)
  have h : W9 m c (Proc.devRef .tc main_v67) = rowK (F := Ideal) (m ((c.tc : Thread nD τ).loc main_arg10)) :=
    (W9_be m c).trans (congrArg (rowK (F := Ideal)) (arg10_at8 m c))
  rw [k, h]
  exact row_rowK _

/-- The layer's result. -/
theorem layer2_mat : mat (W11 m c (Proc.devRef .tc main_v69))
    = layer (aggK (F := Ideal) (m ((c.tc : Thread nD τ).loc main_arg1)) (m ((c.tc : Thread nD τ).loc main_arg2))) varOnePass (mat (W7 m c (Proc.devRef .tc main_v50))) (mat (m ((c.tc : Thread nD τ).loc main_arg7))) (vec (m ((c.tc : Thread nD τ).loc main_arg8))) (vec (m ((c.tc : Thread nD τ).loc main_arg9))) (vec (m ((c.tc : Thread nD τ).loc main_arg10))) := by
  have v := val5 (atTc (W10 m)) c
  rw [exit5_arr m c 6] at v
  refine v.trans ?_
  show normRelu (shift (mat (W10 m c (Proc.devRef .tc main_v64))) (row (W10 m c (Proc.devRef .tc main_v65)))) (row (W10 m c (Proc.devRef .tc main_v68_0)))
      (row (W10 m c (Proc.devRef .tc main_v68_1))) (row (W10 m c (Proc.devRef .tc main_v66))) (row (W10 m c (Proc.devRef .tc main_v67))) = _
  rw [in4_0 m c, in4_1 m c, pre2_eq, mean2_row, var2_row, scale2_row, shift2_row]
  rfl

end Cert.KernelIdeal.Reg

end
-- ==== Proof.Ideal.KNet.lean ====
import proofs.«158427_j57105885167694_2_alg».proof.Proof.Ideal.KNet2

set_option maxRecDepth 16384

open scoped BigOperators

noncomputable section

namespace Cert.KernelIdeal.Reg

open Cert.KernelIdeal Cert.KernelIdeal.Gen Cert.KernelIdeal.Hand Cert.Spec
open Idealize.ShloMosaic Idealize.ShloMosaic.TcCoe Idealize.ShloMosaic.ValueIdx
open Idealize.SL.Sem

variable (m : (ℓ : Loc nD τ sig) → Buf (Elt Ideal) ℓ) (c : Dev nD)

theorem prod3_mat : mat (W12 m c (Proc.devRef .tc main_v70)) = prod (mat (W11 m c (Proc.devRef .tc main_v69))) (mat (m ((c.tc : Thread nD τ).loc main_arg11))) := by
  have v := val6 (atTc (W11 m)) c
  rw [exit6_arr m c 2] at v
  refine v.trans ?_
  show prod (mat (W11 m c (Proc.devRef .tc main_v69))) (mat (W11 m c (Proc.devRef .tc main_arg11))) = _
  rw [arg11_at11 m c]

theorem agg3_eq : W13 m c (Proc.devRef .tc main_v83) = (aggK40 (F := Ideal) (m ((c.tc : Thread nD τ).loc main_arg1)) (m ((c.tc : Thread nD τ).loc main_arg2))) (ofMat (prod (mat (W11 m c (Proc.devRef .tc main_v69))) (mat (m ((c.tc : Thread nD τ).loc main_arg11))))) := by
  refine (W13_agg' m c ((src_at12 m c).trans (W3_src m c)) ((dst_at12 m c).trans (W3_dst m c))
    ((coef_at12 m c).trans (W3_coef m c))).trans ?_
  exact congrArg (aggK40 (F := Ideal) (m ((c.tc : Thread nD τ).loc main_arg1)) (m ((c.tc : Thread nD τ).loc main_arg2))) ((ofMat_mat _).symm.trans (congrArg ofMat (prod3_mat m c)))

theorem bias3_row : row (W13 m c (Proc.devRef .tc main_v84)) = vec (m ((c.tc : Thread nD τ).loc main_arg12)) := by
  have h : W13 m c (Proc.devRef .tc main_v84) = rowK40 (F := Ideal) (m ((c.tc : Thread nD τ).loc main_arg12)) :=
    (W13_b m c).trans (congrArg (rowK40 (F := Ideal)) (arg12_at12 m c))
  rw [h]
  exact row_rowK40 _

theorem result_net : mat (result (F := Ideal) m c)
    = net (aggK (F := Ideal) (m ((c.tc : Thread nD τ).loc main_arg1)) (m ((c.tc : Thread nD τ).loc main_arg2))) (aggK40 (F := Ideal) (m ((c.tc : Thread nD τ).loc main_arg1)) (m ((c.tc : Thread nD τ).loc main_arg2))) varOnePass (mat (m ((c.tc : Thread nD τ).loc main_arg0))) (mat (m ((c.tc : Thread nD τ).loc main_arg3))) (vec (m ((c.tc : Thread nD τ).loc main_arg4))) (vec (m ((c.tc : Thread nD τ).loc main_arg5))) (vec (m ((c.tc : Thread nD τ).loc main_arg6)))
        (mat (m ((c.tc : Thread nD τ).loc main_arg7))) (vec (m ((c.tc : Thread nD τ).loc main_arg8))) (vec (m ((c.tc : Thread nD τ).loc main_arg9))) (vec (m ((c.tc : Thread nD τ).loc main_arg10))) (mat (m ((c.tc : Thread nD τ).loc main_arg11))) (vec (m ((c.tc : Thread nD τ).loc main_arg12))) := by
  have v := val7 (atTc (W13 m)) c
  rw [exit7_arr m c 2] at v
  refine (show mat (result (F := Ideal) m c) = mat (W14 m c (Proc.devRef .tc main_v85)) from rfl).trans (v.trans ?_)
  show logSoftmax (shift (mat (W13 m c (Proc.devRef .tc main_v83))) (row (W13 m c (Proc.devRef .tc main_v84)))) = _
  rw [agg3_eq, bias3_row, layer2_mat, layer1_mat]
  rfl

end Cert.KernelIdeal.Reg

end
-- ==== Proof.LibRowTake.lean ====
import Idealize.ShloMosaic.Lib.ValueIdx

open scoped BigOperators

namespace Cert.RowTake

open Idealize.ShloMosaic Idealize.ShloMosaic.ValueIdx

variable {α : Type} {N C E w : Nat}

abbrev rowsGather (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def takeRow (N : Nat) (hN : 0 < N) {w : Nat} (x : BitVec w) : Fin N :=
  ⟨min x.toInt.toNat (N - 1), by omega⟩

theorem takeRow_val (hN : 0 < N) (x : BitVec w) : (takeRow N hN x).val = min x.toInt.toNat (N - 1) := rfl

theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsGather N C E wf) x idx (ix2 e k)
      = x (ix2 (takeRow N hN (idx (ix2 e (0 : Fin 1)))) k) := by
  unfold Host.gather
  congr 1
  funext a
  refine Fin.ext ?_
  match a with
  | ⟨0, _⟩ =>
    show (rowsGather N C E wf).start (ix2 e k) idx 0 + (rowsGather N C E wf).batchCoord (ix2 e k) 0
      + (rowsGather N C E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e k) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsGather N C E wf).start (ix2 e k) idx 1 + (rowsGather N C E wf).batchCoord (ix2 e k) 1
      + (rowsGather N C E wf).offCoord (ix2 e k) 1 = k.val
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨(show (1 : Fin 2) ∉ [(0 : Fin 2)] by decide), List.not_mem_nil⟩)]
    simp only [Nat.add_zero, Nat.zero_add]
    rfl

abbrev rowsScatter (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

def landRow (N : Nat) {w : Nat} (x : BitVec w) : Option (Fin N) :=
  if h : 0 ≤ x.toInt ∧ x.toInt < (N : Int) then some ⟨x.toInt.toNat, by omega⟩ else none

theorem landRow_eq_some_iff (x : BitVec w) (i : Fin N) : landRow N x = some i ↔ x.toInt = (i.val : Int) := by
  unfold landRow
  constructor
  · intro h
    split at h
    · next hx =>
      have := congrArg Fin.val (Option.some.inj h)
      simp only at this
      omega
    · exact absurd h (by simp)
  · intro h
    have hi := i.isLt
    rw [dif_pos ⟨by omega, by omega⟩]
    congr 1
    refine Fin.ext ?_
    simp only
    omega

section Rows
variable (wf : ScatterDims.WF ⟨2, ![N, C]⟩ ⟨2, ![E, 1]⟩ ⟨2, ![E, C]⟩ [1] [0] [0] 1)
  (idx : IVec ⟨2, ![E, 1]⟩ w) (e : Fin E) (k : Fin C)

theorem rowsScatter_start0 :
    (rowsScatter N C E wf).start (ix2 e k) idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e k) ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowsScatter_start1 : (rowsScatter N C E wf).start (ix2 e k) idx 1 = 0 := by
  unfold ScatterDims.start
  exact dif_neg (show (1 : Fin 2) ∉ [(0 : Fin 2)] by decide)

theorem rowsScatter_window0 : (rowsScatter N C E wf).window (ix2 e k) 0 = 0 := by
  unfold ScatterDims.window
  exact dif_neg (show (0 : Fin 2) ∉ (rowsScatter N C E wf).sKept by
    simp [ScatterDims.sKept, Shape.kept, List.mem_filter, List.mem_finRange])

theorem rowsScatter_window1 : (rowsScatter N C E wf).window (ix2 e k) 1 = k.val := by
  unfold ScatterDims.window
  rw [dif_pos (show (1 : Fin 2) ∈ (rowsScatter N C E wf).sKept by
    simp [ScatterDims.sKept, Shape.kept, List.mem_filter, List.mem_finRange])]
  rfl

theorem resultIdx_rows :
    (rowsScatter N C E wf).resultIdx? (ix2 e k) idx
      = (landRow N (idx (ix2 e (0 : Fin 1)))).map (fun i => ix2 i k) := by
  unfold ScatterDims.resultIdx? landRow
  by_cases hx : 0 ≤ (idx (ix2 e (0 : Fin 1))).toInt ∧ (idx (ix2 e (0 : Fin 1))).toInt < (N : Int)
  · have hall : ∀ a, 0 ≤ (rowsScatter N C E wf).start (ix2 e k) idx a + (rowsScatter N C E wf).window (ix2 e k) a
        ∧ (rowsScatter N C E wf).start (ix2 e k) idx a + (rowsScatter N C E wf).window (ix2 e k) a
          < ((⟨2, ![N, C]⟩ : Shape).size a : Int) := by
      intro a
      match a with
      | ⟨0, _⟩ =>
        show 0 ≤ (rowsScatter N C E wf).start (ix2 e k) idx 0 + (rowsScatter N C E wf).window (ix2 e k) 0
          ∧ (rowsScatter N C E wf).start (ix2 e k) idx 0 + (rowsScatter N C E wf).window (ix2 e k) 0 < (N : Int)
        rw [rowsScatter_start0, rowsScatter_window0]
        omega
      | ⟨1, _⟩ =>
        show 0 ≤ (rowsScatter N C E wf).start (ix2 e k) idx 1 + (rowsScatter N C E wf).window (ix2 e k) 1
          ∧ (rowsScatter N C E wf).start (ix2 e k) idx 1 + (rowsScatter N C E wf).window (ix2 e k) 1 < (C : Int)
        rw [rowsScatter_start1, rowsScatter_window1]
        have := k.isLt
        omega
    rw [dif_pos hall, dif_pos hx, Option.map_some]
    congr 1
    funext a
    refine Fin.ext ?_
    match a with
    | ⟨0, _⟩ =>
      show ((rowsScatter N C E wf).start (ix2 e k) idx 0 + (rowsScatter N C E wf).window (ix2 e k) 0).toNat
        = (idx (ix2 e (0 : Fin 1))).toInt.toNat
      rw [rowsScatter_start0, rowsScatter_window0]
      simp only [Nat.cast_zero, add_zero]
    | ⟨1, _⟩ =>
      show ((rowsScatter N C E wf).start (ix2 e k) idx 1 + (rowsScatter N C E wf).window (ix2 e k) 1).toNat = k.val
      rw [rowsScatter_start1, rowsScatter_window1]
      omega
  · rw [dif_neg hx, Option.map_none]
    refine dif_neg (fun hall => hx ?_)
    have h0 := hall 0
    rw [rowsScatter_start0, rowsScatter_window0] at h0
    have h0' : 0 ≤ (idx (ix2 e (0 : Fin 1))).toInt + ((0 : Nat) : Int)
        ∧ (idx (ix2 e (0 : Fin 1))).toInt + ((0 : Nat) : Int) < (N : Int) := h0
    omega

theorem resultIdx_rows_eq_some_iff (k' : Fin C) (i : Fin N) :
    (rowsScatter N C E wf).resultIdx? (ix2 e k') idx = some (ix2 i k)
      ↔ landRow N (idx (ix2 e (0 : Fin 1))) = some i ∧ k' = k := by
  rw [resultIdx_rows, Option.map_eq_some_iff]
  constructor
  · rintro ⟨a, ha, hak⟩
    have h0 : a = i := congrFun hak 0
    have h1 : k' = k := congrFun hak 1
    exact ⟨by rw [ha, h0], h1⟩
  · rintro ⟨ha, rfl⟩
    exact ⟨i, ha, rfl⟩

end Rows

theorem scatterAdd_rows_apply {φ : FTy} (wf : ScatterDims.WF ⟨2, ![N, C]⟩ ⟨2, ![E, 1]⟩ ⟨2, ![E, C]⟩ [1] [0] [0] 1)
    (x0 : FVec Ideal ⟨2, ![N, C]⟩ φ) (idx : IVec ⟨2, ![E, 1]⟩ w) (upd : FVec Ideal ⟨2, ![E, C]⟩ φ)
    (i : Fin N) (k : Fin C) :
    Host.scatterAdd (F := Ideal) (rowsScatter N C E wf) x0 idx upd (ix2 i k)
      = x0 (ix2 i k)
        + ∑ e ∈ Finset.univ.filter (fun e : Fin E => landRow N (idx (ix2 e (0 : Fin 1))) = some i), upd (ix2 e k) := by
  show x0 (ix2 i k) + ∑ j ∈ Finset.univ.filter
      (fun j => (rowsScatter N C E wf).resultIdx? j idx = some (ix2 i k)), upd j = _
  congr 1
  rw [Finset.sum_filter, Finset.sum_filter, sum_idx2]
  refine Finset.sum_congr rfl (fun e _ => ?_)
  simp only [resultIdx_rows_eq_some_iff]
  by_cases he : landRow N (idx (ix2 e (0 : Fin 1))) = some i
  · simp only [he, true_and, if_true]
    exact Finset.sum_ite_eq' Finset.univ k (fun k' => upd (ix2 e k')) |>.trans (if_pos (Finset.mem_univ k))
  · simp only [he, false_and, if_false]
    exact Finset.sum_const_zero

end Cert.RowTake
-- ==== Proof.Ideal.HostFin.lean ====
import proofs.«158427_j57105885167694_2_alg».proof.Proof.Ideal.HostDefs
import proofs.«158427_j57105885167694_2_alg».proof.Proof.LibRowTake
import proofs.«158427_j57105885167694_2_alg».proof.Proof.Math

open scoped BigOperators

noncomputable section

namespace Cert.KernelIdeal.Hand

open Cert.KernelIdeal Cert.KernelIdeal.Facts₀ Cert.KernelIdeal.Facts Idealize.ShloMosaic
open Cert.Spec Cert.RowTake Idealize.ShloMosaic.ValueIdx

theorem isReal_one : IsReal 1 := ⟨1, EReal.coe_one.symm⟩

theorem ofBits_one_f32 : Ideal.ofBits .f32 0x3F800000#32 = 1 := by
  simp [Ideal.ofBits, Ideal.ieee, -EReal.coe_mul]; norm_num

theorem isReal_rsqrt_of_pos {d : EReal} (h : 0 < d) : IsReal (Ideal.rsqrt d) := by
  induction d using EReal.rec with
  | bot => exact absurd h (not_lt.mpr bot_le)
  | top => rw [Ideal.rsqrt_top]; exact isReal_zero
  | coe r =>
    have hr : 0 < r := EReal.coe_pos.mp h
    rw [Ideal.rsqrt_coe, if_neg (not_lt.mpr hr.le), if_neg (ne_of_gt hr)]
    exact isReal_coe _

theorem isReal_select_rsqrt (d : EReal) : IsReal (Scalar.select (Ideal.cmp .ogt d 0) (Ideal.rsqrt d) 0) := by
  by_cases h : 0 < d
  · have hc : Ideal.cmp .ogt d 0 = 1#1 := by simp [Ideal.cmp, h]
    rw [hc, select_one]; exact isReal_rsqrt_of_pos h
  · have hc : Ideal.cmp .ogt d 0 = 0#1 := by simp [Ideal.cmp, h]
    rw [hc, select_zero]; exact isReal_zero

theorem concatenate_entry {α : Type} (P : α → Prop) {t : Shape} (a : Fin t.rank) (xs : List ((s : Shape) × (s.Idx → α)))
    (h : Shape.Concatenates (xs.map (·.1)) t a) (hP : ∀ p ∈ xs, ∀ i, P (p.2 i)) (j : t.Idx) : P (concatenate t a xs h j) := by
  unfold concatenate
  exact hP _ (List.getElem_mem _) _

theorem isReal_broadcastInDim {s t : Shape} (dims : Fin s.rank → Fin t.rank) (h : s.BroadcastsInDim t dims) (x : s.Idx → EReal)
    (hx : ∀ i, IsReal (x i)) (j : t.Idx) : IsReal (broadcastInDim t dims h x j) := hx _

theorem isReal_gather {s si t : Shape} {w : Nat} (d : GatherDims s si t) (x : s.Idx → EReal) (idx : IVec si w)
    (hx : ∀ i, IsReal (x i)) (j : t.Idx) : IsReal (Host.gather d x idx j) := hx _

theorem bcast_zero_apply {T : Shape} (h : S_.BroadcastsInDim T ![]) (j : T.Idx) :
    broadcastInDim T ![] h (constant (F := Ideal) S_ .f32 0x00000000#32) j = 0 := by
  show Ideal.ofBits .f32 0x00000000#32 = 0
  exact Ideal.ofBits_zero_f32

theorem wtsK_isReal (ew : FVec Ideal S800000 .f32) (hw : ∀ i, IsReal (ew i)) : ∀ e, IsReal (wtsK ew e) := by
  intro e
  unfold wtsK
  refine concatenate_entry IsReal _ _ _ (fun p hp i => ?_) e
  rcases List.mem_cons.mp hp with rfl | hp
  · exact hw i
  · rcases List.mem_cons.mp hp with rfl | hp
    · show IsReal (broadcastInDim S50000 ![] bcast_S_S50000 (constant (F := Ideal) S_ .f32 0x3F800000#32) i)
      show IsReal (Ideal.ofBits .f32 0x3F800000#32)
      rw [ofBits_one_f32]
      exact isReal_one
    · exact absurd hp List.not_mem_nil

theorem select_rsqrt_isReal (d : FVec Ideal S50000 .f32) (i : S50000.Idx) :
    IsReal (select (cmpf .ogt d (broadcastInDim S50000 ![] bcast_S_S50000 (constant (F := Ideal) S_ .f32 0x00000000#32))) (Host.rsqrt d)
      (broadcastInDim S50000 ![] bcast_S_S50000 (id (constant (F := Ideal) S_ .f32 0x00000000#32))) i) := by
  show IsReal (Scalar.select (Ideal.cmp .ogt (d i) (Ideal.ofBits .f32 0x00000000#32)) (Ideal.rsqrt (d i))
    (Ideal.ofBits .f32 0x00000000#32))
  rw [Ideal.ofBits_zero_f32]
  exact isReal_select_rsqrt _

theorem dinvK_isReal (ei : IVec S2x800000 32) (ew : FVec Ideal S800000 .f32) : ∀ i, IsReal (dinvK ei ew i) :=
  fun i => select_rsqrt_isReal (degK ei ew) i

theorem coefK_isReal (ei : IVec S2x800000 32) (ew : FVec Ideal S800000 .f32) (hw : ∀ i, IsReal (ew i)) :
    ∀ e, IsReal (coefK ei ew e) := by
  intro e
  unfold coefK
  rw [mulf_apply, mulf_apply]
  exact ((isReal_gather _ _ _ (dinvK_isReal ei ew) e).mul (wtsK_isReal ew hw e)).mul (isReal_gather _ _ _ (dinvK_isReal ei ew) e)

theorem scatter128_eq : scatter_S50000x128_S850000x1_S850000x128_1_0_0_1
    = rowsScatter 50000 128 850000 scatter_S50000x128_S850000x1_S850000x128_1_0_0_1_wf := rfl

theorem scatter40_eq : scatter_S50000x40_S850000x1_S850000x40_1_0_0_1
    = rowsScatter 50000 40 850000 scatter_S50000x40_S850000x1_S850000x40_1_0_0_1_wf := rfl

theorem aggK_isReal (ei : IVec S2x800000 32) (ew : FVec Ideal S800000 .f32) (hw : ∀ i, IsReal (ew i))
    (xw : FVec Ideal S50000x128 .f32) (hx : ∀ i, IsReal (xw i)) : ∀ i, IsReal (aggK ei ew xw i) := by
  intro i
  obtain ⟨r, k, rfl⟩ : ∃ (r : Fin 50000) (k : Fin 128), i = ix2 r k := ⟨_, _, eq_ix2 i⟩
  unfold aggK
  rw [scatter128_eq, scatterAdd_rows_apply]
  refine IsReal.add ?_ (IsReal.sum _ _ fun e _ => ?_)
  · rw [bcast_zero_apply]; exact isReal_zero
  · rw [mulf_apply]
    exact (isReal_broadcastInDim _ _ _ (isReal_broadcastInDim _ _ _ (coefK_isReal ei ew hw)) _).mul (isReal_gather _ _ _ hx _)

end Cert.KernelIdeal.Hand

end
-- ==== Proof.Ideal.PreFinite.lean ====
import proofs.«158427_j57105885167694_2_alg».proof.Defs
import proofs.«158427_j57105885167694_2_alg».proof.Proof.Gen.Pre_finite_inputs
import proofs.«158427_j57105885167694_2_alg».proof.Proof.Math
import Idealize.ShloMosaic.Lib.ReduceAll
import Idealize.ShloMosaic.Lib.ValueIdx
import Idealize.ShloMosaic.PureOps.Ideal.Laws

set_option maxRecDepth 16384

noncomputable section

namespace Cert.KernelIdeal.Reg

open Idealize.ShloMosaic Idealize.ShloMosaic.TcCoe Idealize.SL.Sem
open Cert.Spec

theorem inf_word : Ideal.ofBits .f32 0x7F800000#32 = (⊤ : EReal) := by
  simp [Ideal.ofBits, Ideal.ieee]

theorem isReal_of_abs_lt_top (x : EReal) (h : max x (-x) < ⊤) : IsReal x := by
  induction x using EReal.rec with
  | bot => simp at h
  | coe r => exact ⟨r, rfl⟩
  | top => simp at h

theorem lt_of_cmp_olt (a b : EReal) (e : Ideal.cmp .olt a b = 1#1) : a < b := by
  by_contra hn
  have h0 : Ideal.cmp .olt a b = 0#1 := by simp [Ideal.cmp, hn]
  rw [h0] at e
  exact absurd e (by decide)

instance instSubsingletonPreS : Subsingleton Cert.Pre_finite_inputs.S_.Idx := ⟨fun a b => funext fun d => d.elim0⟩

theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf x) (broadcastInDim s ![] hb (constant (F := Ideal) Cert.Pre_finite_inputs.S_ .f32 0x7F800000#32))) init hr hu ValueIdx.ix0 = 1#1)
    (i : s.Idx) : IsReal (x i) := by
  have ei := Host.reduce_andi_all _ init hr hu ValueIdx.ix0 e i
  have ec : Ideal.cmp .olt (max (x i) (-(x i))) (Ideal.ofBits .f32 0x7F800000#32) = 1#1 := ei
  rw [inf_word] at ec
  exact isReal_of_abs_lt_top (x i) (lt_of_cmp_olt _ _ ec)

open Cert.KernelIdeal in

theorem pre_finite [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i))
    ∧ (∀ i, IsReal (m ((c.tc : Thread Cert.KernelIdeal.nD Cert.KernelIdeal.τ).loc Cert.KernelIdeal.main_arg12) i)) := by
  have h0 := congrFun (h c) ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨e0, e2⟩, e3⟩, e4⟩, e5⟩, e6⟩, e7⟩, e8⟩, e9⟩, e10⟩, e11⟩, e12⟩ := h0
  exact ⟨isReal_of_all _ _ _ _ _ e0, isReal_of_all _ _ _ _ _ e2, isReal_of_all _ _ _ _ _ e3, isReal_of_all _ _ _ _ _ e4,
    isReal_of_all _ _ _ _ _ e5, isReal_of_all _ _ _ _ _ e6, isReal_of_all _ _ _ _ _ e7, isReal_of_all _ _ _ _ _ e8,
    isReal_of_all _ _ _ _ _ e9, isReal_of_all _ _ _ _ _ e10, isReal_of_all _ _ _ _ _ e11, isReal_of_all _ _ _ _ _ e12⟩

end Cert.KernelIdeal.Reg

end
-- ==== Proof.Ref.Read.lean ====
import proofs.«158427_j57105885167694_2_alg».proof.Proof.Ref.Defs
import proofs.«158427_j57105885167694_2_alg».proof.Proof.Spec
import proofs.«158427_j57105885167694_2_alg».proof.Proof.Math
import Idealize.ShloMosaic.PureOps.Ideal.Laws
import Idealize.ShloMosaic.Lib.ValueIdx
import Idealize.ShloMosaic.Lib.IdealHost
import Idealize.ShloMosaic.Lib.Pipeline.Value

open scoped BigOperators

noncomputable section

namespace Cert.ReferenceIdeal.Hand

open Cert.ReferenceIdeal Cert.ReferenceIdeal.Facts₀ Cert.ReferenceIdeal.Facts Cert.ReferenceIdeal.Hand Cert.Spec
  Idealize.ShloMosaic Idealize.ShloMosaic.ValueIdx

theorem lhs_mm_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem lhs_mm_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_mm_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_mm_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

theorem mmR_read (x : FVec Ideal S50000x128 .f32) (w : FVec Ideal S128x128 .f32) :
    mat (mmR x w) = prod (mat x) (mat w) := by
  funext i j
  show mmR x w (ix2 i j) = ∑ l : Fin 128, x (ix2 i l) * w (ix2 l j)
  unfold mmR Host.dotGeneral
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 i j)
      ((contrEquiv1 dot_S50000x128_S128x128_S50000x128_1_0_0_1_n_n 128 rfl rfl).symm k) = ix2 i k :=
    funext fun a => Fin.ext (by
      match a with
      | ⟨0, _⟩ => exact lhs_mm_0 _ _
      | ⟨1, _⟩ => exact (lhs_mm_1 _ _).trans hk)
  have er : dot_S50000x128_S128x128_S50000x128_1_0_0_1_n_n.rhsIdx (ix2 i j)
      ((contrEquiv1 dot_S50000x128_S128x128_S50000x128_1_0_0_1_n_n 128 rfl rfl).symm k) = ix2 k j :=
    funext fun a => Fin.ext (by
      match a with
      | ⟨0, _⟩ => exact (rhs_mm_0 _ _).trans hk
      | ⟨1, _⟩ => exact rhs_mm_1 _ _)
  rw [el, er]

theorem lhs_mm40_0 (i : S50000x40.Idx) (q : dot_S50000x128_S128x40_S50000x40_1_0_0_1_n_n.contr.Idx) :
    (dot_S50000x128_S128x40_S50000x40_1_0_0_1_n_n.lhsIdx i q 0).val = (i 0).val := by
  unfold DotDims.lhsIdx
  rw [dif_neg (show ¬(0 : Fin S50000x128.rank) ∈ dot_S50000x128_S128x40_S50000x40_1_0_0_1_n_n.lhsBatch by decide),
    dif_pos (show (0 : Fin S50000x128.rank) ∈ dot_S50000x128_S128x40_S50000x40_1_0_0_1_n_n.lhsNonContracting by decide)]
  rfl

theorem lhs_mm40_1 (i : S50000x40.Idx) (q : dot_S50000x128_S128x40_S50000x40_1_0_0_1_n_n.contr.Idx) :
    (dot_S50000x128_S128x40_S50000x40_1_0_0_1_n_n.lhsIdx i q 1).val = (q ⟨0, by decide⟩).val :=
  dot_S50000x128_S128x40_S50000x40_1_0_0_1_n_n.lhsIdx_val_of_single rfl i q

theorem rhs_mm40_0 (i : S50000x40.Idx) (q : dot_S50000x128_S128x40_S50000x40_1_0_0_1_n_n.contr.Idx) :
    (dot_S50000x128_S128x40_S50000x40_1_0_0_1_n_n.rhsIdx i q 0).val = (q ⟨0, by decide⟩).val :=
  dot_S50000x128_S128x40_S50000x40_1_0_0_1_n_n.rhsIdx_val_of_single rfl i q

theorem rhs_mm40_1 (i : S50000x40.Idx) (q : dot_S50000x128_S128x40_S50000x40_1_0_0_1_n_n.contr.Idx) :
    (dot_S50000x128_S128x40_S50000x40_1_0_0_1_n_n.rhsIdx i q 1).val = (i 1).val := by
  unfold DotDims.rhsIdx
  rw [dif_neg (show ¬(1 : Fin S128x40.rank) ∈ dot_S50000x128_S128x40_S50000x40_1_0_0_1_n_n.rhsBatch by decide),
    dif_pos (show (1 : Fin S128x40.rank) ∈ dot_S50000x128_S128x40_S50000x40_1_0_0_1_n_n.rhsNonContracting by decide)]
  rfl

theorem mmR40_read (x : FVec Ideal S50000x128 .f32) (w : FVec Ideal S128x40 .f32) :
    mat (mmR40 x w) = prod (mat x) (mat w) := by
  funext i j
  show mmR40 x w (ix2 i j) = ∑ l : Fin 128, x (ix2 i l) * w (ix2 l j)
  unfold mmR40 Host.dotGeneral
  rw [Ideal.dotGeneral_apply,
    ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 i j)
      ((contrEquiv1 dot_S50000x128_S128x40_S50000x40_1_0_0_1_n_n 128 rfl rfl).symm k) = ix2 i k :=
    funext fun a => Fin.ext (by
      match a with
      | ⟨0, _⟩ => exact lhs_mm40_0 _ _
      | ⟨1, _⟩ => exact (lhs_mm40_1 _ _).trans hk)
  have er : dot_S50000x128_S128x40_S50000x40_1_0_0_1_n_n.rhsIdx (ix2 i j)
      ((contrEquiv1 dot_S50000x128_S128x40_S50000x40_1_0_0_1_n_n 128 rfl rfl).symm k) = ix2 k j :=
    funext fun a => Fin.ext (by
      match a with
      | ⟨0, _⟩ => exact (rhs_mm40_0 _ _).trans hk
      | ⟨1, _⟩ => exact rhs_mm40_1 _ _)
  rw [el, er]

theorem downR_apply (v : FVec Ideal S128 .f32) (i : Fin 50000) (j : Fin 128) : downR v (ix2 i j) = v (ix1 j) := by
  unfold downR
  rw [broadcastInDim_apply ![0, 1] bcast_S1x128_S50000x128_0_1 _ (ix2 i j) (ix2 (0 : Fin 1) j)
      (fun a => match a with | ⟨0, _⟩ => rfl | ⟨1, _⟩ => rfl),
    broadcastInDim_apply ![1] bcast_S128_S1x128_1 v (ix2 (0 : Fin 1) j) (ix1 j)
      (fun a => match a with | ⟨0, _⟩ => rfl)]

theorem addRow_read (h : FVec Ideal S50000x128 .f32) (b : FVec Ideal S128 .f32) :
    mat (addRow h b) = shift (mat h) (vec b) := by
  funext i j
  show addf h (downR b) (ix2 i j) = h (ix2 i j) + b (ix1 j)
  rw [addf_apply, downR_apply]

theorem addRow40_read (h : FVec Ideal S50000x40 .f32) (b : FVec Ideal S40 .f32) :
    mat (addRow40 h b) = shift (mat h) (vec b) := by
  funext i j
  show addRow40 h b (ix2 i j) = h (ix2 i j) + b (ix1 j)
  unfold addRow40
  rw [addf_apply,
    broadcastInDim_apply ![0, 1] bcast_S1x40_S50000x40_0_1 _ (ix2 i j) (ix2 (0 : Fin 1) j)
      (fun a => match a with | ⟨0, _⟩ => rfl | ⟨1, _⟩ => rfl),
    broadcastInDim_apply ![1] bcast_S40_S1x40_1 b (ix2 (0 : Fin 1) j) (ix1 j)
      (fun a => match a with | ⟨0, _⟩ => rfl)]

theorem colSum_apply (y : FVec Ideal S50000x128 .f32) (j : Fin 128) :
    Host.reduceAdd y (constant (F := Ideal) S_ .f32 0x00000000#32) reducesTo_S50000x128_S128_d0 h_S_ (ix1 j)
      = ∑ i : Fin 50000, y (ix2 i j) := by
  rw [hostReduceAdd_apply, Ideal.hostReduceAdd_single reducesTo_S50000x128_S128_d0 (by decide), constant_apply,
    Ideal.ofBits_zero_f32, zero_add]
  refine Finset.sum_congr rfl fun k _ => ?_
  exact congrArg y (funext fun a => Fin.ext (by match a with | ⟨0, _⟩ => rfl | ⟨1, _⟩ => rfl))

theorem rows_apply (j : S128.Idx) :
    broadcastInDim S128 ![] bcast_S_S128 (constant (F := Ideal) S_ .f32 0x47435000#32) j = rows := by
  rw [broadcastInDim_scalar_apply, constant_apply]; rfl

theorem eps_apply (j : S128.Idx) :
    broadcastInDim S128 ![] bcast_S_S128 (constant (F := Ideal) S_ .f32 0x3727C5AC#32) j = eps := by
  rw [broadcastInDim_scalar_apply, constant_apply]; rfl

theorem meanR_read (h : FVec Ideal S50000x128 .f32) : vec (meanR h) = mean (mat h) := by
  funext j
  show meanR h (ix1 j) = Ideal.div (∑ i : Fin 50000, h (ix2 i j)) rows
  unfold meanR
  rw [hostDivf_apply, colSum_apply, rows_apply]

theorem varR_read (h : FVec Ideal S50000x128 .f32) : vec (varR h) = varTwoPass (mat h) := by
  funext j
  show varR h (ix1 j)
    = Ideal.div (∑ i : Fin 50000, (h (ix2 i j) - mean (mat h) j) * (h (ix2 i j) - mean (mat h) j)) rows
  unfold varR
  rw [hostDivf_apply, colSum_apply, rows_apply]
  refine congrArg (Ideal.div · rows) (Finset.sum_congr rfl fun i _ => ?_)
  rw [mulf_apply, subf_apply, downR_apply, show meanR h (ix1 j) = mean (mat h) j from congrFun (meanR_read h) j]

theorem bnReluR_read (h : FVec Ideal S50000x128 .f32) (g be : FVec Ideal S128 .f32) :
    mat (bnReluR h g be) = normRelu (mat h) (mean (mat h)) (varTwoPass (mat h)) (vec g) (vec be) := by
  funext i j
  show bnReluR h g be (ix2 i j)
    = max (g (ix1 j) * (h (ix2 i j) - mean (mat h) j) * Ideal.rsqrt (varTwoPass (mat h) j + eps) + be (ix1 j)) 0
  unfold bnReluR
  rw [maximumf_apply, addf_apply, mulf_apply, mulf_apply, subf_apply, downR_apply, downR_apply, downR_apply, downR_apply,
    broadcastInDim_scalar_apply, constant_apply, Ideal.ofBits_zero_f32]
  show max (g (ix1 j) * (h (ix2 i j) - meanR h (ix1 j))
      * Ideal.rsqrt (varR h (ix1 j)
          + broadcastInDim S128 ![] bcast_S_S128 (constant (F := Ideal) S_ .f32 0x3727C5AC#32) (ix1 j)) + be (ix1 j)) 0 = _
  rw [eps_apply, show meanR h (ix1 j) = mean (mat h) j from congrFun (meanR_read h) j,
    show varR h (ix1 j) = varTwoPass (mat h) j from congrFun (varR_read h) j]

theorem ofBits_neg_inf : Ideal.ofBits .f32 0xFF800000#32 = ⊥ := by
  simp [Ideal.ofBits, Ideal.ieee]

theorem rowFold_apply (y : FVec Ideal S50000x40 .f32) (i : Fin 50000) :
    Host.reduce FloatOps.maximumf y (constant (F := Ideal) S_ .f32 0xFF800000#32) reducesTo_S50000x40_S50000_d1 h_S_ (ix1 i)
      = Finset.univ.sup fun j : Fin 40 => y (ix2 i j) := by
  rw [Host.reduce_eq_fold_single FloatOps.maximumf y _ reducesTo_S50000x40_S50000_d1 (by decide) h_S_ (ix1 i),
    constant_apply, ofBits_neg_inf]
  have e : (y ∘ (by decide : S50000x40.Reduces [1] S50000).lift (ix1 i)) = fun j : Fin 40 => y (ix2 i j) :=
    funext fun k => congrArg y (funext fun a => Fin.ext (by match a with | ⟨0, _⟩ => rfl | ⟨1, _⟩ => rfl))
  rw [e]
  rfl

theorem rowMaxR_read (h : FVec Ideal S50000x40 .f32) (i : Fin 50000) : rowMaxR h (ix1 i) = rowMax (mat h) i := by
  unfold rowMaxR
  rw [maximumf_apply, broadcastInDim_scalar_apply, constant_apply, ofBits_neg_inf, rowFold_apply, max_bot_left']
  rfl

theorem acrossR_apply (v : FVec Ideal S50000 .f32) (i : Fin 50000) (j : Fin 40) : acrossR v (ix2 i j) = v (ix1 i) := by
  unfold acrossR
  rw [broadcastInDim_apply ![0, 1] bcast_S50000x1_S50000x40_0_1 _ (ix2 i j) (ix2 i (0 : Fin 1))
      (fun a => match a with | ⟨0, _⟩ => rfl | ⟨1, _⟩ => rfl),
    broadcastInDim_apply ![0] bcast_S50000_S50000x1_0 v (ix2 i (0 : Fin 1)) (ix1 i)
      (fun a => match a with | ⟨0, _⟩ => rfl)]

theorem rowSum_apply (y : FVec Ideal S50000x40 .f32) (i : Fin 50000) :
    Host.reduceAdd y (constant (F := Ideal) S_ .f32 0x00000000#32) reducesTo_S50000x40_S50000_d1 h_S_ (ix1 i)
      = ∑ j : Fin 40, y (ix2 i j) := by
  rw [hostReduceAdd_apply, Ideal.hostReduceAdd_single reducesTo_S50000x40_S50000_d1 (by decide), constant_apply,
    Ideal.ofBits_zero_f32, zero_add]
  refine Finset.sum_congr rfl fun k _ => ?_
  exact congrArg y (funext fun a => Fin.ext (by match a with | ⟨0, _⟩ => rfl | ⟨1, _⟩ => rfl))

theorem hostExp_apply {s : Shape} (x : FVec Ideal s .f32) (i : s.Idx) : Host.exp x i = Ideal.exp (x i) := rfl

theorem hostLog_apply {s : Shape} (x : FVec Ideal s .f32) (i : s.Idx) : Host.log x i = Ideal.log (x i) := rfl

theorem lsmR_read (h : FVec Ideal S50000x40 .f32) : mat (lsmR h) = logSoftmax (mat h) := by
  funext i j
  show lsmR h (ix2 i j)
    = (h (ix2 i j) - rowMax (mat h) i) - Ideal.log (∑ j' : Fin 40, Ideal.exp (h (ix2 i j') - rowMax (mat h) i))
  unfold lsmR
  rw [subf_apply, subf_apply, acrossR_apply, rowMaxR_read,
    broadcastInDim_apply ![0, 1] bcast_S50000x1_S50000x40_0_1 _ (ix2 i j) (ix2 i (0 : Fin 1))
      (fun a => match a with | ⟨0, _⟩ => rfl | ⟨1, _⟩ => rfl),
    hostLog_apply,
    broadcastInDim_apply ![0] bcast_S50000_S50000x1_0 _ (ix2 i (0 : Fin 1)) (ix1 i)
      (fun a => match a with | ⟨0, _⟩ => rfl),
    rowSum_apply]
  refine congrArg (fun s => (h (ix2 i j) - rowMax (mat h) i) - Ideal.log s) (Finset.sum_congr rfl fun j' _ => ?_)
  rw [hostExp_apply, subf_apply, acrossR_apply, rowMaxR_read]

end Cert.ReferenceIdeal.Hand

end
-- ==== Proof.Ref.Net.lean ====
import proofs.«158427_j57105885167694_2_alg».proof.Proof.Ref.Read
import proofs.«158427_j57105885167694_2_alg».proof.Proof.Net

open scoped BigOperators

noncomputable section

namespace Cert.ReferenceIdeal.Hand

open Cert.ReferenceIdeal Cert.ReferenceIdeal.Facts₀ Cert.ReferenceIdeal.Facts Cert.ReferenceIdeal.Hand Cert.Spec
  Idealize.ShloMosaic Idealize.ShloMosaic.ValueIdx

theorem preR_net (ei : IVec S2x800000 32) (ew : FVec Ideal S800000 .f32) (h : FVec Ideal S50000x128 .f32)
    (w : FVec Ideal S128x128 .f32) (b : FVec Ideal S128 .f32) :
    mat (addRow (aggR ei ew (mmR h w)) b) = pre (aggR ei ew) (mat h) (mat w) (vec b) := by
  rw [addRow_read]
  unfold pre
  rw [← mmR_read, ofMat_mat]

theorem layerR_net (ei : IVec S2x800000 32) (ew : FVec Ideal S800000 .f32) (h : FVec Ideal S50000x128 .f32)
    (w : FVec Ideal S128x128 .f32) (b g be : FVec Ideal S128 .f32) :
    mat (bnReluR (addRow (aggR ei ew (mmR h w)) b) g be)
      = layer (aggR ei ew) varTwoPass (mat h) (mat w) (vec b) (vec g) (vec be) := by
  rw [bnReluR_read, preR_net]
  rfl

theorem outR_net (x : FVec Ideal S50000x128 .f32) (ei : IVec S2x800000 32) (ew : FVec Ideal S800000 .f32)
    (w1 : FVec Ideal S128x128 .f32) (b1 g1 be1 : FVec Ideal S128 .f32) (w2 : FVec Ideal S128x128 .f32)
    (b2 g2 be2 : FVec Ideal S128 .f32) (w3 : FVec Ideal S128x40 .f32) (b3 : FVec Ideal S40 .f32) :
    mat (outR x ei ew w1 b1 g1 be1 w2 b2 g2 be2 w3 b3)
      = net (aggR ei ew) (aggR40 ei ew) varTwoPass (mat x) (mat w1) (vec b1) (vec g1) (vec be1) (mat w2) (vec b2) (vec g2)
          (vec be2) (mat w3) (vec b3) := by
  have h1 := layerR_net ei ew x w1 b1 g1 be1
  have h2 := layerR_net ei ew (bnReluR (addRow (aggR ei ew (mmR x w1)) b1) g1 be1) w2 b2 g2 be2
  rw [h1] at h2
  unfold outR net
  rw [lsmR_read, addRow40_read, ← h2, ← mmR40_read, ofMat_mat]

end Cert.ReferenceIdeal.Hand

end
-- ==== Proof.Bridge.lean ====
import proofs.«158427_j57105885167694_2_alg».proof.Proof.Ideal.KNet
import proofs.«158427_j57105885167694_2_alg».proof.Proof.Ideal.HostFin
import proofs.«158427_j57105885167694_2_alg».proof.Proof.Ideal.PreFinite
import proofs.«158427_j57105885167694_2_alg».proof.Proof.Ref.Net

set_option maxRecDepth 16384

noncomputable section

namespace Cert.Proof

open Cert.Spec Cert.KernelIdeal Idealize.ShloMosaic Idealize.SL.Sem

theorem agg_eq {F : FTy → Type} [FloatOps F] :
    @Cert.KernelIdeal.Hand.aggK F _ = @Cert.ReferenceIdeal.Hand.aggR F _ := rfl

theorem agg40_eq {F : FTy → Type} [FloatOps F] :
    @Cert.KernelIdeal.Hand.aggK40 F _ = @Cert.ReferenceIdeal.Hand.aggR40 F _ := rfl

/-- Both programs compute the same network; they differ only in the variance, one pass against two, equal on real entries. -/
theorem result_eq (m : (ℓ : Loc nD τ sig) → Buf (Elt Ideal) ℓ)
    (hpre : Cert.Pre_KernelIdeal m) (c : Dev nD) :
    Cert.KernelIdeal.Reg.result (F := Ideal) m c
      = Cert.ReferenceIdeal.Hand.outR (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  obtain ⟨h0, h2, h3, h4, h5, h6, h7, h8, h9, h10, h11, h12⟩ := Cert.KernelIdeal.Reg.pre_finite m hpre c
  have hk := Cert.KernelIdeal.Reg.result_net m c
  have hr := Cert.ReferenceIdeal.Hand.outR_net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
  have hagg : ∀ a : Arr 50000 128, AllReal a → AllReal (Cert.KernelIdeal.Hand.aggK (F := Ideal) (m ((c.tc : Thread nD τ).loc main_arg1)) (m ((c.tc : Thread nD τ).loc main_arg2)) a) :=
    fun a ha => Cert.KernelIdeal.Hand.aggK_isReal _ _ h2 a ha
  have hb := net_onePass_eq (agg := Cert.KernelIdeal.Hand.aggK (F := Ideal) (m ((c.tc : Thread nD τ).loc main_arg1)) (m ((c.tc : Thread nD τ).loc main_arg2)))
    (Cert.KernelIdeal.Hand.aggK40 (F := Ideal) (m ((c.tc : Thread nD τ).loc main_arg1)) (m ((c.tc : Thread nD τ).loc main_arg2))) hagg
    (mat (m ((c.tc : Thread nD τ).loc main_arg0))) (mat (m ((c.tc : Thread nD τ).loc main_arg3))) (vec (m ((c.tc : Thread nD τ).loc main_arg4))) (vec (m ((c.tc : Thread nD τ).loc main_arg5))) (vec (m ((c.tc : Thread nD τ).loc main_arg6))) (mat (m ((c.tc : Thread nD τ).loc main_arg7))) (vec (m ((c.tc : Thread nD τ).loc main_arg8))) (vec (m ((c.tc : Thread nD τ).loc main_arg9))) (vec (m ((c.tc : Thread nD τ).loc main_arg10))) (mat (m ((c.tc : Thread nD τ).loc main_arg11))) (vec (m ((c.tc : Thread nD τ).loc main_arg12)))
    (fun i j => h0 _) (fun i j => h3 _) (fun j => h4 _) (fun j => h5 _) (fun j => h6 _) (fun i j => h7 _) (fun j => h8 _)
  have hmat : mat (Cert.KernelIdeal.Reg.result (F := Ideal) m c)
      = mat (Cert.ReferenceIdeal.Hand.outR (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
    rw [hk, hb, hr, agg_eq, agg40_eq]
  calc Cert.KernelIdeal.Reg.result (F := Ideal) m c
      = ofMat (mat (Cert.KernelIdeal.Reg.result (F := Ideal) m c)) := (ofMat_mat _).symm
    _ = ofMat (mat (Cert.ReferenceIdeal.Hand.outR (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))) := by rw [hmat]
    _ = _ := ofMat_mat _

end Cert.Proof

end
-- ==== Proof.lean ====
import proofs.«158427_j57105885167694_2_alg».proof.Defs
import proofs.«158427_j57105885167694_2_alg».proof.Proof.Gen.Kernel
import proofs.«158427_j57105885167694_2_alg».proof.Proof.Gen.KernelIdeal
import proofs.«158427_j57105885167694_2_alg».proof.Proof.Gen.ReferenceIdeal
import proofs.«158427_j57105885167694_2_alg».proof.Proof.Gen.Pre_finite_inputs
import proofs.«158427_j57105885167694_2_alg».proof.Proof.Bits.KeptArgs
import proofs.«158427_j57105885167694_2_alg».proof.Proof.Ideal.KeptArgs
import proofs.«158427_j57105885167694_2_alg».proof.Proof.Ref.Run
import proofs.«158427_j57105885167694_2_alg».proof.Proof.Bridge

noncomputable section

namespace Cert.Proof

open Idealize.ShloMosaic Idealize.SL.Sem

theorem frame_kernel : Cert.frame_Kernel := fun m ρ _ => Cert.Kernel.Reg.frame (F := Bits) m ρ

theorem frame_kernelIdeal : Cert.frame_KernelIdeal := fun m ρ _ => Cert.KernelIdeal.Reg.frame (F := Ideal) m ρ

theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- On finite inputs both programs return the same network: the kernel's one-pass column variance equals the reference's two-pass one. -/
theorem algebraic : Cert.algebraic_KernelIdeal_ReferenceIdeal := by
  intro m ρ m' ρ' hpre hagree
  refine ⟨fun c => Cert.KernelIdeal.Reg.result (F := Ideal) m c, Cert.KernelIdeal.Reg.run_result m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8, a9, a10, a11, a12⟩ := hagree c
  rw [a0, a1, a2, a3, a4, a5, a6, a7, a8, a9, a10, a11, a12]
  exact (result_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
